-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  IdealRules.named_const.Statement Cert.KernelIdeal.κ "inv_temp" .f32 0x40A00000#32 ((67108864 / 13421773 : ℝ) : EReal)
  ∧ IdealRules.named_const.Statement Cert.KernelIdeal.κ "inv_temp" .f32 0x40A00000#32 ((67108864 / 13421773 : ℝ) : EReal)
  ∧ IdealRules.named_const.Statement Cert.KernelIdeal.κ "inv_temp" .f32 0x40A00000#32 ((67108864 / 13421773 : ℝ) : EReal)
  ∧ IdealRules.named_const.Statement Cert.KernelIdeal.κ "inv_temp" .f32 0x40A00000#32 ((67108864 / 13421773 : ℝ) : EReal)
  ∧ IdealRules.named_const.Statement Cert.KernelIdeal.κ "inv_temp" .f32 0x40A00000#32 ((67108864 / 13421773 : ℝ) : EReal)
  ∧ IdealRules.named_const.Statement Cert.KernelIdeal.κ "inv_temp" .f32 0x40A00000#32 ((67108864 / 13421773 : ℝ) : EReal)
  ∧ IdealRules.named_const.Statement Cert.KernelIdeal.κ "inv_temp" .f32 0x40A00000#32 ((67108864 / 13421773 : ℝ) : EReal)
  ∧ IdealRules.named_const.Statement Cert.KernelIdeal.κ "inv_temp" .f32 0x40A00000#32 ((67108864 / 13421773 : ℝ) : EReal)
  ∧ IdealRules.named_const.Statement Cert.KernelIdeal.κ "inv_temp" .f32 0x40A00000#32 ((67108864 / 13421773 : ℝ) : EReal)
  ∧ IdealRules.named_const.Statement Cert.KernelIdeal.κ "inv_temp" .f32 0x40A00000#32 ((67108864 / 13421773 : ℝ) : EReal)
  ∧ IdealRules.named_const.Statement Cert.KernelIdeal.κ "inv_temp" .f32 0x40A00000#32 ((67108864 / 13421773 : ℝ) : EReal)
  ∧ IdealRules.named_const.Statement Cert.KernelIdeal.κ "inv_temp" .f32 0x40A00000#32 ((67108864 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v252)) (v1 : (c : Dev Cert.KernelIdeal.nD) → Buf (Elt Ideal) ((c.tc : Thread Cert.KernelIdeal.nD Cert.KernelIdeal.τ).loc Cert.KernelIdeal.main_v228)) (v2 : (c : Dev Cert.KernelIdeal.nD) → Buf (Elt Ideal) ((c.tc : Thread Cert.KernelIdeal.nD Cert.KernelIdeal.τ).loc Cert.KernelIdeal.main_v245)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v252) = v0 c
          ∧ r.2.mem ((c.tc : Thread Cert.KernelIdeal.nD Cert.KernelIdeal.τ).loc Cert.KernelIdeal.main_v228) = v1 c
          ∧ r.2.mem ((c.tc : Thread Cert.KernelIdeal.nD Cert.KernelIdeal.τ).loc Cert.KernelIdeal.main_v245) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v438) = v0 c
          ∧ r.2.mem ((c.tc : Thread Cert.ReferenceIdeal.nD Cert.ReferenceIdeal.τ).loc Cert.ReferenceIdeal.main_v323) = v1 c
          ∧ r.2.mem ((c.tc : Thread Cert.ReferenceIdeal.nD Cert.ReferenceIdeal.τ).loc Cert.ReferenceIdeal.main_v400) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12000x64 : Shape := ⟨2, ![12000, 64]⟩
abbrev S64x64 : Shape := ⟨2, ![64, 64]⟩
abbrev S1x64 : Shape := ⟨2, ![1, 64]⟩
abbrev S64x1 : Shape := ⟨2, ![64, 1]⟩
abbrev S1 : Shape := ⟨1, ![1]⟩
abbrev S400000 : Shape := ⟨1, ![400000]⟩
abbrev S240000 : Shape := ⟨1, ![240000]⟩
abbrev S120000 : Shape := ⟨1, ![120000]⟩
abbrev S4096 : Shape := ⟨1, ![4096]⟩
abbrev S_ : Shape := ⟨0, ![]⟩

class Facts : Prop where
  bcast_S_S12000x64 : S_.BroadcastsInDim S12000x64 (![] : Fin 0 → Fin S12000x64.rank)
  reducesTo_S12000x64_S_d0_1 : S12000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S400000 : S_.BroadcastsInDim S400000 (![] : Fin 0 → Fin S400000.rank)
  reducesTo_S400000_S_d0 : S400000.ReducesTo [0] S_
  bcast_S_S240000 : S_.BroadcastsInDim S240000 (![] : Fin 0 → Fin S240000.rank)
  reducesTo_S240000_S_d0 : S240000.ReducesTo [0] S_
  bcast_S_S120000 : S_.BroadcastsInDim S120000 (![] : Fin 0 → Fin S120000.rank)
  reducesTo_S120000_S_d0 : S120000.ReducesTo [0] S_

variable [Facts]

def fn_part5 {F : FTy → Type} [FloatOps F] (main_v83 : IVec S_ 1) (main_v84 : FVec F S120000 .f32) (main_cst_32 : FVec F S_ .f32) : IVec S_ 1 :=
  let main_v85 : FVec F S120000 .f32 := broadcastInDim S120000 ![] bcast_S_S120000 main_cst_32
  let main_v86 : IVec S120000 1 := cmpf .olt main_v84 main_v85
  let main_c_33 : IVec S_ 1 := constantI S_ 1 1#1
  let main_v87 : IVec S_ 1 := (fun x v => Host.reduce IntOp.andi x v reducesTo_S120000_S_d0 h_S_) main_v86 main_c_33
  let main_v88 : IVec S_ 1 := andi main_v83 main_v87
  main_v88

def fn_part4 {F : FTy → Type} [FloatOps F] (main_arg14 : FVec F S400000 .f32) (main_arg15 : FVec F S240000 .f32) (main_arg16 : FVec F S120000 .f32) (main_arg17 : FVec F S120000 .f32) (main_v63 : IVec S_ 1) (main_v67 : IVec S_ 1) : IVec S_ 1 :=
  let main_v68 : IVec S_ 1 := andi main_v63 main_v67
  let main_v69 : FVec F S400000 .f32 := Host.absf main_arg14
  let main_cst_26 : FVec F S_ .f32 := constant S_ .f32 0x7F800000#32
  let main_v70 : FVec F S400000 .f32 := broadcastInDim S400000 ![] bcast_S_S400000 main_cst_26
  let main_v71 : IVec S400000 1 := cmpf .olt main_v69 main_v70
  let main_c_27 : IVec S_ 1 := constantI S_ 1 1#1
  let main_v72 : IVec S_ 1 := (fun x v => Host.reduce IntOp.andi x v reducesTo_S400000_S_d0 h_S_) main_v71 main_c_27
  let main_v73 : IVec S_ 1 := andi main_v68 main_v72
  let main_v74 : FVec F S240000 .f32 := Host.absf main_arg15
  let main_cst_28 : FVec F S_ .f32 := constant S_ .f32 0x7F800000#32
  let main_v75 : FVec F S240000 .f32 := broadcastInDim S240000 ![] bcast_S_S240000 main_cst_28
  let main_v76 : IVec S240000 1 := cmpf .olt main_v74 main_v75
  let main_c_29 : IVec S_ 1 := constantI S_ 1 1#1
  let main_v77 : IVec S_ 1 := (fun x v => Host.reduce IntOp.andi x v reducesTo_S240000_S_d0 h_S_) main_v76 main_c_29
  let main_v78 : IVec S_ 1 := andi main_v73 main_v77
  let main_v79 : FVec F S120000 .f32 := Host.absf main_arg16
  let main_cst_30 : FVec F S_ .f32 := constant S_ .f32 0x7F800000#32
  let main_v80 : FVec F S120000 .f32 := broadcastInDim S120000 ![] bcast_S_S120000 main_cst_30
  let main_v81 : IVec S120000 1 := cmpf .olt main_v79 main_v80
  let main_c_31 : IVec S_ 1 := constantI S_ 1 1#1
  let main_v82 : IVec S_ 1 := (fun x v => Host.reduce IntOp.andi x v reducesTo_S120000_S_d0 h_S_) main_v81 main_c_31
  let main_v83 : IVec S_ 1 := andi main_v78 main_v82
  let main_v84 : FVec F S120000 .f32 := Host.absf main_arg17
  let main_cst_32 : FVec F S_ .f32 := constant S_ .f32 0x7F800000#32
  fn_part5 (F := F) main_v83 main_v84 main_cst_32

def fn_part3 {F : FTy → Type} [FloatOps F] (main_arg11 : FVec F S64x1 .f32) (main_arg12 : FVec F S1 .f32) (main_arg13 : FVec F S400000 .f32) (main_arg14 : FVec F S400000 .f32) (main_arg15 : FVec F S240000 .f32) (main_arg16 : FVec F S120000 .f32) (main_arg17 : FVec F S120000 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S64x1 .f32 := Host.absf main_arg11
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S400000 .f32 := Host.absf main_arg13
  let main_cst_24 : FVec F S_ .f32 := constant S_ .f32 0x7F800000#32
  let main_v65 : FVec F S400000 .f32 := broadcastInDim S400000 ![] bcast_S_S400000 main_cst_24
  let main_v66 : IVec S400000 1 := cmpf .olt main_v64 main_v65
  let main_c_25 : IVec S_ 1 := constantI S_ 1 1#1
  let main_v67 : IVec S_ 1 := (fun x v => Host.reduce IntOp.andi x v reducesTo_S400000_S_d0 h_S_) main_v66 main_c_25
  fn_part4 (F := F) main_arg14 main_arg15 main_arg16 main_arg17 main_v63 main_v67

def fn_part2 {F : FTy → Type} [FloatOps F] (main_arg7 : FVec F S64x1 .f32) (main_arg8 : FVec F S1 .f32) (main_arg9 : FVec F S64x1 .f32) (main_arg10 : FVec F S1 .f32) (main_arg11 : FVec F S64x1 .f32) (main_arg12 : FVec F S1 .f32) (main_arg13 : FVec F S400000 .f32) (main_arg14 : FVec F S400000 .f32) (main_arg15 : FVec F S240000 .f32) (main_arg16 : FVec F S120000 .f32) (main_arg17 : FVec F S120000 .f32) (main_v33 : IVec S_ 1) : IVec S_ 1 :=
  let main_v34 : FVec F S64x1 .f32 := Host.absf main_arg7
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S64x1 .f32 := Host.absf main_arg9
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_arg11 main_arg12 main_arg13 main_arg14 main_arg15 main_arg16 main_arg17 main_v48 main_v49 main_v50

def fn_part1 {F : FTy → Type} [FloatOps F] (main_arg4 : FVec F S1x64 .f32) (main_arg5 : FVec F S64x64 .f32) (main_arg6 : FVec F S1x64 .f32) (main_arg7 : FVec F S64x1 .f32) (main_arg8 : FVec F S1 .f32) (main_arg9 : FVec F S64x1 .f32) (main_arg10 : FVec F S1 .f32) (main_arg11 : FVec F S64x1 .f32) (main_arg12 : FVec F S1 .f32) (main_arg13 : FVec F S400000 .f32) (main_arg14 : FVec F S400000 .f32) (main_arg15 : FVec F S240000 .f32) (main_arg16 : FVec F S120000 .f32) (main_arg17 : FVec F S120000 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S1x64 .f32 := Host.absf main_arg4
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S1x64 .f32 := Host.absf main_arg6
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S12000x64 .f32) (main_arg1 : FVec F S64x64 .f32) (main_arg2 : FVec F S1x64 .f32) (main_arg3 : FVec F S64x64 .f32) (main_arg4 : FVec F S1x64 .f32) (main_arg5 : FVec F S64x64 .f32) (main_arg6 : FVec F S1x64 .f32) (main_arg7 : FVec F S64x1 .f32) (main_arg8 : FVec F S1 .f32) (main_arg9 : FVec F S64x1 .f32) (main_arg10 : FVec F S1 .f32) (main_arg11 : FVec F S64x1 .f32) (main_arg12 : FVec F S1 .f32) (main_arg13 : FVec F S400000 .f32) (main_arg14 : FVec F S400000 .f32) (main_arg15 : FVec F S240000 .f32) (main_arg16 : FVec F S120000 .f32) (main_arg17 : FVec F S120000 .f32) (main_arg18 : IVec S400000 32) (main_arg19 : IVec S400000 32) (main_arg20 : IVec S400000 32) (main_arg21 : IVec S400000 32) (main_arg22 : IVec S240000 32) (main_arg23 : IVec S240000 32) (main_arg24 : IVec S120000 32) (main_arg25 : IVec S120000 32) (main_arg26 : IVec S120000 32) (main_arg27 : IVec S120000 32) (main_arg28 : IVec S4096 32) : IVec S_ 1 :=
  let main_v0 : FVec F S12000x64 .f32 := Host.absf main_arg0
  let main_cst : FVec F S_ .f32 := constant S_ .f32 0x7F800000#32
  let main_v1 : FVec F S12000x64 .f32 := broadcastInDim S12000x64 ![] bcast_S_S12000x64 main_cst
  let main_v2 : IVec S12000x64 1 := cmpf .olt main_v0 main_v1
  let main_c : IVec S_ 1 := constantI S_ 1 1#1
  let main_v3 : IVec S_ 1 := (fun x v => Host.reduce IntOp.andi x v reducesTo_S12000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S12000x64 : Shape := ⟨2, ![12000, 64]⟩
abbrev S64x64 : Shape := ⟨2, ![64, 64]⟩
abbrev S1x64 : Shape := ⟨2, ![1, 64]⟩
abbrev S64x1 : Shape := ⟨2, ![64, 1]⟩
abbrev S1 : Shape := ⟨1, ![1]⟩
abbrev S400000 : Shape := ⟨1, ![400000]⟩
abbrev S240000 : Shape := ⟨1, ![240000]⟩
abbrev S120000 : Shape := ⟨1, ![120000]⟩
abbrev S4096 : Shape := ⟨1, ![4096]⟩
abbrev S1200x64 : Shape := ⟨2, ![1200, 64]⟩
abbrev S400000x1 : Shape := ⟨2, ![400000, 1]⟩
abbrev S_ : Shape := ⟨0, ![]⟩
abbrev S400000x64 : Shape := ⟨2, ![400000, 64]⟩
abbrev S8000x64 : Shape := ⟨2, ![8000, 64]⟩
abbrev S1x12000x64 : Shape := ⟨3, ![1, 12000, 64]⟩
abbrev S3x12000x64 : Shape := ⟨3, ![3, 12000, 64]⟩
abbrev S240000x1 : Shape := ⟨2, ![240000, 1]⟩
abbrev S240000x64 : Shape := ⟨2, ![240000, 64]⟩
abbrev S120000x1 : Shape := ⟨2, ![120000, 1]⟩
abbrev S120000x64 : Shape := ⟨2, ![120000, 64]⟩
abbrev S12000x192 : Shape := ⟨2, ![12000, 192]⟩
abbrev S400000x192 : Shape := ⟨2, ![400000, 192]⟩
abbrev S8000x192 : Shape := ⟨2, ![8000, 192]⟩
abbrev S4096x1 : Shape := ⟨2, ![4096, 1]⟩
abbrev S4096x192 : Shape := ⟨2, ![4096, 192]⟩
abbrev S4096x64 : Shape := ⟨2, ![4096, 64]⟩
abbrev S12000 : Shape := ⟨1, ![12000]⟩
abbrev S12000x1 : Shape := ⟨2, ![12000, 1]⟩
abbrev S600x64 : Shape := ⟨2, ![600, 64]⟩
abbrev S2000x64 : Shape := ⟨2, ![2000, 64]⟩
abbrev S600x1 : Shape := ⟨2, ![600, 1]⟩
abbrev S64x2000 : Shape := ⟨2, ![64, 2000]⟩
abbrev S600x2000 : Shape := ⟨2, ![600, 2000]⟩
abbrev S600 : Shape := ⟨1, ![600]⟩
abbrev S512x64 : Shape := ⟨2, ![512, 64]⟩
abbrev S1024x64 : Shape := ⟨2, ![1024, 64]⟩
abbrev S512x1 : Shape := ⟨2, ![512, 1]⟩
abbrev S64x1024 : Shape := ⟨2, ![64, 1024]⟩
abbrev S512x1024 : Shape := ⟨2, ![512, 1024]⟩
abbrev S512 : Shape := ⟨1, ![512]⟩
abbrev S1x1 : Shape := ⟨2, ![1, 1]⟩

abbrev nBuf : Space → Nat
  | .hbm => 367
  | .vmem => 94
  | .smem => 0
  | _ => 0

abbrev hbmTy0_0 (i : Nat) : BufTy := match i % 128 with
  | 0 => ⟨S12000x64, .f32⟩
  | 1 => ⟨S64x64, .f32⟩
  | 2 => ⟨S1x64, .f32⟩
  | 3 => ⟨S64x64, .f32⟩
  | 4 => ⟨S1x64, .f32⟩
  | 5 => ⟨S64x64, .f32⟩
  | 6 => ⟨S1x64, .f32⟩
  | 7 => ⟨S64x1, .f32⟩
  | 8 => ⟨S1, .f32⟩
  | 9 => ⟨S64x1, .f32⟩
  | 10 => ⟨S1, .f32⟩
  | 11 => ⟨S64x1, .f32⟩
  | 12 => ⟨S1, .f32⟩
  | 13 => ⟨S400000, .f32⟩
  | 14 => ⟨S400000, .f32⟩
  | 15 => ⟨S240000, .f32⟩
  | 16 => ⟨S120000, .f32⟩
  | 17 => ⟨S120000, .f32⟩
  | 18 => ⟨S400000, .i32⟩
  | 19 => ⟨S400000, .i32⟩
  | 20 => ⟨S400000, .i32⟩
  | 21 => ⟨S400000, .i32⟩
  | 22 => ⟨S240000, .i32⟩
  | 23 => ⟨S240000, .i32⟩
  | 24 => ⟨S120000, .i32⟩
  | 25 => ⟨S120000, .i32⟩
  | 26 => ⟨S120000, .i32⟩
  | 27 => ⟨S120000, .i32⟩
  | 28 => ⟨S4096, .i32⟩
  | 29 => ⟨S12000x64, .f32⟩
  | 30 => ⟨S12000x64, .f32⟩
  | 31 => ⟨S12000x64, .f32⟩
  | 32 => ⟨S400000x1, .f32⟩
  | 33 => ⟨S_, .i32⟩
  | 34 => ⟨S400000, .i32⟩
  | 35 => ⟨S400000, .i1⟩
  | 36 => ⟨S_, .i32⟩
  | 37 => ⟨S400000, .i32⟩
  | 38 => ⟨S400000, .i32⟩
  | 39 => ⟨S400000, .i32⟩
  | 40 => ⟨S400000x1, .i32⟩
  | 41 => ⟨S400000x64, .f32⟩
  | 42 => ⟨S400000x64, .f32⟩
  | 43 => ⟨S400000x64, .f32⟩
  | 44 => ⟨S_, .f32⟩
  | 45 => ⟨S8000x64, .f32⟩
  | 46 => ⟨S400000x1, .i32⟩
  | 47 => ⟨S8000x64, .f32⟩
  | 48 => ⟨S400000x1, .f32⟩
  | 49 => ⟨S_, .i32⟩
  | 50 => ⟨S400000, .i32⟩
  | 51 => ⟨S400000, .i1⟩
  | 52 => ⟨S_, .i32⟩
  | 53 => ⟨S400000, .i32⟩
  | 54 => ⟨S400000, .i32⟩
  | 55 => ⟨S400000, .i32⟩
  | 56 => ⟨S400000x1, .i32⟩
  | 57 => ⟨S400000x64, .f32⟩
  | 58 => ⟨S400000x64, .f32⟩
  | 59 => ⟨S400000x64, .f32⟩
  | 60 => ⟨S_, .f32⟩
  | 61 => ⟨S12000x64, .f32⟩
  | 62 => ⟨S400000x1, .i32⟩
  | 63 => ⟨S12000x64, .f32⟩
  | 64 => ⟨S12000x64, .f32⟩
  | 65 => ⟨S400000x1, .f32⟩
  | 66 => ⟨S_, .i32⟩
  | 67 => ⟨S400000, .i32⟩
  | 68 => ⟨S400000, .i1⟩
  | 69 => ⟨S_, .i32⟩
  | 70 => ⟨S400000, .i32⟩
  | 71 => ⟨S400000, .i32⟩
  | 72 => ⟨S400000, .i32⟩
  | 73 => ⟨S400000x1, .i32⟩
  | 74 => ⟨S400000x64, .f32⟩
  | 75 => ⟨S400000x64, .f32⟩
  | 76 => ⟨S400000x64, .f32⟩
  | 77 => ⟨S_, .f32⟩
  | 78 => ⟨S8000x64, .f32⟩
  | 79 => ⟨S400000x1, .i32⟩
  | 80 => ⟨S8000x64, .f32⟩
  | 81 => ⟨S400000x1, .f32⟩
  | 82 => ⟨S_, .i32⟩
  | 83 => ⟨S400000, .i32⟩
  | 84 => ⟨S400000, .i1⟩
  | 85 => ⟨S_, .i32⟩
  | 86 => ⟨S400000, .i32⟩
  | 87 => ⟨S400000, .i32⟩
  | 88 => ⟨S400000, .i32⟩
  | 89 => ⟨S400000x1, .i32⟩
  | 90 => ⟨S400000x64, .f32⟩
  | 91 => ⟨S400000x64, .f32⟩
  | 92 => ⟨S400000x64, .f32⟩
  | 93 => ⟨S_, .f32⟩
  | 94 => ⟨S12000x64, .f32⟩
  | 95 => ⟨S400000x1, .i32⟩
  | 96 => ⟨S12000x64, .f32⟩
  | 97 => ⟨S12000x64, .f32⟩
  | 98 => ⟨S1x12000x64, .f32⟩
  | 99 => ⟨S1x12000x64, .f32⟩
  | 100 => ⟨S1x12000x64, .f32⟩
  | 101 => ⟨S3x12000x64, .f32⟩
  | 102 => ⟨S_, .f32⟩
  | 103 => ⟨S12000x64, .f32⟩
  | 104 => ⟨S_, .f32⟩
  | 105 => ⟨S12000x64, .f32⟩
  | 106 => ⟨S12000x64, .f32⟩
  | 107 => ⟨S240000x1, .f32⟩
  | 108 => ⟨S_, .i32⟩
  | 109 => ⟨S240000, .i32⟩
  | 110 => ⟨S240000, .i1⟩
  | 111 => ⟨S_, .i32⟩
  | 112 => ⟨S240000, .i32⟩
  | 113 => ⟨S240000, .i32⟩
  | 114 => ⟨S240000, .i32⟩
  | 115 => ⟨S240000x1, .i32⟩
  | 116 => ⟨S240000x64, .f32⟩
  | 117 => ⟨S240000x64, .f32⟩
  | 118 => ⟨S240000x64, .f32⟩
  | 119 => ⟨S_, .f32⟩
  | 120 => ⟨S12000x64, .f32⟩
  | 121 => ⟨S240000x1, .i32⟩
  | 122 => ⟨S12000x64, .f32⟩
  | 123 => ⟨S12000x64, .f32⟩
  | 124 => ⟨S240000x1, .f32⟩
  | 125 => ⟨S_, .i32⟩
  | 126 => ⟨S240000, .i32⟩
  | 127 => ⟨S240000, .i1⟩
  | _ => ⟨S12000x64, .f32⟩

abbrev hbmTy0_1 (i : Nat) : BufTy := match i % 128 with
  | 0 => ⟨S_, .i32⟩
  | 1 => ⟨S240000, .i32⟩
  | 2 => ⟨S240000, .i32⟩
  | 3 => ⟨S240000, .i32⟩
  | 4 => ⟨S240000x1, .i32⟩
  | 5 => ⟨S240000x64, .f32⟩
  | 6 => ⟨S240000x64, .f32⟩
  | 7 => ⟨S240000x64, .f32⟩
  | 8 => ⟨S_, .f32⟩
  | 9 => ⟨S12000x64, .f32⟩
  | 10 => ⟨S240000x1, .i32⟩
  | 11 => ⟨S12000x64, .f32⟩
  | 12 => ⟨S12000x64, .f32⟩
  | 13 => ⟨S1x12000x64, .f32⟩
  | 14 => ⟨S1x12000x64, .f32⟩
  | 15 => ⟨S1x12000x64, .f32⟩
  | 16 => ⟨S3x12000x64, .f32⟩
  | 17 => ⟨S_, .f32⟩
  | 18 => ⟨S12000x64, .f32⟩
  | 19 => ⟨S_, .f32⟩
  | 20 => ⟨S12000x64, .f32⟩
  | 21 => ⟨S12000x64, .f32⟩
  | 22 => ⟨S120000x1, .f32⟩
  | 23 => ⟨S_, .i32⟩
  | 24 => ⟨S120000, .i32⟩
  | 25 => ⟨S120000, .i1⟩
  | 26 => ⟨S_, .i32⟩
  | 27 => ⟨S120000, .i32⟩
  | 28 => ⟨S120000, .i32⟩
  | 29 => ⟨S120000, .i32⟩
  | 30 => ⟨S120000x1, .i32⟩
  | 31 => ⟨S120000x64, .f32⟩
  | 32 => ⟨S120000x64, .f32⟩
  | 33 => ⟨S120000x64, .f32⟩
  | 34 => ⟨S_, .f32⟩
  | 35 => ⟨S12000x64, .f32⟩
  | 36 => ⟨S120000x1, .i32⟩
  | 37 => ⟨S12000x64, .f32⟩
  | 38 => ⟨S120000x1, .f32⟩
  | 39 => ⟨S_, .i32⟩
  | 40 => ⟨S120000, .i32⟩
  | 41 => ⟨S120000, .i1⟩
  | 42 => ⟨S_, .i32⟩
  | 43 => ⟨S120000, .i32⟩
  | 44 => ⟨S120000, .i32⟩
  | 45 => ⟨S120000, .i32⟩
  | 46 => ⟨S120000x1, .i32⟩
  | 47 => ⟨S120000x64, .f32⟩
  | 48 => ⟨S120000x64, .f32⟩
  | 49 => ⟨S120000x64, .f32⟩
  | 50 => ⟨S_, .f32⟩
  | 51 => ⟨S12000x64, .f32⟩
  | 52 => ⟨S120000x1, .i32⟩
  | 53 => ⟨S12000x64, .f32⟩
  | 54 => ⟨S12000x64, .f32⟩
  | 55 => ⟨S120000x1, .f32⟩
  | 56 => ⟨S_, .i32⟩
  | 57 => ⟨S120000, .i32⟩
  | 58 => ⟨S120000, .i1⟩
  | 59 => ⟨S_, .i32⟩
  | 60 => ⟨S120000, .i32⟩
  | 61 => ⟨S120000, .i32⟩
  | 62 => ⟨S120000, .i32⟩
  | 63 => ⟨S120000x1, .i32⟩
  | 64 => ⟨S120000x64, .f32⟩
  | 65 => ⟨S120000x64, .f32⟩
  | 66 => ⟨S120000x64, .f32⟩
  | 67 => ⟨S_, .f32⟩
  | 68 => ⟨S12000x64, .f32⟩
  | 69 => ⟨S120000x1, .i32⟩
  | 70 => ⟨S12000x64, .f32⟩
  | 71 => ⟨S120000x1, .f32⟩
  | 72 => ⟨S_, .i32⟩
  | 73 => ⟨S120000, .i32⟩
  | 74 => ⟨S120000, .i1⟩
  | 75 => ⟨S_, .i32⟩
  | 76 => ⟨S120000, .i32⟩
  | 77 => ⟨S120000, .i32⟩
  | 78 => ⟨S120000, .i32⟩
  | 79 => ⟨S120000x1, .i32⟩
  | 80 => ⟨S120000x64, .f32⟩
  | 81 => ⟨S120000x64, .f32⟩
  | 82 => ⟨S120000x64, .f32⟩
  | 83 => ⟨S_, .f32⟩
  | 84 => ⟨S12000x64, .f32⟩
  | 85 => ⟨S120000x1, .i32⟩
  | 86 => ⟨S12000x64, .f32⟩
  | 87 => ⟨S12000x64, .f32⟩
  | 88 => ⟨S1x12000x64, .f32⟩
  | 89 => ⟨S1x12000x64, .f32⟩
  | 90 => ⟨S1x12000x64, .f32⟩
  | 91 => ⟨S3x12000x64, .f32⟩
  | 92 => ⟨S_, .f32⟩
  | 93 => ⟨S12000x64, .f32⟩
  | 94 => ⟨S_, .f32⟩
  | 95 => ⟨S12000x64, .f32⟩
  | 96 => ⟨S12000x64, .f32⟩
  | 97 => ⟨S12000x192, .f32⟩
  | 98 => ⟨S400000x1, .f32⟩
  | 99 => ⟨S_, .i32⟩
  | 100 => ⟨S400000, .i32⟩
  | 101 => ⟨S400000, .i1⟩
  | 102 => ⟨S_, .i32⟩
  | 103 => ⟨S400000, .i32⟩
  | 104 => ⟨S400000, .i32⟩
  | 105 => ⟨S400000, .i32⟩
  | 106 => ⟨S400000x1, .i32⟩
  | 107 => ⟨S400000x192, .f32⟩
  | 108 => ⟨S400000x192, .f32⟩
  | 109 => ⟨S400000x192, .f32⟩
  | 110 => ⟨S_, .f32⟩
  | 111 => ⟨S8000x192, .f32⟩
  | 112 => ⟨S400000x1, .i32⟩
  | 113 => ⟨S8000x192, .f32⟩
  | 114 => ⟨S_, .i32⟩
  | 115 => ⟨S4096, .i32⟩
  | 116 => ⟨S4096, .i1⟩
  | 117 => ⟨S_, .i32⟩
  | 118 => ⟨S4096, .i32⟩
  | 119 => ⟨S4096, .i32⟩
  | 120 => ⟨S4096, .i32⟩
  | 121 => ⟨S4096x1, .i32⟩
  | 122 => ⟨S4096x192, .f32⟩
  | 123 => ⟨S4096x64, .f32⟩
  | 124 => ⟨S4096x64, .f32⟩
  | 125 => ⟨S4096x64, .f32⟩
  | 126 => ⟨S12000x64, .f32⟩
  | 127 => ⟨S_, .f32⟩
  | _ => ⟨S12000x64, .f32⟩

abbrev hbmTy0_2 (i : Nat) : BufTy := match i % 128 with
  | 0 => ⟨S12000, .f32⟩
  | 1 => ⟨S12000x1, .f32⟩
  | 2 => ⟨S12000x1, .f32⟩
  | 3 => ⟨S_, .f32⟩
  | 4 => ⟨S12000x1, .f32⟩
  | 5 => ⟨S12000x1, .f32⟩
  | 6 => ⟨S12000x64, .f32⟩
  | 7 => ⟨S12000x64, .f32⟩
  | 8 => ⟨S12000x64, .f32⟩
  | 9 => ⟨S_, .f32⟩
  | 10 => ⟨S12000, .f32⟩
  | 11 => ⟨S12000x1, .f32⟩
  | 12 => ⟨S12000x1, .f32⟩
  | 13 => ⟨S_, .f32⟩
  | 14 => ⟨S12000x1, .f32⟩
  | 15 => ⟨S12000x1, .f32⟩
  | 16 => ⟨S12000x64, .f32⟩
  | 17 => ⟨S12000x64, .f32⟩
  | 18 => ⟨S12000x64, .f32⟩
  | 19 => ⟨S_, .f32⟩
  | 20 => ⟨S12000, .f32⟩
  | 21 => ⟨S12000x1, .f32⟩
  | 22 => ⟨S12000x1, .f32⟩
  | 23 => ⟨S_, .f32⟩
  | 24 => ⟨S12000x1, .f32⟩
  | 25 => ⟨S12000x1, .f32⟩
  | 26 => ⟨S12000x64, .f32⟩
  | 27 => ⟨S12000x64, .f32⟩
  | 28 => ⟨S4096x64, .f32⟩
  | 29 => ⟨S_, .f32⟩
  | 30 => ⟨S4096, .f32⟩
  | 31 => ⟨S4096x1, .f32⟩
  | 32 => ⟨S4096x1, .f32⟩
  | 33 => ⟨S_, .f32⟩
  | 34 => ⟨S4096x1, .f32⟩
  | 35 => ⟨S4096x1, .f32⟩
  | 36 => ⟨S4096x64, .f32⟩
  | 37 => ⟨S4096x64, .f32⟩
  | 38 => ⟨S4096x64, .f32⟩
  | 39 => ⟨S_, .f32⟩
  | 40 => ⟨S4096, .f32⟩
  | 41 => ⟨S4096x1, .f32⟩
  | 42 => ⟨S4096x1, .f32⟩
  | 43 => ⟨S_, .f32⟩
  | 44 => ⟨S4096x1, .f32⟩
  | 45 => ⟨S4096x1, .f32⟩
  | 46 => ⟨S4096x64, .f32⟩
  | 47 => ⟨S4096x64, .f32⟩
  | 48 => ⟨S4096x64, .f32⟩
  | 49 => ⟨S_, .f32⟩
  | 50 => ⟨S4096, .f32⟩
  | 51 => ⟨S4096x1, .f32⟩
  | 52 => ⟨S4096x1, .f32⟩
  | 53 => ⟨S_, .f32⟩
  | 54 => ⟨S4096x1, .f32⟩
  | 55 => ⟨S4096x1, .f32⟩
  | 56 => ⟨S4096x64, .f32⟩
  | 57 => ⟨S4096x64, .f32⟩
  | 58 => ⟨S12000x64, .bf16⟩
  | 59 => ⟨S12000x64, .bf16⟩
  | 60 => ⟨S12000x1, .f32⟩
  | 61 => ⟨S_, .f32⟩
  | 62 => ⟨S_, .f32⟩
  | 63 => ⟨S_, .f32⟩
  | 64 => ⟨S_, .f32⟩
  | 65 => ⟨S12000x64, .bf16⟩
  | 66 => ⟨S12000x64, .bf16⟩
  | 67 => ⟨S12000x1, .f32⟩
  | 68 => ⟨S_, .f32⟩
  | 69 => ⟨S_, .f32⟩
  | 70 => ⟨S_, .f32⟩
  | 71 => ⟨S_, .f32⟩
  | 72 => ⟨S_, .f32⟩
  | 73 => ⟨S12000x64, .bf16⟩
  | 74 => ⟨S12000x64, .bf16⟩
  | 75 => ⟨S12000x1, .f32⟩
  | 76 => ⟨S_, .f32⟩
  | 77 => ⟨S_, .f32⟩
  | 78 => ⟨S_, .f32⟩
  | 79 => ⟨S_, .f32⟩
  | 80 => ⟨S_, .f32⟩
  | 81 => ⟨S4096x64, .bf16⟩
  | 82 => ⟨S4096x64, .bf16⟩
  | 83 => ⟨S4096x1, .f32⟩
  | 84 => ⟨S_, .f32⟩
  | 85 => ⟨S_, .f32⟩
  | 86 => ⟨S_, .f32⟩
  | 87 => ⟨S_, .f32⟩
  | 88 => ⟨S4096x64, .bf16⟩
  | 89 => ⟨S4096x64, .bf16⟩
  | 90 => ⟨S4096x1, .f32⟩
  | 91 => ⟨S_, .f32⟩
  | 92 => ⟨S_, .f32⟩
  | 93 => ⟨S_, .f32⟩
  | 94 => ⟨S_, .f32⟩
  | 95 => ⟨S_, .f32⟩
  | 96 => ⟨S4096x64, .bf16⟩
  | 97 => ⟨S4096x64, .bf16⟩
  | 98 => ⟨S4096x1, .f32⟩
  | 99 => ⟨S_, .f32⟩
  | 100 => ⟨S_, .f32⟩
  | 101 => ⟨S_, .f32⟩
  | 102 => ⟨S_, .f32⟩
  | 103 => ⟨S_, .f32⟩
  | 104 => ⟨S1x64, .f32⟩
  | 105 => ⟨S1x64, .f32⟩
  | 106 => ⟨S1x64, .f32⟩
  | 107 => ⟨S1x1, .f32⟩
  | 108 => ⟨S1x1, .f32⟩
  | 109 => ⟨S1x1, .f32⟩
  | 110 => ⟨S4096x64, .f32⟩
  | _ => ⟨S12000x64, .f32⟩

abbrev hbmTy (i : Nat) : BufTy := match i / 128 with
  | 0 => hbmTy0_0 i
  | 1 => hbmTy0_1 i
  | 2 => hbmTy0_2 i
  | _ => ⟨S12000x64, .f32⟩

abbrev bufTy : (tb : Table) → Fin (tcTables nBuf tb) → BufTy
  | .hbm, ⟨i, _⟩ => hbmTy i
  | .local _ .vmem, ⟨0, _⟩ => ⟨S1200x64, .f32⟩
  | .local _ .vmem, ⟨1, _⟩ => ⟨S1200x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S1200x64, .f32⟩
  | .local _ .vmem, ⟨9, _⟩ => ⟨S1200x64, .f32⟩
  | .local _ .vmem, ⟨10, _⟩ => ⟨S1200x64, .f32⟩
  | .local _ .vmem, ⟨11, _⟩ => ⟨S1200x64, .f32⟩
  | .local _ .vmem, ⟨12, _⟩ => ⟨S1200x64, .f32⟩
  | .local _ .vmem, ⟨13, _⟩ => ⟨S1200x64, .f32⟩
  | .local _ .vmem, ⟨14, _⟩ => ⟨S600x64, .f32⟩
  | .local _ .vmem, ⟨15, _⟩ => ⟨S600x64, .f32⟩
  | .local _ .vmem, ⟨16, _⟩ => ⟨S600x64, .bf16⟩
  | .local _ .vmem, ⟨17, _⟩ => ⟨S600x64, .bf16⟩
  | .local _ .vmem, ⟨18, _⟩ => ⟨S600x64, .f32⟩
  | .local _ .vmem, ⟨19, _⟩ => ⟨S600x64, .f32⟩
  | .local _ .vmem, ⟨20, _⟩ => ⟨S2000x64, .bf16⟩
  | .local _ .vmem, ⟨21, _⟩ => ⟨S2000x64, .bf16⟩
  | .local _ .vmem, ⟨22, _⟩ => ⟨S600x1, .f32⟩
  | .local _ .vmem, ⟨23, _⟩ => ⟨S600x1, .f32⟩
  | .local _ .vmem, ⟨24, _⟩ => ⟨S600x1, .f32⟩
  | .local _ .vmem, ⟨25, _⟩ => ⟨S600x64, .f32⟩
  | .local _ .vmem, ⟨26, _⟩ => ⟨S600x64, .f32⟩
  | .local _ .vmem, ⟨27, _⟩ => ⟨S600x64, .bf16⟩
  | .local _ .vmem, ⟨28, _⟩ => ⟨S600x64, .bf16⟩
  | .local _ .vmem, ⟨29, _⟩ => ⟨S600x64, .f32⟩
  | .local _ .vmem, ⟨30, _⟩ => ⟨S600x64, .f32⟩
  | .local _ .vmem, ⟨31, _⟩ => ⟨S2000x64, .bf16⟩
  | .local _ .vmem, ⟨32, _⟩ => ⟨S2000x64, .bf16⟩
  | .local _ .vmem, ⟨33, _⟩ => ⟨S600x1, .f32⟩
  | .local _ .vmem, ⟨34, _⟩ => ⟨S600x1, .f32⟩
  | .local _ .vmem, ⟨35, _⟩ => ⟨S600x1, .f32⟩
  | .local _ .vmem, ⟨36, _⟩ => ⟨S600x64, .f32⟩
  | .local _ .vmem, ⟨37, _⟩ => ⟨S600x64, .f32⟩
  | .local _ .vmem, ⟨38, _⟩ => ⟨S600x64, .bf16⟩
  | .local _ .vmem, ⟨39, _⟩ => ⟨S600x64, .bf16⟩
  | .local _ .vmem, ⟨40, _⟩ => ⟨S600x64, .f32⟩
  | .local _ .vmem, ⟨41, _⟩ => ⟨S600x64, .f32⟩
  | .local _ .vmem, ⟨42, _⟩ => ⟨S2000x64, .bf16⟩
  | .local _ .vmem, ⟨43, _⟩ => ⟨S2000x64, .bf16⟩
  | .local _ .vmem, ⟨44, _⟩ => ⟨S600x1, .f32⟩
  | .local _ .vmem, ⟨45, _⟩ => ⟨S600x1, .f32⟩
  | .local _ .vmem, ⟨46, _⟩ => ⟨S600x1, .f32⟩
  | .local _ .vmem, ⟨47, _⟩ => ⟨S512x64, .f32⟩
  | .local _ .vmem, ⟨48, _⟩ => ⟨S512x64, .f32⟩
  | .local _ .vmem, ⟨49, _⟩ => ⟨S512x64, .bf16⟩
  | .local _ .vmem, ⟨50, _⟩ => ⟨S512x64, .bf16⟩
  | .local _ .vmem, ⟨51, _⟩ => ⟨S512x64, .f32⟩
  | .local _ .vmem, ⟨52, _⟩ => ⟨S512x64, .f32⟩
  | .local _ .vmem, ⟨53, _⟩ => ⟨S1024x64, .bf16⟩
  | .local _ .vmem, ⟨54, _⟩ => ⟨S1024x64, .bf16⟩
  | .local _ .vmem, ⟨55, _⟩ => ⟨S512x1, .f32⟩
  | .local _ .vmem, ⟨56, _⟩ => ⟨S512x1, .f32⟩
  | .local _ .vmem, ⟨57, _⟩ => ⟨S512x1, .f32⟩
  | .local _ .vmem, ⟨58, _⟩ => ⟨S512x64, .f32⟩
  | .local _ .vmem, ⟨59, _⟩ => ⟨S512x64, .f32⟩
  | .local _ .vmem, ⟨60, _⟩ => ⟨S512x64, .bf16⟩
  | .local _ .vmem, ⟨61, _⟩ => ⟨S512x64, .bf16⟩
  | .local _ .vmem, ⟨62, _⟩ => ⟨S512x64, .f32⟩
  | .local _ .vmem, ⟨63, _⟩ => ⟨S512x64, .f32⟩
  | .local _ .vmem, ⟨64, _⟩ => ⟨S1024x64, .bf16⟩
  | .local _ .vmem, ⟨65, _⟩ => ⟨S1024x64, .bf16⟩
  | .local _ .vmem, ⟨66, _⟩ => ⟨S512x1, .f32⟩
  | .local _ .vmem, ⟨67, _⟩ => ⟨S512x1, .f32⟩
  | .local _ .vmem, ⟨68, _⟩ => ⟨S512x1, .f32⟩
  | .local _ .vmem, ⟨69, _⟩ => ⟨S512x64, .f32⟩
  | .local _ .vmem, ⟨70, _⟩ => ⟨S512x64, .f32⟩
  | .local _ .vmem, ⟨71, _⟩ => ⟨S512x64, .bf16⟩
  | .local _ .vmem, ⟨72, _⟩ => ⟨S512x64, .bf16⟩
  | .local _ .vmem, ⟨73, _⟩ => ⟨S512x64, .f32⟩
  | .local _ .vmem, ⟨74, _⟩ => ⟨S512x64, .f32⟩
  | .local _ .vmem, ⟨75, _⟩ => ⟨S1024x64, .bf16⟩
  | .local _ .vmem, ⟨76, _⟩ => ⟨S1024x64, .bf16⟩
  | .local _ .vmem, ⟨77, _⟩ => ⟨S512x1, .f32⟩
  | .local _ .vmem, ⟨78, _⟩ => ⟨S512x1, .f32⟩
  | .local _ .vmem, ⟨79, _⟩ => ⟨S512x1, .f32⟩
  | .local _ .vmem, ⟨80, _⟩ => ⟨S512x64, .f32⟩
  | .local _ .vmem, ⟨81, _⟩ => ⟨S512x64, .f32⟩
  | .local _ .vmem, ⟨82, _⟩ => ⟨S512x64, .f32⟩
  | .local _ .vmem, ⟨83, _⟩ => ⟨S512x64, .f32⟩
  | .local _ .vmem, ⟨84, _⟩ => ⟨S512x64, .f32⟩
  | .local _ .vmem, ⟨85, _⟩ => ⟨S512x64, .f32⟩
  | .local _ .vmem, ⟨86, _⟩ => ⟨S1x64, .f32⟩
  | .local _ .vmem, ⟨87, _⟩ => ⟨S1x1, .f32⟩
  | .local _ .vmem, ⟨88, _⟩ => ⟨S1x64, .f32⟩
  | .local _ .vmem, ⟨89, _⟩ => ⟨S1x1, .f32⟩
  | .local _ .vmem, ⟨90, _⟩ => ⟨S1x64, .f32⟩
  | .local _ .vmem, ⟨91, _⟩ => ⟨S1x1, .f32⟩
  | .local _ .vmem, ⟨92, _⟩ => ⟨S512x64, .f32⟩
  | .local _ .vmem, ⟨93, _⟩ => ⟨S512x64, .f32⟩
  | _, _ => ⟨S12000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | _, _ => false

abbrev semScoped : Fin 0 → Bool
  | ⟨_, h⟩ => absurd h (Nat.not_lt_zero _)

abbrev dmaSemScoped : Fin 88 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | _ => false

abbrev sig : RefSig :=
  ofTc nBuf bufTy 0 88 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0_0 : Ref sig .tc := ⟨.hbm, 29, rfl⟩
abbrev main_v0_1 : Ref sig .tc := ⟨.hbm, 30, rfl⟩
abbrev main_v0_2 : Ref sig .tc := ⟨.hbm, 31, rfl⟩
abbrev main_v1 : Ref sig .tc := ⟨.hbm, 32, rfl⟩
abbrev main_c : Ref sig .tc := ⟨.hbm, 33, rfl⟩
abbrev main_v2 : Ref sig .tc := ⟨.hbm, 34, rfl⟩
abbrev main_v3 : Ref sig .tc := ⟨.hbm, 35, rfl⟩
abbrev main_c_0 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_cst : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_c_1 : Ref sig .tc := ⟨.hbm, 49, rfl⟩
abbrev main_v15 : Ref sig .tc := ⟨.hbm, 50, rfl⟩
abbrev main_v16 : Ref sig .tc := ⟨.hbm, 51, rfl⟩
abbrev main_c_2 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_cst_3 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_c_4 : Ref sig .tc := ⟨.hbm, 66, rfl⟩
abbrev main_v29 : Ref sig .tc := ⟨.hbm, 67, rfl⟩
abbrev main_v30 : Ref sig .tc := ⟨.hbm, 68, rfl⟩
abbrev main_c_5 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_cst_6 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_c_7 : Ref sig .tc := ⟨.hbm, 82, rfl⟩
abbrev main_v42 : Ref sig .tc := ⟨.hbm, 83, rfl⟩
abbrev main_v43 : Ref sig .tc := ⟨.hbm, 84, rfl⟩
abbrev main_c_8 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_cst_9 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_cst_10 : Ref sig .tc := ⟨.hbm, 102, rfl⟩
abbrev main_v59 : Ref sig .tc := ⟨.hbm, 103, rfl⟩
abbrev main_cst_11 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_c_12 : Ref sig .tc := ⟨.hbm, 108, rfl⟩
abbrev main_v63 : Ref sig .tc := ⟨.hbm, 109, rfl⟩
abbrev main_v64 : Ref sig .tc := ⟨.hbm, 110, rfl⟩
abbrev main_c_13 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_cst_14 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_c_15 : Ref sig .tc := ⟨.hbm, 125, rfl⟩
abbrev main_v77 : Ref sig .tc := ⟨.hbm, 126, rfl⟩
abbrev main_v78 : Ref sig .tc := ⟨.hbm, 127, rfl⟩
abbrev main_c_16 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_cst_17 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_18 : Ref sig .tc := ⟨.hbm, 145, rfl⟩
abbrev main_v94 : Ref sig .tc := ⟨.hbm, 146, rfl⟩
abbrev main_cst_19 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_c_20 : Ref sig .tc := ⟨.hbm, 151, rfl⟩
abbrev main_v98 : Ref sig .tc := ⟨.hbm, 152, rfl⟩
abbrev main_v99 : Ref sig .tc := ⟨.hbm, 153, rfl⟩
abbrev main_c_21 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_cst_22 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_c_23 : Ref sig .tc := ⟨.hbm, 167, rfl⟩
abbrev main_v111 : Ref sig .tc := ⟨.hbm, 168, rfl⟩
abbrev main_v112 : Ref sig .tc := ⟨.hbm, 169, rfl⟩
abbrev main_c_24 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_cst_25 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_c_26 : Ref sig .tc := ⟨.hbm, 184, rfl⟩
abbrev main_v125 : Ref sig .tc := ⟨.hbm, 185, rfl⟩
abbrev main_v126 : Ref sig .tc := ⟨.hbm, 186, rfl⟩
abbrev main_c_27 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_cst_28 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_c_29 : Ref sig .tc := ⟨.hbm, 200, rfl⟩
abbrev main_v138 : Ref sig .tc := ⟨.hbm, 201, rfl⟩
abbrev main_v139 : Ref sig .tc := ⟨.hbm, 202, rfl⟩
abbrev main_c_30 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_cst_31 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_cst_32 : Ref sig .tc := ⟨.hbm, 220, rfl⟩
abbrev main_v155 : Ref sig .tc := ⟨.hbm, 221, rfl⟩
abbrev main_cst_33 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_c_34 : Ref sig .tc := ⟨.hbm, 227, rfl⟩
abbrev main_v160 : Ref sig .tc := ⟨.hbm, 228, rfl⟩
abbrev main_v161 : Ref sig .tc := ⟨.hbm, 229, rfl⟩
abbrev main_c_35 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_v167 : Ref sig .tc := ⟨.hbm, 236, rfl⟩
abbrev main_v168 : Ref sig .tc := ⟨.hbm, 237, rfl⟩
abbrev main_cst_36 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_c_37 : Ref sig .tc := ⟨.hbm, 242, rfl⟩
abbrev main_v172 : Ref sig .tc := ⟨.hbm, 243, rfl⟩
abbrev main_v173 : Ref sig .tc := ⟨.hbm, 244, rfl⟩
abbrev main_c_38 : Ref sig .tc := ⟨.hbm, 245, rfl⟩
abbrev main_v174 : Ref sig .tc := ⟨.hbm, 246, rfl⟩
abbrev main_v175 : Ref sig .tc := ⟨.hbm, 247, rfl⟩
abbrev main_v176 : Ref sig .tc := ⟨.hbm, 248, rfl⟩
abbrev main_v177 : Ref sig .tc := ⟨.hbm, 249, rfl⟩
abbrev main_v178 : Ref sig .tc := ⟨.hbm, 250, rfl⟩
abbrev main_v179 : Ref sig .tc := ⟨.hbm, 251, rfl⟩
abbrev main_v180 : Ref sig .tc := ⟨.hbm, 252, rfl⟩
abbrev main_v181 : Ref sig .tc := ⟨.hbm, 253, rfl⟩
abbrev main_call0_v0 : Ref sig .tc := ⟨.hbm, 254, rfl⟩
abbrev main_call0_cst : Ref sig .tc := ⟨.hbm, 255, rfl⟩
abbrev main_call0_v1 : Ref sig .tc := ⟨.hbm, 256, rfl⟩
abbrev main_call0_v2 : Ref sig .tc := ⟨.hbm, 257, rfl⟩
abbrev main_v182 : Ref sig .tc := ⟨.hbm, 258, rfl⟩
abbrev main_cst_39 : Ref sig .tc := ⟨.hbm, 259, rfl⟩
abbrev main_v183 : Ref sig .tc := ⟨.hbm, 260, rfl⟩
abbrev main_v184 : Ref sig .tc := ⟨.hbm, 261, rfl⟩
abbrev main_v185 : Ref sig .tc := ⟨.hbm, 262, rfl⟩
abbrev main_v186 : Ref sig .tc := ⟨.hbm, 263, rfl⟩
abbrev main_call1_v0 : Ref sig .tc := ⟨.hbm, 264, rfl⟩
abbrev main_call1_cst : Ref sig .tc := ⟨.hbm, 265, rfl⟩
abbrev main_call1_v1 : Ref sig .tc := ⟨.hbm, 266, rfl⟩
abbrev main_call1_v2 : Ref sig .tc := ⟨.hbm, 267, rfl⟩
abbrev main_v187 : Ref sig .tc := ⟨.hbm, 268, rfl⟩
abbrev main_cst_40 : Ref sig .tc := ⟨.hbm, 269, rfl⟩
abbrev main_v188 : Ref sig .tc := ⟨.hbm, 270, rfl⟩
abbrev main_v189 : Ref sig .tc := ⟨.hbm, 271, rfl⟩
abbrev main_v190 : Ref sig .tc := ⟨.hbm, 272, rfl⟩
abbrev main_v191 : Ref sig .tc := ⟨.hbm, 273, rfl⟩
abbrev main_call2_v0 : Ref sig .tc := ⟨.hbm, 274, rfl⟩
abbrev main_call2_cst : Ref sig .tc := ⟨.hbm, 275, rfl⟩
abbrev main_call2_v1 : Ref sig .tc := ⟨.hbm, 276, rfl⟩
abbrev main_call2_v2 : Ref sig .tc := ⟨.hbm, 277, rfl⟩
abbrev main_v192 : Ref sig .tc := ⟨.hbm, 278, rfl⟩
abbrev main_cst_41 : Ref sig .tc := ⟨.hbm, 279, rfl⟩
abbrev main_v193 : Ref sig .tc := ⟨.hbm, 280, rfl⟩
abbrev main_v194 : Ref sig .tc := ⟨.hbm, 281, rfl⟩
abbrev main_v195 : Ref sig .tc := ⟨.hbm, 282, rfl⟩
abbrev main_v196 : Ref sig .tc := ⟨.hbm, 283, rfl⟩
abbrev main_call3_v0 : Ref sig .tc := ⟨.hbm, 284, rfl⟩
abbrev main_call3_cst : Ref sig .tc := ⟨.hbm, 285, rfl⟩
abbrev main_call3_v1 : Ref sig .tc := ⟨.hbm, 286, rfl⟩
abbrev main_call3_v2 : Ref sig .tc := ⟨.hbm, 287, rfl⟩
abbrev main_v197 : Ref sig .tc := ⟨.hbm, 288, rfl⟩
abbrev main_cst_42 : Ref sig .tc := ⟨.hbm, 289, rfl⟩
abbrev main_v198 : Ref sig .tc := ⟨.hbm, 290, rfl⟩
abbrev main_v199 : Ref sig .tc := ⟨.hbm, 291, rfl⟩
abbrev main_v200 : Ref sig .tc := ⟨.hbm, 292, rfl⟩
abbrev main_v201 : Ref sig .tc := ⟨.hbm, 293, rfl⟩
abbrev main_call4_v0 : Ref sig .tc := ⟨.hbm, 294, rfl⟩
abbrev main_call4_cst : Ref sig .tc := ⟨.hbm, 295, rfl⟩
abbrev main_call4_v1 : Ref sig .tc := ⟨.hbm, 296, rfl⟩
abbrev main_call4_v2 : Ref sig .tc := ⟨.hbm, 297, rfl⟩
abbrev main_v202 : Ref sig .tc := ⟨.hbm, 298, rfl⟩
abbrev main_cst_43 : Ref sig .tc := ⟨.hbm, 299, rfl⟩
abbrev main_v203 : Ref sig .tc := ⟨.hbm, 300, rfl⟩
abbrev main_v204 : Ref sig .tc := ⟨.hbm, 301, rfl⟩
abbrev main_v205 : Ref sig .tc := ⟨.hbm, 302, rfl⟩
abbrev main_v206 : Ref sig .tc := ⟨.hbm, 303, rfl⟩
abbrev main_call5_v0 : Ref sig .tc := ⟨.hbm, 304, rfl⟩
abbrev main_call5_cst : Ref sig .tc := ⟨.hbm, 305, rfl⟩
abbrev main_call5_v1 : Ref sig .tc := ⟨.hbm, 306, rfl⟩
abbrev main_call5_v2 : Ref sig .tc := ⟨.hbm, 307, rfl⟩
abbrev main_v207 : Ref sig .tc := ⟨.hbm, 308, rfl⟩
abbrev main_cst_44 : Ref sig .tc := ⟨.hbm, 309, rfl⟩
abbrev main_v208 : Ref sig .tc := ⟨.hbm, 310, rfl⟩
abbrev main_v209 : Ref sig .tc := ⟨.hbm, 311, rfl⟩
abbrev main_v210 : Ref sig .tc := ⟨.hbm, 312, rfl⟩
abbrev main_v211 : Ref sig .tc := ⟨.hbm, 313, rfl⟩
abbrev main_v212 : Ref sig .tc := ⟨.hbm, 314, rfl⟩
abbrev main_v213 : Ref sig .tc := ⟨.hbm, 315, rfl⟩
abbrev main_v214 : Ref sig .tc := ⟨.hbm, 316, rfl⟩
abbrev main_cst_45 : Ref sig .tc := ⟨.hbm, 317, rfl⟩
abbrev main_v215 : Ref sig .tc := ⟨.hbm, 318, rfl⟩
abbrev main_cst_46 : Ref sig .tc := ⟨.hbm, 319, rfl⟩
abbrev main_v216 : Ref sig .tc := ⟨.hbm, 320, rfl⟩
abbrev main_v217 : Ref sig .tc := ⟨.hbm, 321, rfl⟩
abbrev main_v218 : Ref sig .tc := ⟨.hbm, 322, rfl⟩
abbrev main_v219 : Ref sig .tc := ⟨.hbm, 323, rfl⟩
abbrev main_cst_47 : Ref sig .tc := ⟨.hbm, 324, rfl⟩
abbrev main_v220 : Ref sig .tc := ⟨.hbm, 325, rfl⟩
abbrev main_cst_48 : Ref sig .tc := ⟨.hbm, 326, rfl⟩
abbrev main_v221 : Ref sig .tc := ⟨.hbm, 327, rfl⟩
abbrev main_v222 : Ref sig .tc := ⟨.hbm, 328, rfl⟩
abbrev main_v223 : Ref sig .tc := ⟨.hbm, 329, rfl⟩
abbrev main_v224 : Ref sig .tc := ⟨.hbm, 330, rfl⟩
abbrev main_v225 : Ref sig .tc := ⟨.hbm, 331, rfl⟩
abbrev main_cst_49 : Ref sig .tc := ⟨.hbm, 332, rfl⟩
abbrev main_v226 : Ref sig .tc := ⟨.hbm, 333, rfl⟩
abbrev main_cst_50 : Ref sig .tc := ⟨.hbm, 334, rfl⟩
abbrev main_v227 : Ref sig .tc := ⟨.hbm, 335, rfl⟩
abbrev main_v228 : Ref sig .tc := ⟨.hbm, 336, rfl⟩
abbrev main_v229 : Ref sig .tc := ⟨.hbm, 337, rfl⟩
abbrev main_v230 : Ref sig .tc := ⟨.hbm, 338, rfl⟩
abbrev main_v231 : Ref sig .tc := ⟨.hbm, 339, rfl⟩
abbrev main_cst_51 : Ref sig .tc := ⟨.hbm, 340, rfl⟩
abbrev main_v232 : Ref sig .tc := ⟨.hbm, 341, rfl⟩
abbrev main_cst_52 : Ref sig .tc := ⟨.hbm, 342, rfl⟩
abbrev main_v233 : Ref sig .tc := ⟨.hbm, 343, rfl⟩
abbrev main_v234 : Ref sig .tc := ⟨.hbm, 344, rfl⟩
abbrev main_v235 : Ref sig .tc := ⟨.hbm, 345, rfl⟩
abbrev main_v236 : Ref sig .tc := ⟨.hbm, 346, rfl⟩
abbrev main_cst_53 : Ref sig .tc := ⟨.hbm, 347, rfl⟩
abbrev main_v237 : Ref sig .tc := ⟨.hbm, 348, rfl⟩
abbrev main_cst_54 : Ref sig .tc := ⟨.hbm, 349, rfl⟩
abbrev main_v238 : Ref sig .tc := ⟨.hbm, 350, rfl⟩
abbrev main_v239 : Ref sig .tc := ⟨.hbm, 351, rfl⟩
abbrev main_v240 : Ref sig .tc := ⟨.hbm, 352, rfl⟩
abbrev main_v241 : Ref sig .tc := ⟨.hbm, 353, rfl⟩
abbrev main_v242 : Ref sig .tc := ⟨.hbm, 354, rfl⟩
abbrev main_cst_55 : Ref sig .tc := ⟨.hbm, 355, rfl⟩
abbrev main_v243 : Ref sig .tc := ⟨.hbm, 356, rfl⟩
abbrev main_cst_56 : Ref sig .tc := ⟨.hbm, 357, rfl⟩
abbrev main_v244 : Ref sig .tc := ⟨.hbm, 358, rfl⟩
abbrev main_v245 : Ref sig .tc := ⟨.hbm, 359, rfl⟩
abbrev main_v246 : Ref sig .tc := ⟨.hbm, 360, rfl⟩
abbrev main_v247 : Ref sig .tc := ⟨.hbm, 361, rfl⟩
abbrev main_v248 : Ref sig .tc := ⟨.hbm, 362, rfl⟩
abbrev main_v249 : Ref sig .tc := ⟨.hbm, 363, rfl⟩
abbrev main_v250 : Ref sig .tc := ⟨.hbm, 364, rfl⟩
abbrev main_v251 : Ref sig .tc := ⟨.hbm, 365, rfl⟩
abbrev main_v252 : Ref sig .tc := ⟨.hbm, 366, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_scratch0 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg2_1 : Ref sig .tc := ⟨.vmem, 30, rfl⟩
abbrev cc2_stg3_0 : Ref sig .tc := ⟨.vmem, 31, rfl⟩
abbrev cc2_stg3_1 : Ref sig .tc := ⟨.vmem, 32, rfl⟩
abbrev cc2_stg4_0 : Ref sig .tc := ⟨.vmem, 33, rfl⟩
abbrev cc2_stg4_1 : Ref sig .tc := ⟨.vmem, 34, rfl⟩
abbrev cc2_scratch0 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg3_1 : Ref sig .tc := ⟨.vmem, 43, rfl⟩
abbrev cc3_stg4_0 : Ref sig .tc := ⟨.vmem, 44, rfl⟩
abbrev cc3_stg4_1 : Ref sig .tc := ⟨.vmem, 45, rfl⟩
abbrev cc3_scratch0 : Ref sig .tc := ⟨.vmem, 46, rfl⟩
abbrev cc4_stg0_0 : Ref sig .tc := ⟨.vmem, 47, rfl⟩
abbrev cc4_stg0_1 : Ref sig .tc := ⟨.vmem, 48, rfl⟩
abbrev cc4_stg1_0 : Ref sig .tc := ⟨.vmem, 49, rfl⟩
abbrev cc4_stg1_1 : Ref sig .tc := ⟨.vmem, 50, rfl⟩
abbrev cc4_stg2_0 : Ref sig .tc := ⟨.vmem, 51, rfl⟩
abbrev cc4_stg2_1 : Ref sig .tc := ⟨.vmem, 52, rfl⟩
abbrev cc4_stg3_0 : Ref sig .tc := ⟨.vmem, 53, rfl⟩
abbrev cc4_stg3_1 : Ref sig .tc := ⟨.vmem, 54, rfl⟩
abbrev cc4_stg4_0 : Ref sig .tc := ⟨.vmem, 55, rfl⟩
abbrev cc4_stg4_1 : Ref sig .tc := ⟨.vmem, 56, rfl⟩
abbrev cc4_scratch0 : Ref sig .tc := ⟨.vmem, 57, rfl⟩
abbrev cc5_stg0_0 : Ref sig .tc := ⟨.vmem, 58, rfl⟩
abbrev cc5_stg0_1 : Ref sig .tc := ⟨.vmem, 59, rfl⟩
abbrev cc5_stg1_0 : Ref sig .tc := ⟨.vmem, 60, rfl⟩
abbrev cc5_stg1_1 : Ref sig .tc := ⟨.vmem, 61, rfl⟩
abbrev cc5_stg2_0 : Ref sig .tc := ⟨.vmem, 62, rfl⟩
abbrev cc5_stg2_1 : Ref sig .tc := ⟨.vmem, 63, rfl⟩
abbrev cc5_stg3_0 : Ref sig .tc := ⟨.vmem, 64, rfl⟩
abbrev cc5_stg3_1 : Ref sig .tc := ⟨.vmem, 65, rfl⟩
abbrev cc5_stg4_0 : Ref sig .tc := ⟨.vmem, 66, rfl⟩
abbrev cc5_stg4_1 : Ref sig .tc := ⟨.vmem, 67, rfl⟩
abbrev cc5_scratch0 : Ref sig .tc := ⟨.vmem, 68, rfl⟩
abbrev cc6_stg0_0 : Ref sig .tc := ⟨.vmem, 69, rfl⟩
abbrev cc6_stg0_1 : Ref sig .tc := ⟨.vmem, 70, rfl⟩
abbrev cc6_stg1_0 : Ref sig .tc := ⟨.vmem, 71, rfl⟩
abbrev cc6_stg1_1 : Ref sig .tc := ⟨.vmem, 72, rfl⟩
abbrev cc6_stg2_0 : Ref sig .tc := ⟨.vmem, 73, rfl⟩
abbrev cc6_stg2_1 : Ref sig .tc := ⟨.vmem, 74, rfl⟩
abbrev cc6_stg3_0 : Ref sig .tc := ⟨.vmem, 75, rfl⟩
abbrev cc6_stg3_1 : Ref sig .tc := ⟨.vmem, 76, rfl⟩
abbrev cc6_stg4_0 : Ref sig .tc := ⟨.vmem, 77, rfl⟩
abbrev cc6_stg4_1 : Ref sig .tc := ⟨.vmem, 78, rfl⟩
abbrev cc6_scratch0 : Ref sig .tc := ⟨.vmem, 79, rfl⟩
abbrev cc7_stg0_0 : Ref sig .tc := ⟨.vmem, 80, rfl⟩
abbrev cc7_stg0_1 : Ref sig .tc := ⟨.vmem, 81, rfl⟩
abbrev cc7_stg1_0 : Ref sig .tc := ⟨.vmem, 82, rfl⟩
abbrev cc7_stg1_1 : Ref sig .tc := ⟨.vmem, 83, rfl⟩
abbrev cc7_stg2_0 : Ref sig .tc := ⟨.vmem, 84, rfl⟩
abbrev cc7_stg2_1 : Ref sig .tc := ⟨.vmem, 85, rfl⟩
abbrev cc7_stg3_0 : Ref sig .tc := ⟨.vmem, 86, rfl⟩
abbrev cc7_stg4_0 : Ref sig .tc := ⟨.vmem, 87, rfl⟩
abbrev cc7_stg5_0 : Ref sig .tc := ⟨.vmem, 88, rfl⟩
abbrev cc7_stg6_0 : Ref sig .tc := ⟨.vmem, 89, rfl⟩
abbrev cc7_stg7_0 : Ref sig .tc := ⟨.vmem, 90, rfl⟩
abbrev cc7_stg8_0 : Ref sig .tc := ⟨.vmem, 91, rfl⟩
abbrev cc7_stg9_0 : Ref sig .tc := ⟨.vmem, 92, rfl⟩
abbrev cc7_stg9_1 : Ref sig .tc := ⟨.vmem, 93, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem4_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39
abbrev cc3_sem3_0 : DmaSem sig := 40
abbrev cc3_sem3_1 : DmaSem sig := 41
abbrev cc3_sem4_0 : DmaSem sig := 42
abbrev cc3_sem4_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem2_1 : DmaSem sig := 49
abbrev cc4_sem3_0 : DmaSem sig := 50
abbrev cc4_sem3_1 : DmaSem sig := 51
abbrev cc4_sem4_0 : DmaSem sig := 52
abbrev cc4_sem4_1 : DmaSem sig := 53
abbrev cc5_sem0_0 : DmaSem sig := 54
abbrev cc5_sem0_1 : DmaSem sig := 55
abbrev cc5_sem1_0 : DmaSem sig := 56
abbrev cc5_sem1_1 : DmaSem sig := 57
abbrev cc5_sem2_0 : DmaSem sig := 58
abbrev cc5_sem2_1 : DmaSem sig := 59
abbrev cc5_sem3_0 : DmaSem sig := 60
abbrev cc5_sem3_1 : DmaSem sig := 61
abbrev cc5_sem4_0 : DmaSem sig := 62
abbrev cc5_sem4_1 : DmaSem sig := 63
abbrev cc6_sem0_0 : DmaSem sig := 64
abbrev cc6_sem0_1 : DmaSem sig := 65
abbrev cc6_sem1_0 : DmaSem sig := 66
abbrev cc6_sem1_1 : DmaSem sig := 67
abbrev cc6_sem2_0 : DmaSem sig := 68
abbrev cc6_sem2_1 : DmaSem sig := 69
abbrev cc6_sem3_0 : DmaSem sig := 70
abbrev cc6_sem3_1 : DmaSem sig := 71
abbrev cc6_sem4_0 : DmaSem sig := 72
abbrev cc6_sem4_1 : DmaSem sig := 73
abbrev cc7_sem0_0 : DmaSem sig := 74
abbrev cc7_sem0_1 : DmaSem sig := 75
abbrev cc7_sem1_0 : DmaSem sig := 76
abbrev cc7_sem1_1 : DmaSem sig := 77
abbrev cc7_sem2_0 : DmaSem sig := 78
abbrev cc7_sem2_1 : DmaSem sig := 79
abbrev cc7_sem3_0 : DmaSem sig := 80
abbrev cc7_sem4_0 : DmaSem sig := 81
abbrev cc7_sem5_0 : DmaSem sig := 82
abbrev cc7_sem6_0 : DmaSem sig := 83
abbrev cc7_sem7_0 : DmaSem sig := 84
abbrev cc7_sem8_0 : DmaSem sig := 85
abbrev cc7_sem9_0 : DmaSem sig := 86
abbrev cc7_sem9_1 : DmaSem sig := 87

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1200x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1200x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1200x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1200x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![20, 6], ![false, false]⟩

def k1_cond2 (i : grid1.Coords) : BitVec 1 :=
  let arg1 : BitVec 32 := BitVec.ofNat 32 (i 1).val
  let c5_i32 : BitVec 32 := 5#32
  let v19 : BitVec 1 := Scalar.cmpi .eq arg1 c5_i32
  let v20 : BitVec 32 := Scalar.extui v19
  let c0_i32_10 : BitVec 32 := 0#32
  let v21 : BitVec 1 := Scalar.cmpi .ne v20 c0_i32_10
  v21

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S600x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S600x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S600x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S600x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![20, 6], ![false, false]⟩

def k2_cond2 (i : grid2.Coords) : BitVec 1 :=
  let arg1 : BitVec 32 := BitVec.ofNat 32 (i 1).val
  let c5_i32 : BitVec 32 := 5#32
  let v19 : BitVec 1 := Scalar.cmpi .eq arg1 c5_i32
  let v20 : BitVec 32 := Scalar.extui v19
  let c0_i32_10 : BitVec 32 := 0#32
  let v21 : BitVec 1 := Scalar.cmpi .ne v20 c0_i32_10
  v21

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S600x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S600x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S600x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S2000x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S600x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![20, 6], ![false, false]⟩

def k3_cond2 (i : grid3.Coords) : BitVec 1 :=
  let arg1 : BitVec 32 := BitVec.ofNat 32 (i 1).val
  let c5_i32 : BitVec 32 := 5#32
  let v19 : BitVec 1 := Scalar.cmpi .eq arg1 c5_i32
  let v20 : BitVec 32 := Scalar.extui v19
  let c0_i32_10 : BitVec 32 := 0#32
  let v21 : BitVec 1 := Scalar.cmpi .ne v20 c0_i32_10
  v21

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S600x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S600x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S600x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S2000x64 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S600x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev grid4 : Pipeline.Grid := ⟨2, ![8, 4], ![false, false]⟩

def k4_cond2 (i : grid4.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_10 : BitVec 32 := 0#32
  let v21 : BitVec 1 := Scalar.cmpi .ne v20 c0_i32_10
  v21

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S512x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S512x64 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S512x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S1024x64 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![false, true]

abbrev stage4_4 : Fin 2 → Memref sig .tc .vmem S512x1 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

abbrev grid5 : Pipeline.Grid := ⟨2, ![8, 4], ![false, false]⟩

def k5_cond2 (i : grid5.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_10 : BitVec 32 := 0#32
  let v21 : BitVec 1 := Scalar.cmpi .ne v20 c0_i32_10
  v21

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S512x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S512x64 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S512x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S1024x64 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![false, true]

abbrev stage5_4 : Fin 2 → Memref sig .tc .vmem S512x1 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, false]

abbrev grid6 : Pipeline.Grid := ⟨2, ![8, 4], ![false, false]⟩

def k6_cond2 (i : grid6.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_10 : BitVec 32 := 0#32
  let v21 : BitVec 1 := Scalar.cmpi .ne v20 c0_i32_10
  v21

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S512x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S512x64 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false]

abbrev stage6_2 : Fin 2 → Memref sig .tc .vmem S512x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev stage6_3 : Fin 2 → Memref sig .tc .vmem S1024x64 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![false, true]

abbrev stage6_4 : Fin 2 → Memref sig .tc .vmem S512x1 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, false]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S512x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S512x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S512x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x1 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x1 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x64 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S1x1 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 2 → Memref sig .tc .vmem S512x64 .f32 := fun | 0 => Memref.whole cc7_stg9_0 | 1 => Memref.whole cc7_stg9_1 | ⟨_ + 2, h⟩ => absurd h (Nat.not_lt.2 (Nat.le_add_left _ _))
abbrev sem7_9 : Fin 2 → DmaSem sig := fun | 0 => cc7_sem9_0 | 1 => cc7_sem9_1 | ⟨_ + 2, h⟩ => absurd h (Nat.not_lt.2 (Nat.le_add_left _ _))
abbrev reads7_9 : Fin grid7.rank → Bool := ![true]

class Facts₀ : Prop where
  inb_S1200x64_S1200x64_0_0 : ∀ a, (![0, 0] : Fin 2 → Nat) a + S1200x64.size a ≤ S1200x64.size a
  h_S1200x64 : 0 < S1200x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  broadcasts_S1x64_S1200x64 : S1x64.Broadcasts S1200x64
  bcast_S400000_S400000x1_0 : S400000.BroadcastsInDim S400000x1 (![0] : Fin 1 → Fin S400000x1.rank)
  bcast_S_S400000 : S_.BroadcastsInDim S400000 (![] : Fin 0 → Fin S400000.rank)
  bcast_S400000x1_S400000x64_0_1 : S400000x1.BroadcastsInDim S400000x64 (![0, 1] : Fin 2 → Fin S400000x64.rank)
  bcast_S_S8000x64 : S_.BroadcastsInDim S8000x64 (![] : Fin 0 → Fin S8000x64.rank)
  bcast_S_S12000x64 : S_.BroadcastsInDim S12000x64 (![] : Fin 0 → Fin S12000x64.rank)
  bcast_S12000x64_S1x12000x64_1_2 : S12000x64.BroadcastsInDim S1x12000x64 (![1, 2] : Fin 2 → Fin S1x12000x64.rank)
  concatenates_S1x12000x64_S1x12000x64_S1x12000x64_S3x12000x64_d0 : Shape.Concatenates [S1x12000x64, S1x12000x64, S1x12000x64] S3x12000x64 0
  reducesTo_S3x12000x64_S12000x64_d0 : S3x12000x64.ReducesTo [0] S12000x64
  h_S_ : 0 < S_.numel
  bcast_S240000_S240000x1_0 : S240000.BroadcastsInDim S240000x1 (![0] : Fin 1 → Fin S240000x1.rank)
  bcast_S_S240000 : S_.BroadcastsInDim S240000 (![] : Fin 0 → Fin S240000.rank)
  bcast_S240000x1_S240000x64_0_1 : S240000x1.BroadcastsInDim S240000x64 (![0, 1] : Fin 2 → Fin S240000x64.rank)
  bcast_S120000_S120000x1_0 : S120000.BroadcastsInDim S120000x1 (![0] : Fin 1 → Fin S120000x1.rank)
  bcast_S_S120000 : S_.BroadcastsInDim S120000 (![] : Fin 0 → Fin S120000.rank)
  bcast_S120000x1_S120000x64_0_1 : S120000x1.BroadcastsInDim S120000x64 (![0, 1] : Fin 2 → Fin S120000x64.rank)
  concatenates_S12000x64_S12000x64_S12000x64_S12000x192_d1 : Shape.Concatenates [S12000x64, S12000x64, S12000x64] S12000x192 1
  bcast_S400000x1_S400000x192_0_1 : S400000x1.BroadcastsInDim S400000x192 (![0, 1] : Fin 2 → Fin S400000x192.rank)
  bcast_S_S8000x192 : S_.BroadcastsInDim S8000x192 (![] : Fin 0 → Fin S8000x192.rank)
  bcast_S_S4096 : S_.BroadcastsInDim S4096 (![] : Fin 0 → Fin S4096.rank)
  bcast_S4096_S4096x1_0 : S4096.BroadcastsInDim S4096x1 (![0] : Fin 1 → Fin S4096x1.rank)
  slices_S4096x192_S4096x64_0_0 : S4096x192.Slices ![0, 0] S4096x64
  slices_S4096x192_S4096x64_0_64 : S4096x192.Slices ![0, 64] S4096x64
  slices_S4096x192_S4096x64_0_128 : S4096x192.Slices ![0, 128] S4096x64
  reducesTo_S12000x64_S12000_d1 : S12000x64.ReducesTo [1] S12000
  bcast_S12000_S12000x1_0 : S12000.BroadcastsInDim S12000x1 (![0] : Fin 1 → Fin S12000x1.rank)
  bcast_S_S12000x1 : S_.BroadcastsInDim S12000x1 (![] : Fin 0 → Fin S12000x1.rank)
  bcast_S12000x1_S12000x64_0_1 : S12000x1.BroadcastsInDim S12000x64 (![0, 1] : Fin 2 → Fin S12000x64.rank)
  reducesTo_S4096x64_S4096_d1 : S4096x64.ReducesTo [1] S4096
  bcast_S_S4096x1 : S_.BroadcastsInDim S4096x1 (![] : Fin 0 → Fin S4096x1.rank)
  bcast_S4096x1_S4096x64_0_1 : S4096x1.BroadcastsInDim S4096x64 (![0, 1] : Fin 2 → Fin S4096x64.rank)
  inb_S600x1_S600x1_0_0 : ∀ a, (![0, 0] : Fin 2 → Nat) a + S600x1.size a ≤ S600x1.size a
  h_S600x1 : 0 < S600x1.numel
  shapeCasts_S600x1_S600x1 : S600x1.ShapeCasts S600x1
  inb_S600x64_S600x64_0_0 : ∀ a, (![0, 0] : Fin 2 → Nat) a + S600x64.size a ≤ S600x64.size a
  h_S600x64 : 0 < S600x64.numel
  shapeCasts_S600x64_S600x64 : S600x64.ShapeCasts S600x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  transposes_S2000x64_p1_0_S64x2000 : S2000x64.Transposes [1, 0] S64x2000
  reduces_S600x2000_S600 : S600x2000.Reduces [1] S600
  shapeCasts_S600_S600x1 : S600.ShapeCasts S600x1
  reduces_S600x64_S600 : S600x64.Reduces [1] S600
  reducesTo_S12000x1_S_d0_1 : S12000x1.ReducesTo [0, 1] S_
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  transposes_S1024x64_p1_0_S64x1024 : S1024x64.Transposes [1, 0] S64x1024
  reduces_S512x1024_S512 : S512x1024.Reduces [1] S512
  shapeCasts_S512_S512x1 : S512.ShapeCasts S512x1
  reduces_S512x64_S512 : S512x64.Reduces [1] S512
  reducesTo_S4096x1_S_d0_1 : S4096x1.ReducesTo [0, 1] S_
  transposes_S64x1_S1x64_1_0 : S64x1.Transposes [1, 0] S1x64
  shapeCasts_S1_S1x1 : S1.ShapeCasts S1x1
  shapeCasts_S1x64_S1x64 : S1x64.ShapeCasts S1x64
  broadcasts_S1x64_S512x64 : S1x64.Broadcasts S512x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  broadcasts_S512x1_S512x64 : S512x1.Broadcasts S512x64
  dot_S1200x64_S64x64_S1200x64_1_0_0_1_n_n_wf : DotDims.WF S1200x64 S64x64 S1200x64 [1] [0] [0] [1] [] []
  gather_S12000x64_S400000x1_S400000x64_1_0_n_n_0_1_164_wf : GatherDims.WF S12000x64 S400000x1 S400000x64 [1] [0] [] [0] [] 1 ![1, 64]
  scatter_S8000x64_S400000x1_S400000x64_1_0_0_1_wf : ScatterDims.WF S8000x64 S400000x1 S400000x64 [1] [0] [0] 1
  gather_S8000x64_S400000x1_S400000x64_1_0_n_n_0_1_164_wf : GatherDims.WF S8000x64 S400000x1 S400000x64 [1] [0] [] [0] [] 1 ![1, 64]
  scatter_S12000x64_S400000x1_S400000x64_1_0_0_1_wf : ScatterDims.WF S12000x64 S400000x1 S400000x64 [1] [0] [0] 1
  gather_S12000x64_S240000x1_S240000x64_1_0_n_n_0_1_164_wf : GatherDims.WF S12000x64 S240000x1 S240000x64 [1] [0] [] [0] [] 1 ![1, 64]
  scatter_S12000x64_S240000x1_S240000x64_1_0_0_1_wf : ScatterDims.WF S12000x64 S240000x1 S240000x64 [1] [0] [0] 1
  gather_S12000x64_S120000x1_S120000x64_1_0_n_n_0_1_164_wf : GatherDims.WF S12000x64 S120000x1 S120000x64 [1] [0] [] [0] [] 1 ![1, 64]
  scatter_S12000x64_S120000x1_S120000x64_1_0_0_1_wf : ScatterDims.WF S12000x64 S120000x1 S120000x64 [1] [0] [0] 1
  gather_S12000x192_S400000x1_S400000x192_1_0_n_n_0_1_1192_wf : GatherDims.WF S12000x192 S400000x1 S400000x192 [1] [0] [] [0] [] 1 ![1, 192]
  scatter_S8000x192_S400000x1_S400000x192_1_0_0_1_wf : ScatterDims.WF S8000x192 S400000x1 S400000x192 [1] [0] [0] 1
  gather_S8000x192_S4096x1_S4096x192_1_0_n_n_0_1_1192_wf : GatherDims.WF S8000x192 S4096x1 S4096x192 [1] [0] [] [0] [] 1 ![1, 192]
  dot_S600x64_S64x2000_S600x2000_1_0_0_1_n_n_wf : DotDims.WF S600x64 S64x2000 S600x2000 [1] [0] [0] [1] [] []
  dot_S512x64_S64x1024_S512x1024_1_0_0_1_n_n_wf : DotDims.WF S512x64 S64x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1200x64.size a ≤ S12000x64.size a
  hwx0_0 : ∀ i : grid0.Coords, EltTy.bits .f32 = 32 ∨ (Rect.block (s := S12000x64) S1200x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1200x64.size a ≤ S12000x64.size a
  hwx0_7 : ∀ i : grid0.Coords, EltTy.bits .f32 = 32 ∨ (Rect.block (s := S12000x64) S1200x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1200x64.size a ≤ S12000x64.size a
  hwx0_8 : ∀ i : grid0.Coords, EltTy.bits .f32 = 32 ∨ (Rect.block (s := S12000x64) S1200x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1200x64.size a ≤ S12000x64.size a
  hwx0_9 : ∀ i : grid0.Coords, EltTy.bits .f32 = 32 ∨ (Rect.block (s := S12000x64) S1200x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S600x64.size a ≤ S12000x64.size a
  hwx1_0 : ∀ i : grid1.Coords, EltTy.bits .f32 = 32 ∨ (Rect.block (s := S12000x64) S600x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S600x64.size a ≤ S12000x64.size a
  hwx1_1 : ∀ i : grid1.Coords, EltTy.bits .bf16 = 32 ∨ (Rect.block (s := S12000x64) S600x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S600x64.size a ≤ S12000x64.size a
  hwx1_2 : ∀ i : grid1.Coords, EltTy.bits .f32 = 32 ∨ (Rect.block (s := S12000x64) S600x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S12000x64.size a
  hwx1_3 : ∀ i : grid1.Coords, EltTy.bits .bf16 = 32 ∨ (Rect.block (s := S12000x64) S2000x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S600x1.size a ≤ S12000x1.size a
  hwx1_4 : ∀ i : grid1.Coords, EltTy.bits .f32 = 32 ∨ (Rect.block (s := S12000x1) S600x1.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S600x64.size a ≤ S12000x64.size a
  hwx2_0 : ∀ i : grid2.Coords, EltTy.bits .f32 = 32 ∨ (Rect.block (s := S12000x64) S600x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S600x64.size a ≤ S12000x64.size a
  hwx2_1 : ∀ i : grid2.Coords, EltTy.bits .bf16 = 32 ∨ (Rect.block (s := S12000x64) S600x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S600x64.size a ≤ S12000x64.size a
  hwx2_2 : ∀ i : grid2.Coords, EltTy.bits .f32 = 32 ∨ (Rect.block (s := S12000x64) S600x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S12000x64.size a
  hwx2_3 : ∀ i : grid2.Coords, EltTy.bits .bf16 = 32 ∨ (Rect.block (s := S12000x64) S2000x64.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S600x1.size a ≤ S12000x1.size a
  hwx2_4 : ∀ i : grid2.Coords, EltTy.bits .f32 = 32 ∨ (Rect.block (s := S12000x1) S600x1.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S600x64.size a ≤ S12000x64.size a
  hwx3_0 : ∀ i : grid3.Coords, EltTy.bits .f32 = 32 ∨ (Rect.block (s := S12000x64) S600x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S600x64.size a ≤ S12000x64.size a
  hwx3_1 : ∀ i : grid3.Coords, EltTy.bits .bf16 = 32 ∨ (Rect.block (s := S12000x64) S600x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S600x64.size a ≤ S12000x64.size a
  hwx3_2 : ∀ i : grid3.Coords, EltTy.bits .f32 = 32 ∨ (Rect.block (s := S12000x64) S600x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S12000x64.size a
  hwx3_3 : ∀ i : grid3.Coords, EltTy.bits .bf16 = 32 ∨ (Rect.block (s := S12000x64) S2000x64.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S600x1.size a ≤ S12000x1.size a
  hwx3_4 : ∀ i : grid3.Coords, EltTy.bits .f32 = 32 ∨ (Rect.block (s := S12000x1) S600x1.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x64.size a ≤ S4096x64.size a
  hwx4_0 : ∀ i : grid4.Coords, EltTy.bits .f32 = 32 ∨ (Rect.block (s := S4096x64) S512x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S512x64.size a ≤ S4096x64.size a
  hwx4_1 : ∀ i : grid4.Coords, EltTy.bits .bf16 = 32 ∨ (Rect.block (s := S4096x64) S512x64.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x64.size a ≤ S4096x64.size a
  hwx4_2 : ∀ i : grid4.Coords, EltTy.bits .f32 = 32 ∨ (Rect.block (s := S4096x64) S512x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x64.size a ≤ S4096x64.size a
  hwx4_3 : ∀ i : grid4.Coords, EltTy.bits .bf16 = 32 ∨ (Rect.block (s := S4096x64) S1024x64.size (cc4_transform_3 i) (hinb4_3 i)).WholeWords (EltTy.packing .bf16)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S512x1.size a ≤ S4096x1.size a
  hwx4_4 : ∀ i : grid4.Coords, EltTy.bits .f32 = 32 ∨ (Rect.block (s := S4096x1) S512x1.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x64.size a ≤ S4096x64.size a
  hwx5_0 : ∀ i : grid5.Coords, EltTy.bits .f32 = 32 ∨ (Rect.block (s := S4096x64) S512x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S512x64.size a ≤ S4096x64.size a
  hwx5_1 : ∀ i : grid5.Coords, EltTy.bits .bf16 = 32 ∨ (Rect.block (s := S4096x64) S512x64.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S512x64.size a ≤ S4096x64.size a
  hwx5_2 : ∀ i : grid5.Coords, EltTy.bits .f32 = 32 ∨ (Rect.block (s := S4096x64) S512x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1024x64.size a ≤ S4096x64.size a
  hwx5_3 : ∀ i : grid5.Coords, EltTy.bits .bf16 = 32 ∨ (Rect.block (s := S4096x64) S1024x64.size (cc5_transform_3 i) (hinb5_3 i)).WholeWords (EltTy.packing .bf16)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S512x1.size a ≤ S4096x1.size a
  hwx5_4 : ∀ i : grid5.Coords, EltTy.bits .f32 = 32 ∨ (Rect.block (s := S4096x1) S512x1.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S512x64.size a ≤ S4096x64.size a
  hwx6_0 : ∀ i : grid6.Coords, EltTy.bits .f32 = 32 ∨ (Rect.block (s := S4096x64) S512x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S512x64.size a ≤ S4096x64.size a
  hwx6_1 : ∀ i : grid6.Coords, EltTy.bits .bf16 = 32 ∨ (Rect.block (s := S4096x64) S512x64.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S512x64.size a ≤ S4096x64.size a
  hwx6_2 : ∀ i : grid6.Coords, EltTy.bits .f32 = 32 ∨ (Rect.block (s := S4096x64) S512x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1024x64.size a ≤ S4096x64.size a
  hwx6_3 : ∀ i : grid6.Coords, EltTy.bits .bf16 = 32 ∨ (Rect.block (s := S4096x64) S1024x64.size (cc6_transform_3 i) (hinb6_3 i)).WholeWords (EltTy.packing .bf16)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S512x1.size a ≤ S4096x1.size a
  hwx6_4 : ∀ i : grid6.Coords, EltTy.bits .f32 = 32 ∨ (Rect.block (s := S4096x1) S512x1.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S512x64.size a ≤ S4096x64.size a
  hwx7_0 : ∀ i : grid7.Coords, EltTy.bits .f32 = 32 ∨ (Rect.block (s := S4096x64) S512x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S512x64.size a ≤ S4096x64.size a
  hwx7_1 : ∀ i : grid7.Coords, EltTy.bits .f32 = 32 ∨ (Rect.block (s := S4096x64) S512x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S512x64.size a ≤ S4096x64.size a
  hwx7_2 : ∀ i : grid7.Coords, EltTy.bits .f32 = 32 ∨ (Rect.block (s := S4096x64) S512x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x1.size a ≤ S1x1.size a
  hwx7_4 : ∀ i : grid7.Coords, EltTy.bits .f32 = 32 ∨ (Rect.block (s := S1x1) S1x1.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x64.size a ≤ S1x64.size a
  hwx7_5 : ∀ i : grid7.Coords, EltTy.bits .f32 = 32 ∨ (Rect.block (s := S1x64) S1x64.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x1.size a ≤ S1x1.size a
  hwx7_6 : ∀ i : grid7.Coords, EltTy.bits .f32 = 32 ∨ (Rect.block (s := S1x1) S1x1.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x64.size a ≤ S1x64.size a
  hwx7_7 : ∀ i : grid7.Coords, EltTy.bits .f32 = 32 ∨ (Rect.block (s := S1x64) S1x64.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S1x1.size a ≤ S1x1.size a
  hwx7_8 : ∀ i : grid7.Coords, EltTy.bits .f32 = 32 ∨ (Rect.block (s := S1x1) S1x1.size (cc7_transform_8 i) (hinb7_8 i)).WholeWords (EltTy.packing .f32)
  hstage7_9 : ∀ j, (stage7_9 j).IsWhole
  nbuf7_9 : grid7.bufCount reads7_9 false = 2
  hreads7_9 : ∀ i i' : grid7.Coords, (∀ a, reads7_9 a = true → i a = i' a) → cc7_transform_9 i = cc7_transform_9 i'
  hinb7_9 : ∀ (i : grid7.Coords) a, (cc7_transform_9 i a + 1) * S512x64.size a ≤ S4096x64.size a
  hwx7_9 : ∀ i : grid7.Coords, EltTy.bits .f32 = 32 ∨ (Rect.block (s := S4096x64) S512x64.size (cc7_transform_9 i) (hinb7_9 i)).WholeWords (EltTy.packing .f32)

variable [Facts₀]

def dot_S1200x64_S64x64_S1200x64_1_0_0_1_n_n : DotDims S1200x64 S64x64 S1200x64 where
  lhsContracting := [1]
  rhsContracting := [0]
  lhsNonContracting := [0]
  rhsNonContracting := [1]
  lhsBatch := []
  rhsBatch := []
  wf := dot_S1200x64_S64x64_S1200x64_1_0_0_1_n_n_wf
def gather_S12000x64_S400000x1_S400000x64_1_0_n_n_0_1_164 : GatherDims S12000x64 S400000x1 S400000x64 where
  offsetDims := [1]
  collapsedSliceDims := [0]
  operandBatchingDims := []
  startIndicesBatchingDims := []
  startIndexMap := [0]
  indexVectorDim := 1
  sliceSizes := ![1, 64]
  wf := gather_S12000x64_S400000x1_S400000x64_1_0_n_n_0_1_164_wf
def scatter_S8000x64_S400000x1_S400000x64_1_0_0_1 : ScatterDims S8000x64 S400000x1 S400000x64 where
  updateWindowDims := [1]
  insertedWindowDims := [0]
  scatterDimsToOperandDims := [0]
  indexVectorDim := 1
  wf := scatter_S8000x64_S400000x1_S400000x64_1_0_0_1_wf
def gather_S8000x64_S400000x1_S400000x64_1_0_n_n_0_1_164 : GatherDims S8000x64 S400000x1 S400000x64 where
  offsetDims := [1]
  collapsedSliceDims := [0]
  operandBatchingDims := []
  startIndicesBatchingDims := []
  startIndexMap := [0]
  indexVectorDim := 1
  sliceSizes := ![1, 64]
  wf := gather_S8000x64_S400000x1_S400000x64_1_0_n_n_0_1_164_wf
def scatter_S12000x64_S400000x1_S400000x64_1_0_0_1 : ScatterDims S12000x64 S400000x1 S400000x64 where
  updateWindowDims := [1]
  insertedWindowDims := [0]
  scatterDimsToOperandDims := [0]
  indexVectorDim := 1
  wf := scatter_S12000x64_S400000x1_S400000x64_1_0_0_1_wf
def gather_S12000x64_S240000x1_S240000x64_1_0_n_n_0_1_164 : GatherDims S12000x64 S240000x1 S240000x64 where
  offsetDims := [1]
  collapsedSliceDims := [0]
  operandBatchingDims := []
  startIndicesBatchingDims := []
  startIndexMap := [0]
  indexVectorDim := 1
  sliceSizes := ![1, 64]
  wf := gather_S12000x64_S240000x1_S240000x64_1_0_n_n_0_1_164_wf
def scatter_S12000x64_S240000x1_S240000x64_1_0_0_1 : ScatterDims S12000x64 S240000x1 S240000x64 where
  updateWindowDims := [1]
  insertedWindowDims := [0]
  scatterDimsToOperandDims := [0]
  indexVectorDim := 1
  wf := scatter_S12000x64_S240000x1_S240000x64_1_0_0_1_wf
def gather_S12000x64_S120000x1_S120000x64_1_0_n_n_0_1_164 : GatherDims S12000x64 S120000x1 S120000x64 where
  offsetDims := [1]
  collapsedSliceDims := [0]
  operandBatchingDims := []
  startIndicesBatchingDims := []
  startIndexMap := [0]
  indexVectorDim := 1
  sliceSizes := ![1, 64]
  wf := gather_S12000x64_S120000x1_S120000x64_1_0_n_n_0_1_164_wf
def scatter_S12000x64_S120000x1_S120000x64_1_0_0_1 : ScatterDims S12000x64 S120000x1 S120000x64 where
  updateWindowDims := [1]
  insertedWindowDims := [0]
  scatterDimsToOperandDims := [0]
  indexVectorDim := 1
  wf := scatter_S12000x64_S120000x1_S120000x64_1_0_0_1_wf
def gather_S12000x192_S400000x1_S400000x192_1_0_n_n_0_1_1192 : GatherDims S12000x192 S400000x1 S400000x192 where
  offsetDims := [1]
  collapsedSliceDims := [0]
  operandBatchingDims := []
  startIndicesBatchingDims := []
  startIndexMap := [0]
  indexVectorDim := 1
  sliceSizes := ![1, 192]
  wf := gather_S12000x192_S400000x1_S400000x192_1_0_n_n_0_1_1192_wf
def scatter_S8000x192_S400000x1_S400000x192_1_0_0_1 : ScatterDims S8000x192 S400000x1 S400000x192 where
  updateWindowDims := [1]
  insertedWindowDims := [0]
  scatterDimsToOperandDims := [0]
  indexVectorDim := 1
  wf := scatter_S8000x192_S400000x1_S400000x192_1_0_0_1_wf
def gather_S8000x192_S4096x1_S4096x192_1_0_n_n_0_1_1192 : GatherDims S8000x192 S4096x1 S4096x192 where
  offsetDims := [1]
  collapsedSliceDims := [0]
  operandBatchingDims := []
  startIndicesBatchingDims := []
  startIndexMap := [0]
  indexVectorDim := 1
  sliceSizes := ![1, 192]
  wf := gather_S8000x192_S4096x1_S4096x192_1_0_n_n_0_1_1192_wf
def dot_S600x64_S64x2000_S600x2000_1_0_0_1_n_n : DotDims S600x64 S64x2000 S600x2000 where
  lhsContracting := [1]
  rhsContracting := [0]
  lhsNonContracting := [0]
  rhsNonContracting := [1]
  lhsBatch := []
  rhsBatch := []
  wf := dot_S600x64_S64x2000_S600x2000_1_0_0_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf

abbrev win0_0 : Pipeline.Window sig grid0 :=
  Pipeline.Window.ofSpec (Memref.whole main_arg0) S1200x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S1200x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S1200x64.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_2) S1200x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v186) S600x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v212) S600x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v191) S600x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v213) S2000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v214) S600x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v186) S600x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v217) S600x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v196) S600x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v218) S2000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v219) S600x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v191) S600x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v223) S600x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v196) S600x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v224) S2000x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v225) S600x1.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

abbrev win4_0 : Pipeline.Window sig grid4 :=
  Pipeline.Window.ofSpec (Memref.whole main_v201) S512x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v229) S512x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v206) S512x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v230) S1024x64.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v231) S512x1.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun _ => false | 4 => fun i => !(k4_cond2 i == 1#1) | ⟨_ + 5, h⟩ => absurd h (Nat.not_lt.2 (Nat.le_add_left _ _))

abbrev win5_0 : Pipeline.Window sig grid5 :=
  Pipeline.Window.ofSpec (Memref.whole main_v201) S512x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v234) S512x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v211) S512x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v235) S1024x64.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v236) S512x1.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev idle5 : Fin 5 → grid5.Coords → Bool := fun | 0 => fun _ => false | 1 => fun _ => false | 2 => fun _ => false | 3 => fun _ => false | 4 => fun i => !(k5_cond2 i == 1#1) | ⟨_ + 5, h⟩ => absurd h (Nat.not_lt.2 (Nat.le_add_left _ _))

abbrev win6_0 : Pipeline.Window sig grid6 :=
  Pipeline.Window.ofSpec (Memref.whole main_v206) S512x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v240) S512x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v211) S512x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v241) S1024x64.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v242) S512x1.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev idle6 : Fin 5 → grid6.Coords → Bool := fun | 0 => fun _ => false | 1 => fun _ => false | 2 => fun _ => false | 3 => fun _ => false | 4 => fun i => !(k6_cond2 i == 1#1) | ⟨_ + 5, h⟩ => absurd h (Nat.not_lt.2 (Nat.le_add_left _ _))

abbrev win7_0 : Pipeline.Window sig grid7 :=
  Pipeline.Window.ofSpec (Memref.whole main_v201) S512x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v206) S512x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v211) S512x64.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v246) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v249) S1x1.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v247) S1x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v250) S1x1.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v248) S1x64.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v251) S1x1.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_v252) S512x64.size cc7_transform_9 reads7_9 true false 2 stage7_9 sem7_9
    hrank7 hreads7_9 hinb7_9 nbuf7_9 (Memref.isWhole_whole _) hwx7_9 hstage7_9

abbrev win7 : Fin 10 → Pipeline.Window sig grid7 := fun | 0 => win7_0 | 1 => win7_1 | 2 => win7_2 | 3 => win7_3 | 4 => win7_4 | 5 => win7_5 | 6 => win7_6 | 7 => win7_7 | 8 => win7_8 | 9 => win7_9 | ⟨_ + 10, h⟩ => absurd h (Nat.not_lt.2 (Nat.le_add_left _ _))
abbrev spec7 : Fin 10 → Pipeline.WinSpec sig grid7.rank := fun w => (win7 w).toWinSpec

class Facts : Prop extends Facts₀ where

variable [Facts]
-- ==== ReferenceIdeal.lean ====
abbrev S12000x64 : Shape := ⟨2, ![12000, 64]⟩
abbrev S64x64 : Shape := ⟨2, ![64, 64]⟩
abbrev S1x64 : Shape := ⟨2, ![1, 64]⟩
abbrev S64x1 : Shape := ⟨2, ![64, 1]⟩
abbrev S1 : Shape := ⟨1, ![1]⟩
abbrev S400000 : Shape := ⟨1, ![400000]⟩
abbrev S240000 : Shape := ⟨1, ![240000]⟩
abbrev S120000 : Shape := ⟨1, ![120000]⟩
abbrev S4096 : Shape := ⟨1, ![4096]⟩
abbrev S_ : Shape := ⟨0, ![]⟩
abbrev S400000x1 : Shape := ⟨2, ![400000, 1]⟩
abbrev S400000x64 : Shape := ⟨2, ![400000, 64]⟩
abbrev S8000x64 : Shape := ⟨2, ![8000, 64]⟩
abbrev S1x12000x64 : Shape := ⟨3, ![1, 12000, 64]⟩
abbrev S3x12000x64 : Shape := ⟨3, ![3, 12000, 64]⟩
abbrev S240000x1 : Shape := ⟨2, ![240000, 1]⟩
abbrev S240000x64 : Shape := ⟨2, ![240000, 64]⟩
abbrev S120000x1 : Shape := ⟨2, ![120000, 1]⟩
abbrev S120000x64 : Shape := ⟨2, ![120000, 64]⟩
abbrev S4096x1 : Shape := ⟨2, ![4096, 1]⟩
abbrev S4096x64 : Shape := ⟨2, ![4096, 64]⟩
abbrev S12000 : Shape := ⟨1, ![12000]⟩
abbrev S12000x1 : Shape := ⟨2, ![12000, 1]⟩
abbrev S64x12000 : Shape := ⟨2, ![64, 12000]⟩
abbrev S12000x12000 : Shape := ⟨2, ![12000, 12000]⟩
abbrev S64x4096 : Shape := ⟨2, ![64, 4096]⟩
abbrev S4096x4096 : Shape := ⟨2, ![4096, 4096]⟩
abbrev S1x1 : Shape := ⟨2, ![1, 1]⟩

abbrev nBuf : Space → Nat
  | .hbm => 609
  | .vmem => 0
  | .smem => 0
  | _ => 0

abbrev hbmTy0_0 (i : Nat) : BufTy := match i % 128 with
  | 0 => ⟨S12000x64, .f32⟩
  | 1 => ⟨S64x64, .f32⟩
  | 2 => ⟨S1x64, .f32⟩
  | 3 => ⟨S64x64, .f32⟩
  | 4 => ⟨S1x64, .f32⟩
  | 5 => ⟨S64x64, .f32⟩
  | 6 => ⟨S1x64, .f32⟩
  | 7 => ⟨S64x1, .f32⟩
  | 8 => ⟨S1, .f32⟩
  | 9 => ⟨S64x1, .f32⟩
  | 10 => ⟨S1, .f32⟩
  | 11 => ⟨S64x1, .f32⟩
  | 12 => ⟨S1, .f32⟩
  | 13 => ⟨S400000, .f32⟩
  | 14 => ⟨S400000, .f32⟩
  | 15 => ⟨S240000, .f32⟩
  | 16 => ⟨S120000, .f32⟩
  | 17 => ⟨S120000, .f32⟩
  | 18 => ⟨S400000, .i32⟩
  | 19 => ⟨S400000, .i32⟩
  | 20 => ⟨S400000, .i32⟩
  | 21 => ⟨S400000, .i32⟩
  | 22 => ⟨S240000, .i32⟩
  | 23 => ⟨S240000, .i32⟩
  | 24 => ⟨S120000, .i32⟩
  | 25 => ⟨S120000, .i32⟩
  | 26 => ⟨S120000, .i32⟩
  | 27 => ⟨S120000, .i32⟩
  | 28 => ⟨S4096, .i32⟩
  | 29 => ⟨S12000x64, .f32⟩
  | 30 => ⟨S12000x64, .f32⟩
  | 31 => ⟨S12000x64, .f32⟩
  | 32 => ⟨S12000x64, .f32⟩
  | 33 => ⟨S12000x64, .f32⟩
  | 34 => ⟨S_, .f32⟩
  | 35 => ⟨S12000x64, .f32⟩
  | 36 => ⟨S12000x64, .f32⟩
  | 37 => ⟨S_, .f32⟩
  | 38 => ⟨S12000x64, .f32⟩
  | 39 => ⟨S12000x64, .f32⟩
  | 40 => ⟨S12000x64, .f32⟩
  | 41 => ⟨S12000x64, .f32⟩
  | 42 => ⟨S12000x64, .f32⟩
  | 43 => ⟨S12000x64, .f32⟩
  | 44 => ⟨S12000x64, .f32⟩
  | 45 => ⟨S12000x64, .f32⟩
  | 46 => ⟨S_, .f32⟩
  | 47 => ⟨S12000x64, .f32⟩
  | 48 => ⟨S12000x64, .f32⟩
  | 49 => ⟨S_, .f32⟩
  | 50 => ⟨S12000x64, .f32⟩
  | 51 => ⟨S12000x64, .f32⟩
  | 52 => ⟨S12000x64, .f32⟩
  | 53 => ⟨S12000x64, .f32⟩
  | 54 => ⟨S12000x64, .f32⟩
  | 55 => ⟨S12000x64, .f32⟩
  | 56 => ⟨S12000x64, .f32⟩
  | 57 => ⟨S12000x64, .f32⟩
  | 58 => ⟨S_, .f32⟩
  | 59 => ⟨S12000x64, .f32⟩
  | 60 => ⟨S12000x64, .f32⟩
  | 61 => ⟨S_, .f32⟩
  | 62 => ⟨S12000x64, .f32⟩
  | 63 => ⟨S12000x64, .f32⟩
  | 64 => ⟨S12000x64, .f32⟩
  | 65 => ⟨S400000x1, .f32⟩
  | 66 => ⟨S_, .i32⟩
  | 67 => ⟨S400000, .i32⟩
  | 68 => ⟨S400000, .i1⟩
  | 69 => ⟨S_, .i32⟩
  | 70 => ⟨S400000, .i32⟩
  | 71 => ⟨S400000, .i32⟩
  | 72 => ⟨S400000, .i32⟩
  | 73 => ⟨S400000x1, .i32⟩
  | 74 => ⟨S400000x64, .f32⟩
  | 75 => ⟨S400000x64, .f32⟩
  | 76 => ⟨S400000x64, .f32⟩
  | 77 => ⟨S_, .f32⟩
  | 78 => ⟨S8000x64, .f32⟩
  | 79 => ⟨S400000x1, .i32⟩
  | 80 => ⟨S8000x64, .f32⟩
  | 81 => ⟨S400000x1, .f32⟩
  | 82 => ⟨S_, .i32⟩
  | 83 => ⟨S400000, .i32⟩
  | 84 => ⟨S400000, .i1⟩
  | 85 => ⟨S_, .i32⟩
  | 86 => ⟨S400000, .i32⟩
  | 87 => ⟨S400000, .i32⟩
  | 88 => ⟨S400000, .i32⟩
  | 89 => ⟨S400000x1, .i32⟩
  | 90 => ⟨S400000x64, .f32⟩
  | 91 => ⟨S400000x64, .f32⟩
  | 92 => ⟨S400000x64, .f32⟩
  | 93 => ⟨S_, .f32⟩
  | 94 => ⟨S12000x64, .f32⟩
  | 95 => ⟨S400000x1, .i32⟩
  | 96 => ⟨S12000x64, .f32⟩
  | 97 => ⟨S12000x64, .f32⟩
  | 98 => ⟨S400000x1, .f32⟩
  | 99 => ⟨S_, .i32⟩
  | 100 => ⟨S400000, .i32⟩
  | 101 => ⟨S400000, .i1⟩
  | 102 => ⟨S_, .i32⟩
  | 103 => ⟨S400000, .i32⟩
  | 104 => ⟨S400000, .i32⟩
  | 105 => ⟨S400000, .i32⟩
  | 106 => ⟨S400000x1, .i32⟩
  | 107 => ⟨S400000x64, .f32⟩
  | 108 => ⟨S400000x64, .f32⟩
  | 109 => ⟨S400000x64, .f32⟩
  | 110 => ⟨S_, .f32⟩
  | 111 => ⟨S8000x64, .f32⟩
  | 112 => ⟨S400000x1, .i32⟩
  | 113 => ⟨S8000x64, .f32⟩
  | 114 => ⟨S400000x1, .f32⟩
  | 115 => ⟨S_, .i32⟩
  | 116 => ⟨S400000, .i32⟩
  | 117 => ⟨S400000, .i1⟩
  | 118 => ⟨S_, .i32⟩
  | 119 => ⟨S400000, .i32⟩
  | 120 => ⟨S400000, .i32⟩
  | 121 => ⟨S400000, .i32⟩
  | 122 => ⟨S400000x1, .i32⟩
  | 123 => ⟨S400000x64, .f32⟩
  | 124 => ⟨S400000x64, .f32⟩
  | 125 => ⟨S400000x64, .f32⟩
  | 126 => ⟨S_, .f32⟩
  | 127 => ⟨S12000x64, .f32⟩
  | _ => ⟨S12000x64, .f32⟩

abbrev hbmTy0_1 (i : Nat) : BufTy := match i % 128 with
  | 0 => ⟨S400000x1, .i32⟩
  | 1 => ⟨S12000x64, .f32⟩
  | 2 => ⟨S12000x64, .f32⟩
  | 3 => ⟨S1x12000x64, .f32⟩
  | 4 => ⟨S1x12000x64, .f32⟩
  | 5 => ⟨S1x12000x64, .f32⟩
  | 6 => ⟨S3x12000x64, .f32⟩
  | 7 => ⟨S_, .f32⟩
  | 8 => ⟨S12000x64, .f32⟩
  | 9 => ⟨S_, .f32⟩
  | 10 => ⟨S12000x64, .f32⟩
  | 11 => ⟨S12000x64, .f32⟩
  | 12 => ⟨S240000x1, .f32⟩
  | 13 => ⟨S_, .i32⟩
  | 14 => ⟨S240000, .i32⟩
  | 15 => ⟨S240000, .i1⟩
  | 16 => ⟨S_, .i32⟩
  | 17 => ⟨S240000, .i32⟩
  | 18 => ⟨S240000, .i32⟩
  | 19 => ⟨S240000, .i32⟩
  | 20 => ⟨S240000x1, .i32⟩
  | 21 => ⟨S240000x64, .f32⟩
  | 22 => ⟨S240000x64, .f32⟩
  | 23 => ⟨S240000x64, .f32⟩
  | 24 => ⟨S_, .f32⟩
  | 25 => ⟨S12000x64, .f32⟩
  | 26 => ⟨S240000x1, .i32⟩
  | 27 => ⟨S12000x64, .f32⟩
  | 28 => ⟨S12000x64, .f32⟩
  | 29 => ⟨S240000x1, .f32⟩
  | 30 => ⟨S_, .i32⟩
  | 31 => ⟨S240000, .i32⟩
  | 32 => ⟨S240000, .i1⟩
  | 33 => ⟨S_, .i32⟩
  | 34 => ⟨S240000, .i32⟩
  | 35 => ⟨S240000, .i32⟩
  | 36 => ⟨S240000, .i32⟩
  | 37 => ⟨S240000x1, .i32⟩
  | 38 => ⟨S240000x64, .f32⟩
  | 39 => ⟨S240000x64, .f32⟩
  | 40 => ⟨S240000x64, .f32⟩
  | 41 => ⟨S_, .f32⟩
  | 42 => ⟨S12000x64, .f32⟩
  | 43 => ⟨S240000x1, .i32⟩
  | 44 => ⟨S12000x64, .f32⟩
  | 45 => ⟨S12000x64, .f32⟩
  | 46 => ⟨S1x12000x64, .f32⟩
  | 47 => ⟨S1x12000x64, .f32⟩
  | 48 => ⟨S1x12000x64, .f32⟩
  | 49 => ⟨S3x12000x64, .f32⟩
  | 50 => ⟨S_, .f32⟩
  | 51 => ⟨S12000x64, .f32⟩
  | 52 => ⟨S_, .f32⟩
  | 53 => ⟨S12000x64, .f32⟩
  | 54 => ⟨S12000x64, .f32⟩
  | 55 => ⟨S120000x1, .f32⟩
  | 56 => ⟨S_, .i32⟩
  | 57 => ⟨S120000, .i32⟩
  | 58 => ⟨S120000, .i1⟩
  | 59 => ⟨S_, .i32⟩
  | 60 => ⟨S120000, .i32⟩
  | 61 => ⟨S120000, .i32⟩
  | 62 => ⟨S120000, .i32⟩
  | 63 => ⟨S120000x1, .i32⟩
  | 64 => ⟨S120000x64, .f32⟩
  | 65 => ⟨S120000x64, .f32⟩
  | 66 => ⟨S120000x64, .f32⟩
  | 67 => ⟨S_, .f32⟩
  | 68 => ⟨S12000x64, .f32⟩
  | 69 => ⟨S120000x1, .i32⟩
  | 70 => ⟨S12000x64, .f32⟩
  | 71 => ⟨S120000x1, .f32⟩
  | 72 => ⟨S_, .i32⟩
  | 73 => ⟨S120000, .i32⟩
  | 74 => ⟨S120000, .i1⟩
  | 75 => ⟨S_, .i32⟩
  | 76 => ⟨S120000, .i32⟩
  | 77 => ⟨S120000, .i32⟩
  | 78 => ⟨S120000, .i32⟩
  | 79 => ⟨S120000x1, .i32⟩
  | 80 => ⟨S120000x64, .f32⟩
  | 81 => ⟨S120000x64, .f32⟩
  | 82 => ⟨S120000x64, .f32⟩
  | 83 => ⟨S_, .f32⟩
  | 84 => ⟨S12000x64, .f32⟩
  | 85 => ⟨S120000x1, .i32⟩
  | 86 => ⟨S12000x64, .f32⟩
  | 87 => ⟨S12000x64, .f32⟩
  | 88 => ⟨S120000x1, .f32⟩
  | 89 => ⟨S_, .i32⟩
  | 90 => ⟨S120000, .i32⟩
  | 91 => ⟨S120000, .i1⟩
  | 92 => ⟨S_, .i32⟩
  | 93 => ⟨S120000, .i32⟩
  | 94 => ⟨S120000, .i32⟩
  | 95 => ⟨S120000, .i32⟩
  | 96 => ⟨S120000x1, .i32⟩
  | 97 => ⟨S120000x64, .f32⟩
  | 98 => ⟨S120000x64, .f32⟩
  | 99 => ⟨S120000x64, .f32⟩
  | 100 => ⟨S_, .f32⟩
  | 101 => ⟨S12000x64, .f32⟩
  | 102 => ⟨S120000x1, .i32⟩
  | 103 => ⟨S12000x64, .f32⟩
  | 104 => ⟨S120000x1, .f32⟩
  | 105 => ⟨S_, .i32⟩
  | 106 => ⟨S120000, .i32⟩
  | 107 => ⟨S120000, .i1⟩
  | 108 => ⟨S_, .i32⟩
  | 109 => ⟨S120000, .i32⟩
  | 110 => ⟨S120000, .i32⟩
  | 111 => ⟨S120000, .i32⟩
  | 112 => ⟨S120000x1, .i32⟩
  | 113 => ⟨S120000x64, .f32⟩
  | 114 => ⟨S120000x64, .f32⟩
  | 115 => ⟨S120000x64, .f32⟩
  | 116 => ⟨S_, .f32⟩
  | 117 => ⟨S12000x64, .f32⟩
  | 118 => ⟨S120000x1, .i32⟩
  | 119 => ⟨S12000x64, .f32⟩
  | 120 => ⟨S12000x64, .f32⟩
  | 121 => ⟨S1x12000x64, .f32⟩
  | 122 => ⟨S1x12000x64, .f32⟩
  | 123 => ⟨S1x12000x64, .f32⟩
  | 124 => ⟨S3x12000x64, .f32⟩
  | 125 => ⟨S_, .f32⟩
  | 126 => ⟨S12000x64, .f32⟩
  | 127 => ⟨S_, .f32⟩
  | _ => ⟨S12000x64, .f32⟩

abbrev hbmTy0_2 (i : Nat) : BufTy := match i % 128 with
  | 0 => ⟨S12000x64, .f32⟩
  | 1 => ⟨S12000x64, .f32⟩
  | 2 => ⟨S400000x1, .f32⟩
  | 3 => ⟨S_, .i32⟩
  | 4 => ⟨S400000, .i32⟩
  | 5 => ⟨S400000, .i1⟩
  | 6 => ⟨S_, .i32⟩
  | 7 => ⟨S400000, .i32⟩
  | 8 => ⟨S400000, .i32⟩
  | 9 => ⟨S400000, .i32⟩
  | 10 => ⟨S400000x1, .i32⟩
  | 11 => ⟨S400000x64, .f32⟩
  | 12 => ⟨S400000x64, .f32⟩
  | 13 => ⟨S400000x64, .f32⟩
  | 14 => ⟨S_, .f32⟩
  | 15 => ⟨S8000x64, .f32⟩
  | 16 => ⟨S400000x1, .i32⟩
  | 17 => ⟨S8000x64, .f32⟩
  | 18 => ⟨S_, .i32⟩
  | 19 => ⟨S4096, .i32⟩
  | 20 => ⟨S4096, .i1⟩
  | 21 => ⟨S_, .i32⟩
  | 22 => ⟨S4096, .i32⟩
  | 23 => ⟨S4096, .i32⟩
  | 24 => ⟨S4096, .i32⟩
  | 25 => ⟨S4096x1, .i32⟩
  | 26 => ⟨S4096x64, .f32⟩
  | 27 => ⟨S400000x1, .f32⟩
  | 28 => ⟨S_, .i32⟩
  | 29 => ⟨S400000, .i32⟩
  | 30 => ⟨S400000, .i1⟩
  | 31 => ⟨S_, .i32⟩
  | 32 => ⟨S400000, .i32⟩
  | 33 => ⟨S400000, .i32⟩
  | 34 => ⟨S400000, .i32⟩
  | 35 => ⟨S400000x1, .i32⟩
  | 36 => ⟨S400000x64, .f32⟩
  | 37 => ⟨S400000x64, .f32⟩
  | 38 => ⟨S400000x64, .f32⟩
  | 39 => ⟨S_, .f32⟩
  | 40 => ⟨S8000x64, .f32⟩
  | 41 => ⟨S400000x1, .i32⟩
  | 42 => ⟨S8000x64, .f32⟩
  | 43 => ⟨S_, .i32⟩
  | 44 => ⟨S4096, .i32⟩
  | 45 => ⟨S4096, .i1⟩
  | 46 => ⟨S_, .i32⟩
  | 47 => ⟨S4096, .i32⟩
  | 48 => ⟨S4096, .i32⟩
  | 49 => ⟨S4096, .i32⟩
  | 50 => ⟨S4096x1, .i32⟩
  | 51 => ⟨S4096x64, .f32⟩
  | 52 => ⟨S400000x1, .f32⟩
  | 53 => ⟨S_, .i32⟩
  | 54 => ⟨S400000, .i32⟩
  | 55 => ⟨S400000, .i1⟩
  | 56 => ⟨S_, .i32⟩
  | 57 => ⟨S400000, .i32⟩
  | 58 => ⟨S400000, .i32⟩
  | 59 => ⟨S400000, .i32⟩
  | 60 => ⟨S400000x1, .i32⟩
  | 61 => ⟨S400000x64, .f32⟩
  | 62 => ⟨S400000x64, .f32⟩
  | 63 => ⟨S400000x64, .f32⟩
  | 64 => ⟨S_, .f32⟩
  | 65 => ⟨S8000x64, .f32⟩
  | 66 => ⟨S400000x1, .i32⟩
  | 67 => ⟨S8000x64, .f32⟩
  | 68 => ⟨S_, .i32⟩
  | 69 => ⟨S4096, .i32⟩
  | 70 => ⟨S4096, .i1⟩
  | 71 => ⟨S_, .i32⟩
  | 72 => ⟨S4096, .i32⟩
  | 73 => ⟨S4096, .i32⟩
  | 74 => ⟨S4096, .i32⟩
  | 75 => ⟨S4096x1, .i32⟩
  | 76 => ⟨S4096x64, .f32⟩
  | 77 => ⟨S12000x64, .f32⟩
  | 78 => ⟨S_, .f32⟩
  | 79 => ⟨S12000, .f32⟩
  | 80 => ⟨S12000x1, .f32⟩
  | 81 => ⟨S12000x1, .f32⟩
  | 82 => ⟨S_, .f32⟩
  | 83 => ⟨S12000x1, .f32⟩
  | 84 => ⟨S12000x1, .f32⟩
  | 85 => ⟨S12000x64, .f32⟩
  | 86 => ⟨S12000x64, .f32⟩
  | 87 => ⟨S12000x64, .f32⟩
  | 88 => ⟨S_, .f32⟩
  | 89 => ⟨S12000, .f32⟩
  | 90 => ⟨S12000x1, .f32⟩
  | 91 => ⟨S12000x1, .f32⟩
  | 92 => ⟨S_, .f32⟩
  | 93 => ⟨S12000x1, .f32⟩
  | 94 => ⟨S12000x1, .f32⟩
  | 95 => ⟨S12000x64, .f32⟩
  | 96 => ⟨S12000x64, .f32⟩
  | 97 => ⟨S12000x64, .f32⟩
  | 98 => ⟨S_, .f32⟩
  | 99 => ⟨S12000, .f32⟩
  | 100 => ⟨S12000x1, .f32⟩
  | 101 => ⟨S12000x1, .f32⟩
  | 102 => ⟨S_, .f32⟩
  | 103 => ⟨S12000x1, .f32⟩
  | 104 => ⟨S12000x1, .f32⟩
  | 105 => ⟨S12000x64, .f32⟩
  | 106 => ⟨S12000x64, .f32⟩
  | 107 => ⟨S12000x64, .f32⟩
  | 108 => ⟨S_, .f32⟩
  | 109 => ⟨S12000, .f32⟩
  | 110 => ⟨S_, .f32⟩
  | 111 => ⟨S12000, .f32⟩
  | 112 => ⟨S12000, .f32⟩
  | 113 => ⟨S12000, .f32⟩
  | 114 => ⟨S64x12000, .f32⟩
  | 115 => ⟨S12000x12000, .f32⟩
  | 116 => ⟨S_, .f32⟩
  | 117 => ⟨S12000x12000, .f32⟩
  | 118 => ⟨S12000x12000, .f32⟩
  | 119 => ⟨S12000x12000, .f32⟩
  | 120 => ⟨S_, .f32⟩
  | 121 => ⟨S12000, .f32⟩
  | 122 => ⟨S_, .f32⟩
  | 123 => ⟨S12000, .f32⟩
  | 124 => ⟨S12000, .f32⟩
  | 125 => ⟨S12000, .f32⟩
  | 126 => ⟨S_, .f32⟩
  | 127 => ⟨S12000, .f32⟩
  | _ => ⟨S12000x64, .f32⟩

abbrev hbmTy0_3 (i : Nat) : BufTy := match i % 128 with
  | 0 => ⟨S12000, .f32⟩
  | 1 => ⟨S12000, .f32⟩
  | 2 => ⟨S12000, .f32⟩
  | 3 => ⟨S_, .f32⟩
  | 4 => ⟨S_, .f32⟩
  | 5 => ⟨S_, .f32⟩
  | 6 => ⟨S_, .f32⟩
  | 7 => ⟨S12000x64, .f32⟩
  | 8 => ⟨S_, .f32⟩
  | 9 => ⟨S12000, .f32⟩
  | 10 => ⟨S_, .f32⟩
  | 11 => ⟨S12000, .f32⟩
  | 12 => ⟨S12000, .f32⟩
  | 13 => ⟨S12000, .f32⟩
  | 14 => ⟨S64x12000, .f32⟩
  | 15 => ⟨S12000x12000, .f32⟩
  | 16 => ⟨S_, .f32⟩
  | 17 => ⟨S12000x12000, .f32⟩
  | 18 => ⟨S12000x12000, .f32⟩
  | 19 => ⟨S12000x12000, .f32⟩
  | 20 => ⟨S_, .f32⟩
  | 21 => ⟨S12000, .f32⟩
  | 22 => ⟨S_, .f32⟩
  | 23 => ⟨S12000, .f32⟩
  | 24 => ⟨S12000, .f32⟩
  | 25 => ⟨S12000, .f32⟩
  | 26 => ⟨S_, .f32⟩
  | 27 => ⟨S12000, .f32⟩
  | 28 => ⟨S12000, .f32⟩
  | 29 => ⟨S12000, .f32⟩
  | 30 => ⟨S12000, .f32⟩
  | 31 => ⟨S_, .f32⟩
  | 32 => ⟨S_, .f32⟩
  | 33 => ⟨S_, .f32⟩
  | 34 => ⟨S_, .f32⟩
  | 35 => ⟨S_, .f32⟩
  | 36 => ⟨S12000x64, .f32⟩
  | 37 => ⟨S_, .f32⟩
  | 38 => ⟨S12000, .f32⟩
  | 39 => ⟨S_, .f32⟩
  | 40 => ⟨S12000, .f32⟩
  | 41 => ⟨S12000, .f32⟩
  | 42 => ⟨S12000, .f32⟩
  | 43 => ⟨S64x12000, .f32⟩
  | 44 => ⟨S12000x12000, .f32⟩
  | 45 => ⟨S_, .f32⟩
  | 46 => ⟨S12000x12000, .f32⟩
  | 47 => ⟨S12000x12000, .f32⟩
  | 48 => ⟨S12000x12000, .f32⟩
  | 49 => ⟨S_, .f32⟩
  | 50 => ⟨S12000, .f32⟩
  | 51 => ⟨S_, .f32⟩
  | 52 => ⟨S12000, .f32⟩
  | 53 => ⟨S12000, .f32⟩
  | 54 => ⟨S12000, .f32⟩
  | 55 => ⟨S_, .f32⟩
  | 56 => ⟨S12000, .f32⟩
  | 57 => ⟨S12000, .f32⟩
  | 58 => ⟨S12000, .f32⟩
  | 59 => ⟨S12000, .f32⟩
  | 60 => ⟨S_, .f32⟩
  | 61 => ⟨S_, .f32⟩
  | 62 => ⟨S_, .f32⟩
  | 63 => ⟨S_, .f32⟩
  | 64 => ⟨S_, .f32⟩
  | 65 => ⟨S4096x64, .f32⟩
  | 66 => ⟨S_, .f32⟩
  | 67 => ⟨S4096, .f32⟩
  | 68 => ⟨S4096x1, .f32⟩
  | 69 => ⟨S4096x1, .f32⟩
  | 70 => ⟨S_, .f32⟩
  | 71 => ⟨S4096x1, .f32⟩
  | 72 => ⟨S4096x1, .f32⟩
  | 73 => ⟨S4096x64, .f32⟩
  | 74 => ⟨S4096x64, .f32⟩
  | 75 => ⟨S4096x64, .f32⟩
  | 76 => ⟨S_, .f32⟩
  | 77 => ⟨S4096, .f32⟩
  | 78 => ⟨S4096x1, .f32⟩
  | 79 => ⟨S4096x1, .f32⟩
  | 80 => ⟨S_, .f32⟩
  | 81 => ⟨S4096x1, .f32⟩
  | 82 => ⟨S4096x1, .f32⟩
  | 83 => ⟨S4096x64, .f32⟩
  | 84 => ⟨S4096x64, .f32⟩
  | 85 => ⟨S4096x64, .f32⟩
  | 86 => ⟨S_, .f32⟩
  | 87 => ⟨S4096, .f32⟩
  | 88 => ⟨S4096x1, .f32⟩
  | 89 => ⟨S4096x1, .f32⟩
  | 90 => ⟨S_, .f32⟩
  | 91 => ⟨S4096x1, .f32⟩
  | 92 => ⟨S4096x1, .f32⟩
  | 93 => ⟨S4096x64, .f32⟩
  | 94 => ⟨S4096x64, .f32⟩
  | 95 => ⟨S4096x64, .f32⟩
  | 96 => ⟨S_, .f32⟩
  | 97 => ⟨S4096, .f32⟩
  | 98 => ⟨S_, .f32⟩
  | 99 => ⟨S4096, .f32⟩
  | 100 => ⟨S4096, .f32⟩
  | 101 => ⟨S4096, .f32⟩
  | 102 => ⟨S64x4096, .f32⟩
  | 103 => ⟨S4096x4096, .f32⟩
  | 104 => ⟨S_, .f32⟩
  | 105 => ⟨S4096x4096, .f32⟩
  | 106 => ⟨S4096x4096, .f32⟩
  | 107 => ⟨S4096x4096, .f32⟩
  | 108 => ⟨S_, .f32⟩
  | 109 => ⟨S4096, .f32⟩
  | 110 => ⟨S_, .f32⟩
  | 111 => ⟨S4096, .f32⟩
  | 112 => ⟨S4096, .f32⟩
  | 113 => ⟨S4096, .f32⟩
  | 114 => ⟨S_, .f32⟩
  | 115 => ⟨S4096, .f32⟩
  | 116 => ⟨S4096, .f32⟩
  | 117 => ⟨S4096, .f32⟩
  | 118 => ⟨S4096, .f32⟩
  | 119 => ⟨S_, .f32⟩
  | 120 => ⟨S_, .f32⟩
  | 121 => ⟨S_, .f32⟩
  | 122 => ⟨S_, .f32⟩
  | 123 => ⟨S4096x64, .f32⟩
  | 124 => ⟨S_, .f32⟩
  | 125 => ⟨S4096, .f32⟩
  | 126 => ⟨S_, .f32⟩
  | 127 => ⟨S4096, .f32⟩
  | _ => ⟨S12000x64, .f32⟩

abbrev hbmTy0_4 (i : Nat) : BufTy := match i % 128 with
  | 0 => ⟨S4096, .f32⟩
  | 1 => ⟨S4096, .f32⟩
  | 2 => ⟨S64x4096, .f32⟩
  | 3 => ⟨S4096x4096, .f32⟩
  | 4 => ⟨S_, .f32⟩
  | 5 => ⟨S4096x4096, .f32⟩
  | 6 => ⟨S4096x4096, .f32⟩
  | 7 => ⟨S4096x4096, .f32⟩
  | 8 => ⟨S_, .f32⟩
  | 9 => ⟨S4096, .f32⟩
  | 10 => ⟨S_, .f32⟩
  | 11 => ⟨S4096, .f32⟩
  | 12 => ⟨S4096, .f32⟩
  | 13 => ⟨S4096, .f32⟩
  | 14 => ⟨S_, .f32⟩
  | 15 => ⟨S4096, .f32⟩
  | 16 => ⟨S4096, .f32⟩
  | 17 => ⟨S4096, .f32⟩
  | 18 => ⟨S4096, .f32⟩
  | 19 => ⟨S_, .f32⟩
  | 20 => ⟨S_, .f32⟩
  | 21 => ⟨S_, .f32⟩
  | 22 => ⟨S_, .f32⟩
  | 23 => ⟨S_, .f32⟩
  | 24 => ⟨S4096x64, .f32⟩
  | 25 => ⟨S_, .f32⟩
  | 26 => ⟨S4096, .f32⟩
  | 27 => ⟨S_, .f32⟩
  | 28 => ⟨S4096, .f32⟩
  | 29 => ⟨S4096, .f32⟩
  | 30 => ⟨S4096, .f32⟩
  | 31 => ⟨S64x4096, .f32⟩
  | 32 => ⟨S4096x4096, .f32⟩
  | 33 => ⟨S_, .f32⟩
  | 34 => ⟨S4096x4096, .f32⟩
  | 35 => ⟨S4096x4096, .f32⟩
  | 36 => ⟨S4096x4096, .f32⟩
  | 37 => ⟨S_, .f32⟩
  | 38 => ⟨S4096, .f32⟩
  | 39 => ⟨S_, .f32⟩
  | 40 => ⟨S4096, .f32⟩
  | 41 => ⟨S4096, .f32⟩
  | 42 => ⟨S4096, .f32⟩
  | 43 => ⟨S_, .f32⟩
  | 44 => ⟨S4096, .f32⟩
  | 45 => ⟨S4096, .f32⟩
  | 46 => ⟨S4096, .f32⟩
  | 47 => ⟨S4096, .f32⟩
  | 48 => ⟨S_, .f32⟩
  | 49 => ⟨S_, .f32⟩
  | 50 => ⟨S_, .f32⟩
  | 51 => ⟨S_, .f32⟩
  | 52 => ⟨S_, .f32⟩
  | 53 => ⟨S4096x1, .f32⟩
  | 54 => ⟨S1x1, .f32⟩
  | 55 => ⟨S4096x1, .f32⟩
  | 56 => ⟨S4096x1, .f32⟩
  | 57 => ⟨S4096x1, .f32⟩
  | 58 => ⟨S4096x1, .f32⟩
  | 59 => ⟨S_, .f32⟩
  | 60 => ⟨S4096x1, .f32⟩
  | 61 => ⟨S4096x1, .f32⟩
  | 62 => ⟨S_, .f32⟩
  | 63 => ⟨S4096x1, .f32⟩
  | 64 => ⟨S4096x1, .f32⟩
  | 65 => ⟨S4096x1, .f32⟩
  | 66 => ⟨S1x1, .f32⟩
  | 67 => ⟨S4096x1, .f32⟩
  | 68 => ⟨S4096x1, .f32⟩
  | 69 => ⟨S4096x1, .f32⟩
  | 70 => ⟨S4096x1, .f32⟩
  | 71 => ⟨S_, .f32⟩
  | 72 => ⟨S4096x1, .f32⟩
  | 73 => ⟨S4096x1, .f32⟩
  | 74 => ⟨S_, .f32⟩
  | 75 => ⟨S4096x1, .f32⟩
  | 76 => ⟨S4096x1, .f32⟩
  | 77 => ⟨S4096x1, .f32⟩
  | 78 => ⟨S1x1, .f32⟩
  | 79 => ⟨S4096x1, .f32⟩
  | 80 => ⟨S4096x1, .f32⟩
  | 81 => ⟨S4096x1, .f32⟩
  | 82 => ⟨S4096x1, .f32⟩
  | 83 => ⟨S_, .f32⟩
  | 84 => ⟨S4096x1, .f32⟩
  | 85 => ⟨S4096x1, .f32⟩
  | 86 => ⟨S_, .f32⟩
  | 87 => ⟨S4096x1, .f32⟩
  | 88 => ⟨S4096x1, .f32⟩
  | 89 => ⟨S4096x64, .f32⟩
  | 90 => ⟨S4096x64, .f32⟩
  | 91 => ⟨S4096x64, .f32⟩
  | 92 => ⟨S4096x64, .f32⟩
  | 93 => ⟨S4096x64, .f32⟩
  | 94 => ⟨S4096x64, .f32⟩
  | 95 => ⟨S4096x64, .f32⟩
  | 96 => ⟨S4096x64, .f32⟩
  | _ => ⟨S12000x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S12000x64, .f32⟩

abbrev bufTy : (tb : Table) → Fin (tcTables nBuf tb) → BufTy
  | .hbm, ⟨i, _⟩ => hbmTy i
  | _, _ => ⟨S12000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_cst : Ref sig .tc := ⟨.hbm, 34, rfl⟩
abbrev main_v5 : Ref sig .tc := ⟨.hbm, 35, rfl⟩
abbrev main_v6 : Ref sig .tc := ⟨.hbm, 36, rfl⟩
abbrev main_cst_0 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_cst_1 : Ref sig .tc := ⟨.hbm, 46, rfl⟩
abbrev main_v15 : Ref sig .tc := ⟨.hbm, 47, rfl⟩
abbrev main_v16 : Ref sig .tc := ⟨.hbm, 48, rfl⟩
abbrev main_cst_2 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_cst_3 : Ref sig .tc := ⟨.hbm, 58, rfl⟩
abbrev main_v25 : Ref sig .tc := ⟨.hbm, 59, rfl⟩
abbrev main_v26 : Ref sig .tc := ⟨.hbm, 60, rfl⟩
abbrev main_cst_4 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_c : Ref sig .tc := ⟨.hbm, 66, rfl⟩
abbrev main_v31 : Ref sig .tc := ⟨.hbm, 67, rfl⟩
abbrev main_v32 : Ref sig .tc := ⟨.hbm, 68, rfl⟩
abbrev main_c_5 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_cst_6 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_c_7 : Ref sig .tc := ⟨.hbm, 82, rfl⟩
abbrev main_v44 : Ref sig .tc := ⟨.hbm, 83, rfl⟩
abbrev main_v45 : Ref sig .tc := ⟨.hbm, 84, rfl⟩
abbrev main_c_8 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst_9 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_c_10 : Ref sig .tc := ⟨.hbm, 99, rfl⟩
abbrev main_v58 : Ref sig .tc := ⟨.hbm, 100, rfl⟩
abbrev main_v59 : Ref sig .tc := ⟨.hbm, 101, rfl⟩
abbrev main_c_11 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_cst_12 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_c_13 : Ref sig .tc := ⟨.hbm, 115, rfl⟩
abbrev main_v71 : Ref sig .tc := ⟨.hbm, 116, rfl⟩
abbrev main_v72 : Ref sig .tc := ⟨.hbm, 117, rfl⟩
abbrev main_c_14 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_15 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_cst_16 : Ref sig .tc := ⟨.hbm, 135, rfl⟩
abbrev main_v88 : Ref sig .tc := ⟨.hbm, 136, rfl⟩
abbrev main_cst_17 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_c_18 : Ref sig .tc := ⟨.hbm, 141, rfl⟩
abbrev main_v92 : Ref sig .tc := ⟨.hbm, 142, rfl⟩
abbrev main_v93 : Ref sig .tc := ⟨.hbm, 143, rfl⟩
abbrev main_c_19 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_cst_20 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_c_21 : Ref sig .tc := ⟨.hbm, 158, rfl⟩
abbrev main_v106 : Ref sig .tc := ⟨.hbm, 159, rfl⟩
abbrev main_v107 : Ref sig .tc := ⟨.hbm, 160, rfl⟩
abbrev main_c_22 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_cst_23 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_cst_24 : Ref sig .tc := ⟨.hbm, 178, rfl⟩
abbrev main_v123 : Ref sig .tc := ⟨.hbm, 179, rfl⟩
abbrev main_cst_25 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_c_26 : Ref sig .tc := ⟨.hbm, 184, rfl⟩
abbrev main_v127 : Ref sig .tc := ⟨.hbm, 185, rfl⟩
abbrev main_v128 : Ref sig .tc := ⟨.hbm, 186, rfl⟩
abbrev main_c_27 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_cst_28 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_c_29 : Ref sig .tc := ⟨.hbm, 200, rfl⟩
abbrev main_v140 : Ref sig .tc := ⟨.hbm, 201, rfl⟩
abbrev main_v141 : Ref sig .tc := ⟨.hbm, 202, rfl⟩
abbrev main_c_30 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_cst_31 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_c_32 : Ref sig .tc := ⟨.hbm, 217, rfl⟩
abbrev main_v154 : Ref sig .tc := ⟨.hbm, 218, rfl⟩
abbrev main_v155 : Ref sig .tc := ⟨.hbm, 219, rfl⟩
abbrev main_c_33 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_cst_34 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_c_35 : Ref sig .tc := ⟨.hbm, 233, rfl⟩
abbrev main_v167 : Ref sig .tc := ⟨.hbm, 234, rfl⟩
abbrev main_v168 : Ref sig .tc := ⟨.hbm, 235, rfl⟩
abbrev main_c_36 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_v172 : Ref sig .tc := ⟨.hbm, 240, rfl⟩
abbrev main_v173 : Ref sig .tc := ⟨.hbm, 241, rfl⟩
abbrev main_v174 : Ref sig .tc := ⟨.hbm, 242, rfl⟩
abbrev main_v175 : Ref sig .tc := ⟨.hbm, 243, rfl⟩
abbrev main_cst_37 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_v181 : Ref sig .tc := ⟨.hbm, 250, rfl⟩
abbrev main_v182 : Ref sig .tc := ⟨.hbm, 251, rfl⟩
abbrev main_v183 : Ref sig .tc := ⟨.hbm, 252, rfl⟩
abbrev main_cst_38 : Ref sig .tc := ⟨.hbm, 253, rfl⟩
abbrev main_v184 : Ref sig .tc := ⟨.hbm, 254, rfl⟩
abbrev main_cst_39 : Ref sig .tc := ⟨.hbm, 255, rfl⟩
abbrev main_v185 : Ref sig .tc := ⟨.hbm, 256, rfl⟩
abbrev main_v186 : Ref sig .tc := ⟨.hbm, 257, rfl⟩
abbrev main_v187 : Ref sig .tc := ⟨.hbm, 258, rfl⟩
abbrev main_c_40 : Ref sig .tc := ⟨.hbm, 259, rfl⟩
abbrev main_v188 : Ref sig .tc := ⟨.hbm, 260, rfl⟩
abbrev main_v189 : Ref sig .tc := ⟨.hbm, 261, rfl⟩
abbrev main_c_41 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_v195 : Ref sig .tc := ⟨.hbm, 268, rfl⟩
abbrev main_v196 : Ref sig .tc := ⟨.hbm, 269, rfl⟩
abbrev main_cst_42 : Ref sig .tc := ⟨.hbm, 270, rfl⟩
abbrev main_v197 : Ref sig .tc := ⟨.hbm, 271, rfl⟩
abbrev main_v198 : Ref sig .tc := ⟨.hbm, 272, rfl⟩
abbrev main_v199 : Ref sig .tc := ⟨.hbm, 273, rfl⟩
abbrev main_c_43 : Ref sig .tc := ⟨.hbm, 274, rfl⟩
abbrev main_v200 : Ref sig .tc := ⟨.hbm, 275, rfl⟩
abbrev main_v201 : Ref sig .tc := ⟨.hbm, 276, rfl⟩
abbrev main_c_44 : Ref sig .tc := ⟨.hbm, 277, rfl⟩
abbrev main_v202 : Ref sig .tc := ⟨.hbm, 278, rfl⟩
abbrev main_v203 : Ref sig .tc := ⟨.hbm, 279, rfl⟩
abbrev main_v204 : Ref sig .tc := ⟨.hbm, 280, rfl⟩
abbrev main_v205 : Ref sig .tc := ⟨.hbm, 281, rfl⟩
abbrev main_v206 : Ref sig .tc := ⟨.hbm, 282, rfl⟩
abbrev main_v207 : Ref sig .tc := ⟨.hbm, 283, rfl⟩
abbrev main_c_45 : Ref sig .tc := ⟨.hbm, 284, rfl⟩
abbrev main_v208 : Ref sig .tc := ⟨.hbm, 285, rfl⟩
abbrev main_v209 : Ref sig .tc := ⟨.hbm, 286, rfl⟩
abbrev main_c_46 : Ref sig .tc := ⟨.hbm, 287, rfl⟩
abbrev main_v210 : Ref sig .tc := ⟨.hbm, 288, rfl⟩
abbrev main_v211 : Ref sig .tc := ⟨.hbm, 289, rfl⟩
abbrev main_v212 : Ref sig .tc := ⟨.hbm, 290, rfl⟩
abbrev main_v213 : Ref sig .tc := ⟨.hbm, 291, rfl⟩
abbrev main_v214 : Ref sig .tc := ⟨.hbm, 292, rfl⟩
abbrev main_v215 : Ref sig .tc := ⟨.hbm, 293, rfl⟩
abbrev main_v216 : Ref sig .tc := ⟨.hbm, 294, rfl⟩
abbrev main_cst_47 : Ref sig .tc := ⟨.hbm, 295, rfl⟩
abbrev main_v217 : Ref sig .tc := ⟨.hbm, 296, rfl⟩
abbrev main_v218 : Ref sig .tc := ⟨.hbm, 297, rfl⟩
abbrev main_v219 : Ref sig .tc := ⟨.hbm, 298, rfl⟩
abbrev main_c_48 : Ref sig .tc := ⟨.hbm, 299, rfl⟩
abbrev main_v220 : Ref sig .tc := ⟨.hbm, 300, rfl⟩
abbrev main_v221 : Ref sig .tc := ⟨.hbm, 301, rfl⟩
abbrev main_c_49 : Ref sig .tc := ⟨.hbm, 302, rfl⟩
abbrev main_v222 : Ref sig .tc := ⟨.hbm, 303, rfl⟩
abbrev main_v223 : Ref sig .tc := ⟨.hbm, 304, rfl⟩
abbrev main_v224 : Ref sig .tc := ⟨.hbm, 305, rfl⟩
abbrev main_v225 : Ref sig .tc := ⟨.hbm, 306, rfl⟩
abbrev main_v226 : Ref sig .tc := ⟨.hbm, 307, rfl⟩
abbrev main_v227 : Ref sig .tc := ⟨.hbm, 308, rfl⟩
abbrev main_c_50 : Ref sig .tc := ⟨.hbm, 309, rfl⟩
abbrev main_v228 : Ref sig .tc := ⟨.hbm, 310, rfl⟩
abbrev main_v229 : Ref sig .tc := ⟨.hbm, 311, rfl⟩
abbrev main_c_51 : Ref sig .tc := ⟨.hbm, 312, rfl⟩
abbrev main_v230 : Ref sig .tc := ⟨.hbm, 313, rfl⟩
abbrev main_v231 : Ref sig .tc := ⟨.hbm, 314, rfl⟩
abbrev main_v232 : Ref sig .tc := ⟨.hbm, 315, rfl⟩
abbrev main_v233 : Ref sig .tc := ⟨.hbm, 316, rfl⟩
abbrev main_v234 : Ref sig .tc := ⟨.hbm, 317, rfl⟩
abbrev main_v235 : Ref sig .tc := ⟨.hbm, 318, rfl⟩
abbrev main_v236 : Ref sig .tc := ⟨.hbm, 319, rfl⟩
abbrev main_cst_52 : Ref sig .tc := ⟨.hbm, 320, rfl⟩
abbrev main_v237 : Ref sig .tc := ⟨.hbm, 321, rfl⟩
abbrev main_v238 : Ref sig .tc := ⟨.hbm, 322, rfl⟩
abbrev main_v239 : Ref sig .tc := ⟨.hbm, 323, rfl⟩
abbrev main_c_53 : Ref sig .tc := ⟨.hbm, 324, rfl⟩
abbrev main_v240 : Ref sig .tc := ⟨.hbm, 325, rfl⟩
abbrev main_v241 : Ref sig .tc := ⟨.hbm, 326, rfl⟩
abbrev main_c_54 : Ref sig .tc := ⟨.hbm, 327, rfl⟩
abbrev main_v242 : Ref sig .tc := ⟨.hbm, 328, rfl⟩
abbrev main_v243 : Ref sig .tc := ⟨.hbm, 329, rfl⟩
abbrev main_v244 : Ref sig .tc := ⟨.hbm, 330, rfl⟩
abbrev main_v245 : Ref sig .tc := ⟨.hbm, 331, rfl⟩
abbrev main_v246 : Ref sig .tc := ⟨.hbm, 332, rfl⟩
abbrev main_call0_v0 : Ref sig .tc := ⟨.hbm, 333, rfl⟩
abbrev main_call0_cst : Ref sig .tc := ⟨.hbm, 334, rfl⟩
abbrev main_call0_v1 : Ref sig .tc := ⟨.hbm, 335, rfl⟩
abbrev main_call0_v2 : Ref sig .tc := ⟨.hbm, 336, rfl⟩
abbrev main_v247 : Ref sig .tc := ⟨.hbm, 337, rfl⟩
abbrev main_cst_55 : Ref sig .tc := ⟨.hbm, 338, rfl⟩
abbrev main_v248 : Ref sig .tc := ⟨.hbm, 339, rfl⟩
abbrev main_v249 : Ref sig .tc := ⟨.hbm, 340, rfl⟩
abbrev main_v250 : Ref sig .tc := ⟨.hbm, 341, rfl⟩
abbrev main_v251 : Ref sig .tc := ⟨.hbm, 342, rfl⟩
abbrev main_call1_v0 : Ref sig .tc := ⟨.hbm, 343, rfl⟩
abbrev main_call1_cst : Ref sig .tc := ⟨.hbm, 344, rfl⟩
abbrev main_call1_v1 : Ref sig .tc := ⟨.hbm, 345, rfl⟩
abbrev main_call1_v2 : Ref sig .tc := ⟨.hbm, 346, rfl⟩
abbrev main_v252 : Ref sig .tc := ⟨.hbm, 347, rfl⟩
abbrev main_cst_56 : Ref sig .tc := ⟨.hbm, 348, rfl⟩
abbrev main_v253 : Ref sig .tc := ⟨.hbm, 349, rfl⟩
abbrev main_v254 : Ref sig .tc := ⟨.hbm, 350, rfl⟩
abbrev main_v255 : Ref sig .tc := ⟨.hbm, 351, rfl⟩
abbrev main_v256 : Ref sig .tc := ⟨.hbm, 352, rfl⟩
abbrev main_call2_v0 : Ref sig .tc := ⟨.hbm, 353, rfl⟩
abbrev main_call2_cst : Ref sig .tc := ⟨.hbm, 354, rfl⟩
abbrev main_call2_v1 : Ref sig .tc := ⟨.hbm, 355, rfl⟩
abbrev main_call2_v2 : Ref sig .tc := ⟨.hbm, 356, rfl⟩
abbrev main_v257 : Ref sig .tc := ⟨.hbm, 357, rfl⟩
abbrev main_cst_57 : Ref sig .tc := ⟨.hbm, 358, rfl⟩
abbrev main_v258 : Ref sig .tc := ⟨.hbm, 359, rfl⟩
abbrev main_v259 : Ref sig .tc := ⟨.hbm, 360, rfl⟩
abbrev main_v260 : Ref sig .tc := ⟨.hbm, 361, rfl⟩
abbrev main_v261 : Ref sig .tc := ⟨.hbm, 362, rfl⟩
abbrev main_v262 : Ref sig .tc := ⟨.hbm, 363, rfl⟩
abbrev main_cst_58 : Ref sig .tc := ⟨.hbm, 364, rfl⟩
abbrev main_v263 : Ref sig .tc := ⟨.hbm, 365, rfl⟩
abbrev main_cst_59 : Ref sig .tc := ⟨.hbm, 366, rfl⟩
abbrev main_v264 : Ref sig .tc := ⟨.hbm, 367, rfl⟩
abbrev main_v265 : Ref sig .tc := ⟨.hbm, 368, rfl⟩
abbrev main_v266 : Ref sig .tc := ⟨.hbm, 369, rfl⟩
abbrev main_v267 : Ref sig .tc := ⟨.hbm, 370, rfl⟩
abbrev main_v268 : Ref sig .tc := ⟨.hbm, 371, rfl⟩
abbrev main_cst_60 : Ref sig .tc := ⟨.hbm, 372, rfl⟩
abbrev main_v269 : Ref sig .tc := ⟨.hbm, 373, rfl⟩
abbrev main_v270 : Ref sig .tc := ⟨.hbm, 374, rfl⟩
abbrev main_v271 : Ref sig .tc := ⟨.hbm, 375, rfl⟩
abbrev main_cst_61 : Ref sig .tc := ⟨.hbm, 376, rfl⟩
abbrev main_v272 : Ref sig .tc := ⟨.hbm, 377, rfl⟩
abbrev main_cst_62 : Ref sig .tc := ⟨.hbm, 378, rfl⟩
abbrev main_v273 : Ref sig .tc := ⟨.hbm, 379, rfl⟩
abbrev main_v274 : Ref sig .tc := ⟨.hbm, 380, rfl⟩
abbrev main_v275 : Ref sig .tc := ⟨.hbm, 381, rfl⟩
abbrev main_cst_63 : Ref sig .tc := ⟨.hbm, 382, rfl⟩
abbrev main_v276 : Ref sig .tc := ⟨.hbm, 383, rfl⟩
abbrev main_v277 : Ref sig .tc := ⟨.hbm, 384, rfl⟩
abbrev main_v278 : Ref sig .tc := ⟨.hbm, 385, rfl⟩
abbrev main_v279 : Ref sig .tc := ⟨.hbm, 386, rfl⟩
abbrev main_cst_64 : Ref sig .tc := ⟨.hbm, 387, rfl⟩
abbrev main_v280 : Ref sig .tc := ⟨.hbm, 388, rfl⟩
abbrev main_cst_65 : Ref sig .tc := ⟨.hbm, 389, rfl⟩
abbrev main_v281 : Ref sig .tc := ⟨.hbm, 390, rfl⟩
abbrev main_v282 : Ref sig .tc := ⟨.hbm, 391, rfl⟩
abbrev main_cst_66 : Ref sig .tc := ⟨.hbm, 392, rfl⟩
abbrev main_v283 : Ref sig .tc := ⟨.hbm, 393, rfl⟩
abbrev main_cst_67 : Ref sig .tc := ⟨.hbm, 394, rfl⟩
abbrev main_v284 : Ref sig .tc := ⟨.hbm, 395, rfl⟩
abbrev main_v285 : Ref sig .tc := ⟨.hbm, 396, rfl⟩
abbrev main_v286 : Ref sig .tc := ⟨.hbm, 397, rfl⟩
abbrev main_v287 : Ref sig .tc := ⟨.hbm, 398, rfl⟩
abbrev main_v288 : Ref sig .tc := ⟨.hbm, 399, rfl⟩
abbrev main_cst_68 : Ref sig .tc := ⟨.hbm, 400, rfl⟩
abbrev main_v289 : Ref sig .tc := ⟨.hbm, 401, rfl⟩
abbrev main_v290 : Ref sig .tc := ⟨.hbm, 402, rfl⟩
abbrev main_v291 : Ref sig .tc := ⟨.hbm, 403, rfl⟩
abbrev main_cst_69 : Ref sig .tc := ⟨.hbm, 404, rfl⟩
abbrev main_v292 : Ref sig .tc := ⟨.hbm, 405, rfl⟩
abbrev main_cst_70 : Ref sig .tc := ⟨.hbm, 406, rfl⟩
abbrev main_v293 : Ref sig .tc := ⟨.hbm, 407, rfl⟩
abbrev main_v294 : Ref sig .tc := ⟨.hbm, 408, rfl⟩
abbrev main_v295 : Ref sig .tc := ⟨.hbm, 409, rfl⟩
abbrev main_cst_71 : Ref sig .tc := ⟨.hbm, 410, rfl⟩
abbrev main_v296 : Ref sig .tc := ⟨.hbm, 411, rfl⟩
abbrev main_v297 : Ref sig .tc := ⟨.hbm, 412, rfl⟩
abbrev main_v298 : Ref sig .tc := ⟨.hbm, 413, rfl⟩
abbrev main_v299 : Ref sig .tc := ⟨.hbm, 414, rfl⟩
abbrev main_cst_72 : Ref sig .tc := ⟨.hbm, 415, rfl⟩
abbrev main_v300 : Ref sig .tc := ⟨.hbm, 416, rfl⟩
abbrev main_cst_73 : Ref sig .tc := ⟨.hbm, 417, rfl⟩
abbrev main_v301 : Ref sig .tc := ⟨.hbm, 418, rfl⟩
abbrev main_v302 : Ref sig .tc := ⟨.hbm, 419, rfl⟩
abbrev main_v303 : Ref sig .tc := ⟨.hbm, 420, rfl⟩
abbrev main_cst_74 : Ref sig .tc := ⟨.hbm, 421, rfl⟩
abbrev main_v304 : Ref sig .tc := ⟨.hbm, 422, rfl⟩
abbrev main_cst_75 : Ref sig .tc := ⟨.hbm, 423, rfl⟩
abbrev main_v305 : Ref sig .tc := ⟨.hbm, 424, rfl⟩
abbrev main_v306 : Ref sig .tc := ⟨.hbm, 425, rfl⟩
abbrev main_v307 : Ref sig .tc := ⟨.hbm, 426, rfl⟩
abbrev main_v308 : Ref sig .tc := ⟨.hbm, 427, rfl⟩
abbrev main_v309 : Ref sig .tc := ⟨.hbm, 428, rfl⟩
abbrev main_cst_76 : Ref sig .tc := ⟨.hbm, 429, rfl⟩
abbrev main_v310 : Ref sig .tc := ⟨.hbm, 430, rfl⟩
abbrev main_v311 : Ref sig .tc := ⟨.hbm, 431, rfl⟩
abbrev main_v312 : Ref sig .tc := ⟨.hbm, 432, rfl⟩
abbrev main_cst_77 : Ref sig .tc := ⟨.hbm, 433, rfl⟩
abbrev main_v313 : Ref sig .tc := ⟨.hbm, 434, rfl⟩
abbrev main_cst_78 : Ref sig .tc := ⟨.hbm, 435, rfl⟩
abbrev main_v314 : Ref sig .tc := ⟨.hbm, 436, rfl⟩
abbrev main_v315 : Ref sig .tc := ⟨.hbm, 437, rfl⟩
abbrev main_v316 : Ref sig .tc := ⟨.hbm, 438, rfl⟩
abbrev main_cst_79 : Ref sig .tc := ⟨.hbm, 439, rfl⟩
abbrev main_v317 : Ref sig .tc := ⟨.hbm, 440, rfl⟩
abbrev main_v318 : Ref sig .tc := ⟨.hbm, 441, rfl⟩
abbrev main_v319 : Ref sig .tc := ⟨.hbm, 442, rfl⟩
abbrev main_v320 : Ref sig .tc := ⟨.hbm, 443, rfl⟩
abbrev main_cst_80 : Ref sig .tc := ⟨.hbm, 444, rfl⟩
abbrev main_v321 : Ref sig .tc := ⟨.hbm, 445, rfl⟩
abbrev main_cst_81 : Ref sig .tc := ⟨.hbm, 446, rfl⟩
abbrev main_v322 : Ref sig .tc := ⟨.hbm, 447, rfl⟩
abbrev main_v323 : Ref sig .tc := ⟨.hbm, 448, rfl⟩
abbrev main_call3_v0 : Ref sig .tc := ⟨.hbm, 449, rfl⟩
abbrev main_call3_cst : Ref sig .tc := ⟨.hbm, 450, rfl⟩
abbrev main_call3_v1 : Ref sig .tc := ⟨.hbm, 451, rfl⟩
abbrev main_call3_v2 : Ref sig .tc := ⟨.hbm, 452, rfl⟩
abbrev main_v324 : Ref sig .tc := ⟨.hbm, 453, rfl⟩
abbrev main_cst_82 : Ref sig .tc := ⟨.hbm, 454, rfl⟩
abbrev main_v325 : Ref sig .tc := ⟨.hbm, 455, rfl⟩
abbrev main_v326 : Ref sig .tc := ⟨.hbm, 456, rfl⟩
abbrev main_v327 : Ref sig .tc := ⟨.hbm, 457, rfl⟩
abbrev main_v328 : Ref sig .tc := ⟨.hbm, 458, rfl⟩
abbrev main_call4_v0 : Ref sig .tc := ⟨.hbm, 459, rfl⟩
abbrev main_call4_cst : Ref sig .tc := ⟨.hbm, 460, rfl⟩
abbrev main_call4_v1 : Ref sig .tc := ⟨.hbm, 461, rfl⟩
abbrev main_call4_v2 : Ref sig .tc := ⟨.hbm, 462, rfl⟩
abbrev main_v329 : Ref sig .tc := ⟨.hbm, 463, rfl⟩
abbrev main_cst_83 : Ref sig .tc := ⟨.hbm, 464, rfl⟩
abbrev main_v330 : Ref sig .tc := ⟨.hbm, 465, rfl⟩
abbrev main_v331 : Ref sig .tc := ⟨.hbm, 466, rfl⟩
abbrev main_v332 : Ref sig .tc := ⟨.hbm, 467, rfl⟩
abbrev main_v333 : Ref sig .tc := ⟨.hbm, 468, rfl⟩
abbrev main_call5_v0 : Ref sig .tc := ⟨.hbm, 469, rfl⟩
abbrev main_call5_cst : Ref sig .tc := ⟨.hbm, 470, rfl⟩
abbrev main_call5_v1 : Ref sig .tc := ⟨.hbm, 471, rfl⟩
abbrev main_call5_v2 : Ref sig .tc := ⟨.hbm, 472, rfl⟩
abbrev main_v334 : Ref sig .tc := ⟨.hbm, 473, rfl⟩
abbrev main_cst_84 : Ref sig .tc := ⟨.hbm, 474, rfl⟩
abbrev main_v335 : Ref sig .tc := ⟨.hbm, 475, rfl⟩
abbrev main_v336 : Ref sig .tc := ⟨.hbm, 476, rfl⟩
abbrev main_v337 : Ref sig .tc := ⟨.hbm, 477, rfl⟩
abbrev main_v338 : Ref sig .tc := ⟨.hbm, 478, rfl⟩
abbrev main_v339 : Ref sig .tc := ⟨.hbm, 479, rfl⟩
abbrev main_cst_85 : Ref sig .tc := ⟨.hbm, 480, rfl⟩
abbrev main_v340 : Ref sig .tc := ⟨.hbm, 481, rfl⟩
abbrev main_cst_86 : Ref sig .tc := ⟨.hbm, 482, rfl⟩
abbrev main_v341 : Ref sig .tc := ⟨.hbm, 483, rfl⟩
abbrev main_v342 : Ref sig .tc := ⟨.hbm, 484, rfl⟩
abbrev main_v343 : Ref sig .tc := ⟨.hbm, 485, rfl⟩
abbrev main_v344 : Ref sig .tc := ⟨.hbm, 486, rfl⟩
abbrev main_v345 : Ref sig .tc := ⟨.hbm, 487, rfl⟩
abbrev main_cst_87 : Ref sig .tc := ⟨.hbm, 488, rfl⟩
abbrev main_v346 : Ref sig .tc := ⟨.hbm, 489, rfl⟩
abbrev main_v347 : Ref sig .tc := ⟨.hbm, 490, rfl⟩
abbrev main_v348 : Ref sig .tc := ⟨.hbm, 491, rfl⟩
abbrev main_cst_88 : Ref sig .tc := ⟨.hbm, 492, rfl⟩
abbrev main_v349 : Ref sig .tc := ⟨.hbm, 493, rfl⟩
abbrev main_cst_89 : Ref sig .tc := ⟨.hbm, 494, rfl⟩
abbrev main_v350 : Ref sig .tc := ⟨.hbm, 495, rfl⟩
abbrev main_v351 : Ref sig .tc := ⟨.hbm, 496, rfl⟩
abbrev main_v352 : Ref sig .tc := ⟨.hbm, 497, rfl⟩
abbrev main_cst_90 : Ref sig .tc := ⟨.hbm, 498, rfl⟩
abbrev main_v353 : Ref sig .tc := ⟨.hbm, 499, rfl⟩
abbrev main_v354 : Ref sig .tc := ⟨.hbm, 500, rfl⟩
abbrev main_v355 : Ref sig .tc := ⟨.hbm, 501, rfl⟩
abbrev main_v356 : Ref sig .tc := ⟨.hbm, 502, rfl⟩
abbrev main_cst_91 : Ref sig .tc := ⟨.hbm, 503, rfl⟩
abbrev main_v357 : Ref sig .tc := ⟨.hbm, 504, rfl⟩
abbrev main_cst_92 : Ref sig .tc := ⟨.hbm, 505, rfl⟩
abbrev main_v358 : Ref sig .tc := ⟨.hbm, 506, rfl⟩
abbrev main_v359 : Ref sig .tc := ⟨.hbm, 507, rfl⟩
abbrev main_cst_93 : Ref sig .tc := ⟨.hbm, 508, rfl⟩
abbrev main_v360 : Ref sig .tc := ⟨.hbm, 509, rfl⟩
abbrev main_cst_94 : Ref sig .tc := ⟨.hbm, 510, rfl⟩
abbrev main_v361 : Ref sig .tc := ⟨.hbm, 511, rfl⟩
abbrev main_v362 : Ref sig .tc := ⟨.hbm, 512, rfl⟩
abbrev main_v363 : Ref sig .tc := ⟨.hbm, 513, rfl⟩
abbrev main_v364 : Ref sig .tc := ⟨.hbm, 514, rfl⟩
abbrev main_v365 : Ref sig .tc := ⟨.hbm, 515, rfl⟩
abbrev main_cst_95 : Ref sig .tc := ⟨.hbm, 516, rfl⟩
abbrev main_v366 : Ref sig .tc := ⟨.hbm, 517, rfl⟩
abbrev main_v367 : Ref sig .tc := ⟨.hbm, 518, rfl⟩
abbrev main_v368 : Ref sig .tc := ⟨.hbm, 519, rfl⟩
abbrev main_cst_96 : Ref sig .tc := ⟨.hbm, 520, rfl⟩
abbrev main_v369 : Ref sig .tc := ⟨.hbm, 521, rfl⟩
abbrev main_cst_97 : Ref sig .tc := ⟨.hbm, 522, rfl⟩
abbrev main_v370 : Ref sig .tc := ⟨.hbm, 523, rfl⟩
abbrev main_v371 : Ref sig .tc := ⟨.hbm, 524, rfl⟩
abbrev main_v372 : Ref sig .tc := ⟨.hbm, 525, rfl⟩
abbrev main_cst_98 : Ref sig .tc := ⟨.hbm, 526, rfl⟩
abbrev main_v373 : Ref sig .tc := ⟨.hbm, 527, rfl⟩
abbrev main_v374 : Ref sig .tc := ⟨.hbm, 528, rfl⟩
abbrev main_v375 : Ref sig .tc := ⟨.hbm, 529, rfl⟩
abbrev main_v376 : Ref sig .tc := ⟨.hbm, 530, rfl⟩
abbrev main_cst_99 : Ref sig .tc := ⟨.hbm, 531, rfl⟩
abbrev main_v377 : Ref sig .tc := ⟨.hbm, 532, rfl⟩
abbrev main_cst_100 : Ref sig .tc := ⟨.hbm, 533, rfl⟩
abbrev main_v378 : Ref sig .tc := ⟨.hbm, 534, rfl⟩
abbrev main_v379 : Ref sig .tc := ⟨.hbm, 535, rfl⟩
abbrev main_v380 : Ref sig .tc := ⟨.hbm, 536, rfl⟩
abbrev main_cst_101 : Ref sig .tc := ⟨.hbm, 537, rfl⟩
abbrev main_v381 : Ref sig .tc := ⟨.hbm, 538, rfl⟩
abbrev main_cst_102 : Ref sig .tc := ⟨.hbm, 539, rfl⟩
abbrev main_v382 : Ref sig .tc := ⟨.hbm, 540, rfl⟩
abbrev main_v383 : Ref sig .tc := ⟨.hbm, 541, rfl⟩
abbrev main_v384 : Ref sig .tc := ⟨.hbm, 542, rfl⟩
abbrev main_v385 : Ref sig .tc := ⟨.hbm, 543, rfl⟩
abbrev main_v386 : Ref sig .tc := ⟨.hbm, 544, rfl⟩
abbrev main_cst_103 : Ref sig .tc := ⟨.hbm, 545, rfl⟩
abbrev main_v387 : Ref sig .tc := ⟨.hbm, 546, rfl⟩
abbrev main_v388 : Ref sig .tc := ⟨.hbm, 547, rfl⟩
abbrev main_v389 : Ref sig .tc := ⟨.hbm, 548, rfl⟩
abbrev main_cst_104 : Ref sig .tc := ⟨.hbm, 549, rfl⟩
abbrev main_v390 : Ref sig .tc := ⟨.hbm, 550, rfl⟩
abbrev main_cst_105 : Ref sig .tc := ⟨.hbm, 551, rfl⟩
abbrev main_v391 : Ref sig .tc := ⟨.hbm, 552, rfl⟩
abbrev main_v392 : Ref sig .tc := ⟨.hbm, 553, rfl⟩
abbrev main_v393 : Ref sig .tc := ⟨.hbm, 554, rfl⟩
abbrev main_cst_106 : Ref sig .tc := ⟨.hbm, 555, rfl⟩
abbrev main_v394 : Ref sig .tc := ⟨.hbm, 556, rfl⟩
abbrev main_v395 : Ref sig .tc := ⟨.hbm, 557, rfl⟩
abbrev main_v396 : Ref sig .tc := ⟨.hbm, 558, rfl⟩
abbrev main_v397 : Ref sig .tc := ⟨.hbm, 559, rfl⟩
abbrev main_cst_107 : Ref sig .tc := ⟨.hbm, 560, rfl⟩
abbrev main_v398 : Ref sig .tc := ⟨.hbm, 561, rfl⟩
abbrev main_cst_108 : Ref sig .tc := ⟨.hbm, 562, rfl⟩
abbrev main_v399 : Ref sig .tc := ⟨.hbm, 563, rfl⟩
abbrev main_v400 : Ref sig .tc := ⟨.hbm, 564, rfl⟩
abbrev main_v401 : Ref sig .tc := ⟨.hbm, 565, rfl⟩
abbrev main_v402 : Ref sig .tc := ⟨.hbm, 566, rfl⟩
abbrev main_v403 : Ref sig .tc := ⟨.hbm, 567, rfl⟩
abbrev main_v404 : Ref sig .tc := ⟨.hbm, 568, rfl⟩
abbrev main_v405 : Ref sig .tc := ⟨.hbm, 569, rfl⟩
abbrev main_v406 : Ref sig .tc := ⟨.hbm, 570, rfl⟩
abbrev main_cst_109 : Ref sig .tc := ⟨.hbm, 571, rfl⟩
abbrev main_v407 : Ref sig .tc := ⟨.hbm, 572, rfl⟩
abbrev main_v408 : Ref sig .tc := ⟨.hbm, 573, rfl⟩
abbrev main_cst_110 : Ref sig .tc := ⟨.hbm, 574, rfl⟩
abbrev main_v409 : Ref sig .tc := ⟨.hbm, 575, rfl⟩
abbrev main_v410 : Ref sig .tc := ⟨.hbm, 576, rfl⟩
abbrev main_v411 : Ref sig .tc := ⟨.hbm, 577, rfl⟩
abbrev main_v412 : Ref sig .tc := ⟨.hbm, 578, rfl⟩
abbrev main_v413 : Ref sig .tc := ⟨.hbm, 579, rfl⟩
abbrev main_v414 : Ref sig .tc := ⟨.hbm, 580, rfl⟩
abbrev main_v415 : Ref sig .tc := ⟨.hbm, 581, rfl⟩
abbrev main_v416 : Ref sig .tc := ⟨.hbm, 582, rfl⟩
abbrev main_cst_111 : Ref sig .tc := ⟨.hbm, 583, rfl⟩
abbrev main_v417 : Ref sig .tc := ⟨.hbm, 584, rfl⟩
abbrev main_v418 : Ref sig .tc := ⟨.hbm, 585, rfl⟩
abbrev main_cst_112 : Ref sig .tc := ⟨.hbm, 586, rfl⟩
abbrev main_v419 : Ref sig .tc := ⟨.hbm, 587, rfl⟩
abbrev main_v420 : Ref sig .tc := ⟨.hbm, 588, rfl⟩
abbrev main_v421 : Ref sig .tc := ⟨.hbm, 589, rfl⟩
abbrev main_v422 : Ref sig .tc := ⟨.hbm, 590, rfl⟩
abbrev main_v423 : Ref sig .tc := ⟨.hbm, 591, rfl⟩
abbrev main_v424 : Ref sig .tc := ⟨.hbm, 592, rfl⟩
abbrev main_v425 : Ref sig .tc := ⟨.hbm, 593, rfl⟩
abbrev main_v426 : Ref sig .tc := ⟨.hbm, 594, rfl⟩
abbrev main_cst_113 : Ref sig .tc := ⟨.hbm, 595, rfl⟩
abbrev main_v427 : Ref sig .tc := ⟨.hbm, 596, rfl⟩
abbrev main_v428 : Ref sig .tc := ⟨.hbm, 597, rfl⟩
abbrev main_cst_114 : Ref sig .tc := ⟨.hbm, 598, rfl⟩
abbrev main_v429 : Ref sig .tc := ⟨.hbm, 599, rfl⟩
abbrev main_v430 : Ref sig .tc := ⟨.hbm, 600, rfl⟩
abbrev main_v431 : Ref sig .tc := ⟨.hbm, 601, rfl⟩
abbrev main_v432 : Ref sig .tc := ⟨.hbm, 602, rfl⟩
abbrev main_v433 : Ref sig .tc := ⟨.hbm, 603, rfl⟩
abbrev main_v434 : Ref sig .tc := ⟨.hbm, 604, rfl⟩
abbrev main_v435 : Ref sig .tc := ⟨.hbm, 605, rfl⟩
abbrev main_v436 : Ref sig .tc := ⟨.hbm, 606, rfl⟩
abbrev main_v437 : Ref sig .tc := ⟨.hbm, 607, rfl⟩
abbrev main_v438 : Ref sig .tc := ⟨.hbm, 608, rfl⟩

abbrev nD : Nat := 1
abbrev τ : Topo := Topo.v7x

variable {F : FTy → Type} [FloatOps F]

class Facts₀ : Prop where
  bcast_S1x64_S12000x64_0_1 : S1x64.BroadcastsInDim S12000x64 (![0, 1] : Fin 2 → Fin S12000x64.rank)
  bcast_S_S12000x64 : S_.BroadcastsInDim S12000x64 (![] : Fin 0 → Fin S12000x64.rank)
  bcast_S400000_S400000x1_0 : S400000.BroadcastsInDim S400000x1 (![0] : Fin 1 → Fin S400000x1.rank)
  bcast_S_S400000 : S_.BroadcastsInDim S400000 (![] : Fin 0 → Fin S400000.rank)
  bcast_S400000x1_S400000x64_0_1 : S400000x1.BroadcastsInDim S400000x64 (![0, 1] : Fin 2 → Fin S400000x64.rank)
  bcast_S_S8000x64 : S_.BroadcastsInDim S8000x64 (![] : Fin 0 → Fin S8000x64.rank)
  bcast_S12000x64_S1x12000x64_1_2 : S12000x64.BroadcastsInDim S1x12000x64 (![1, 2] : Fin 2 → Fin S1x12000x64.rank)
  concatenates_S1x12000x64_S1x12000x64_S1x12000x64_S3x12000x64_d0 : Shape.Concatenates [S1x12000x64, S1x12000x64, S1x12000x64] S3x12000x64 0
  reducesTo_S3x12000x64_S12000x64_d0 : S3x12000x64.ReducesTo [0] S12000x64
  h_S_ : 0 < S_.numel
  bcast_S240000_S240000x1_0 : S240000.BroadcastsInDim S240000x1 (![0] : Fin 1 → Fin S240000x1.rank)
  bcast_S_S240000 : S_.BroadcastsInDim S240000 (![] : Fin 0 → Fin S240000.rank)
  bcast_S240000x1_S240000x64_0_1 : S240000x1.BroadcastsInDim S240000x64 (![0, 1] : Fin 2 → Fin S240000x64.rank)
  bcast_S120000_S120000x1_0 : S120000.BroadcastsInDim S120000x1 (![0] : Fin 1 → Fin S120000x1.rank)
  bcast_S_S120000 : S_.BroadcastsInDim S120000 (![] : Fin 0 → Fin S120000.rank)
  bcast_S120000x1_S120000x64_0_1 : S120000x1.BroadcastsInDim S120000x64 (![0, 1] : Fin 2 → Fin S120000x64.rank)
  bcast_S_S4096 : S_.BroadcastsInDim S4096 (![] : Fin 0 → Fin S4096.rank)
  bcast_S4096_S4096x1_0 : S4096.BroadcastsInDim S4096x1 (![0] : Fin 1 → Fin S4096x1.rank)
  reducesTo_S12000x64_S12000_d1 : S12000x64.ReducesTo [1] S12000
  bcast_S12000_S12000x1_0 : S12000.BroadcastsInDim S12000x1 (![0] : Fin 1 → Fin S12000x1.rank)
  bcast_S_S12000x1 : S_.BroadcastsInDim S12000x1 (![] : Fin 0 → Fin S12000x1.rank)
  bcast_S12000x1_S12000x64_0_1 : S12000x1.BroadcastsInDim S12000x64 (![0, 1] : Fin 2 → Fin S12000x64.rank)
  bcast_S_S12000 : S_.BroadcastsInDim S12000 (![] : Fin 0 → Fin S12000.rank)
  transposes_S12000x64_S64x12000_1_0 : S12000x64.Transposes [1, 0] S64x12000
  bcast_S_S12000x12000 : S_.BroadcastsInDim S12000x12000 (![] : Fin 0 → Fin S12000x12000.rank)
  reducesTo_S12000x12000_S12000_d1 : S12000x12000.ReducesTo [1] S12000
  reducesTo_S12000_S_d0 : S12000.ReducesTo [0] S_
  reducesTo_S4096x64_S4096_d1 : S4096x64.ReducesTo [1] S4096
  bcast_S_S4096x1 : S_.BroadcastsInDim S4096x1 (![] : Fin 0 → Fin S4096x1.rank)
  bcast_S4096x1_S4096x64_0_1 : S4096x1.BroadcastsInDim S4096x64 (![0, 1] : Fin 2 → Fin S4096x64.rank)
  transposes_S4096x64_S64x4096_1_0 : S4096x64.Transposes [1, 0] S64x4096
  bcast_S_S4096x4096 : S_.BroadcastsInDim S4096x4096 (![] : Fin 0 → Fin S4096x4096.rank)
  reducesTo_S4096x4096_S4096_d1 : S4096x4096.ReducesTo [1] S4096
  reducesTo_S4096_S_d0 : S4096.ReducesTo [0] S_
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  dot_S12000x64_S64x64_S12000x64_1_0_0_1_n_n_wf : DotDims.WF S12000x64 S64x64 S12000x64 [1] [0] [0] [1] [] []
  gather_S12000x64_S400000x1_S400000x64_1_0_n_n_0_1_164_wf : GatherDims.WF S12000x64 S400000x1 S400000x64 [1] [0] [] [0] [] 1 ![1, 64]
  scatter_S8000x64_S400000x1_S400000x64_1_0_0_1_wf : ScatterDims.WF S8000x64 S400000x1 S400000x64 [1] [0] [0] 1
  gather_S8000x64_S400000x1_S400000x64_1_0_n_n_0_1_164_wf : GatherDims.WF S8000x64 S400000x1 S400000x64 [1] [0] [] [0] [] 1 ![1, 64]
  scatter_S12000x64_S400000x1_S400000x64_1_0_0_1_wf : ScatterDims.WF S12000x64 S400000x1 S400000x64 [1] [0] [0] 1
  gather_S12000x64_S240000x1_S240000x64_1_0_n_n_0_1_164_wf : GatherDims.WF S12000x64 S240000x1 S240000x64 [1] [0] [] [0] [] 1 ![1, 64]
  scatter_S12000x64_S240000x1_S240000x64_1_0_0_1_wf : ScatterDims.WF S12000x64 S240000x1 S240000x64 [1] [0] [0] 1
  gather_S12000x64_S120000x1_S120000x64_1_0_n_n_0_1_164_wf : GatherDims.WF S12000x64 S120000x1 S120000x64 [1] [0] [] [0] [] 1 ![1, 64]
  scatter_S12000x64_S120000x1_S120000x64_1_0_0_1_wf : ScatterDims.WF S12000x64 S120000x1 S120000x64 [1] [0] [0] 1
  gather_S8000x64_S4096x1_S4096x64_1_0_n_n_0_1_164_wf : GatherDims.WF S8000x64 S4096x1 S4096x64 [1] [0] [] [0] [] 1 ![1, 64]
  dot_S12000x64_S64x12000_S12000x12000_1_0_0_1_n_n_wf : DotDims.WF S12000x64 S64x12000 S12000x12000 [1] [0] [0] [1] [] []
  dot_S4096x64_S64x4096_S4096x4096_1_0_0_1_n_n_wf : DotDims.WF S4096x64 S64x4096 S4096x4096 [1] [0] [0] [1] [] []
  dot_S4096x64_S64x1_S4096x1_1_0_0_1_n_n_wf : DotDims.WF S4096x64 S64x1 S4096x1 [1] [0] [0] [1] [] []

variable [Facts₀]

def dot_S12000x64_S64x64_S12000x64_1_0_0_1_n_n : DotDims S12000x64 S64x64 S12000x64 where
  lhsContracting := [1]
  rhsContracting := [0]
  lhsNonContracting := [0]
  rhsNonContracting := [1]
  lhsBatch := []
  rhsBatch := []
  wf := dot_S12000x64_S64x64_S12000x64_1_0_0_1_n_n_wf
def gather_S12000x64_S400000x1_S400000x64_1_0_n_n_0_1_164 : GatherDims S12000x64 S400000x1 S400000x64 where
  offsetDims := [1]
  collapsedSliceDims := [0]
  operandBatchingDims := []
  startIndicesBatchingDims := []
  startIndexMap := [0]
  indexVectorDim := 1
  sliceSizes := ![1, 64]
  wf := gather_S12000x64_S400000x1_S400000x64_1_0_n_n_0_1_164_wf
def scatter_S8000x64_S400000x1_S400000x64_1_0_0_1 : ScatterDims S8000x64 S400000x1 S400000x64 where
  updateWindowDims := [1]
  insertedWindowDims := [0]
  scatterDimsToOperandDims := [0]
  indexVectorDim := 1
  wf := scatter_S8000x64_S400000x1_S400000x64_1_0_0_1_wf
def gather_S8000x64_S400000x1_S400000x64_1_0_n_n_0_1_164 : GatherDims S8000x64 S400000x1 S400000x64 where
  offsetDims := [1]
  collapsedSliceDims := [0]
  operandBatchingDims := []
  startIndicesBatchingDims := []
  startIndexMap := [0]
  indexVectorDim := 1
  sliceSizes := ![1, 64]
  wf := gather_S8000x64_S400000x1_S400000x64_1_0_n_n_0_1_164_wf
def scatter_S12000x64_S400000x1_S400000x64_1_0_0_1 : ScatterDims S12000x64 S400000x1 S400000x64 where
  updateWindowDims := [1]
  insertedWindowDims := [0]
  scatterDimsToOperandDims := [0]
  indexVectorDim := 1
  wf := scatter_S12000x64_S400000x1_S400000x64_1_0_0_1_wf
def gather_S12000x64_S240000x1_S240000x64_1_0_n_n_0_1_164 : GatherDims S12000x64 S240000x1 S240000x64 where
  offsetDims := [1]
  collapsedSliceDims := [0]
  operandBatchingDims := []
  startIndicesBatchingDims := []
  startIndexMap := [0]
  indexVectorDim := 1
  sliceSizes := ![1, 64]
  wf := gather_S12000x64_S240000x1_S240000x64_1_0_n_n_0_1_164_wf
def scatter_S12000x64_S240000x1_S240000x64_1_0_0_1 : ScatterDims S12000x64 S240000x1 S240000x64 where
  updateWindowDims := [1]
  insertedWindowDims := [0]
  scatterDimsToOperandDims := [0]
  indexVectorDim := 1
  wf := scatter_S12000x64_S240000x1_S240000x64_1_0_0_1_wf
def gather_S12000x64_S120000x1_S120000x64_1_0_n_n_0_1_164 : GatherDims S12000x64 S120000x1 S120000x64 where
  offsetDims := [1]
  collapsedSliceDims := [0]
  operandBatchingDims := []
  startIndicesBatchingDims := []
  startIndexMap := [0]
  indexVectorDim := 1
  sliceSizes := ![1, 64]
  wf := gather_S12000x64_S120000x1_S120000x64_1_0_n_n_0_1_164_wf
def scatter_S12000x64_S120000x1_S120000x64_1_0_0_1 : ScatterDims S12000x64 S120000x1 S120000x64 where
  updateWindowDims := [1]
  insertedWindowDims := [0]
  scatterDimsToOperandDims := [0]
  indexVectorDim := 1
  wf := scatter_S12000x64_S120000x1_S120000x64_1_0_0_1_wf
def gather_S8000x64_S4096x1_S4096x64_1_0_n_n_0_1_164 : GatherDims S8000x64 S4096x1 S4096x64 where
  offsetDims := [1]
  collapsedSliceDims := [0]
  operandBatchingDims := []
  startIndicesBatchingDims := []
  startIndexMap := [0]
  indexVectorDim := 1
  sliceSizes := ![1, 64]
  wf := gather_S8000x64_S4096x1_S4096x64_1_0_n_n_0_1_164_wf
def dot_S12000x64_S64x12000_S12000x12000_1_0_0_1_n_n : DotDims S12000x64 S64x12000 S12000x12000 where
  lhsContracting := [1]
  rhsContracting := [0]
  lhsNonContracting := [0]
  rhsNonContracting := [1]
  lhsBatch := []
  rhsBatch := []
  wf := dot_S12000x64_S64x12000_S12000x12000_1_0_0_1_n_n_wf
def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf

class Facts : Prop extends Facts₀ where

variable [Facts]
-- ==== Proof.KI.Gate.lean ====
import proofs.«133221_j41652592836945_2_alg».proof.Proof.Gen.KernelIdeal.Launch
import proofs.«133221_j41652592836945_2_alg».proof.Proof.Gen.KernelIdeal.Skeleton
import proofs.«133221_j41652592836945_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

abbrev rX0 : Rect S1200x64 := Rect.unit (s := S1200x64) ![0, 0] S1200x64.size inb_S1200x64_S1200x64_0_0

abbrev rW0 : Rect S64x64 := Rect.unit (s := S64x64) ![0, 0] S64x64.size inb_S64x64_S64x64_0_0

abbrev rB0 : Rect S1x64 := Rect.unit (s := S1x64) ![0, 0] S1x64.size inb_S1x64_S1x64_0_0

def out0_7 (x : Vec F S1200x64 .f32) (w : Vec F S64x64 .f32) (b : Vec F S1x64 .f32) : Vec F S1200x64 .f32 :=
  View.canon [⟨rX0, k0_pay2 (View.ld x rX0) (View.ld w rW0) (View.ld b rB0)⟩]

def out0_8 (x : Vec F S1200x64 .f32) (w : Vec F S64x64 .f32) (b : Vec F S1x64 .f32) : Vec F S1200x64 .f32 :=
  View.canon [⟨rX0, k0_pay3 (View.ld x rX0) (View.ld w rW0) (View.ld b rB0)⟩]

def out0_9 (x : Vec F S1200x64 .f32) (w : Vec F S64x64 .f32) (b : Vec F S1x64 .f32) : Vec F S1200x64 .f32 :=
  View.canon [⟨rX0, k0_pay4 (View.ld x rX0) (View.ld w rW0) (View.ld b rB0)⟩]

theorem cover0_out (p : Vec F S1200x64 .f32) (y : S1200x64.Idx) :
    ∃ pc ∈ ([⟨rX0, p⟩] : List (View.Piece (Elt F) S1200x64 .f32)), y ∈ pc.1.set :=
  View.cover_of_tiled [⟨rX0, p⟩] S1200x64.size (by rfl) y

set_option maxHeartbeats 4000000 in

theorem sound_kernel0 (c : Dev nD) (E : Set ℕ) (i : grid0.Coords)
    (arg1 : Memref sig .tc .vmem S1200x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S64x64 .f32) (harg6 : arg6.IsWhole)
    (arg7 : Memref sig .tc .vmem S1x64 .f32) (harg7 : arg7.IsWhole) (arg8 : Memref sig .tc .vmem S1200x64 .f32) (harg8 : arg8.IsWhole)
    (arg9 : Memref sig .tc .vmem S1200x64 .f32) (harg9 : arg9.IsWhole) (arg10 : Memref sig .tc .vmem S1200x64 .f32) (harg10 : arg10.IsWhole)
    (x : Vec F S1200x64 .f32) (w1 : Vec F S64x64 .f32) (b1 : Vec F S1x64 .f32) (w2 : Vec F S64x64 .f32) (b2 : Vec F S1x64 .f32)
    (w3 : Vec F S64x64 .f32) (b3 : Vec F S1x64 .f32) (K : PUnit → sProp 𝕄) :
    iprop(owns (c : Thread nD τ) arg1 fullShare x ∗ owns (c : Thread nD τ) arg2 fullShare w1 ∗ owns (c : Thread nD τ) arg3 fullShare b1
        ∗ owns (c : Thread nD τ) arg4 fullShare w2 ∗ owns (c : Thread nD τ) arg5 fullShare b2
        ∗ owns (c : Thread nD τ) arg6 fullShare w3 ∗ owns (c : Thread nD τ) arg7 fullShare b3
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x ∗ owns (c : Thread nD τ) arg2 fullShare w1 ∗ owns (c : Thread nD τ) arg3 fullShare b1
            ∗ owns (c : Thread nD τ) arg4 fullShare w2 ∗ owns (c : Thread nD τ) arg5 fullShare b2
            ∗ owns (c : Thread nD τ) arg6 fullShare w3 ∗ owns (c : Thread nD τ) arg7 fullShare b3
            ∗ owns (c : Thread nD τ) arg8 fullShare (out0_7 x w1 b1) ∗ owns (c : Thread nD τ) arg9 fullShare (out0_8 x w2 b2)
            ∗ owns (c : Thread nD τ) arg10 fullShare (out0_9 x w3 b3)) -∗ K ⟨⟩))
      ⊢ wp frame (wpE (defs₀ (F := F)) Variants.none c none) E
          (cc0__gate_kernel i arg1 harg1 arg2 harg2 arg3 harg3 arg4 harg4 arg5 harg5 arg6 harg6 arg7 harg7 arg8 harg8 arg9 harg9 arg10 harg10) K := by
  simp only [cc0__gate_kernel_eq_skeleton]; unfold cc0__gate_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%d9, %f9, -, H9⟩, ⟨%d10, %f10, -, H10⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover0_out _)
  isplitl [H9]
  · iexists _; isplitr
    swap; · iexact H9
    ipureintro
    exact View.read_writes_eq_canon _ _ _ (cover0_out _)
  iexists _; isplitr
  swap; · iexact H10
  ipureintro
  exact View.read_writes_eq_canon _ _ _ (cover0_out _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem owed0 (c : Dev nD) (t) : (dat0 V c).owed t = 0 := by dsimp only [dat0]
theorem q0 (c : Dev nD) (w : Fin cfg0.W) : (dat0 V c).q w = fullShare := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) :
    (dat0 V c).after 7 t = out0_7 (iblk0 V c 0 t) (iblk0 V c 1 t) (iblk0 V c 2 t) := by dsimp only [dat0]
theorem after0_8 (c : Dev nD) (t : Fin cfg0.N) :
    (dat0 V c).after 8 t = out0_8 (iblk0 V c 0 t) (iblk0 V c 3 t) (iblk0 V c 4 t) := by dsimp only [dat0]
theorem after0_9 (c : Dev nD) (t : Fin cfg0.N) :
    (dat0 V c).after 9 t = out0_9 (iblk0 V c 0 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  show Pipeline.ΦA spec0 c ⊢ Pipeline.ΦA spec0 c
  exact .rfl
theorem hout0 (c : Dev nD) : (dat0 V c).Φ (Fin.last cfg0.N) ⊢ Pipeline.ΦA spec0 c := by
  show Pipeline.ΦA spec0 c ⊢ Pipeline.ΦA spec0 c
  exact .rfl

end Cert.KernelIdeal.Hand

end
-- ==== Proof.KI.Nce1.lean ====
import proofs.«133221_j41652592836945_2_alg».proof.Proof.Gen.KernelIdeal.Launch
import proofs.«133221_j41652592836945_2_alg».proof.Proof.Gen.KernelIdeal.Skeleton
import proofs.«133221_j41652592836945_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

abbrev cond1_0 (i : grid1.Coords) : Prop :=
  (Scalar.cmpi .ne (Scalar.extui (Scalar.cmpi .eq (BitVec.ofNat 32 (i 1).val) 0#32)) 0#32) = 1#1

abbrev cond1_1 (i : grid1.Coords) : Prop := k1_cond2 i = 1#1

theorem hcond1_0 : ∀ t : Fin cfg1.N, cond1_0 (grid1.coords t) ↔ t.val % 6 = 0 :=
  (by decide +kernel : ∀ t : Fin grid1.N, cond1_0 (grid1.coords t) ↔ t.val % 6 = 0)

theorem hcond1_1 : ∀ t : Fin cfg1.N, cond1_1 (grid1.coords t) ↔ t.val % 6 = 5 :=
  (by decide +kernel : ∀ t : Fin grid1.N, cond1_1 (grid1.coords t) ↔ t.val % 6 = 5)

theorem idle1_4 : ∀ t : Fin cfg1.N, ¬t.val % 6 = 5 → cfg1.idle 4 (grid1.coords t) = true :=
  (by decide +kernel : ∀ t : Fin grid1.N, ¬t.val % 6 = 5 → cfg1.idle 4 (grid1.coords t) = true)

theorem live1_4 : ∀ t : Fin cfg1.N, t.val % 6 = 5 → cfg1.idle 4 (grid1.coords t) = false :=
  (by decide +kernel : ∀ t : Fin grid1.N, t.val % 6 = 5 → cfg1.idle 4 (grid1.coords t) = false)

theorem noFlush1_4 (t : Fin cfg1.N) (h : ¬t.val % 6 = 5) : (cfg1.win 4).flush t = false :=
  Bool.eq_false_iff.mpr fun hf => h ((flush1_4 t).mp hf)

abbrev ms1_0 (t : Fin cfg1.N) : Memref sig .tc .vmem S600x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S600x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S600x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2000x64 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S600x1 .f32 := win1_4.stage (cfg1.slots t 4)
abbrev hs1_4 (t : Fin cfg1.N) : (ms1_4 t).IsWhole := hstage1_4 ((cfg1.slots t 4).cast nbuf1_4)

abbrev scM1_0 : Memref sig .tc .vmem S600x1 .f32 := Memref.whole cc1_scratch0

abbrev VO1_4 : View sig .tc .vmem S600x1 .f32 := (Memref.whole cc1_stg4_0 : Memref sig .tc .vmem S600x1 .f32).view
abbrev VS1_0 : View sig .tc .vmem S600x1 .f32 := scM1_0.view

abbrev rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop(iprop((∃ d, owns (c : Thread nD τ) scM1_0 fullShare d)) ∗ rest1 (F := F) c) ∗ (∃ r, prngReg c r)) := by
  unfold Pipeline.ΦA; rw [scopedRest1_split]; simp only [scM1_0, owns_whole]; try rfl

set_option maxHeartbeats 1000000 in

noncomputable def kernelRun1_A (c : Dev nD) (i : grid1.Coords) (arg2 : Memref sig .tc .vmem S600x64 .f32) (harg2 : arg2.IsWhole) (arg3 : Memref sig .tc .vmem S600x64 .bf16) (harg3 : arg3.IsWhole) (arg4 : Memref sig .tc .vmem S600x64 .f32) (harg4 : arg4.IsWhole) (arg5 : Memref sig .tc .vmem S2000x64 .bf16) (harg5 : arg5.IsWhole) (arg6 : Memref sig .tc .vmem S600x1 .f32) (harg6 : arg6.IsWhole) (arg7 : Memref sig .tc .vmem S600x1 .f32) (harg7 : arg7.IsWhole) (hc0 : cond1_0 i) (hc1 : ¬cond1_1 i)
    (x0 : Vec F S600x64 .f32) (x1 : Vec F S600x64 .bf16) (x2 : Vec F S600x64 .f32) (x3 : Vec F S2000x64 .bf16) :
    Σ' (L4 : List (View.Piece (Elt F) S600x1 .f32)), { LS0 : List (View.Piece (Elt F) S600x1 .f32) //
      ∀ (xi4 : Vec F S600x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__infonce_kernel i arg2 harg2 arg3 harg3 arg4 harg4 arg5 harg5 arg6 harg6 arg7 harg7) K } := by
  refine ⟨[], ?_, fun xi4 E K => ?run⟩
  case run =>
    simp only [cc1__infonce_kernel_eq_skeleton]; unfold cc1__infonce_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in

noncomputable def kernelRun1_B (c : Dev nD) (i : grid1.Coords) (arg2 : Memref sig .tc .vmem S600x64 .f32) (harg2 : arg2.IsWhole) (arg3 : Memref sig .tc .vmem S600x64 .bf16) (harg3 : arg3.IsWhole) (arg4 : Memref sig .tc .vmem S600x64 .f32) (harg4 : arg4.IsWhole) (arg5 : Memref sig .tc .vmem S2000x64 .bf16) (harg5 : arg5.IsWhole) (arg6 : Memref sig .tc .vmem S600x1 .f32) (harg6 : arg6.IsWhole) (arg7 : Memref sig .tc .vmem S600x1 .f32) (harg7 : arg7.IsWhole) (hc0 : ¬cond1_0 i) (hc1 : ¬cond1_1 i)
    (x0 : Vec F S600x64 .f32) (x1 : Vec F S600x64 .bf16) (x2 : Vec F S600x64 .f32) (x3 : Vec F S2000x64 .bf16) (xs0 : Vec F S600x1 .f32) :
    Σ' (L4 : List (View.Piece (Elt F) S600x1 .f32)), { LS0 : List (View.Piece (Elt F) S600x1 .f32) //
      ∀ (xi4 : Vec F S600x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__infonce_kernel i arg2 harg2 arg3 harg3 arg4 harg4 arg5 harg5 arg6 harg6 arg7 harg7) K } := by
  refine ⟨[], ?_, fun xi4 E K => ?run⟩
  case run =>
    simp only [cc1__infonce_kernel_eq_skeleton]; unfold cc1__infonce_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in

noncomputable def kernelRun1_C (c : Dev nD) (i : grid1.Coords) (arg2 : Memref sig .tc .vmem S600x64 .f32) (harg2 : arg2.IsWhole) (arg3 : Memref sig .tc .vmem S600x64 .bf16) (harg3 : arg3.IsWhole) (arg4 : Memref sig .tc .vmem S600x64 .f32) (harg4 : arg4.IsWhole) (arg5 : Memref sig .tc .vmem S2000x64 .bf16) (harg5 : arg5.IsWhole) (arg6 : Memref sig .tc .vmem S600x1 .f32) (harg6 : arg6.IsWhole) (arg7 : Memref sig .tc .vmem S600x1 .f32) (harg7 : arg7.IsWhole) (hc0 : ¬cond1_0 i) (hc1 : cond1_1 i)
    (x0 : Vec F S600x64 .f32) (x1 : Vec F S600x64 .bf16) (x2 : Vec F S600x64 .f32) (x3 : Vec F S2000x64 .bf16) (xs0 : Vec F S600x1 .f32) :
    Σ' (L4 : List (View.Piece (Elt F) S600x1 .f32)), { LS0 : List (View.Piece (Elt F) S600x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__infonce_kernel i arg2 harg2 arg3 harg3 arg4 harg4 arg5 harg5 arg6 harg6 arg7 harg7) K } := by
  refine ⟨?_, ?_, fun E K => ?run⟩
  case run =>
    simp only [cc1__infonce_kernel_eq_skeleton]; unfold cc1__infonce_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

def out1_A_4 (c : Dev nD) (i : grid1.Coords) (arg2 : Memref sig .tc .vmem S600x64 .f32) (harg2 : arg2.IsWhole) (arg3 : Memref sig .tc .vmem S600x64 .bf16) (harg3 : arg3.IsWhole) (arg4 : Memref sig .tc .vmem S600x64 .f32) (harg4 : arg4.IsWhole) (arg5 : Memref sig .tc .vmem S2000x64 .bf16) (harg5 : arg5.IsWhole) (arg6 : Memref sig .tc .vmem S600x1 .f32) (harg6 : arg6.IsWhole) (arg7 : Memref sig .tc .vmem S600x1 .f32) (harg7 : arg7.IsWhole) (hc0 : cond1_0 i) (hc1 : ¬cond1_1 i)
    (x0 : Vec F S600x64 .f32) (x1 : Vec F S600x64 .bf16) (x2 : Vec F S600x64 .f32) (x3 : Vec F S2000x64 .bf16) : Vec F S600x1 .f32 :=
  VO1_4.read (Elt F) (VO1_4.writes (Elt F) VO1_4.junk (kernelRun1_A c i arg2 harg2 arg3 harg3 arg4 harg4 arg5 harg5 arg6 harg6 arg7 harg7 hc0 hc1 x0 x1 x2 x3).1)

theorem scover1_A_0 (c : Dev nD) (i : grid1.Coords) (arg2 : Memref sig .tc .vmem S600x64 .f32) (harg2 : arg2.IsWhole) (arg3 : Memref sig .tc .vmem S600x64 .bf16) (harg3 : arg3.IsWhole) (arg4 : Memref sig .tc .vmem S600x64 .f32) (harg4 : arg4.IsWhole) (arg5 : Memref sig .tc .vmem S2000x64 .bf16) (harg5 : arg5.IsWhole) (arg6 : Memref sig .tc .vmem S600x1 .f32) (harg6 : arg6.IsWhole) (arg7 : Memref sig .tc .vmem S600x1 .f32) (harg7 : arg7.IsWhole) (hc0 : cond1_0 i) (hc1 : ¬cond1_1 i)
    (x0 : Vec F S600x64 .f32) (x1 : Vec F S600x64 .bf16) (x2 : Vec F S600x64 .f32) (x3 : Vec F S2000x64 .bf16) (y : S600x1.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S600x1.size (by sl_kernel_rfl) y

def sout1_A_0 (c : Dev nD) (i : grid1.Coords) (arg2 : Memref sig .tc .vmem S600x64 .f32) (harg2 : arg2.IsWhole) (arg3 : Memref sig .tc .vmem S600x64 .bf16) (harg3 : arg3.IsWhole) (arg4 : Memref sig .tc .vmem S600x64 .f32) (harg4 : arg4.IsWhole) (arg5 : Memref sig .tc .vmem S2000x64 .bf16) (harg5 : arg5.IsWhole) (arg6 : Memref sig .tc .vmem S600x1 .f32) (harg6 : arg6.IsWhole) (arg7 : Memref sig .tc .vmem S600x1 .f32) (harg7 : arg7.IsWhole) (hc0 : cond1_0 i) (hc1 : ¬cond1_1 i)
    (x0 : Vec F S600x64 .f32) (x1 : Vec F S600x64 .bf16) (x2 : Vec F S600x64 .f32) (x3 : Vec F S2000x64 .bf16) : Vec F S600x1 .f32 :=
  VS1_0.read (Elt F) (VS1_0.writes (Elt F) VS1_0.junk (kernelRun1_A c i arg2 harg2 arg3 harg3 arg4 harg4 arg5 harg5 arg6 harg6 arg7 harg7 hc0 hc1 x0 x1 x2 x3).2.1)

def out1_B_4 (c : Dev nD) (i : grid1.Coords) (arg2 : Memref sig .tc .vmem S600x64 .f32) (harg2 : arg2.IsWhole) (arg3 : Memref sig .tc .vmem S600x64 .bf16) (harg3 : arg3.IsWhole) (arg4 : Memref sig .tc .vmem S600x64 .f32) (harg4 : arg4.IsWhole) (arg5 : Memref sig .tc .vmem S2000x64 .bf16) (harg5 : arg5.IsWhole) (arg6 : Memref sig .tc .vmem S600x1 .f32) (harg6 : arg6.IsWhole) (arg7 : Memref sig .tc .vmem S600x1 .f32) (harg7 : arg7.IsWhole) (hc0 : ¬cond1_0 i) (hc1 : ¬cond1_1 i)
    (x0 : Vec F S600x64 .f32) (x1 : Vec F S600x64 .bf16) (x2 : Vec F S600x64 .f32) (x3 : Vec F S2000x64 .bf16) (xs0 : Vec F S600x1 .f32) : Vec F S600x1 .f32 :=
  VO1_4.read (Elt F) (VO1_4.writes (Elt F) VO1_4.junk (kernelRun1_B c i arg2 harg2 arg3 harg3 arg4 harg4 arg5 harg5 arg6 harg6 arg7 harg7 hc0 hc1 x0 x1 x2 x3 xs0).1)

theorem scover1_B_0 (c : Dev nD) (i : grid1.Coords) (arg2 : Memref sig .tc .vmem S600x64 .f32) (harg2 : arg2.IsWhole) (arg3 : Memref sig .tc .vmem S600x64 .bf16) (harg3 : arg3.IsWhole) (arg4 : Memref sig .tc .vmem S600x64 .f32) (harg4 : arg4.IsWhole) (arg5 : Memref sig .tc .vmem S2000x64 .bf16) (harg5 : arg5.IsWhole) (arg6 : Memref sig .tc .vmem S600x1 .f32) (harg6 : arg6.IsWhole) (arg7 : Memref sig .tc .vmem S600x1 .f32) (harg7 : arg7.IsWhole) (hc0 : ¬cond1_0 i) (hc1 : ¬cond1_1 i)
    (x0 : Vec F S600x64 .f32) (x1 : Vec F S600x64 .bf16) (x2 : Vec F S600x64 .f32) (x3 : Vec F S2000x64 .bf16) (xs0 : Vec F S600x1 .f32) (y : S600x1.Idx) :
    ∃ pc ∈ (kernelRun1_B c i arg2 harg2 arg3 harg3 arg4 harg4 arg5 harg5 arg6 harg6 arg7 harg7 hc0 hc1 x0 x1 x2 x3 xs0).2.1, y ∈ pc.1.set :=
  View.cover_of_tiledL (kernelRun1_B c i arg2 harg2 arg3 harg3 arg4 harg4 arg5 harg5 arg6 harg6 arg7 harg7 hc0 hc1 x0 x1 x2 x3 xs0).2.1 S600x1.size (by sl_kernel_rfl) y

def sout1_B_0 (c : Dev nD) (i : grid1.Coords) (arg2 : Memref sig .tc .vmem S600x64 .f32) (harg2 : arg2.IsWhole) (arg3 : Memref sig .tc .vmem S600x64 .bf16) (harg3 : arg3.IsWhole) (arg4 : Memref sig .tc .vmem S600x64 .f32) (harg4 : arg4.IsWhole) (arg5 : Memref sig .tc .vmem S2000x64 .bf16) (harg5 : arg5.IsWhole) (arg6 : Memref sig .tc .vmem S600x1 .f32) (harg6 : arg6.IsWhole) (arg7 : Memref sig .tc .vmem S600x1 .f32) (harg7 : arg7.IsWhole) (hc0 : ¬cond1_0 i) (hc1 : ¬cond1_1 i)
    (x0 : Vec F S600x64 .f32) (x1 : Vec F S600x64 .bf16) (x2 : Vec F S600x64 .f32) (x3 : Vec F S2000x64 .bf16) (xs0 : Vec F S600x1 .f32) : Vec F S600x1 .f32 :=
  VS1_0.read (Elt F) (VS1_0.writes (Elt F) VS1_0.junk (kernelRun1_B c i arg2 harg2 arg3 harg3 arg4 harg4 arg5 harg5 arg6 harg6 arg7 harg7 hc0 hc1 x0 x1 x2 x3 xs0).2.1)

theorem cover1_C_4 (c : Dev nD) (i : grid1.Coords) (arg2 : Memref sig .tc .vmem S600x64 .f32) (harg2 : arg2.IsWhole) (arg3 : Memref sig .tc .vmem S600x64 .bf16) (harg3 : arg3.IsWhole) (arg4 : Memref sig .tc .vmem S600x64 .f32) (harg4 : arg4.IsWhole) (arg5 : Memref sig .tc .vmem S2000x64 .bf16) (harg5 : arg5.IsWhole) (arg6 : Memref sig .tc .vmem S600x1 .f32) (harg6 : arg6.IsWhole) (arg7 : Memref sig .tc .vmem S600x1 .f32) (harg7 : arg7.IsWhole) (hc0 : ¬cond1_0 i) (hc1 : cond1_1 i)
    (x0 : Vec F S600x64 .f32) (x1 : Vec F S600x64 .bf16) (x2 : Vec F S600x64 .f32) (x3 : Vec F S2000x64 .bf16) (xs0 : Vec F S600x1 .f32) (y : S600x1.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S600x1.size (by sl_kernel_rfl) y

def out1_C_4 (c : Dev nD) (i : grid1.Coords) (arg2 : Memref sig .tc .vmem S600x64 .f32) (harg2 : arg2.IsWhole) (arg3 : Memref sig .tc .vmem S600x64 .bf16) (harg3 : arg3.IsWhole) (arg4 : Memref sig .tc .vmem S600x64 .f32) (harg4 : arg4.IsWhole) (arg5 : Memref sig .tc .vmem S2000x64 .bf16) (harg5 : arg5.IsWhole) (arg6 : Memref sig .tc .vmem S600x1 .f32) (harg6 : arg6.IsWhole) (arg7 : Memref sig .tc .vmem S600x1 .f32) (harg7 : arg7.IsWhole) (hc0 : ¬cond1_0 i) (hc1 : cond1_1 i)
    (x0 : Vec F S600x64 .f32) (x1 : Vec F S600x64 .bf16) (x2 : Vec F S600x64 .f32) (x3 : Vec F S2000x64 .bf16) (xs0 : Vec F S600x1 .f32) : Vec F S600x1 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs0).1)

theorem scover1_C_0 (c : Dev nD) (i : grid1.Coords) (arg2 : Memref sig .tc .vmem S600x64 .f32) (harg2 : arg2.IsWhole) (arg3 : Memref sig .tc .vmem S600x64 .bf16) (harg3 : arg3.IsWhole) (arg4 : Memref sig .tc .vmem S600x64 .f32) (harg4 : arg4.IsWhole) (arg5 : Memref sig .tc .vmem S2000x64 .bf16) (harg5 : arg5.IsWhole) (arg6 : Memref sig .tc .vmem S600x1 .f32) (harg6 : arg6.IsWhole) (arg7 : Memref sig .tc .vmem S600x1 .f32) (harg7 : arg7.IsWhole) (hc0 : ¬cond1_0 i) (hc1 : cond1_1 i)
    (x0 : Vec F S600x64 .f32) (x1 : Vec F S600x64 .bf16) (x2 : Vec F S600x64 .f32) (x3 : Vec F S2000x64 .bf16) (xs0 : Vec F S600x1 .f32) (y : S600x1.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S600x1.size (by sl_kernel_rfl) y

def sout1_C_0 (c : Dev nD) (i : grid1.Coords) (arg2 : Memref sig .tc .vmem S600x64 .f32) (harg2 : arg2.IsWhole) (arg3 : Memref sig .tc .vmem S600x64 .bf16) (harg3 : arg3.IsWhole) (arg4 : Memref sig .tc .vmem S600x64 .f32) (harg4 : arg4.IsWhole) (arg5 : Memref sig .tc .vmem S2000x64 .bf16) (harg5 : arg5.IsWhole) (arg6 : Memref sig .tc .vmem S600x1 .f32) (harg6 : arg6.IsWhole) (arg7 : Memref sig .tc .vmem S600x1 .f32) (harg7 : arg7.IsWhole) (hc0 : ¬cond1_0 i) (hc1 : cond1_1 i)
    (x0 : Vec F S600x64 .f32) (x1 : Vec F S600x64 .bf16) (x2 : Vec F S600x64 .f32) (x3 : Vec F S2000x64 .bf16) (xs0 : Vec F S600x1 .f32) : Vec F S600x1 .f32 :=
  VS1_0.read (Elt F) (VS1_0.writes (Elt F) VS1_0.junk (kernelRun1_C c i arg2 harg2 arg3 harg3 arg4 harg4 arg5 harg5 arg6 harg6 arg7 harg7 hc0 hc1 x0 x1 x2 x3 xs0).2.1)

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def outsAt1 (c : Dev nD) : (n : ℕ) → n < cfg1.N → Vec F S600x1 .f32 × Vec F S600x1 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (by decide : ¬(0 % 6 = 5)) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (by decide : ¬(0 % 6 = 5)) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 6 = 0 then
      if h1 : (n + 1) % 6 = 5 then False.elim (by omega)
      else (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 6 = 5 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val % 6 = 0) (h1 : ¬t.val % 6 = 5) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 6 = 0) (h1 : ¬t.val % 6 = 5) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 6 = 0) (h1 : t.val % 6 = 5) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ rest1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ rest1 (F := F) c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem owed1 (c : Dev nD) (t) : (dat1 V c).owed t = 0 := by dsimp only [dat1]
theorem q1 (c : Dev nD) (w : Fin cfg1.W) : (dat1 V c).q w = fullShare := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

theorem leaves1_0 (c : Dev nD) (t : Fin cfg1.N) :
    (dat1 V c).leavesExact 0 t = owns (c : Thread nD τ) (ms1_0 t) fullShare (iblk1 V c 0 t) := by
  unfold Dat.leavesExact; rw [show cfg1.idle 0 (cfg1.grid.coords t) = false from rfl, after1_0]
theorem leaves1_1 (c : Dev nD) (t : Fin cfg1.N) :
    (dat1 V c).leavesExact 1 t = owns (c : Thread nD τ) (ms1_1 t) fullShare (iblk1 V c 1 t) := by
  unfold Dat.leavesExact; rw [show cfg1.idle 1 (cfg1.grid.coords t) = false from rfl, after1_1]
theorem leaves1_2 (c : Dev nD) (t : Fin cfg1.N) :
    (dat1 V c).leavesExact 2 t = owns (c : Thread nD τ) (ms1_2 t) fullShare (iblk1 V c 2 t) := by
  unfold Dat.leavesExact; rw [show cfg1.idle 2 (cfg1.grid.coords t) = false from rfl, after1_2]
theorem leaves1_3 (c : Dev nD) (t : Fin cfg1.N) :
    (dat1 V c).leavesExact 3 t = owns (c : Thread nD τ) (ms1_3 t) fullShare (iblk1 V c 3 t) := by
  unfold Dat.leavesExact; rw [show cfg1.idle 3 (cfg1.grid.coords t) = false from rfl, after1_3]

theorem leaves1_4_idle (c : Dev nD) (t : Fin cfg1.N) (h1 : ¬t.val % 6 = 5) :
    (dat1 V c).leavesExact 4 t = iprop(∃ d, owns (c : Thread nD τ) (ms1_4 t) fullShare ((dat1 V c).before 4 t d)) :=
  Dat.leavesExact_idle (dat1 V c) 4 t (idle1_4 t h1) (noFlush1_4 t h1)

theorem leaves1_4_live (c : Dev nD) (t : Fin cfg1.N) (h1 : t.val % 6 = 5) :
    (dat1 V c).leavesExact 4 t = owns (c : Thread nD τ) (ms1_4 t) fullShare ((outsAt1 V c t.val t.isLt).1) := by
  unfold Dat.leavesExact; rw [live1_4 t h1, after1_4]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  by_cases h0 : t.val % 6 = 0
  · have h1 : ¬t.val % 6 = 5 := by omega
    rw [leaves1_0 V c t, leaves1_1 V c t, leaves1_2 V c t, leaves1_3 V c t, leaves1_4_idle V c t h1]
    rw [outsAt1_A V c t h0 h1]
    unfold sout1_A_0; (try dsimp only)
    by_cases hz : t.val = 0
    · rw [PhiS1_castSucc V c t, PhiS1_zero V c _ _ hz, PhiA1_eq]
      iintro ⟨⟨⟨HS0, Hr⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A_0 c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A_0 c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [PhiS1_castSucc V c t, PhiS1_pos V c _ _ hz]
    by_cases h1 : t.val % 6 = 5
    · rw [leaves1_0 V c t, leaves1_1 V c t, leaves1_2 V c t, leaves1_3 V c t, leaves1_4_live V c t h1]
      rw [outsAt1_C V c t h0 h1]
      unfold out1_C_4 sout1_C_0; (try dsimp only)
      iintro ⟨⟨⟨HS0, Hr⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_C_0 c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _)
    · rw [leaves1_0 V c t, leaves1_1 V c t, leaves1_2 V c t, leaves1_3 V c t, leaves1_4_idle V c t h1]
      rw [outsAt1_B V c t h0 h1]
      unfold sout1_B_0; (try dsimp only)
      iintro ⟨⟨⟨HS0, Hr⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_B_0 c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

theorem hout1 (c : Dev nD) : (dat1 V c).Φ (Fin.last cfg1.N) ⊢ Pipeline.ΦA spec1 c :=
  Phi_out1 V c _ (by rw [Fin.val_last]; exact (by decide : grid1.N ≠ 0))

end Cert.KernelIdeal.Hand

end
-- ==== Proof.KI.Fusion.lean ====
import proofs.«133221_j41652592836945_2_alg».proof.Proof.Gen.KernelIdeal.Launch
import proofs.«133221_j41652592836945_2_alg».proof.Proof.Gen.KernelIdeal.Skeleton
import proofs.«133221_j41652592836945_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_big : Rect S512x64 := Rect.unit (s := S512x64) ![0, 0] S512x64.size inb_S512x64_S512x64_0_0
abbrev r7_row : Rect S1x64 := Rect.unit (s := S1x64) ![0, 0] S1x64.size inb_S1x64_S1x64_0_0
abbrev r7_one : Rect S1x1 := Rect.unit (s := S1x1) ![0, 0] S1x1.size inb_S1x1_S1x1_0_0

def out7_9 (x0 x1 x2 : Vec F S512x64 .f32) (x3 : Vec F S1x64 .f32) (x4 : Vec F S1x1 .f32) (x5 : Vec F S1x64 .f32)
    (x6 : Vec F S1x1 .f32) (x7 : Vec F S1x64 .f32) (x8 : Vec F S1x1 .f32) : Vec F S512x64 .f32 :=
  View.canon [⟨r7_big, k7_pay1 (k7_pay2 (View.ld x0 r7_big)) (k7_pay3 (View.ld x1 r7_big)) (k7_pay4 (View.ld x2 r7_big))
    (k7_pay5 (View.ld x2 r7_big) (View.ld x7 r7_row) (View.ld x8 r7_one))
    (k7_pay6 (View.ld x0 r7_big) (View.ld x3 r7_row) (View.ld x4 r7_one))
    (k7_pay7 (View.ld x1 r7_big) (View.ld x5 r7_row) (View.ld x6 r7_one))⟩]

theorem cover7_9 (p0 : Vec F S512x64 .f32) (y : S512x64.Idx) :
    ∃ pc ∈ ([⟨r7_big, p0⟩] : List (View.Piece (Elt F) S512x64 .f32)), y ∈ pc.1.set :=
  View.cover_of_tiled [⟨r7_big, p0⟩] S512x64.size (by rfl) y

set_option maxHeartbeats 4000000 in

theorem sound_kernel7 (c : Dev nD) (E : Set ℕ) (i : grid7.Coords)
    (arg1 : Memref sig .tc .vmem S512x64 .f32) (harg1 : arg1.IsWhole) (arg2 : Memref sig .tc .vmem S512x64 .f32) (harg2 : arg2.IsWhole)
    (arg3 : Memref sig .tc .vmem S512x64 .f32) (harg3 : arg3.IsWhole) (arg4 : Memref sig .tc .vmem S1x64 .f32) (harg4 : arg4.IsWhole)
    (arg5 : Memref sig .tc .vmem S1x1 .f32) (harg5 : arg5.IsWhole) (arg6 : Memref sig .tc .vmem S1x64 .f32) (harg6 : arg6.IsWhole)
    (arg7 : Memref sig .tc .vmem S1x1 .f32) (harg7 : arg7.IsWhole) (arg8 : Memref sig .tc .vmem S1x64 .f32) (harg8 : arg8.IsWhole)
    (arg9 : Memref sig .tc .vmem S1x1 .f32) (harg9 : arg9.IsWhole) (arg10 : Memref sig .tc .vmem S512x64 .f32) (harg10 : arg10.IsWhole)
    (x0 x1 x2 : Vec F S512x64 .f32) (x3 : Vec F S1x64 .f32) (x4 : Vec F S1x1 .f32) (x5 : Vec F S1x64 .f32)
    (x6 : Vec F S1x1 .f32) (x7 : Vec F S1x64 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (out7_9 x0 x1 x2 x3 x4 x5 x6 x7 x8)) -∗ K ⟨⟩))
      ⊢ wp frame (wpE (defs₀ (F := F)) Variants.none c none) E
          (cc7__fusion_kernel i arg1 harg1 arg2 harg2 arg3 harg3 arg4 harg4 arg5 harg5 arg6 harg6 arg7 harg7 arg8 harg8 arg9 harg9 arg10 harg10) K := by
  simp only [cc7__fusion_kernel_eq_skeleton]; unfold cc7__fusion_kernel_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover7_9 _)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => out7_9 (iblk7 V c 0 t) (iblk7 V c 1 t) (iblk7 V c 2 t) (iblk7 V c 3 t) (iblk7 V c 4 t)
        (iblk7 V c 5 t) (iblk7 V c 6 t) (iblk7 V c 7 t) (iblk7 V c 8 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem owed7 (c : Dev nD) (t) : (dat7 V c).owed t = 0 := by dsimp only [dat7]

theorem q7 (c : Dev nD) (w : Fin cfg7.W) : (dat7 V c).q w = fullShare := by dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = iblk7 V c 7 t := by dsimp only [dat7]
theorem after7_8 (c : Dev nD) (t : Fin cfg7.N) : (dat7 V c).after 8 t = iblk7 V c 8 t := by dsimp only [dat7]
theorem after7_9 (c : Dev nD) (t : Fin cfg7.N) : (dat7 V c).after 9 t
    = out7_9 (iblk7 V c 0 t) (iblk7 V c 1 t) (iblk7 V c 2 t) (iblk7 V c 3 t) (iblk7 V c 4 t)
        (iblk7 V c 5 t) (iblk7 V c 6 t) (iblk7 V c 7 t) (iblk7 V c 8 t) := by dsimp only [dat7]

theorem before7_0 (c : Dev nD) (t : Fin cfg7.N) (d) : (dat7 V c).before 0 t d = iblk7 V c 0 t :=
  ((dat7 V c).before_in_eq_fetched 0 rfl (fun _ => rfl) (fun _ _ _ => rfl)
    (fun t => by rw [after7_0]; unfold Dat.blockOf iblk7; rw [A_eq7]; try rfl) t d).trans
    (by unfold Dat.fetched Dat.blockOf iblk7; rw [A_eq7]; try rfl)
theorem before7_1 (c : Dev nD) (t : Fin cfg7.N) (d) : (dat7 V c).before 1 t d = iblk7 V c 1 t :=
  ((dat7 V c).before_in_eq_fetched 1 rfl (fun _ => rfl) (fun _ _ _ => rfl)
    (fun t => by rw [after7_1]; unfold Dat.blockOf iblk7; rw [A_eq7]; try rfl) t d).trans
    (by unfold Dat.fetched Dat.blockOf iblk7; rw [A_eq7]; try rfl)
theorem before7_2 (c : Dev nD) (t : Fin cfg7.N) (d) : (dat7 V c).before 2 t d = iblk7 V c 2 t :=
  ((dat7 V c).before_in_eq_fetched 2 rfl (fun _ => rfl) (fun _ _ _ => rfl)
    (fun t => by rw [after7_2]; unfold Dat.blockOf iblk7; rw [A_eq7]; try rfl) t d).trans
    (by unfold Dat.fetched Dat.blockOf iblk7; rw [A_eq7]; try rfl)
theorem before7_3 (c : Dev nD) (t : Fin cfg7.N) (d) : (dat7 V c).before 3 t d = iblk7 V c 3 t :=
  ((dat7 V c).before_in_eq_fetched 3 rfl (fun _ => rfl) (fun _ _ _ => rfl)
    (fun t => by rw [after7_3]; unfold Dat.blockOf iblk7; rw [A_eq7]; try rfl) t d).trans
    (by unfold Dat.fetched Dat.blockOf iblk7; rw [A_eq7]; try rfl)
theorem before7_4 (c : Dev nD) (t : Fin cfg7.N) (d) : (dat7 V c).before 4 t d = iblk7 V c 4 t :=
  ((dat7 V c).before_in_eq_fetched 4 rfl (fun _ => rfl) (fun _ _ _ => rfl)
    (fun t => by rw [after7_4]; unfold Dat.blockOf iblk7; rw [A_eq7]; try rfl) t d).trans
    (by unfold Dat.fetched Dat.blockOf iblk7; rw [A_eq7]; try rfl)
theorem before7_5 (c : Dev nD) (t : Fin cfg7.N) (d) : (dat7 V c).before 5 t d = iblk7 V c 5 t :=
  ((dat7 V c).before_in_eq_fetched 5 rfl (fun _ => rfl) (fun _ _ _ => rfl)
    (fun t => by rw [after7_5]; unfold Dat.blockOf iblk7; rw [A_eq7]; try rfl) t d).trans
    (by unfold Dat.fetched Dat.blockOf iblk7; rw [A_eq7]; try rfl)
theorem before7_6 (c : Dev nD) (t : Fin cfg7.N) (d) : (dat7 V c).before 6 t d = iblk7 V c 6 t :=
  ((dat7 V c).before_in_eq_fetched 6 rfl (fun _ => rfl) (fun _ _ _ => rfl)
    (fun t => by rw [after7_6]; unfold Dat.blockOf iblk7; rw [A_eq7]; try rfl) t d).trans
    (by unfold Dat.fetched Dat.blockOf iblk7; rw [A_eq7]; try rfl)
theorem before7_7 (c : Dev nD) (t : Fin cfg7.N) (d) : (dat7 V c).before 7 t d = iblk7 V c 7 t :=
  ((dat7 V c).before_in_eq_fetched 7 rfl (fun _ => rfl) (fun _ _ _ => rfl)
    (fun t => by rw [after7_7]; unfold Dat.blockOf iblk7; rw [A_eq7]; try rfl) t d).trans
    (by unfold Dat.fetched Dat.blockOf iblk7; rw [A_eq7]; try rfl)
theorem before7_8 (c : Dev nD) (t : Fin cfg7.N) (d) : (dat7 V c).before 8 t d = iblk7 V c 8 t :=
  ((dat7 V c).before_in_eq_fetched 8 rfl (fun _ => rfl) (fun _ _ _ => rfl)
    (fun t => by rw [after7_8]; unfold Dat.blockOf iblk7; rw [A_eq7]; try rfl) t d).trans
    (by unfold Dat.fetched Dat.blockOf iblk7; rw [A_eq7]; try rfl)

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d))
    ∗ (∃ d, owns (c : Thread nD τ) (st7_8 t) fullShare ((dat7 V c).before 8 t d))
    ∗ (∃ d, owns (c : Thread nD τ) (st7_9 t) fullShare ((dat7 V c).before 9 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t)
    ∗ owns (c : Thread nD τ) (st7_8 t) fullShare ((dat7 V c).after 8 t)
    ∗ owns (c : Thread nD τ) (st7_9 t) fullShare ((dat7 V c).after 9 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6, before7_7, before7_8]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7, after7_8, after7_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel7 c Set.univ _ _ _ _ _ _ _ _ _ _ _ _ _ _ _ _ _ _ _ _ _
    (iblk7 V c 0 t) (iblk7 V c 1 t) (iblk7 V c 2 t) (iblk7 V c 3 t) (iblk7 V c 4 t)
    (iblk7 V c 5 t) (iblk7 V c 6 t) (iblk7 V c 7 t) (iblk7 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation7 (c : Dev nD) : BodyObligation (dat7 (F := F) V c) (defs₀ (F := F)) Variants.none () Set.univ := fun t => by
  rw [bigSep_W7, bigSep_W7]
  exact sound_body7 V c t

theorem hin7 (c : Dev nD) : Pipeline.ΦA spec7 c ⊢ (dat7 V c).Φ 0 := by
  show Pipeline.ΦA spec7 c ⊢ Pipeline.ΦA spec7 c
  exact .rfl
theorem hout7 (c : Dev nD) : (dat7 V c).Φ (Fin.last cfg7.N) ⊢ Pipeline.ΦA spec7 c := by
  show Pipeline.ΦA spec7 c ⊢ Pipeline.ΦA spec7 c
  exact .rfl

end Cert.KernelIdeal.Hand

end
-- ==== Proof.KI.Fold.lean ====
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«133221_j41652592836945_2_alg».proof.Proof.KI.Gate
import proofs.«133221_j41652592836945_2_alg».proof.Proof.KI.Nce1
import proofs.«133221_j41652592836945_2_alg».proof.Proof.KI.Nce2
import proofs.«133221_j41652592836945_2_alg».proof.Proof.KI.Nce3
import proofs.«133221_j41652592836945_2_alg».proof.Proof.KI.Nce4
import proofs.«133221_j41652592836945_2_alg».proof.Proof.KI.Nce5
import proofs.«133221_j41652592836945_2_alg».proof.Proof.KI.Nce6
import proofs.«133221_j41652592836945_2_alg».proof.Proof.KI.Fusion
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)

abbrev V0 : (c : Dev nD) → (b : Ref sig .tc) → Buf (Elt F) ((c : Thread nD τ).loc b) := fun c b => W0 m c b

def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

abbrev W2 : Dev nD → Valuation τ sig (Elt F) := fun c => StableHlo.after hostOps1 (W1 m c)
abbrev V2 : (c : Dev nD) → (b : Ref sig .tc) → Buf (Elt F) ((c : Thread nD τ).loc b) := fun c b => W2 m c b

abbrev hostOps1_W : List (Ref sig .tc) := [main_v1, main_c, main_v2, main_v3, main_c_0, main_v4, main_v5, main_v6, main_v7, main_v8, main_v9, main_v10, main_cst, main_v11, main_v12, main_v13, main_v14, main_c_1, main_v15, main_v16, main_c_2, main_v17, main_v18, main_v19, main_v20, main_v21, main_v22, main_v23, main_cst_3, main_v24, main_v25, main_v26, main_v27, main_v28, main_c_4, main_v29, main_v30, main_c_5, main_v31, main_v32, main_v33, main_v34, main_v35, main_v36, main_v37, main_cst_6, main_v38, main_v39, main_v40, main_v41, main_c_7, main_v42, main_v43, main_c_8, main_v44, main_v45, main_v46, main_v47, main_v48, main_v49, main_v50, main_cst_9, main_v51, main_v52, main_v53, main_v54, main_v55, main_v56, main_v57, main_v58, main_cst_10, main_v59, main_cst_11, main_v60, main_v61, main_v62, main_c_12, main_v63, main_v64, main_c_13, main_v65, main_v66, main_v67, main_v68, main_v69, main_v70, main_v71, main_cst_14, main_v72, main_v73, main_v74, main_v75, main_v76, main_c_15, main_v77, main_v78, main_c_16, main_v79, main_v80, main_v81, main_v82, main_v83, main_v84, main_v85, main_cst_17, main_v86, main_v87, main_v88, main_v89, main_v90, main_v91, main_v92, main_v93, main_cst_18, main_v94, main_cst_19, main_v95, main_v96, main_v97, main_c_20, main_v98, main_v99, main_c_21, main_v100, main_v101, main_v102, main_v103, main_v104, main_v105, main_v106, main_cst_22, main_v107, main_v108, main_v109, main_v110, main_c_23, main_v111, main_v112, main_c_24, main_v113, main_v114, main_v115, main_v116, main_v117, main_v118, main_v119, main_cst_25, main_v120, main_v121, main_v122, main_v123, main_v124, main_c_26, main_v125, main_v126, main_c_27, main_v127, main_v128, main_v129, main_v130, main_v131, main_v132, main_v133, main_cst_28, main_v134, main_v135, main_v136, main_v137, main_c_29, main_v138, main_v139, main_c_30, main_v140, main_v141, main_v142, main_v143, main_v144, main_v145, main_v146, main_cst_31, main_v147, main_v148, main_v149, main_v150, main_v151, main_v152, main_v153, main_v154, main_cst_32, main_v155, main_cst_33, main_v156, main_v157, main_v158, main_v159, main_c_34, main_v160, main_v161, main_c_35, main_v162, main_v163, main_v164, main_v165, main_v166, main_v167, main_v168, main_cst_36, main_v169, main_v170, main_v171, main_c_37, main_v172, main_v173, main_c_38, main_v174, main_v175, main_v176, main_v177, main_v178, main_v179, main_v180, main_v181]
set_option maxHeartbeats 4000000 in
theorem hostOps1_writes : (hostOps1 : List (HloOp τ sig (Elt F))).Forall fun op => op.writes ⊆ (hostOps1_W.map (Proc.devRef (τ := τ) .tc)).toFinset := by
  simp only [List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide +kernel)
theorem hostOps1_fresh : (hostOps1 : List (HloOp τ sig (Elt F))).Forall fun op => op.fresh = ∅ := by
  simp only [List.Forall]; repeat' constructor

theorem W2_of (c : Dev nD) (r : Ref sig .tc) (h : r ∉ hostOps1_W) : W2 m c (Proc.devRef .tc r) = W1 m c (Proc.devRef .tc r) :=
  StableHlo.after_of_writes_sub hostOps1 _ hostOps1_writes h

abbrev W3 : Dev nD → Valuation τ sig (Elt F) := fun c => StableHlo.after hostOps1_1 (W2 m c)
abbrev V3 : (c : Dev nD) → (b : Ref sig .tc) → Buf (Elt F) ((c : Thread nD τ).loc b) := fun c b => W3 m c b

abbrev hostOps1_1_W : List (Ref sig .tc) := [main_call0_v0, main_call0_cst, main_call0_v1, main_call0_v2, main_v182]
theorem hostOps1_1_writes : (hostOps1_1 : List (HloOp τ sig (Elt F))).Forall fun op => op.writes ⊆ (hostOps1_1_W.map (Proc.devRef (τ := τ) .tc)).toFinset := by
  simp only [List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide +kernel)
theorem hostOps1_1_fresh : (hostOps1_1 : List (HloOp τ sig (Elt F))).Forall fun op => op.fresh = ∅ := by
  simp only [List.Forall]; repeat' constructor

theorem W3_of (c : Dev nD) (r : Ref sig .tc) (h : r ∉ hostOps1_1_W) : W3 m c (Proc.devRef .tc r) = W2 m c (Proc.devRef .tc r) :=
  StableHlo.after_of_writes_sub hostOps1_1 _ hostOps1_1_writes h

abbrev W4 : Dev nD → Valuation τ sig (Elt F) := fun c => StableHlo.after hostOps1_2 (W3 m c)
abbrev V4 : (c : Dev nD) → (b : Ref sig .tc) → Buf (Elt F) ((c : Thread nD τ).loc b) := fun c b => W4 m c b

abbrev hostOps1_2_W : List (Ref sig .tc) := [main_cst_39, main_v183, main_v184, main_v185, main_v186]
theorem hostOps1_2_writes : (hostOps1_2 : List (HloOp τ sig (Elt F))).Forall fun op => op.writes ⊆ (hostOps1_2_W.map (Proc.devRef (τ := τ) .tc)).toFinset := by
  simp only [List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide +kernel)
theorem hostOps1_2_fresh : (hostOps1_2 : List (HloOp τ sig (Elt F))).Forall fun op => op.fresh = ∅ := by
  simp only [List.Forall]; repeat' constructor

theorem W4_of (c : Dev nD) (r : Ref sig .tc) (h : r ∉ hostOps1_2_W) : W4 m c (Proc.devRef .tc r) = W3 m c (Proc.devRef .tc r) :=
  StableHlo.after_of_writes_sub hostOps1_2 _ hostOps1_2_writes h

abbrev W5 : Dev nD → Valuation τ sig (Elt F) := fun c => StableHlo.after hostOps1_3 (W4 m c)
abbrev V5 : (c : Dev nD) → (b : Ref sig .tc) → Buf (Elt F) ((c : Thread nD τ).loc b) := fun c b => W5 m c b

abbrev hostOps1_3_W : List (Ref sig .tc) := [main_call1_v0, main_call1_cst, main_call1_v1, main_call1_v2, main_v187]
theorem hostOps1_3_writes : (hostOps1_3 : List (HloOp τ sig (Elt F))).Forall fun op => op.writes ⊆ (hostOps1_3_W.map (Proc.devRef (τ := τ) .tc)).toFinset := by
  simp only [List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide +kernel)
theorem hostOps1_3_fresh : (hostOps1_3 : List (HloOp τ sig (Elt F))).Forall fun op => op.fresh = ∅ := by
  simp only [List.Forall]; repeat' constructor

theorem W5_of (c : Dev nD) (r : Ref sig .tc) (h : r ∉ hostOps1_3_W) : W5 m c (Proc.devRef .tc r) = W4 m c (Proc.devRef .tc r) :=
  StableHlo.after_of_writes_sub hostOps1_3 _ hostOps1_3_writes h

abbrev W6 : Dev nD → Valuation τ sig (Elt F) := fun c => StableHlo.after hostOps1_4 (W5 m c)
abbrev V6 : (c : Dev nD) → (b : Ref sig .tc) → Buf (Elt F) ((c : Thread nD τ).loc b) := fun c b => W6 m c b

abbrev hostOps1_4_W : List (Ref sig .tc) := [main_cst_40, main_v188, main_v189, main_v190, main_v191]
theorem hostOps1_4_writes : (hostOps1_4 : List (HloOp τ sig (Elt F))).Forall fun op => op.writes ⊆ (hostOps1_4_W.map (Proc.devRef (τ := τ) .tc)).toFinset := by
  simp only [List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide +kernel)
theorem hostOps1_4_fresh : (hostOps1_4 : List (HloOp τ sig (Elt F))).Forall fun op => op.fresh = ∅ := by
  simp only [List.Forall]; repeat' constructor

theorem W6_of (c : Dev nD) (r : Ref sig .tc) (h : r ∉ hostOps1_4_W) : W6 m c (Proc.devRef .tc r) = W5 m c (Proc.devRef .tc r) :=
  StableHlo.after_of_writes_sub hostOps1_4 _ hostOps1_4_writes h

abbrev W7 : Dev nD → Valuation τ sig (Elt F) := fun c => StableHlo.after hostOps1_5 (W6 m c)
abbrev V7 : (c : Dev nD) → (b : Ref sig .tc) → Buf (Elt F) ((c : Thread nD τ).loc b) := fun c b => W7 m c b

abbrev hostOps1_5_W : List (Ref sig .tc) := [main_call2_v0, main_call2_cst, main_call2_v1, main_call2_v2, main_v192]
theorem hostOps1_5_writes : (hostOps1_5 : List (HloOp τ sig (Elt F))).Forall fun op => op.writes ⊆ (hostOps1_5_W.map (Proc.devRef (τ := τ) .tc)).toFinset := by
  simp only [List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide +kernel)
theorem hostOps1_5_fresh : (hostOps1_5 : List (HloOp τ sig (Elt F))).Forall fun op => op.fresh = ∅ := by
  simp only [List.Forall]; repeat' constructor

theorem W7_of (c : Dev nD) (r : Ref sig .tc) (h : r ∉ hostOps1_5_W) : W7 m c (Proc.devRef .tc r) = W6 m c (Proc.devRef .tc r) :=
  StableHlo.after_of_writes_sub hostOps1_5 _ hostOps1_5_writes h

abbrev W8 : Dev nD → Valuation τ sig (Elt F) := fun c => StableHlo.after hostOps1_6 (W7 m c)
abbrev V8 : (c : Dev nD) → (b : Ref sig .tc) → Buf (Elt F) ((c : Thread nD τ).loc b) := fun c b => W8 m c b

abbrev hostOps1_6_W : List (Ref sig .tc) := [main_cst_41, main_v193, main_v194, main_v195, main_v196]
theorem hostOps1_6_writes : (hostOps1_6 : List (HloOp τ sig (Elt F))).Forall fun op => op.writes ⊆ (hostOps1_6_W.map (Proc.devRef (τ := τ) .tc)).toFinset := by
  simp only [List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide +kernel)
theorem hostOps1_6_fresh : (hostOps1_6 : List (HloOp τ sig (Elt F))).Forall fun op => op.fresh = ∅ := by
  simp only [List.Forall]; repeat' constructor

theorem W8_of (c : Dev nD) (r : Ref sig .tc) (h : r ∉ hostOps1_6_W) : W8 m c (Proc.devRef .tc r) = W7 m c (Proc.devRef .tc r) :=
  StableHlo.after_of_writes_sub hostOps1_6 _ hostOps1_6_writes h

abbrev W9 : Dev nD → Valuation τ sig (Elt F) := fun c => StableHlo.after hostOps1_7 (W8 m c)
abbrev V9 : (c : Dev nD) → (b : Ref sig .tc) → Buf (Elt F) ((c : Thread nD τ).loc b) := fun c b => W9 m c b

abbrev hostOps1_7_W : List (Ref sig .tc) := [main_call3_v0, main_call3_cst, main_call3_v1, main_call3_v2, main_v197]
theorem hostOps1_7_writes : (hostOps1_7 : List (HloOp τ sig (Elt F))).Forall fun op => op.writes ⊆ (hostOps1_7_W.map (Proc.devRef (τ := τ) .tc)).toFinset := by
  simp only [List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide +kernel)
theorem hostOps1_7_fresh : (hostOps1_7 : List (HloOp τ sig (Elt F))).Forall fun op => op.fresh = ∅ := by
  simp only [List.Forall]; repeat' constructor

theorem W9_of (c : Dev nD) (r : Ref sig .tc) (h : r ∉ hostOps1_7_W) : W9 m c (Proc.devRef .tc r) = W8 m c (Proc.devRef .tc r) :=
  StableHlo.after_of_writes_sub hostOps1_7 _ hostOps1_7_writes h

abbrev W10 : Dev nD → Valuation τ sig (Elt F) := fun c => StableHlo.after hostOps1_8 (W9 m c)
abbrev V10 : (c : Dev nD) → (b : Ref sig .tc) → Buf (Elt F) ((c : Thread nD τ).loc b) := fun c b => W10 m c b

abbrev hostOps1_8_W : List (Ref sig .tc) := [main_cst_42, main_v198, main_v199, main_v200, main_v201]
theorem hostOps1_8_writes : (hostOps1_8 : List (HloOp τ sig (Elt F))).Forall fun op => op.writes ⊆ (hostOps1_8_W.map (Proc.devRef (τ := τ) .tc)).toFinset := by
  simp only [List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide +kernel)
theorem hostOps1_8_fresh : (hostOps1_8 : List (HloOp τ sig (Elt F))).Forall fun op => op.fresh = ∅ := by
  simp only [List.Forall]; repeat' constructor

theorem W10_of (c : Dev nD) (r : Ref sig .tc) (h : r ∉ hostOps1_8_W) : W10 m c (Proc.devRef .tc r) = W9 m c (Proc.devRef .tc r) :=
  StableHlo.after_of_writes_sub hostOps1_8 _ hostOps1_8_writes h

abbrev W11 : Dev nD → Valuation τ sig (Elt F) := fun c => StableHlo.after hostOps1_9 (W10 m c)
abbrev V11 : (c : Dev nD) → (b : Ref sig .tc) → Buf (Elt F) ((c : Thread nD τ).loc b) := fun c b => W11 m c b

abbrev hostOps1_9_W : List (Ref sig .tc) := [main_call4_v0, main_call4_cst, main_call4_v1, main_call4_v2, main_v202]
theorem hostOps1_9_writes : (hostOps1_9 : List (HloOp τ sig (Elt F))).Forall fun op => op.writes ⊆ (hostOps1_9_W.map (Proc.devRef (τ := τ) .tc)).toFinset := by
  simp only [List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide +kernel)
theorem hostOps1_9_fresh : (hostOps1_9 : List (HloOp τ sig (Elt F))).Forall fun op => op.fresh = ∅ := by
  simp only [List.Forall]; repeat' constructor

theorem W11_of (c : Dev nD) (r : Ref sig .tc) (h : r ∉ hostOps1_9_W) : W11 m c (Proc.devRef .tc r) = W10 m c (Proc.devRef .tc r) :=
  StableHlo.after_of_writes_sub hostOps1_9 _ hostOps1_9_writes h

abbrev W12 : Dev nD → Valuation τ sig (Elt F) := fun c => StableHlo.after hostOps1_10 (W11 m c)
abbrev V12 : (c : Dev nD) → (b : Ref sig .tc) → Buf (Elt F) ((c : Thread nD τ).loc b) := fun c b => W12 m c b

abbrev hostOps1_10_W : List (Ref sig .tc) := [main_cst_43, main_v203, main_v204, main_v205, main_v206]
theorem hostOps1_10_writes : (hostOps1_10 : List (HloOp τ sig (Elt F))).Forall fun op => op.writes ⊆ (hostOps1_10_W.map (Proc.devRef (τ := τ) .tc)).toFinset := by
  simp only [List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide +kernel)
theorem hostOps1_10_fresh : (hostOps1_10 : List (HloOp τ sig (Elt F))).Forall fun op => op.fresh = ∅ := by
  simp only [List.Forall]; repeat' constructor

theorem W12_of (c : Dev nD) (r : Ref sig .tc) (h : r ∉ hostOps1_10_W) : W12 m c (Proc.devRef .tc r) = W11 m c (Proc.devRef .tc r) :=
  StableHlo.after_of_writes_sub hostOps1_10 _ hostOps1_10_writes h

abbrev W13 : Dev nD → Valuation τ sig (Elt F) := fun c => StableHlo.after hostOps1_11 (W12 m c)
abbrev V13 : (c : Dev nD) → (b : Ref sig .tc) → Buf (Elt F) ((c : Thread nD τ).loc b) := fun c b => W13 m c b

abbrev hostOps1_11_W : List (Ref sig .tc) := [main_call5_v0, main_call5_cst, main_call5_v1, main_call5_v2, main_v207]
theorem hostOps1_11_writes : (hostOps1_11 : List (HloOp τ sig (Elt F))).Forall fun op => op.writes ⊆ (hostOps1_11_W.map (Proc.devRef (τ := τ) .tc)).toFinset := by
  simp only [List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide +kernel)
theorem hostOps1_11_fresh : (hostOps1_11 : List (HloOp τ sig (Elt F))).Forall fun op => op.fresh = ∅ := by
  simp only [List.Forall]; repeat' constructor

theorem W13_of (c : Dev nD) (r : Ref sig .tc) (h : r ∉ hostOps1_11_W) : W13 m c (Proc.devRef .tc r) = W12 m c (Proc.devRef .tc r) :=
  StableHlo.after_of_writes_sub hostOps1_11 _ hostOps1_11_writes h

abbrev W14 : Dev nD → Valuation τ sig (Elt F) := fun c => StableHlo.after hostOps1_12 (W13 m c)
abbrev V14 : (c : Dev nD) → (b : Ref sig .tc) → Buf (Elt F) ((c : Thread nD τ).loc b) := fun c b => W14 m c b

abbrev hostOps1_12_W : List (Ref sig .tc) := [main_cst_44, main_v208, main_v209, main_v210, main_v211, main_v212, main_v213]
theorem hostOps1_12_writes : (hostOps1_12 : List (HloOp τ sig (Elt F))).Forall fun op => op.writes ⊆ (hostOps1_12_W.map (Proc.devRef (τ := τ) .tc)).toFinset := by
  simp only [List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide +kernel)
theorem hostOps1_12_fresh : (hostOps1_12 : List (HloOp τ sig (Elt F))).Forall fun op => op.fresh = ∅ := by
  simp only [List.Forall]; repeat' constructor

theorem W14_of (c : Dev nD) (r : Ref sig .tc) (h : r ∉ hostOps1_12_W) : W14 m c (Proc.devRef .tc r) = W13 m c (Proc.devRef .tc r) :=
  StableHlo.after_of_writes_sub hostOps1_12 _ hostOps1_12_writes h

def W15 (c : Dev nD) : Valuation τ sig (Elt F) :=
  Pipeline.withArrays spec1 c (W14 m c) fun w => (dat1 (V14 m) c).arrAt w cfg1.N
theorem W15_arr (c : Dev nD) (w : Fin cfg1.W) :
    W15 m c (Proc.devRef .tc (Pipeline.arrRef spec1 w)) = (dat1 (V14 m) c).arrAt w cfg1.N := by
  unfold W15; exact Pipeline.withArrays_arr spec1 launch1.win.arr_inj c _ _ w
theorem W15_of_ne (c : Dev nD) (b : Ref sig .tc) (hb : ∀ w, Pipeline.arrRef spec1 w ≠ b) :
    W15 m c (Proc.devRef .tc b) = W14 m c (Proc.devRef .tc b) := by
  unfold W15; exact Pipeline.withArrays_of_ne spec1 c _ _ b hb
abbrev V15 : (c : Dev nD) → (b : Ref sig .tc) → Buf (Elt F) ((c : Thread nD τ).loc b) := fun c b => W15 m c b
theorem hF1 (c : Dev nD) (w : Fin cfg1.W) : (dat1 (V14 m) c).arrAt w cfg1.N = V15 m c (Pipeline.arrRef spec1 w) :=
  (W15_arr m c w).symm
theorem hrest1 (c : Dev nD) : ∀ b, b ∉ Finset.univ.image (Pipeline.arrRef spec1) → V15 m c b = V14 m c b :=
  fun b hb => W15_of_ne m c b fun w e => hb (Finset.mem_image.mpr ⟨w, Finset.mem_univ _, e⟩)

abbrev W16 : Dev nD → Valuation τ sig (Elt F) := fun c => StableHlo.after hostOps2 (W15 m c)
abbrev V16 : (c : Dev nD) → (b : Ref sig .tc) → Buf (Elt F) ((c : Thread nD τ).loc b) := fun c b => W16 m c b

abbrev hostOps2_W : List (Ref sig .tc) := [main_cst_45, main_v215, main_cst_46, main_v216, main_v217, main_v218]
theorem hostOps2_writes : (hostOps2 : List (HloOp τ sig (Elt F))).Forall fun op => op.writes ⊆ (hostOps2_W.map (Proc.devRef (τ := τ) .tc)).toFinset := by
  simp only [List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide +kernel)
theorem hostOps2_fresh : (hostOps2 : List (HloOp τ sig (Elt F))).Forall fun op => op.fresh = ∅ := by
  simp only [List.Forall]; repeat' constructor

theorem W16_of (c : Dev nD) (r : Ref sig .tc) (h : r ∉ hostOps2_W) : W16 m c (Proc.devRef .tc r) = W15 m c (Proc.devRef .tc r) :=
  StableHlo.after_of_writes_sub hostOps2 _ hostOps2_writes h

def W17 (c : Dev nD) : Valuation τ sig (Elt F) :=
  Pipeline.withArrays spec2 c (W16 m c) fun w => (dat2 (V16 m) c).arrAt w cfg2.N
theorem W17_arr (c : Dev nD) (w : Fin cfg2.W) :
    W17 m c (Proc.devRef .tc (Pipeline.arrRef spec2 w)) = (dat2 (V16 m) c).arrAt w cfg2.N := by
  unfold W17; exact Pipeline.withArrays_arr spec2 launch2.win.arr_inj c _ _ w
theorem W17_of_ne (c : Dev nD) (b : Ref sig .tc) (hb : ∀ w, Pipeline.arrRef spec2 w ≠ b) :
    W17 m c (Proc.devRef .tc b) = W16 m c (Proc.devRef .tc b) := by
  unfold W17; exact Pipeline.withArrays_of_ne spec2 c _ _ b hb
abbrev V17 : (c : Dev nD) → (b : Ref sig .tc) → Buf (Elt F) ((c : Thread nD τ).loc b) := fun c b => W17 m c b
theorem hF2 (c : Dev nD) (w : Fin cfg2.W) : (dat2 (V16 m) c).arrAt w cfg2.N = V17 m c (Pipeline.arrRef spec2 w) :=
  (W17_arr m c w).symm
theorem hrest2 (c : Dev nD) : ∀ b, b ∉ Finset.univ.image (Pipeline.arrRef spec2) → V17 m c b = V16 m c b :=
  fun b hb => W17_of_ne m c b fun w e => hb (Finset.mem_image.mpr ⟨w, Finset.mem_univ _, e⟩)

abbrev W18 : Dev nD → Valuation τ sig (Elt F) := fun c => StableHlo.after hostOps3 (W17 m c)
abbrev V18 : (c : Dev nD) → (b : Ref sig .tc) → Buf (Elt F) ((c : Thread nD τ).loc b) := fun c b => W18 m c b

abbrev hostOps3_W : List (Ref sig .tc) := [main_cst_47, main_v220, main_cst_48, main_v221, main_v222, main_v223, main_v224]
theorem hostOps3_writes : (hostOps3 : List (HloOp τ sig (Elt F))).Forall fun op => op.writes ⊆ (hostOps3_W.map (Proc.devRef (τ := τ) .tc)).toFinset := by
  simp only [List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide +kernel)
theorem hostOps3_fresh : (hostOps3 : List (HloOp τ sig (Elt F))).Forall fun op => op.fresh = ∅ := by
  simp only [List.Forall]; repeat' constructor

theorem W18_of (c : Dev nD) (r : Ref sig .tc) (h : r ∉ hostOps3_W) : W18 m c (Proc.devRef .tc r) = W17 m c (Proc.devRef .tc r) :=
  StableHlo.after_of_writes_sub hostOps3 _ hostOps3_writes h

def W19 (c : Dev nD) : Valuation τ sig (Elt F) :=
  Pipeline.withArrays spec3 c (W18 m c) fun w => (dat3 (V18 m) c).arrAt w cfg3.N
theorem W19_arr (c : Dev nD) (w : Fin cfg3.W) :
    W19 m c (Proc.devRef .tc (Pipeline.arrRef spec3 w)) = (dat3 (V18 m) c).arrAt w cfg3.N := by
  unfold W19; exact Pipeline.withArrays_arr spec3 launch3.win.arr_inj c _ _ w
theorem W19_of_ne (c : Dev nD) (b : Ref sig .tc) (hb : ∀ w, Pipeline.arrRef spec3 w ≠ b) :
    W19 m c (Proc.devRef .tc b) = W18 m c (Proc.devRef .tc b) := by
  unfold W19; exact Pipeline.withArrays_of_ne spec3 c _ _ b hb
abbrev V19 : (c : Dev nD) → (b : Ref sig .tc) → Buf (Elt F) ((c : Thread nD τ).loc b) := fun c b => W19 m c b
theorem hF3 (c : Dev nD) (w : Fin cfg3.W) : (dat3 (V18 m) c).arrAt w cfg3.N = V19 m c (Pipeline.arrRef spec3 w) :=
  (W19_arr m c w).symm
theorem hrest3 (c : Dev nD) : ∀ b, b ∉ Finset.univ.image (Pipeline.arrRef spec3) → V19 m c b = V18 m c b :=
  fun b hb => W19_of_ne m c b fun w e => hb (Finset.mem_image.mpr ⟨w, Finset.mem_univ _, e⟩)

abbrev W20 : Dev nD → Valuation τ sig (Elt F) := fun c => StableHlo.after hostOps4 (W19 m c)
abbrev V20 : (c : Dev nD) → (b : Ref sig .tc) → Buf (Elt F) ((c : Thread nD τ).loc b) := fun c b => W20 m c b

abbrev hostOps4_W : List (Ref sig .tc) := [main_cst_49, main_v226, main_cst_50, main_v227, main_v228, main_v229, main_v230]
theorem hostOps4_writes : (hostOps4 : List (HloOp τ sig (Elt F))).Forall fun op => op.writes ⊆ (hostOps4_W.map (Proc.devRef (τ := τ) .tc)).toFinset := by
  simp only [List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide +kernel)
theorem hostOps4_fresh : (hostOps4 : List (HloOp τ sig (Elt F))).Forall fun op => op.fresh = ∅ := by
  simp only [List.Forall]; repeat' constructor

theorem W20_of (c : Dev nD) (r : Ref sig .tc) (h : r ∉ hostOps4_W) : W20 m c (Proc.devRef .tc r) = W19 m c (Proc.devRef .tc r) :=
  StableHlo.after_of_writes_sub hostOps4 _ hostOps4_writes h

def W21 (c : Dev nD) : Valuation τ sig (Elt F) :=
  Pipeline.withArrays spec4 c (W20 m c) fun w => (dat4 (V20 m) c).arrAt w cfg4.N
theorem W21_arr (c : Dev nD) (w : Fin cfg4.W) :
    W21 m c (Proc.devRef .tc (Pipeline.arrRef spec4 w)) = (dat4 (V20 m) c).arrAt w cfg4.N := by
  unfold W21; exact Pipeline.withArrays_arr spec4 launch4.win.arr_inj c _ _ w
theorem W21_of_ne (c : Dev nD) (b : Ref sig .tc) (hb : ∀ w, Pipeline.arrRef spec4 w ≠ b) :
    W21 m c (Proc.devRef .tc b) = W20 m c (Proc.devRef .tc b) := by
  unfold W21; exact Pipeline.withArrays_of_ne spec4 c _ _ b hb
abbrev V21 : (c : Dev nD) → (b : Ref sig .tc) → Buf (Elt F) ((c : Thread nD τ).loc b) := fun c b => W21 m c b
theorem hF4 (c : Dev nD) (w : Fin cfg4.W) : (dat4 (V20 m) c).arrAt w cfg4.N = V21 m c (Pipeline.arrRef spec4 w) :=
  (W21_arr m c w).symm
theorem hrest4 (c : Dev nD) : ∀ b, b ∉ Finset.univ.image (Pipeline.arrRef spec4) → V21 m c b = V20 m c b :=
  fun b hb => W21_of_ne m c b fun w e => hb (Finset.mem_image.mpr ⟨w, Finset.mem_univ _, e⟩)

abbrev W22 : Dev nD → Valuation τ sig (Elt F) := fun c => StableHlo.after hostOps5 (W21 m c)
abbrev V22 : (c : Dev nD) → (b : Ref sig .tc) → Buf (Elt F) ((c : Thread nD τ).loc b) := fun c b => W22 m c b

abbrev hostOps5_W : List (Ref sig .tc) := [main_cst_51, main_v232, main_cst_52, main_v233, main_v234, main_v235]
theorem hostOps5_writes : (hostOps5 : List (HloOp τ sig (Elt F))).Forall fun op => op.writes ⊆ (hostOps5_W.map (Proc.devRef (τ := τ) .tc)).toFinset := by
  simp only [List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide +kernel)
theorem hostOps5_fresh : (hostOps5 : List (HloOp τ sig (Elt F))).Forall fun op => op.fresh = ∅ := by
  simp only [List.Forall]; repeat' constructor

theorem W22_of (c : Dev nD) (r : Ref sig .tc) (h : r ∉ hostOps5_W) : W22 m c (Proc.devRef .tc r) = W21 m c (Proc.devRef .tc r) :=
  StableHlo.after_of_writes_sub hostOps5 _ hostOps5_writes h

def W23 (c : Dev nD) : Valuation τ sig (Elt F) :=
  Pipeline.withArrays spec5 c (W22 m c) fun w => (dat5 (V22 m) c).arrAt w cfg5.N
theorem W23_arr (c : Dev nD) (w : Fin cfg5.W) :
    W23 m c (Proc.devRef .tc (Pipeline.arrRef spec5 w)) = (dat5 (V22 m) c).arrAt w cfg5.N := by
  unfold W23; exact Pipeline.withArrays_arr spec5 launch5.win.arr_inj c _ _ w
theorem W23_of_ne (c : Dev nD) (b : Ref sig .tc) (hb : ∀ w, Pipeline.arrRef spec5 w ≠ b) :
    W23 m c (Proc.devRef .tc b) = W22 m c (Proc.devRef .tc b) := by
  unfold W23; exact Pipeline.withArrays_of_ne spec5 c _ _ b hb
abbrev V23 : (c : Dev nD) → (b : Ref sig .tc) → Buf (Elt F) ((c : Thread nD τ).loc b) := fun c b => W23 m c b
theorem hF5 (c : Dev nD) (w : Fin cfg5.W) : (dat5 (V22 m) c).arrAt w cfg5.N = V23 m c (Pipeline.arrRef spec5 w) :=
  (W23_arr m c w).symm
theorem hrest5 (c : Dev nD) : ∀ b, b ∉ Finset.univ.image (Pipeline.arrRef spec5) → V23 m c b = V22 m c b :=
  fun b hb => W23_of_ne m c b fun w e => hb (Finset.mem_image.mpr ⟨w, Finset.mem_univ _, e⟩)

abbrev W24 : Dev nD → Valuation τ sig (Elt F) := fun c => StableHlo.after hostOps6 (W23 m c)
abbrev V24 : (c : Dev nD) → (b : Ref sig .tc) → Buf (Elt F) ((c : Thread nD τ).loc b) := fun c b => W24 m c b

abbrev hostOps6_W : List (Ref sig .tc) := [main_cst_53, main_v237, main_cst_54, main_v238, main_v239, main_v240, main_v241]
theorem hostOps6_writes : (hostOps6 : List (HloOp τ sig (Elt F))).Forall fun op => op.writes ⊆ (hostOps6_W.map (Proc.devRef (τ := τ) .tc)).toFinset := by
  simp only [List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide +kernel)
theorem hostOps6_fresh : (hostOps6 : List (HloOp τ sig (Elt F))).Forall fun op => op.fresh = ∅ := by
  simp only [List.Forall]; repeat' constructor

theorem W24_of (c : Dev nD) (r : Ref sig .tc) (h : r ∉ hostOps6_W) : W24 m c (Proc.devRef .tc r) = W23 m c (Proc.devRef .tc r) :=
  StableHlo.after_of_writes_sub hostOps6 _ hostOps6_writes h

def W25 (c : Dev nD) : Valuation τ sig (Elt F) :=
  Pipeline.withArrays spec6 c (W24 m c) fun w => (dat6 (V24 m) c).arrAt w cfg6.N
theorem W25_arr (c : Dev nD) (w : Fin cfg6.W) :
    W25 m c (Proc.devRef .tc (Pipeline.arrRef spec6 w)) = (dat6 (V24 m) c).arrAt w cfg6.N := by
  unfold W25; exact Pipeline.withArrays_arr spec6 launch6.win.arr_inj c _ _ w
theorem W25_of_ne (c : Dev nD) (b : Ref sig .tc) (hb : ∀ w, Pipeline.arrRef spec6 w ≠ b) :
    W25 m c (Proc.devRef .tc b) = W24 m c (Proc.devRef .tc b) := by
  unfold W25; exact Pipeline.withArrays_of_ne spec6 c _ _ b hb
abbrev V25 : (c : Dev nD) → (b : Ref sig .tc) → Buf (Elt F) ((c : Thread nD τ).loc b) := fun c b => W25 m c b
theorem hF6 (c : Dev nD) (w : Fin cfg6.W) : (dat6 (V24 m) c).arrAt w cfg6.N = V25 m c (Pipeline.arrRef spec6 w) :=
  (W25_arr m c w).symm
theorem hrest6 (c : Dev nD) : ∀ b, b ∉ Finset.univ.image (Pipeline.arrRef spec6) → V25 m c b = V24 m c b :=
  fun b hb => W25_of_ne m c b fun w e => hb (Finset.mem_image.mpr ⟨w, Finset.mem_univ _, e⟩)

abbrev W26 : Dev nD → Valuation τ sig (Elt F) := fun c => StableHlo.after hostOps7 (W25 m c)
abbrev V26 : (c : Dev nD) → (b : Ref sig .tc) → Buf (Elt F) ((c : Thread nD τ).loc b) := fun c b => W26 m c b

abbrev hostOps7_W : List (Ref sig .tc) := [main_cst_55, main_v243, main_cst_56, main_v244, main_v245, main_v246, main_v247, main_v248, main_v249, main_v250, main_v251]
theorem hostOps7_writes : (hostOps7 : List (HloOp τ sig (Elt F))).Forall fun op => op.writes ⊆ (hostOps7_W.map (Proc.devRef (τ := τ) .tc)).toFinset := by
  simp only [List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide +kernel)
theorem hostOps7_fresh : (hostOps7 : List (HloOp τ sig (Elt F))).Forall fun op => op.fresh = ∅ := by
  simp only [List.Forall]; repeat' constructor

theorem W26_of (c : Dev nD) (r : Ref sig .tc) (h : r ∉ hostOps7_W) : W26 m c (Proc.devRef .tc r) = W25 m c (Proc.devRef .tc r) :=
  StableHlo.after_of_writes_sub hostOps7 _ hostOps7_writes h

def W27 (c : Dev nD) : Valuation τ sig (Elt F) :=
  Pipeline.withArrays spec7 c (W26 m c) fun w => (dat7 (V26 m) c).arrAt w cfg7.N
theorem W27_arr (c : Dev nD) (w : Fin cfg7.W) :
    W27 m c (Proc.devRef .tc (Pipeline.arrRef spec7 w)) = (dat7 (V26 m) c).arrAt w cfg7.N := by
  unfold W27; exact Pipeline.withArrays_arr spec7 launch7.win.arr_inj c _ _ w
theorem W27_of_ne (c : Dev nD) (b : Ref sig .tc) (hb : ∀ w, Pipeline.arrRef spec7 w ≠ b) :
    W27 m c (Proc.devRef .tc b) = W26 m c (Proc.devRef .tc b) := by
  unfold W27; exact Pipeline.withArrays_of_ne spec7 c _ _ b hb
abbrev V27 : (c : Dev nD) → (b : Ref sig .tc) → Buf (Elt F) ((c : Thread nD τ).loc b) := fun c b => W27 m c b
theorem hF7 (c : Dev nD) (w : Fin cfg7.W) : (dat7 (V26 m) c).arrAt w cfg7.N = V27 m c (Pipeline.arrRef spec7 w) :=
  (W27_arr m c w).symm
theorem hrest7 (c : Dev nD) : ∀ b, b ∉ Finset.univ.image (Pipeline.arrRef spec7) → V27 m c b = V26 m c b :=
  fun b hb => W27_of_ne m c b fun w e => hb (Finset.mem_image.mpr ⟨w, Finset.mem_univ _, e⟩)

abbrev adm : (p : Fin 8) → (pcfgs (F := F) p).Adm := fun p => (cfgs p).toPCfg_adm

def pdats : (p : Fin 8) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V14 m) c
  | ⟨2, _⟩ => fun c => dat2 (V16 m) c
  | ⟨3, _⟩ => fun c => dat3 (V18 m) c
  | ⟨4, _⟩ => fun c => dat4 (V20 m) c
  | ⟨5, _⟩ => fun c => dat5 (V22 m) c
  | ⟨6, _⟩ => fun c => dat6 (V24 m) c
  | ⟨7, _⟩ => fun c => dat7 (V26 m) c

end Cert.KernelIdeal.Hand

end
-- ==== Proof.KI.Args.lean ====
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.StableHlo.Run
import proofs.«133221_j41652592836945_2_alg».proof.Proof.KI.Fold

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

variable (m : (ℓ : Loc nD τ sig) → Buf (Elt F) ℓ)

abbrev mainArgs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28]

/-- Two cases, decided over the 29: the array of an input window of the first region (`arrAt_in`), or of none of its windows. -/
theorem W1_arg (c : Dev nD) (r : Ref sig .tc) (hr : r ∈ mainArgs) :
    W1 m c (Proc.devRef .tc r) = m ((c : Thread nD τ).loc r) := by
  rcases (by decide : ∀ r ∈ mainArgs, (∃ w, (cfg0.win w).isOut = false ∧ Pipeline.arrRef spec0 w = r) ∨
      ∀ w, Pipeline.arrRef spec0 w ≠ r) r hr with ⟨w, hw, rfl⟩ | h
  · exact (W1_arr m c w).trans (((dat0 (V0 m) c).arrAt_in w hw _).trans (A_eq0 (V0 m) c w))
  · exact W1_of_ne m c r h

/-- No later list of host operations writes an argument and no later region has one as a window's array. -/
theorem free2 : ∀ r ∈ mainArgs, r ∉ hostOps1_W := by decide +kernel
theorem free3 : ∀ r ∈ mainArgs, r ∉ hostOps1_1_W := by decide +kernel
theorem free4 : ∀ r ∈ mainArgs, r ∉ hostOps1_2_W := by decide +kernel
theorem free5 : ∀ r ∈ mainArgs, r ∉ hostOps1_3_W := by decide +kernel
theorem free6 : ∀ r ∈ mainArgs, r ∉ hostOps1_4_W := by decide +kernel
theorem free7 : ∀ r ∈ mainArgs, r ∉ hostOps1_5_W := by decide +kernel
theorem free8 : ∀ r ∈ mainArgs, r ∉ hostOps1_6_W := by decide +kernel
theorem free9 : ∀ r ∈ mainArgs, r ∉ hostOps1_7_W := by decide +kernel
theorem free10 : ∀ r ∈ mainArgs, r ∉ hostOps1_8_W := by decide +kernel
theorem free11 : ∀ r ∈ mainArgs, r ∉ hostOps1_9_W := by decide +kernel
theorem free12 : ∀ r ∈ mainArgs, r ∉ hostOps1_10_W := by decide +kernel
theorem free13 : ∀ r ∈ mainArgs, r ∉ hostOps1_11_W := by decide +kernel
theorem free14 : ∀ r ∈ mainArgs, r ∉ hostOps1_12_W := by decide +kernel
theorem free15 : ∀ r ∈ mainArgs, ∀ w, Pipeline.arrRef spec1 w ≠ r := by decide +kernel
theorem free16 : ∀ r ∈ mainArgs, r ∉ hostOps2_W := by decide +kernel
theorem free17 : ∀ r ∈ mainArgs, ∀ w, Pipeline.arrRef spec2 w ≠ r := by decide +kernel
theorem free18 : ∀ r ∈ mainArgs, r ∉ hostOps3_W := by decide +kernel
theorem free19 : ∀ r ∈ mainArgs, ∀ w, Pipeline.arrRef spec3 w ≠ r := by decide +kernel
theorem free20 : ∀ r ∈ mainArgs, r ∉ hostOps4_W := by decide +kernel
theorem free21 : ∀ r ∈ mainArgs, ∀ w, Pipeline.arrRef spec4 w ≠ r := by decide +kernel
theorem free22 : ∀ r ∈ mainArgs, r ∉ hostOps5_W := by decide +kernel
theorem free23 : ∀ r ∈ mainArgs, ∀ w, Pipeline.arrRef spec5 w ≠ r := by decide +kernel
theorem free24 : ∀ r ∈ mainArgs, r ∉ hostOps6_W := by decide +kernel
theorem free25 : ∀ r ∈ mainArgs, ∀ w, Pipeline.arrRef spec6 w ≠ r := by decide +kernel
theorem free26 : ∀ r ∈ mainArgs, r ∉ hostOps7_W := by decide +kernel
theorem free27 : ∀ r ∈ mainArgs, ∀ w, Pipeline.arrRef spec7 w ≠ r := by decide +kernel

theorem W25_arg (c : Dev nD) (r : Ref sig .tc) (hr : r ∈ mainArgs) :
    W25 m c (Proc.devRef .tc r) = m ((c : Thread nD τ).loc r) :=
  (W25_of_ne m c r (free25 r hr)).trans <|
  (W24_of m c r (free24 r hr)).trans <|
  (W23_of_ne m c r (free23 r hr)).trans <|
  (W22_of m c r (free22 r hr)).trans <|
  (W21_of_ne m c r (free21 r hr)).trans <|
  (W20_of m c r (free20 r hr)).trans <|
  (W19_of_ne m c r (free19 r hr)).trans <|
  (W18_of m c r (free18 r hr)).trans <|
  (W17_of_ne m c r (free17 r hr)).trans <|
  (W16_of m c r (free16 r hr)).trans <|
  (W15_of_ne m c r (free15 r hr)).trans <|
  (W14_of m c r (free14 r hr)).trans <|
  (W13_of m c r (free13 r hr)).trans <|
  (W12_of m c r (free12 r hr)).trans <|
  (W11_of m c r (free11 r hr)).trans <|
  (W10_of m c r (free10 r hr)).trans <|
  (W9_of m c r (free9 r hr)).trans <|
  (W8_of m c r (free8 r hr)).trans <|
  (W7_of m c r (free7 r hr)).trans <|
  (W6_of m c r (free6 r hr)).trans <|
  (W5_of m c r (free5 r hr)).trans <|
  (W4_of m c r (free4 r hr)).trans <|
  (W3_of m c r (free3 r hr)).trans <|
  (W2_of m c r (free2 r hr)).trans <|
  W1_arg m c r hr

theorem W27_arg (c : Dev nD) (r : Ref sig .tc) (hr : r ∈ mainArgs) :
    W27 m c (Proc.devRef .tc r) = m ((c : Thread nD τ).loc r) :=
  (W27_of_ne m c r (free27 r hr)).trans <|
  (W26_of m c r (free26 r hr)).trans <|
  W25_arg m c r hr

end Cert.KernelIdeal.Hand

end
-- ==== Proof.KI.Regs.lean ====
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.StableHlo.Run
import proofs.«133221_j41652592836945_2_alg».proof.Proof.KI.Fold

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev Tₙ (c : Dev nD) : sProp 𝕄 := iprop(StableHlo.held (c : Thread nD τ) (Pipeline.ucRefs τ sig) (W27 m c) ∗ ∃ r, prngReg c r)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in

def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun c t => owed0 (V0 m) c t
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun w => q0 (V0 m) c w) (V0 m c) fun w => A_eq0 (V0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 0).pre c (fun _ => fullShare) (adm (F := F) 0).1 ∗ Pipeline.scopedRest spec0 c) : sProp 𝕄)
        ⊢ Pipeline.ΦA spec0 c := by
      unfold Pipeline.ΦA
      iintro ⟨Hp, -, Hr⟩
      isplitl [Hr]; · iexact Hr
      iexact Hp
    exact h.trans (hin0 (V0 m) c)
  hout c := by
    rw [Pipeline.ownSems0_none]
    have h : Pipeline.ΦA spec0 c ⊢ (iprop((∃ r, prngReg c r) ∗ BI.emp ∗ Pipeline.scopedRest spec0 c) : sProp 𝕄) := by
      unfold Pipeline.ΦA
      iintro ⟨Hr, Hp⟩
      isplitl [Hp]; · iexact Hp
      isplitr; · iempintro
      iexact Hr
    exact (hout0 (V0 m) c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => q0 (V0 m) c w)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V14 m) c).loose
  hwaits := Pipeline.hwaits_of_owed_zero _ _ _ _ L lv 1 fun c t => owed1 (V14 m) c t
  pre c := iprop(StableHlo.held (c : Thread nD τ) (Pipeline.ucRefs τ sig) (W14 m c) ∗ R c)
  post c := iprop(StableHlo.held (c : Thread nD τ) (Pipeline.ucRefs τ sig) (W15 m c) ∗ R c)
  X c := iprop(∃ r, prngReg c r)
  Y c := iprop(∃ r, prngReg c r)
  Z c := Pipeline.unscopedRest (Ix := Unit) (Name := ℕ) (U := UR sig nD τ) (Lvl := ℕ) spec1 c (V14 m c)
  hentry c := by
    rw [Pipeline.ownSems0_none]
    have hsplit := Pipeline.arrays_of_unscopedBufs (p := 1) (pcfgs (F := F)) adm (pdats m) launch1.win launch1.arr_whole c
      ((pdats m 1 c).share_full fun w => q1 (V14 m) c w) (V14 m c) fun w => A_eq1 (V14 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1 ∗ Pipeline.scopedRest spec1 c) : sProp 𝕄)
        ⊢ Pipeline.ΦA spec1 c := by
      unfold Pipeline.ΦA
      iintro ⟨Hp, -, Hr⟩
      isplitl [Hr]; · iexact Hr
      iexact Hp
    exact h.trans (hin1 (V14 m) c)
  hout c := by
    rw [Pipeline.ownSems0_none]
    have h : Pipeline.ΦA spec1 c ⊢ (iprop((∃ r, prngReg c r) ∗ BI.emp ∗ Pipeline.scopedRest spec1 c) : sProp 𝕄) := by
      unfold Pipeline.ΦA
      iintro ⟨Hr, Hp⟩
      isplitl [Hp]; · iexact Hp
      isplitr; · iempintro
      iexact Hr
    exact (hout1 (V14 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => q1 (V14 m) c w)
      (V14 m c) (V15 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V16 m) c).loose
  hwaits := Pipeline.hwaits_of_owed_zero _ _ _ _ L lv 2 fun c t => owed2 (V16 m) c t
  pre c := iprop(StableHlo.held (c : Thread nD τ) (Pipeline.ucRefs τ sig) (W16 m c) ∗ R c)
  post c := iprop(StableHlo.held (c : Thread nD τ) (Pipeline.ucRefs τ sig) (W17 m c) ∗ R c)
  X c := iprop(∃ r, prngReg c r)
  Y c := iprop(∃ r, prngReg c r)
  Z c := Pipeline.unscopedRest (Ix := Unit) (Name := ℕ) (U := UR sig nD τ) (Lvl := ℕ) spec2 c (V16 m c)
  hentry c := by
    rw [Pipeline.ownSems0_none]
    have hsplit := Pipeline.arrays_of_unscopedBufs (p := 2) (pcfgs (F := F)) adm (pdats m) launch2.win launch2.arr_whole c
      ((pdats m 2 c).share_full fun w => q2 (V16 m) c w) (V16 m c) fun w => A_eq2 (V16 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 2).pre c (fun _ => fullShare) (adm (F := F) 2).1 ∗ Pipeline.scopedRest spec2 c) : sProp 𝕄)
        ⊢ Pipeline.ΦA spec2 c := by
      unfold Pipeline.ΦA
      iintro ⟨Hp, -, Hr⟩
      isplitl [Hr]; · iexact Hr
      iexact Hp
    exact h.trans (hin2 (V16 m) c)
  hout c := by
    rw [Pipeline.ownSems0_none]
    have h : Pipeline.ΦA spec2 c ⊢ (iprop((∃ r, prngReg c r) ∗ BI.emp ∗ Pipeline.scopedRest spec2 c) : sProp 𝕄) := by
      unfold Pipeline.ΦA
      iintro ⟨Hr, Hp⟩
      isplitl [Hp]; · iexact Hp
      isplitr; · iempintro
      iexact Hr
    exact (hout2 (V16 m) c).trans h
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun w => q2 (V16 m) c w)
      (V16 m c) (V17 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V18 m) c).loose
  hwaits := Pipeline.hwaits_of_owed_zero _ _ _ _ L lv 3 fun c t => owed3 (V18 m) c t
  pre c := iprop(StableHlo.held (c : Thread nD τ) (Pipeline.ucRefs τ sig) (W18 m c) ∗ R c)
  post c := iprop(StableHlo.held (c : Thread nD τ) (Pipeline.ucRefs τ sig) (W19 m c) ∗ R c)
  X c := iprop(∃ r, prngReg c r)
  Y c := iprop(∃ r, prngReg c r)
  Z c := Pipeline.unscopedRest (Ix := Unit) (Name := ℕ) (U := UR sig nD τ) (Lvl := ℕ) spec3 c (V18 m c)
  hentry c := by
    rw [Pipeline.ownSems0_none]
    have hsplit := Pipeline.arrays_of_unscopedBufs (p := 3) (pcfgs (F := F)) adm (pdats m) launch3.win launch3.arr_whole c
      ((pdats m 3 c).share_full fun w => q3 (V18 m) c w) (V18 m c) fun w => A_eq3 (V18 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 3).pre c (fun _ => fullShare) (adm (F := F) 3).1 ∗ Pipeline.scopedRest spec3 c) : sProp 𝕄)
        ⊢ Pipeline.ΦA spec3 c := by
      unfold Pipeline.ΦA
      iintro ⟨Hp, -, Hr⟩
      isplitl [Hr]; · iexact Hr
      iexact Hp
    exact h.trans (hin3 (V18 m) c)
  hout c := by
    rw [Pipeline.ownSems0_none]
    have h : Pipeline.ΦA spec3 c ⊢ (iprop((∃ r, prngReg c r) ∗ BI.emp ∗ Pipeline.scopedRest spec3 c) : sProp 𝕄) := by
      unfold Pipeline.ΦA
      iintro ⟨Hr, Hp⟩
      isplitl [Hp]; · iexact Hp
      isplitr; · iempintro
      iexact Hr
    exact (hout3 (V18 m) c).trans h
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun w => q3 (V18 m) c w)
      (V18 m c) (V19 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V20 m) c).loose
  hwaits := Pipeline.hwaits_of_owed_zero _ _ _ _ L lv 4 fun c t => owed4 (V20 m) c t
  pre c := iprop(StableHlo.held (c : Thread nD τ) (Pipeline.ucRefs τ sig) (W20 m c) ∗ R c)
  post c := iprop(StableHlo.held (c : Thread nD τ) (Pipeline.ucRefs τ sig) (W21 m c) ∗ R c)
  X c := iprop(∃ r, prngReg c r)
  Y c := iprop(∃ r, prngReg c r)
  Z c := Pipeline.unscopedRest (Ix := Unit) (Name := ℕ) (U := UR sig nD τ) (Lvl := ℕ) spec4 c (V20 m c)
  hentry c := by
    rw [Pipeline.ownSems0_none]
    have hsplit := Pipeline.arrays_of_unscopedBufs (p := 4) (pcfgs (F := F)) adm (pdats m) launch4.win launch4.arr_whole c
      ((pdats m 4 c).share_full fun w => q4 (V20 m) c w) (V20 m c) fun w => A_eq4 (V20 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 4).pre c (fun _ => fullShare) (adm (F := F) 4).1 ∗ Pipeline.scopedRest spec4 c) : sProp 𝕄)
        ⊢ Pipeline.ΦA spec4 c := by
      unfold Pipeline.ΦA
      iintro ⟨Hp, -, Hr⟩
      isplitl [Hr]; · iexact Hr
      iexact Hp
    exact h.trans (hin4 (V20 m) c)
  hout c := by
    rw [Pipeline.ownSems0_none]
    have h : Pipeline.ΦA spec4 c ⊢ (iprop((∃ r, prngReg c r) ∗ BI.emp ∗ Pipeline.scopedRest spec4 c) : sProp 𝕄) := by
      unfold Pipeline.ΦA
      iintro ⟨Hr, Hp⟩
      isplitl [Hp]; · iexact Hp
      isplitr; · iempintro
      iexact Hr
    exact (hout4 (V20 m) c).trans h
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun w => q4 (V20 m) c w)
      (V20 m c) (V21 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V22 m) c).loose
  hwaits := Pipeline.hwaits_of_owed_zero _ _ _ _ L lv 5 fun c t => owed5 (V22 m) c t
  pre c := iprop(StableHlo.held (c : Thread nD τ) (Pipeline.ucRefs τ sig) (W22 m c) ∗ R c)
  post c := iprop(StableHlo.held (c : Thread nD τ) (Pipeline.ucRefs τ sig) (W23 m c) ∗ R c)
  X c := iprop(∃ r, prngReg c r)
  Y c := iprop(∃ r, prngReg c r)
  Z c := Pipeline.unscopedRest (Ix := Unit) (Name := ℕ) (U := UR sig nD τ) (Lvl := ℕ) spec5 c (V22 m c)
  hentry c := by
    rw [Pipeline.ownSems0_none]
    have hsplit := Pipeline.arrays_of_unscopedBufs (p := 5) (pcfgs (F := F)) adm (pdats m) launch5.win launch5.arr_whole c
      ((pdats m 5 c).share_full fun w => q5 (V22 m) c w) (V22 m c) fun w => A_eq5 (V22 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 5).pre c (fun _ => fullShare) (adm (F := F) 5).1 ∗ Pipeline.scopedRest spec5 c) : sProp 𝕄)
        ⊢ Pipeline.ΦA spec5 c := by
      unfold Pipeline.ΦA
      iintro ⟨Hp, -, Hr⟩
      isplitl [Hr]; · iexact Hr
      iexact Hp
    exact h.trans (hin5 (V22 m) c)
  hout c := by
    rw [Pipeline.ownSems0_none]
    have h : Pipeline.ΦA spec5 c ⊢ (iprop((∃ r, prngReg c r) ∗ BI.emp ∗ Pipeline.scopedRest spec5 c) : sProp 𝕄) := by
      unfold Pipeline.ΦA
      iintro ⟨Hr, Hp⟩
      isplitl [Hp]; · iexact Hp
      isplitr; · iempintro
      iexact Hr
    exact (hout5 (V22 m) c).trans h
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun w => q5 (V22 m) c w)
      (V22 m c) (V23 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V24 m) c).loose
  hwaits := Pipeline.hwaits_of_owed_zero _ _ _ _ L lv 6 fun c t => owed6 (V24 m) c t
  pre c := iprop(StableHlo.held (c : Thread nD τ) (Pipeline.ucRefs τ sig) (W24 m c) ∗ R c)
  post c := iprop(StableHlo.held (c : Thread nD τ) (Pipeline.ucRefs τ sig) (W25 m c) ∗ R c)
  X c := iprop(∃ r, prngReg c r)
  Y c := iprop(∃ r, prngReg c r)
  Z c := Pipeline.unscopedRest (Ix := Unit) (Name := ℕ) (U := UR sig nD τ) (Lvl := ℕ) spec6 c (V24 m c)
  hentry c := by
    rw [Pipeline.ownSems0_none]
    have hsplit := Pipeline.arrays_of_unscopedBufs (p := 6) (pcfgs (F := F)) adm (pdats m) launch6.win launch6.arr_whole c
      ((pdats m 6 c).share_full fun w => q6 (V24 m) c w) (V24 m c) fun w => A_eq6 (V24 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 6).pre c (fun _ => fullShare) (adm (F := F) 6).1 ∗ Pipeline.scopedRest spec6 c) : sProp 𝕄)
        ⊢ Pipeline.ΦA spec6 c := by
      unfold Pipeline.ΦA
      iintro ⟨Hp, -, Hr⟩
      isplitl [Hr]; · iexact Hr
      iexact Hp
    exact h.trans (hin6 (V24 m) c)
  hout c := by
    rw [Pipeline.ownSems0_none]
    have h : Pipeline.ΦA spec6 c ⊢ (iprop((∃ r, prngReg c r) ∗ BI.emp ∗ Pipeline.scopedRest spec6 c) : sProp 𝕄) := by
      unfold Pipeline.ΦA
      iintro ⟨Hr, Hp⟩
      isplitl [Hp]; · iexact Hp
      isplitr; · iempintro
      iexact Hr
    exact (hout6 (V24 m) c).trans h
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun w => q6 (V24 m) c w)
      (V24 m c) (V25 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V26 m) c).loose
  hwaits := Pipeline.hwaits_of_owed_zero _ _ _ _ L lv 7 fun c t => owed7 (V26 m) c t
  pre c := iprop(StableHlo.held (c : Thread nD τ) (Pipeline.ucRefs τ sig) (W26 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec7 c (V26 m c)
  hentry c := by
    rw [Pipeline.ownSems0_none]
    have hsplit := Pipeline.arrays_of_unscopedBufs (p := 7) (pcfgs (F := F)) adm (pdats m) launch7.win launch7.arr_whole c
      ((pdats m 7 c).share_full fun w => q7 (V26 m) c w) (V26 m c) fun w => A_eq7 (V26 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 7).pre c (fun _ => fullShare) (adm (F := F) 7).1 ∗ Pipeline.scopedRest spec7 c) : sProp 𝕄)
        ⊢ Pipeline.ΦA spec7 c := by
      unfold Pipeline.ΦA
      iintro ⟨Hp, -, Hr⟩
      isplitl [Hr]; · iexact Hr
      iexact Hp
    exact h.trans (hin7 (V26 m) c)
  hout c := by
    rw [Pipeline.ownSems0_none]
    have h : Pipeline.ΦA spec7 c ⊢ (iprop((∃ r, prngReg c r) ∗ BI.emp ∗ Pipeline.scopedRest spec7 c) : sProp 𝕄) := by
      unfold Pipeline.ΦA
      iintro ⟨Hr, Hp⟩
      isplitl [Hp]; · iexact Hp
      isplitr; · iempintro
      iexact Hr
    exact (hout7 (V26 m) c).trans h
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun w => q7 (V26 m) c w)
      (V26 m c) (V27 m c) ((pdats m 7 c).arrAt · cfg7.N) (hF7 m c) (hrest7 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Hand

end
-- ==== Proof.KI.Run.lean ====
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.StableHlo.Run
import proofs.«133221_j41652592836945_2_alg».proof.Proof.KI.Regs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

variable (ρ : Dev nD → PrngReg)

abbrev segs : List (Pipeline.Seg (pcfgs (F := F)) adm (pdats m) () defs₀ 𝒱₀ L lv) :=
  [
    .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .host (hseg hostOps1_3 hostOps1_3_sub hostOps1_3_fresh (W4 m)),
    .host (hseg hostOps1_4 hostOps1_4_sub hostOps1_4_fresh (W5 m)),
    .host (hseg hostOps1_5 hostOps1_5_sub hostOps1_5_fresh (W6 m)),
    .host (hseg hostOps1_6 hostOps1_6_sub hostOps1_6_fresh (W7 m)),
    .host (hseg hostOps1_7 hostOps1_7_sub hostOps1_7_fresh (W8 m)),
    .host (hseg hostOps1_8 hostOps1_8_sub hostOps1_8_fresh (W9 m)),
    .host (hseg hostOps1_9 hostOps1_9_sub hostOps1_9_fresh (W10 m)),
    .host (hseg hostOps1_10 hostOps1_10_sub hostOps1_10_fresh (W11 m)),
    .host (hseg hostOps1_11 hostOps1_11_sub hostOps1_11_fresh (W12 m)),
    .host (hseg hostOps1_12 hostOps1_12_sub hostOps1_12_fresh (W13 m)),
    .region (reg1 m),
    .host (hseg hostOps2 hostOps2_sub hostOps2_fresh (W15 m)),
    .region (reg2 m),
    .host (hseg hostOps3 hostOps3_sub hostOps3_fresh (W17 m)),
    .region (reg3 m),
    .host (hseg hostOps4 hostOps4_sub hostOps4_fresh (W19 m)),
    .region (reg4 m),
    .host (hseg hostOps5 hostOps5_sub hostOps5_fresh (W21 m)),
    .region (reg5 m),
    .host (hseg hostOps6 hostOps6_sub hostOps6_fresh (W23 m)),
    .region (reg6 m),
    .host (hseg hostOps7 hostOps7_sub hostOps7_fresh (W25 m)),
    .region (reg7 m) ]

theorem main_run (c : Dev nD) : main (F := F) c = Pipeline.Seg.run (segs m) := (main_chain c).trans (by chain_rfl)

set_option backward.isDefEq.respectTransparency.types false in

theorem run_main : θ_run defs (onTc (τ := τ) (main (F := F))) ⟨m, fun _ => 0, ρ⟩ (fun r => ∀ c : Dev nD,
      ∀ b ∈ Pipeline.ucRefs τ sig, r.2.mem (((c : Thread nD τ)).1, b) = W27 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W27 m c b)
    (hfin := fun c s' => by
      iintro ⟨⟨Hh, -⟩, HSI⟩
      unfold StableHlo.held
      imodintro
      iapply (pointsTo_read_all (Pipeline.ucRefs τ sig) (fun b => (((c : Thread nD τ)).1, b)) (W27 m c) s')
      isplitl [Hh] <;> iassumption)
    (hQ := fun s h c => h c)

end Cert.KernelIdeal.Hand

end
-- ==== Proof.KI.Frame.lean ====
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.StableHlo.Run
import proofs.«133221_j41652592836945_2_alg».proof.Proof.KI.Run
import proofs.«133221_j41652592836945_2_alg».proof.Proof.KI.Args

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

variable (m : (ℓ : Loc nD τ sig) → Buf (Elt F) ℓ)

variable (ρ : Dev nD → PrngReg)

/-- A property of every argument reference, as the conjunction over the 29 of them. -/
theorem conj_args {P : Ref sig .tc → Prop} (H : ∀ b ∈ mainArgs, P b) :
    P main_arg0 ∧ P main_arg1 ∧ P main_arg2 ∧ P main_arg3 ∧ P main_arg4 ∧ P main_arg5 ∧ P main_arg6 ∧ P main_arg7 ∧ P main_arg8 ∧ P main_arg9 ∧ P main_arg10 ∧ P main_arg11 ∧ P main_arg12 ∧ P main_arg13 ∧ P main_arg14 ∧ P main_arg15 ∧ P main_arg16 ∧ P main_arg17 ∧ P main_arg18 ∧ P main_arg19 ∧ P main_arg20 ∧ P main_arg21 ∧ P main_arg22 ∧ P main_arg23 ∧ P main_arg24 ∧ P main_arg25 ∧ P main_arg26 ∧ P main_arg27 ∧ P main_arg28 :=
  ⟨H _ (by decide), H _ (by decide), H _ (by decide), H _ (by decide), H _ (by decide), H _ (by decide), H _ (by decide), H _ (by decide), H _ (by decide), H _ (by decide), H _ (by decide), H _ (by decide), H _ (by decide), H _ (by decide), H _ (by decide), H _ (by decide), H _ (by decide), H _ (by decide), H _ (by decide), H _ (by decide), H _ (by decide), H _ (by decide), H _ (by decide), H _ (by decide), H _ (by decide), H _ (by decide), H _ (by decide), H _ (by decide), H _ (by decide)⟩

/-- A memory that holds every unscoped buffer at the last boundary's contents holds the arguments as launched. -/
theorem args_kept (c : Dev nD) {mem : (ℓ : Loc nD τ sig) → Buf (Elt F) ℓ}
    (h : ∀ b ∈ Pipeline.ucRefs τ sig, mem (((c : Thread nD τ)).1, b) = W27 m c b) (b : Ref sig .tc) (hb : b ∈ mainArgs) :
    mem ((c.tc : Thread nD τ).loc b) = m ((c.tc : Thread nD τ).loc b) :=
  (h _ (mem_uc b ((by decide : ∀ b ∈ mainArgs, ¬ (Proc.devRef .tc b : DevRef τ sig).isScoped) b hb))).trans (W27_arg m c b hb)

theorem frame : θ_run defs (onTc (τ := τ) (main (F := F))) ⟨m, fun _ => 0, ρ⟩ (fun r => ∀ c : Dev nD, ∀ b ∈ mainArgs,
      r.2.mem ((c.tc : Thread nD τ).loc b) = m ((c.tc : Thread nD τ).loc b)) :=
  (θ_run defs _ _).mono (fun r h c => args_kept m c (h c)) (run_main m ρ)

end Cert.KernelIdeal.Hand

end
-- ==== Proof.KI.FusionValue.lean ====
import proofs.«133221_j41652592836945_2_alg».proof.Proof.KI.Fusion
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

section Layout
variable {α : Type}

theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

theorem broadcastTo_11_a1_apply {a : ℕ} (v : (⟨2, ![1, 1]⟩ : Shape).Idx → α) (h : (⟨2, ![1, 1]⟩ : Shape).Broadcasts ⟨2, ![a, 1]⟩)
    (p : Fin a) (u : Fin 1) : broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => rfl
  | ⟨1, _⟩ => rfl

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

theorem rowsum_apply (v : FVec Ideal S512x64 .f32) (hφ : FKind.Formats .f32)
    (hacc : (0x00000000#32 : BitVec 32) = 0x00000000#32) (p : Fin 512) :
    multiReduction (F := Ideal) .add [1] S512 v 0x00000000#32 reduces_S512x64_S512 hφ hacc (ix1 p)
      = ∑ k : Fin 64, v (ix2 p k) := by
  refine (Ideal.multiReduction_add_single v 0x00000000#32 reduces_S512x64_S512 hφ hacc (ix1 p)).trans ?_
  refine Finset.sum_congr rfl fun k _ => congrArg v ?_
  funext a
  match a with
  | ⟨0, _⟩ => rfl
  | ⟨1, _⟩ => rfl

theorem logit_apply (x : Vec Ideal S512x64 .f32) (w : Vec Ideal S1x64 .f32) (b : Vec Ideal S1x1 .f32) (p : Fin 512) (u : Fin 1) :
    (addf (shapeCast S512x1 (multiReduction (F := Ideal) .add [1] S512 (mulf (shapeCast S512x64 x shapeCasts_S512x64_S512x64)
        (broadcastTo S512x64 (shapeCast S1x64 w shapeCasts_S1x64_S1x64) broadcasts_S1x64_S512x64)) 0x00000000#32 reduces_S512x64_S512 (.inl rfl) rfl)
        shapeCasts_S512_S512x1)
      (broadcastTo S512x1 (shapeCast S1x1 b shapeCasts_S1x1_S1x1) broadcasts_S1x1_S512x1) : FVec Ideal S512x1 .f32) (ix2 p u)
      = (∑ k : Fin 64, x (ix2 p k) * w (ix2 (0 : Fin 1) k)) + b (ix2 (0 : Fin 1) (0 : Fin 1)) := by
  rw [addf_apply, shapeCast_a_a1_apply, rowsum_apply, broadcastTo_11_a1_apply, shapeCast_self, shapeCast_self, shapeCast_self]
  congr 1
  refine Finset.sum_congr rfl fun k _ => ?_
  rw [mulf_apply, broadcastTo_1b_ab_apply]

def blockLogit (x : Vec Ideal S512x64 .f32) (w : Vec Ideal S1x64 .f32) (b : Vec Ideal S1x1 .f32) (p : Fin 512) : EReal :=
  (∑ k : Fin 64, x (ix2 p k) * w (ix2 (0 : Fin 1) k)) + b (ix2 (0 : Fin 1) (0 : Fin 1))

theorem k7_pay6_apply (x : Vec Ideal S512x64 .f32) (w : Vec Ideal S1x64 .f32) (b : Vec Ideal S1x1 .f32) (p : Fin 512) (u : Fin 1) :
    k7_pay6 x w b (ix2 p u) = Ideal.logistic (blockLogit x w b p) :=
  congrArg Ideal.logistic (logit_apply x w b p u)
theorem k7_pay7_apply (x : Vec Ideal S512x64 .f32) (w : Vec Ideal S1x64 .f32) (b : Vec Ideal S1x1 .f32) (p : Fin 512) (u : Fin 1) :
    k7_pay7 x w b (ix2 p u) = Ideal.logistic (blockLogit x w b p) :=
  congrArg Ideal.logistic (logit_apply x w b p u)
theorem k7_pay5_apply (x : Vec Ideal S512x64 .f32) (w : Vec Ideal S1x64 .f32) (b : Vec Ideal S1x1 .f32) (p : Fin 512) (u : Fin 1) :
    k7_pay5 x w b (ix2 p u) = blockLogit x w b p :=
  logit_apply x w b p u

theorem k7_pay1_apply (v1 v3 v5 : FVec Ideal S512x64 .f32) (v35 v36 v37 : FVec Ideal S512x1 .f32) (p : Fin 512) (q : Fin 64) :
    k7_pay1 v1 v3 v5 v35 v36 v37 (ix2 p q)
      = v36 (ix2 p (0 : Fin 1)) * v1 (ix2 p q) + v37 (ix2 p (0 : Fin 1)) * v3 (ix2 p q)
        + Ideal.logistic (v35 (ix2 p (0 : Fin 1))) * v5 (ix2 p q) := by
  show addf (addf (mulf (broadcastTo S512x64 v36 broadcasts_S512x1_S512x64) v1) (mulf (broadcastTo S512x64 v37 broadcasts_S512x1_S512x64) v3))
        (mulf (broadcastTo S512x64 (logistic v35) broadcasts_S512x1_S512x64) v5) (ix2 p q) = _
  rw [addf_apply, addf_apply, mulf_apply, mulf_apply, mulf_apply, broadcastTo_a1_ab_apply, broadcastTo_a1_ab_apply, broadcastTo_a1_ab_apply]
  rfl

theorem fusion_pay_apply (x0 x1 x2 : Vec Ideal S512x64 .f32) (w0 : Vec Ideal S1x64 .f32) (b0 : Vec Ideal S1x1 .f32)
    (w1 : Vec Ideal S1x64 .f32) (b1 : Vec Ideal S1x1 .f32) (w2 : Vec Ideal S1x64 .f32) (b2 : Vec Ideal S1x1 .f32) (p : Fin 512) (q : Fin 64) :
    k7_pay1 (k7_pay2 x0) (k7_pay3 x1) (k7_pay4 x2) (k7_pay5 x2 w2 b2) (k7_pay6 x0 w0 b0) (k7_pay7 x1 w1 b1) (ix2 p q)
      = Ideal.logistic (blockLogit x0 w0 b0 p) * x0 (ix2 p q) + Ideal.logistic (blockLogit x1 w1 b1 p) * x1 (ix2 p q)
        + Ideal.logistic (blockLogit x2 w2 b2 p) * x2 (ix2 p q) := by
  rw [k7_pay1_apply, k7_pay6_apply, k7_pay7_apply, k7_pay5_apply]
  unfold k7_pay2 k7_pay3 k7_pay4
  rw [shapeCast_self, shapeCast_self, shapeCast_self]

def gate7 (a : Vec Ideal S4096x64 .f32) (w : Vec Ideal S1x64 .f32) (b : Vec Ideal S1x1 .f32) (r : Fin 4096) : EReal :=
  Ideal.logistic ((∑ k : Fin 64, a (ix2 r k) * w (ix2 (0 : Fin 1) k)) + b (ix2 (0 : Fin 1) (0 : Fin 1)))

def G7 (a0 a1 a2 : Vec Ideal S4096x64 .f32) (w0 : Vec Ideal S1x64 .f32) (b0 : Vec Ideal S1x1 .f32)
    (w1 : Vec Ideal S1x64 .f32) (b1 : Vec Ideal S1x1 .f32) (w2 : Vec Ideal S1x64 .f32) (b2 : Vec Ideal S1x1 .f32) :
    Vec Ideal S4096x64 .f32 :=
  fun i => gate7 a0 w0 b0 (i 0) * a0 i + gate7 a1 w1 b1 (i 0) * a1 i + gate7 a2 w2 b2 (i 0) * a2 i

theorem G7_apply (a0 a1 a2 : Vec Ideal S4096x64 .f32) (w0 : Vec Ideal S1x64 .f32) (b0 : Vec Ideal S1x1 .f32)
    (w1 : Vec Ideal S1x64 .f32) (b1 : Vec Ideal S1x1 .f32) (w2 : Vec Ideal S1x64 .f32) (b2 : Vec Ideal S1x1 .f32)
    (r : Fin 4096) (j : Fin 64) :
    G7 a0 a1 a2 w0 b0 w1 b1 w2 b2 (ix2 r j)
      = gate7 a0 w0 b0 r * a0 (ix2 r j) + gate7 a1 w1 b1 r * a1 (ix2 r j) + gate7 a2 w2 b2 r * a2 (ix2 r j) := rfl

variable (V : (c : Dev nD) → (b : Ref sig .tc) → Buf (Elt Ideal) ((c : Thread nD τ).loc b))

theorem hz7 : (![0, 0] : Fin 2 → Nat) = fun _ => 0 := funext fun a => by fin_cases a <;> rfl

theorem lt8 (t : Fin cfg7.N) : t.val < 8 := by
  have h := t.isLt
  have hN : cfg7.N = 8 := N_7
  omega

theorem idx7 : ∀ t : Fin cfg7.N,
    (win7_0.index t (0 : Fin 2) = t.val ∧ win7_0.index t (1 : Fin 2) = 0)
    ∧ (win7_1.index t (0 : Fin 2) = t.val ∧ win7_1.index t (1 : Fin 2) = 0)
    ∧ (win7_2.index t (0 : Fin 2) = t.val ∧ win7_2.index t (1 : Fin 2) = 0)
    ∧ (win7_9.index t (0 : Fin 2) = t.val ∧ win7_9.index t (1 : Fin 2) = 0)
    ∧ (win7_3.index t (0 : Fin 2) = 0 ∧ win7_3.index t (1 : Fin 2) = 0)
    ∧ (win7_4.index t (0 : Fin 2) = 0 ∧ win7_4.index t (1 : Fin 2) = 0)
    ∧ (win7_5.index t (0 : Fin 2) = 0 ∧ win7_5.index t (1 : Fin 2) = 0)
    ∧ (win7_6.index t (0 : Fin 2) = 0 ∧ win7_6.index t (1 : Fin 2) = 0)
    ∧ (win7_7.index t (0 : Fin 2) = 0 ∧ win7_7.index t (1 : Fin 2) = 0)
    ∧ (win7_8.index t (0 : Fin 2) = 0 ∧ win7_8.index t (1 : Fin 2) = 0) :=
  (by decide +kernel : ∀ t : Fin grid7.N, _)

theorem iblk7_0_apply (c : Dev nD) (t : Fin cfg7.N) (p : Fin 512) (k : Fin 64) (r : Fin 4096) (hr : r.val = 512 * t.val + p.val) :
    (iblk7 V c 0 t : Vec Ideal S512x64 .f32) (ix2 p k) = (V c main_v201 : S4096x64.Idx → EReal) (ix2 r k) := by
  obtain ⟨⟨e0, e1⟩, -⟩ := idx7 t
  unfold iblk7
  rw [View.read_apply]
  show V c main_v201 _ = V c main_v201 _
  congr 1
  funext a
  apply Fin.ext
  match a with
  | ⟨0, _⟩ => show win7_0.index t (0 : Fin 2) * 512 + 1 * p.val = r.val; rw [e0, hr]; omega
  | ⟨1, _⟩ => show win7_0.index t (1 : Fin 2) * 64 + 1 * k.val = k.val; rw [e1]; omega
theorem iblk7_1_apply (c : Dev nD) (t : Fin cfg7.N) (p : Fin 512) (k : Fin 64) (r : Fin 4096) (hr : r.val = 512 * t.val + p.val) :
    (iblk7 V c 1 t : Vec Ideal S512x64 .f32) (ix2 p k) = (V c main_v206 : S4096x64.Idx → EReal) (ix2 r k) := by
  obtain ⟨-, ⟨e0, e1⟩, -⟩ := idx7 t
  unfold iblk7
  rw [View.read_apply]
  show V c main_v206 _ = V c main_v206 _
  congr 1
  funext a
  apply Fin.ext
  match a with
  | ⟨0, _⟩ => show win7_1.index t (0 : Fin 2) * 512 + 1 * p.val = r.val; rw [e0, hr]; omega
  | ⟨1, _⟩ => show win7_1.index t (1 : Fin 2) * 64 + 1 * k.val = k.val; rw [e1]; omega
theorem iblk7_2_apply (c : Dev nD) (t : Fin cfg7.N) (p : Fin 512) (k : Fin 64) (r : Fin 4096) (hr : r.val = 512 * t.val + p.val) :
    (iblk7 V c 2 t : Vec Ideal S512x64 .f32) (ix2 p k) = (V c main_v211 : S4096x64.Idx → EReal) (ix2 r k) := by
  obtain ⟨-, -, ⟨e0, e1⟩, -⟩ := idx7 t
  unfold iblk7
  rw [View.read_apply]
  show V c main_v211 _ = V c main_v211 _
  congr 1
  funext a
  apply Fin.ext
  match a with
  | ⟨0, _⟩ => show win7_2.index t (0 : Fin 2) * 512 + 1 * p.val = r.val; rw [e0, hr]; omega
  | ⟨1, _⟩ => show win7_2.index t (1 : Fin 2) * 64 + 1 * k.val = k.val; rw [e1]; omega

theorem iblk7_3_apply (c : Dev nD) (t : Fin cfg7.N) (k : Fin 64) :
    (iblk7 V c 3 t : Vec Ideal S1x64 .f32) (ix2 (0 : Fin 1) k) = (V c main_v246 : S1x64.Idx → EReal) (ix2 (0 : Fin 1) k) := by
  obtain ⟨-, -, -, -, ⟨e0, e1⟩, -⟩ := idx7 t
  unfold iblk7
  rw [View.read_apply]
  show V c main_v246 _ = V c main_v246 _
  congr 1
  funext a
  apply Fin.ext
  match a with
  | ⟨0, _⟩ => show win7_3.index t (0 : Fin 2) * 1 + 1 * 0 = 0; rw [e0]
  | ⟨1, _⟩ => show win7_3.index t (1 : Fin 2) * 64 + 1 * k.val = k.val; rw [e1]; omega
theorem iblk7_5_apply (c : Dev nD) (t : Fin cfg7.N) (k : Fin 64) :
    (iblk7 V c 5 t : Vec Ideal S1x64 .f32) (ix2 (0 : Fin 1) k) = (V c main_v247 : S1x64.Idx → EReal) (ix2 (0 : Fin 1) k) := by
  obtain ⟨-, -, -, -, -, -, ⟨e0, e1⟩, -⟩ := idx7 t
  unfold iblk7
  rw [View.read_apply]
  show V c main_v247 _ = V c main_v247 _
  congr 1
  funext a
  apply Fin.ext
  match a with
  | ⟨0, _⟩ => show win7_5.index t (0 : Fin 2) * 1 + 1 * 0 = 0; rw [e0]
  | ⟨1, _⟩ => show win7_5.index t (1 : Fin 2) * 64 + 1 * k.val = k.val; rw [e1]; omega
theorem iblk7_7_apply (c : Dev nD) (t : Fin cfg7.N) (k : Fin 64) :
    (iblk7 V c 7 t : Vec Ideal S1x64 .f32) (ix2 (0 : Fin 1) k) = (V c main_v248 : S1x64.Idx → EReal) (ix2 (0 : Fin 1) k) := by
  obtain ⟨-, -, -, -, -, -, -, -, ⟨e0, e1⟩, -⟩ := idx7 t
  unfold iblk7
  rw [View.read_apply]
  show V c main_v248 _ = V c main_v248 _
  congr 1
  funext a
  apply Fin.ext
  match a with
  | ⟨0, _⟩ => show win7_7.index t (0 : Fin 2) * 1 + 1 * 0 = 0; rw [e0]
  | ⟨1, _⟩ => show win7_7.index t (1 : Fin 2) * 64 + 1 * k.val = k.val; rw [e1]; omega

theorem iblk7_4_apply (c : Dev nD) (t : Fin cfg7.N) :
    (iblk7 V c 4 t : Vec Ideal S1x1 .f32) (ix2 (0 : Fin 1) (0 : Fin 1)) = (V c main_v249 : S1x1.Idx → EReal) (ix2 (0 : Fin 1) (0 : Fin 1)) := by
  obtain ⟨-, -, -, -, -, ⟨e0, e1⟩, -⟩ := idx7 t
  unfold iblk7
  rw [View.read_apply]
  show V c main_v249 _ = V c main_v249 _
  congr 1
  funext a
  apply Fin.ext
  match a with
  | ⟨0, _⟩ => show win7_4.index t (0 : Fin 2) * 1 + 1 * 0 = 0; rw [e0]
  | ⟨1, _⟩ => show win7_4.index t (1 : Fin 2) * 1 + 1 * 0 = 0; rw [e1]
theorem iblk7_6_apply (c : Dev nD) (t : Fin cfg7.N) :
    (iblk7 V c 6 t : Vec Ideal S1x1 .f32) (ix2 (0 : Fin 1) (0 : Fin 1)) = (V c main_v250 : S1x1.Idx → EReal) (ix2 (0 : Fin 1) (0 : Fin 1)) := by
  obtain ⟨-, -, -, -, -, -, -, ⟨e0, e1⟩, -⟩ := idx7 t
  unfold iblk7
  rw [View.read_apply]
  show V c main_v250 _ = V c main_v250 _
  congr 1
  funext a
  apply Fin.ext
  match a with
  | ⟨0, _⟩ => show win7_6.index t (0 : Fin 2) * 1 + 1 * 0 = 0; rw [e0]
  | ⟨1, _⟩ => show win7_6.index t (1 : Fin 2) * 1 + 1 * 0 = 0; rw [e1]
theorem iblk7_8_apply (c : Dev nD) (t : Fin cfg7.N) :
    (iblk7 V c 8 t : Vec Ideal S1x1 .f32) (ix2 (0 : Fin 1) (0 : Fin 1)) = (V c main_v251 : S1x1.Idx → EReal) (ix2 (0 : Fin 1) (0 : Fin 1)) := by
  obtain ⟨-, -, -, -, -, -, -, -, -, ⟨e0, e1⟩⟩ := idx7 t
  unfold iblk7
  rw [View.read_apply]
  show V c main_v251 _ = V c main_v251 _
  congr 1
  funext a
  apply Fin.ext
  match a with
  | ⟨0, _⟩ => show win7_8.index t (0 : Fin 2) * 1 + 1 * 0 = 0; rw [e0]
  | ⟨1, _⟩ => show win7_8.index t (1 : Fin 2) * 1 + 1 * 0 = 0; rw [e1]

theorem blockLogit_0 (c : Dev nD) (t : Fin cfg7.N) (p : Fin 512) (r : Fin 4096) (hr : r.val = 512 * t.val + p.val) :
    Ideal.logistic (blockLogit (iblk7 V c 0 t) (iblk7 V c 3 t) (iblk7 V c 4 t) p) = gate7 (V c main_v201) (V c main_v246) (V c main_v249) r := by
  unfold blockLogit gate7
  rw [iblk7_4_apply]
  congr 2
  refine Finset.sum_congr rfl fun k _ => ?_
  rw [iblk7_0_apply V c t p k r hr, iblk7_3_apply]
theorem blockLogit_1 (c : Dev nD) (t : Fin cfg7.N) (p : Fin 512) (r : Fin 4096) (hr : r.val = 512 * t.val + p.val) :
    Ideal.logistic (blockLogit (iblk7 V c 1 t) (iblk7 V c 5 t) (iblk7 V c 6 t) p) = gate7 (V c main_v206) (V c main_v247) (V c main_v250) r := by
  unfold blockLogit gate7
  rw [iblk7_6_apply]
  congr 2
  refine Finset.sum_congr rfl fun k _ => ?_
  rw [iblk7_1_apply V c t p k r hr, iblk7_5_apply]
theorem blockLogit_2 (c : Dev nD) (t : Fin cfg7.N) (p : Fin 512) (r : Fin 4096) (hr : r.val = 512 * t.val + p.val) :
    Ideal.logistic (blockLogit (iblk7 V c 2 t) (iblk7 V c 7 t) (iblk7 V c 8 t) p) = gate7 (V c main_v211) (V c main_v248) (V c main_v251) r := by
  unfold blockLogit gate7
  rw [iblk7_8_apply]
  congr 2
  refine Finset.sum_congr rfl fun k _ => ?_
  rw [iblk7_2_apply V c t p k r hr, iblk7_7_apply]

theorem emb7_9 (t : Fin cfg7.N) (p : Fin 512) (q : Fin 64) (r : Fin 4096) (hr : r.val = 512 * t.val + p.val) :
    ((cfg7.win 9).blk t).view.emb (ix2 p q) = (ix2 r q : S4096x64.Idx) := by
  obtain ⟨-, -, -, ⟨e0, e1⟩, -⟩ := idx7 t
  funext a
  apply Fin.ext
  match a with
  | ⟨0, _⟩ => show win7_9.index t (0 : Fin 2) * 512 + 1 * p.val = r.val; rw [e0, hr]; omega
  | ⟨1, _⟩ => show win7_9.index t (1 : Fin 2) * 64 + 1 * q.val = q.val; rw [e1]; omega

theorem flushed7_9_eq (c : Dev nD) (t : Fin cfg7.N) :
    (dat7 V c).flushed 9 t = ((cfg7.win 9).blk t).view.read (Elt Ideal)
      (G7 (V c main_v201) (V c main_v206) (V c main_v211) (V c main_v246) (V c main_v249) (V c main_v247) (V c main_v250)
        (V c main_v248) (V c main_v251)) := by
  show (cfg7.win 9).cut (grid7.coords t) ((dat7 V c).after 9 t) = _
  rw [after7_9]
  unfold out7_9
  rw [View.canon_unit_zero hz7]
  simp only [View.ld_unit_zero (S := S512x64) hz7, View.ld_unit_zero (S := S1x64) hz7, View.ld_unit_zero (S := S1x1) hz7]
  funext j
  obtain ⟨p, q, rfl⟩ : ∃ (p : Fin 512) (q : Fin 64), j = ix2 p q := ⟨j 0, j 1, eq_ix2 j⟩
  have ht := lt8 t
  have hlt : 512 * t.val + p.val < 4096 := by have := p.isLt; omega
  show _ = G7 (V c main_v201) (V c main_v206) (V c main_v211) (V c main_v246) (V c main_v249) (V c main_v247) (V c main_v250)
    (V c main_v248) (V c main_v251) (((cfg7.win 9).blk t).view.emb (ix2 p q))
  rw [emb7_9 t p q ⟨512 * t.val + p.val, hlt⟩ rfl, G7_apply]
  refine (fusion_pay_apply (iblk7 V c 0 t) (iblk7 V c 1 t) (iblk7 V c 2 t) (iblk7 V c 3 t) (iblk7 V c 4 t)
    (iblk7 V c 5 t) (iblk7 V c 6 t) (iblk7 V c 7 t) (iblk7 V c 8 t) p q).trans ?_
  rw [blockLogit_0 V c t p ⟨512 * t.val + p.val, hlt⟩ rfl, blockLogit_1 V c t p ⟨512 * t.val + p.val, hlt⟩ rfl,
    blockLogit_2 V c t p ⟨512 * t.val + p.val, hlt⟩ rfl,
    iblk7_0_apply V c t p q ⟨512 * t.val + p.val, hlt⟩ rfl, iblk7_1_apply V c t p q ⟨512 * t.val + p.val, hlt⟩ rfl,
    iblk7_2_apply V c t p q ⟨512 * t.val + p.val, hlt⟩ rfl]

theorem mem_blk7_9 (t : Fin cfg7.N) (i : S4096x64.Idx) :
    i ∈ ((cfg7.win 9).blk t).view.set ↔ ∀ a : Fin 2, win7_9.index t a * S512x64.size a ≤ (i a).val
      ∧ (i a).val < win7_9.index t a * S512x64.size a + S512x64.size a := by
  show i ∈ ((View.whole main_v252).slice (win7_9.rect t)).set ↔ _
  rw [View.set_slice_whole, Rect.mem_set_unit]
  exact Iff.rfl

theorem tiles7_9 (i : S4096x64.Idx) :
    ∃ t : Fin cfg7.N, (cfg7.win 9).flush t = true ∧ i ∈ ((cfg7.win 9).blk t).view.set := by
  have hi0 : (i 0).val < 4096 := (i 0).isLt
  have hi1 : (i 1).val < 64 := (i 1).isLt
  have hN : cfg7.N = 8 := N_7
  have hq : (i 0).val / 512 < cfg7.N := by rw [hN]; omega
  obtain ⟨-, -, -, ⟨e0, e1⟩, -⟩ := idx7 ⟨(i 0).val / 512, hq⟩
  refine ⟨⟨(i 0).val / 512, hq⟩, flush7_9 _, ?_⟩
  rw [mem_blk7_9]
  intro a
  match a with
  | ⟨0, _⟩ =>
    show win7_9.index ⟨(i 0).val / 512, hq⟩ (0 : Fin 2) * 512 ≤ (i 0).val
      ∧ (i 0).val < win7_9.index ⟨(i 0).val / 512, hq⟩ (0 : Fin 2) * 512 + 512
    rw [e0]; show (i 0).val / 512 * 512 ≤ (i 0).val ∧ (i 0).val < (i 0).val / 512 * 512 + 512; omega
  | ⟨1, _⟩ =>
    show win7_9.index ⟨(i 0).val / 512, hq⟩ (1 : Fin 2) * 64 ≤ (i 1).val
      ∧ (i 1).val < win7_9.index ⟨(i 0).val / 512, hq⟩ (1 : Fin 2) * 64 + 64
    rw [e1]; omega

theorem final7_9 (c : Dev nD) : (dat7 V c).arrAt 9 cfg7.N
    = G7 (V c main_v201) (V c main_v206) (V c main_v211) (V c main_v246) (V c main_v249) (V c main_v247) (V c main_v250)
        (V c main_v248) (V c main_v251) :=
  (dat7 V c).arrAt_eq_of_cover 9 _ (fun t _ => flushed7_9_eq V c t) tiles7_9

end Cert.KernelIdeal.Hand

end
-- ==== Proof.Ref.Stages.lean ====
import proofs.«133221_j41652592836945_2_alg».proof.ReferenceIdeal

noncomputable section

namespace Cert.ReferenceIdeal.Hand

open Idealize.ShloMosaic Idealize.SL.Sem
open Cert.ReferenceIdeal.Facts₀

variable {F : FTy → Type} [FloatOps F] [Facts₀]

def gate (x : (⟨S12000x64, .f32⟩ : BufTy).Contents (Elt F)) (w : (⟨S64x64, .f32⟩ : BufTy).Contents (Elt F)) (b : (⟨S1x64, .f32⟩ : BufTy).Contents (Elt F)) : (⟨S12000x64, .f32⟩ : BufTy).Contents (Elt F) :=
  mulf x (Host.divf (broadcastInDim S12000x64 ![] bcast_S_S12000x64 (constant S_ .f32 0x3F800000#32)) (addf (broadcastInDim S12000x64 ![] bcast_S_S12000x64 (constant S_ .f32 0x3F800000#32)) (Host.exp (Host.negf (addf (Host.dotGeneral dot_S12000x64_S64x64_S12000x64_1_0_0_1_n_n none x w) (broadcastInDim S12000x64 ![0, 1] bcast_S1x64_S12000x64_0_1 b))))))

def up64 (vals : (⟨S400000, .f32⟩ : BufTy).Contents (Elt F)) (rows cols : (⟨S400000, .i32⟩ : BufTy).Contents (Elt F)) (x : (⟨S12000x64, .f32⟩ : BufTy).Contents (Elt F)) : (⟨S8000x64, .f32⟩ : BufTy).Contents (Elt F) :=
  Host.scatterAdd scatter_S8000x64_S400000x1_S400000x64_1_0_0_1 (broadcastInDim S8000x64 ![] bcast_S_S8000x64 (constant S_ .f32 0x00000000#32)) (broadcastInDim S400000x1 ![0] bcast_S400000_S400000x1_0 rows) (mulf (broadcastInDim S400000x64 ![0, 1] bcast_S400000x1_S400000x64_0_1 (broadcastInDim S400000x1 ![0] bcast_S400000_S400000x1_0 vals)) (Host.gather gather_S12000x64_S400000x1_S400000x64_1_0_n_n_0_1_164 x (broadcastInDim S400000x1 ![0] bcast_S400000_S400000x1_0 (select (cmpi .slt cols (broadcastInDim S400000 ![] bcast_S_S400000 (constantI S_ 32 0#32))) (addi cols (broadcastInDim S400000 ![] bcast_S_S400000 (constantI S_ 32 12000#32))) cols))))

def pu64 (vals : (⟨S400000, .f32⟩ : BufTy).Contents (Elt F)) (rows cols : (⟨S400000, .i32⟩ : BufTy).Contents (Elt F)) (x : (⟨S8000x64, .f32⟩ : BufTy).Contents (Elt F)) : (⟨S12000x64, .f32⟩ : BufTy).Contents (Elt F) :=
  Host.scatterAdd scatter_S12000x64_S400000x1_S400000x64_1_0_0_1 (broadcastInDim S12000x64 ![] bcast_S_S12000x64 (constant S_ .f32 0x00000000#32)) (broadcastInDim S400000x1 ![0] bcast_S400000_S400000x1_0 rows) (mulf (broadcastInDim S400000x64 ![0, 1] bcast_S400000x1_S400000x64_0_1 (broadcastInDim S400000x1 ![0] bcast_S400000_S400000x1_0 vals)) (Host.gather gather_S8000x64_S400000x1_S400000x64_1_0_n_n_0_1_164 x (broadcastInDim S400000x1 ![0] bcast_S400000_S400000x1_0 (select (cmpi .slt cols (broadcastInDim S400000 ![] bcast_S_S400000 (constantI S_ 32 0#32))) (addi cols (broadcastInDim S400000 ![] bcast_S_S400000 (constantI S_ 32 8000#32))) cols))))

def geo64 (vals : (⟨S240000, .f32⟩ : BufTy).Contents (Elt F)) (rows cols : (⟨S240000, .i32⟩ : BufTy).Contents (Elt F)) (x : (⟨S12000x64, .f32⟩ : BufTy).Contents (Elt F)) : (⟨S12000x64, .f32⟩ : BufTy).Contents (Elt F) :=
  Host.scatterAdd scatter_S12000x64_S240000x1_S240000x64_1_0_0_1 (broadcastInDim S12000x64 ![] bcast_S_S12000x64 (constant S_ .f32 0x00000000#32)) (broadcastInDim S240000x1 ![0] bcast_S240000_S240000x1_0 rows) (mulf (broadcastInDim S240000x64 ![0, 1] bcast_S240000x1_S240000x64_0_1 (broadcastInDim S240000x1 ![0] bcast_S240000_S240000x1_0 vals)) (Host.gather gather_S12000x64_S240000x1_S240000x64_1_0_n_n_0_1_164 x (broadcastInDim S240000x1 ![0] bcast_S240000_S240000x1_0 (select (cmpi .slt cols (broadcastInDim S240000 ![] bcast_S_S240000 (constantI S_ 32 0#32))) (addi cols (broadcastInDim S240000 ![] bcast_S_S240000 (constantI S_ 32 12000#32))) cols))))

def tar64 (vals : (⟨S120000, .f32⟩ : BufTy).Contents (Elt F)) (rows cols : (⟨S120000, .i32⟩ : BufTy).Contents (Elt F)) (x : (⟨S12000x64, .f32⟩ : BufTy).Contents (Elt F)) : (⟨S12000x64, .f32⟩ : BufTy).Contents (Elt F) :=
  Host.scatterAdd scatter_S12000x64_S120000x1_S120000x64_1_0_0_1 (broadcastInDim S12000x64 ![] bcast_S_S12000x64 (constant S_ .f32 0x00000000#32)) (broadcastInDim S120000x1 ![0] bcast_S120000_S120000x1_0 rows) (mulf (broadcastInDim S120000x64 ![0, 1] bcast_S120000x1_S120000x64_0_1 (broadcastInDim S120000x1 ![0] bcast_S120000_S120000x1_0 vals)) (Host.gather gather_S12000x64_S120000x1_S120000x64_1_0_n_n_0_1_164 x (broadcastInDim S120000x1 ![0] bcast_S120000_S120000x1_0 (select (cmpi .slt cols (broadcastInDim S120000 ![] bcast_S_S120000 (constantI S_ 32 0#32))) (addi cols (broadcastInDim S120000 ![] bcast_S_S120000 (constantI S_ 32 12000#32))) cols))))

def src64 (vals : (⟨S120000, .f32⟩ : BufTy).Contents (Elt F)) (rows cols : (⟨S120000, .i32⟩ : BufTy).Contents (Elt F)) (x : (⟨S12000x64, .f32⟩ : BufTy).Contents (Elt F)) : (⟨S12000x64, .f32⟩ : BufTy).Contents (Elt F) :=
  Host.scatterAdd scatter_S12000x64_S120000x1_S120000x64_1_0_0_1 (broadcastInDim S12000x64 ![] bcast_S_S12000x64 (constant S_ .f32 0x00000000#32)) (broadcastInDim S120000x1 ![0] bcast_S120000_S120000x1_0 rows) (mulf (broadcastInDim S120000x64 ![0, 1] bcast_S120000x1_S120000x64_0_1 (broadcastInDim S120000x1 ![0] bcast_S120000_S120000x1_0 vals)) (Host.gather gather_S12000x64_S120000x1_S120000x64_1_0_n_n_0_1_164 x (broadcastInDim S120000x1 ![0] bcast_S120000_S120000x1_0 (select (cmpi .slt cols (broadcastInDim S120000 ![] bcast_S_S120000 (constantI S_ 32 0#32))) (addi cols (broadcastInDim S120000 ![] bcast_S_S120000 (constantI S_ 32 12000#32))) cols))))

def mean3 (a b c : (⟨S12000x64, .f32⟩ : BufTy).Contents (Elt F)) : (⟨S12000x64, .f32⟩ : BufTy).Contents (Elt F) :=
  Host.divf (Host.reduceAdd (concatenate S3x12000x64 0 [⟨S1x12000x64, (broadcastInDim S1x12000x64 ![1, 2] bcast_S12000x64_S1x12000x64_1_2 a)⟩, ⟨S1x12000x64, (broadcastInDim S1x12000x64 ![1, 2] bcast_S12000x64_S1x12000x64_1_2 b)⟩, ⟨S1x12000x64, (broadcastInDim S1x12000x64 ![1, 2] bcast_S12000x64_S1x12000x64_1_2 c)⟩] concatenates_S1x12000x64_S1x12000x64_S1x12000x64_S3x12000x64_d0) (constant S_ .f32 0x00000000#32) reducesTo_S3x12000x64_S12000x64_d0 h_S_) (broadcastInDim S12000x64 ![] bcast_S_S12000x64 (constant S_ .f32 0x40400000#32))

def convStack (step : (⟨S12000x64, .f32⟩ : BufTy).Contents (Elt F) → (⟨S12000x64, .f32⟩ : BufTy).Contents (Elt F)) (x : (⟨S12000x64, .f32⟩ : BufTy).Contents (Elt F)) : (⟨S12000x64, .f32⟩ : BufTy).Contents (Elt F) :=
  mean3 x (addf (step x) x) (addf (step (addf (step x) x)) (addf (step x) x))

def l2norm12000 (x : (⟨S12000x64, .f32⟩ : BufTy).Contents (Elt F)) : (⟨S12000x64, .f32⟩ : BufTy).Contents (Elt F) :=
  Host.divf x (broadcastInDim S12000x64 ![0, 1] bcast_S12000x1_S12000x64_0_1 (maximumf (Host.sqrt (broadcastInDim S12000x1 ![0] bcast_S12000_S12000x1_0 (Host.reduceAdd (mulf x x) (constant S_ .f32 0x00000000#32) reducesTo_S12000x64_S12000_d1 h_S_))) (broadcastInDim S12000x1 ![] bcast_S_S12000x1 (constant S_ .f32 0x2B8CBCCC#32))))

def l2norm4096 (x : (⟨S4096x64, .f32⟩ : BufTy).Contents (Elt F)) : (⟨S4096x64, .f32⟩ : BufTy).Contents (Elt F) :=
  Host.divf x (broadcastInDim S4096x64 ![0, 1] bcast_S4096x1_S4096x64_0_1 (maximumf (Host.sqrt (broadcastInDim S4096x1 ![0] bcast_S4096_S4096x1_0 (Host.reduceAdd (mulf x x) (constant S_ .f32 0x00000000#32) reducesTo_S4096x64_S4096_d1 h_S_))) (broadcastInDim S4096x1 ![] bcast_S_S4096x1 (constant S_ .f32 0x2B8CBCCC#32))))

def gatherRows (idx : (⟨S4096, .i32⟩ : BufTy).Contents (Elt F)) (x : (⟨S8000x64, .f32⟩ : BufTy).Contents (Elt F)) : (⟨S4096x64, .f32⟩ : BufTy).Contents (Elt F) :=
  Host.gather gather_S8000x64_S4096x1_S4096x64_1_0_n_n_0_1_164 x (broadcastInDim S4096x1 ![0] bcast_S4096_S4096x1_0 (select (cmpi .slt idx (broadcastInDim S4096 ![] bcast_S_S4096 (constantI S_ 32 0#32))) (addi idx (broadcastInDim S4096 ![] bcast_S_S4096 (constantI S_ 32 8000#32))) idx))

def infonce12000 (e1 e2 : (⟨S12000x64, .f32⟩ : BufTy).Contents (Elt F)) : (⟨S_, .f32⟩ : BufTy).Contents (Elt F) :=
  Host.divf (Host.reduceAdd (Host.negf (Host.log (addf (Host.divf (Host.exp (Host.divf (Host.reduceAdd (mulf e1 e2) (constant S_ .f32 0x00000000#32) reducesTo_S12000x64_S12000_d1 h_S_) (broadcastInDim S12000 ![] bcast_S_S12000 (constant S_ .f32 0x3E4CCCCD#32)))) (addf (Host.reduceAdd (Host.exp (Host.divf (Host.dotGeneral dot_S12000x64_S64x12000_S12000x12000_1_0_0_1_n_n none e1 (transpose S64x12000 [1, 0] e2 transposes_S12000x64_S64x12000_1_0)) (broadcastInDim S12000x12000 ![] bcast_S_S12000x12000 (constant S_ .f32 0x3E4CCCCD#32)))) (constant S_ .f32 0x00000000#32) reducesTo_S12000x12000_S12000_d1 h_S_) (broadcastInDim S12000 ![] bcast_S_S12000 (constant S_ .f32 0x322BCC77#32)))) (broadcastInDim S12000 ![] bcast_S_S12000 (constant S_ .f32 0x322BCC77#32))))) (constant S_ .f32 0x00000000#32) reducesTo_S12000_S_d0 h_S_) (constant S_ .f32 0x463B8000#32)

def infonce4096 (e1 e2 : (⟨S4096x64, .f32⟩ : BufTy).Contents (Elt F)) : (⟨S_, .f32⟩ : BufTy).Contents (Elt F) :=
  Host.divf (Host.reduceAdd (Host.negf (Host.log (addf (Host.divf (Host.exp (Host.divf (Host.reduceAdd (mulf e1 e2) (constant S_ .f32 0x00000000#32) reducesTo_S4096x64_S4096_d1 h_S_) (broadcastInDim S4096 ![] bcast_S_S4096 (constant S_ .f32 0x3E4CCCCD#32)))) (addf (Host.reduceAdd (Host.exp (Host.divf (Host.dotGeneral dot_S4096x64_S64x4096_S4096x4096_1_0_0_1_n_n none e1 (transpose S64x4096 [1, 0] e2 transposes_S4096x64_S64x4096_1_0)) (broadcastInDim S4096x4096 ![] bcast_S_S4096x4096 (constant S_ .f32 0x3E4CCCCD#32)))) (constant S_ .f32 0x00000000#32) reducesTo_S4096x4096_S4096_d1 h_S_) (broadcastInDim S4096 ![] bcast_S_S4096 (constant S_ .f32 0x322BCC77#32)))) (broadcastInDim S4096 ![] bcast_S_S4096 (constant S_ .f32 0x322BCC77#32))))) (constant S_ .f32 0x00000000#32) reducesTo_S4096_S_d0 h_S_) (constant S_ .f32 0x45800000#32)

def coef (u : (⟨S4096x64, .f32⟩ : BufTy).Contents (Elt F)) (w : (⟨S64x1, .f32⟩ : BufTy).Contents (Elt F)) (b : (⟨S1, .f32⟩ : BufTy).Contents (Elt F)) : (⟨S4096x1, .f32⟩ : BufTy).Contents (Elt F) :=
  Host.divf (broadcastInDim S4096x1 ![] bcast_S_S4096x1 (constant S_ .f32 0x3F800000#32)) (addf (broadcastInDim S4096x1 ![] bcast_S_S4096x1 (constant S_ .f32 0x3F800000#32)) (Host.exp (Host.negf (addf (Host.dotGeneral dot_S4096x64_S64x1_S4096x1_1_0_0_1_n_n none u w) (broadcastInDim S4096x1 ![0, 1] bcast_S1x1_S4096x1_0_1 (broadcastInDim S1x1 ![1] bcast_S1_S1x1_1 b))))))

def fusion (u1 u2 u3 : (⟨S4096x64, .f32⟩ : BufTy).Contents (Elt F)) (w1 : (⟨S64x1, .f32⟩ : BufTy).Contents (Elt F)) (b1 : (⟨S1, .f32⟩ : BufTy).Contents (Elt F)) (w2 : (⟨S64x1, .f32⟩ : BufTy).Contents (Elt F)) (b2 : (⟨S1, .f32⟩ : BufTy).Contents (Elt F))
    (w3 : (⟨S64x1, .f32⟩ : BufTy).Contents (Elt F)) (b3 : (⟨S1, .f32⟩ : BufTy).Contents (Elt F)) : (⟨S4096x64, .f32⟩ : BufTy).Contents (Elt F) :=
  addf (addf (mulf (broadcastInDim S4096x64 ![0, 1] bcast_S4096x1_S4096x64_0_1 (coef u1 w1 b1)) u1) (mulf (broadcastInDim S4096x64 ![0, 1] bcast_S4096x1_S4096x64_0_1 (coef u2 w2 b2)) u2)) (mulf (broadcastInDim S4096x64 ![0, 1] bcast_S4096x1_S4096x64_0_1 (coef u3 w3 b3)) u3)

structure Args (F : FTy → Type) where
  poi_emb : (⟨S12000x64, .f32⟩ : BufTy).Contents (Elt F)
  w_gate_geo : (⟨S64x64, .f32⟩ : BufTy).Contents (Elt F)
  b_gate_geo : (⟨S1x64, .f32⟩ : BufTy).Contents (Elt F)
  w_gate_seq : (⟨S64x64, .f32⟩ : BufTy).Contents (Elt F)
  b_gate_seq : (⟨S1x64, .f32⟩ : BufTy).Contents (Elt F)
  w_gate_col : (⟨S64x64, .f32⟩ : BufTy).Contents (Elt F)
  b_gate_col : (⟨S1x64, .f32⟩ : BufTy).Contents (Elt F)
  hyper_gate_w : (⟨S64x1, .f32⟩ : BufTy).Contents (Elt F)
  hyper_gate_b : (⟨S1, .f32⟩ : BufTy).Contents (Elt F)
  gcn_gate_w : (⟨S64x1, .f32⟩ : BufTy).Contents (Elt F)
  gcn_gate_b : (⟨S1, .f32⟩ : BufTy).Contents (Elt F)
  trans_gate_w : (⟨S64x1, .f32⟩ : BufTy).Contents (Elt F)
  trans_gate_b : (⟨S1, .f32⟩ : BufTy).Contents (Elt F)
  up_vals : (⟨S400000, .f32⟩ : BufTy).Contents (Elt F)
  pu_vals : (⟨S400000, .f32⟩ : BufTy).Contents (Elt F)
  geo_vals : (⟨S240000, .f32⟩ : BufTy).Contents (Elt F)
  src_vals : (⟨S120000, .f32⟩ : BufTy).Contents (Elt F)
  tar_vals : (⟨S120000, .f32⟩ : BufTy).Contents (Elt F)
  up_rows : (⟨S400000, .i32⟩ : BufTy).Contents (Elt F)
  up_cols : (⟨S400000, .i32⟩ : BufTy).Contents (Elt F)
  pu_rows : (⟨S400000, .i32⟩ : BufTy).Contents (Elt F)
  pu_cols : (⟨S400000, .i32⟩ : BufTy).Contents (Elt F)
  geo_rows : (⟨S240000, .i32⟩ : BufTy).Contents (Elt F)
  geo_cols : (⟨S240000, .i32⟩ : BufTy).Contents (Elt F)
  src_rows : (⟨S120000, .i32⟩ : BufTy).Contents (Elt F)
  src_cols : (⟨S120000, .i32⟩ : BufTy).Contents (Elt F)
  tar_rows : (⟨S120000, .i32⟩ : BufTy).Contents (Elt F)
  tar_cols : (⟨S120000, .i32⟩ : BufTy).Contents (Elt F)
  user_idx : (⟨S4096, .i32⟩ : BufTy).Contents (Elt F)

variable (A : Args F)

def geo_gated : (⟨S12000x64, .f32⟩ : BufTy).Contents (Elt F) := gate A.poi_emb A.w_gate_geo A.b_gate_geo
def seq_gated : (⟨S12000x64, .f32⟩ : BufTy).Contents (Elt F) := gate A.poi_emb A.w_gate_seq A.b_gate_seq
def col_gated : (⟨S12000x64, .f32⟩ : BufTy).Contents (Elt F) := gate A.poi_emb A.w_gate_col A.b_gate_col

def up (x : (⟨S12000x64, .f32⟩ : BufTy).Contents (Elt F)) : (⟨S8000x64, .f32⟩ : BufTy).Contents (Elt F) := up64 A.up_vals A.up_rows A.up_cols x

def mv_step (x : (⟨S12000x64, .f32⟩ : BufTy).Contents (Elt F)) : (⟨S12000x64, .f32⟩ : BufTy).Contents (Elt F) := pu64 A.pu_vals A.pu_rows A.pu_cols (up A x)
def geo_step (x : (⟨S12000x64, .f32⟩ : BufTy).Contents (Elt F)) : (⟨S12000x64, .f32⟩ : BufTy).Contents (Elt F) := geo64 A.geo_vals A.geo_rows A.geo_cols x
def di_step (x : (⟨S12000x64, .f32⟩ : BufTy).Contents (Elt F)) : (⟨S12000x64, .f32⟩ : BufTy).Contents (Elt F) :=
  src64 A.src_vals A.src_rows A.src_cols (tar64 A.tar_vals A.tar_rows A.tar_cols x)

def hg_pois : (⟨S12000x64, .f32⟩ : BufTy).Contents (Elt F) := convStack (mv_step A) (col_gated A)
def geo_pois : (⟨S12000x64, .f32⟩ : BufTy).Contents (Elt F) := convStack (geo_step A) (geo_gated A)
def trans_pois : (⟨S12000x64, .f32⟩ : BufTy).Contents (Elt F) := convStack (di_step A) (seq_gated A)

def hg_bu : (⟨S4096x64, .f32⟩ : BufTy).Contents (Elt F) := gatherRows A.user_idx (up A (hg_pois A))
def geo_bu : (⟨S4096x64, .f32⟩ : BufTy).Contents (Elt F) := gatherRows A.user_idx (up A (geo_pois A))
def trans_bu : (⟨S4096x64, .f32⟩ : BufTy).Contents (Elt F) := gatherRows A.user_idx (up A (trans_pois A))

def n_hg_p : (⟨S12000x64, .f32⟩ : BufTy).Contents (Elt F) := l2norm12000 (hg_pois A)
def n_geo_p : (⟨S12000x64, .f32⟩ : BufTy).Contents (Elt F) := l2norm12000 (geo_pois A)
def n_tr_p : (⟨S12000x64, .f32⟩ : BufTy).Contents (Elt F) := l2norm12000 (trans_pois A)
def n_hg_u : (⟨S4096x64, .f32⟩ : BufTy).Contents (Elt F) := l2norm4096 (hg_bu A)
def n_geo_u : (⟨S4096x64, .f32⟩ : BufTy).Contents (Elt F) := l2norm4096 (geo_bu A)
def n_tr_u : (⟨S4096x64, .f32⟩ : BufTy).Contents (Elt F) := l2norm4096 (trans_bu A)

def nce_p_hg_geo : (⟨S_, .f32⟩ : BufTy).Contents (Elt F) := infonce12000 (n_hg_p A) (n_geo_p A)
def nce_p_hg_tr : (⟨S_, .f32⟩ : BufTy).Contents (Elt F) := infonce12000 (n_hg_p A) (n_tr_p A)
def nce_p_geo_tr : (⟨S_, .f32⟩ : BufTy).Contents (Elt F) := infonce12000 (n_geo_p A) (n_tr_p A)
def nce_u_hg_geo : (⟨S_, .f32⟩ : BufTy).Contents (Elt F) := infonce4096 (n_hg_u A) (n_geo_u A)
def nce_u_hg_tr : (⟨S_, .f32⟩ : BufTy).Contents (Elt F) := infonce4096 (n_hg_u A) (n_tr_u A)
def nce_u_geo_tr : (⟨S_, .f32⟩ : BufTy).Contents (Elt F) := infonce4096 (n_geo_u A) (n_tr_u A)

def res_fusion : (⟨S4096x64, .f32⟩ : BufTy).Contents (Elt F) :=
  fusion (n_hg_u A) (n_geo_u A) (n_tr_u A) A.hyper_gate_w A.hyper_gate_b A.gcn_gate_w A.gcn_gate_b A.trans_gate_w A.trans_gate_b
def res_loss_poi : (⟨S_, .f32⟩ : BufTy).Contents (Elt F) := addf (addf (nce_p_hg_geo A) (nce_p_hg_tr A)) (nce_p_geo_tr A)
def res_loss_user : (⟨S_, .f32⟩ : BufTy).Contents (Elt F) := addf (addf (nce_u_hg_geo A) (nce_u_hg_tr A)) (nce_u_geo_tr A)

end Cert.ReferenceIdeal.Hand

end
-- ==== Proof.KI.FusionBridge.lean ====
import proofs.«133221_j41652592836945_2_alg».proof.Proof.KI.FusionValue
import proofs.«133221_j41652592836945_2_alg».proof.Proof.Ref.Stages
import proofs.«133221_j41652592836945_2_alg».proof.Proof.Gen.ReferenceIdeal
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

open scoped BigOperators

namespace Cert.ReferenceIdeal.FusionRead

open Idealize.ShloMosaic Idealize.ShloMosaic.ValueIdx Idealize.SL.Sem
open Cert.ReferenceIdeal Cert.ReferenceIdeal.Hand
open Cert.ReferenceIdeal.Facts₀

theorem lhs_axis0 (i : S4096x1.Idx) (q : dot_S4096x64_S64x1_S4096x1_1_0_0_1_n_n.contr.Idx) :
    (dot_S4096x64_S64x1_S4096x1_1_0_0_1_n_n.lhsIdx i q 0).val = (i 0).val := by
  unfold DotDims.lhsIdx
  rw [dif_neg (show ¬(0 : Fin S4096x64.rank) ∈ dot_S4096x64_S64x1_S4096x1_1_0_0_1_n_n.lhsBatch by decide), dif_pos (show (0 : Fin S4096x64.rank) ∈ dot_S4096x64_S64x1_S4096x1_1_0_0_1_n_n.lhsNonContracting by decide)]
  rfl
theorem lhs_axis1 (i : S4096x1.Idx) (q : dot_S4096x64_S64x1_S4096x1_1_0_0_1_n_n.contr.Idx) :
    (dot_S4096x64_S64x1_S4096x1_1_0_0_1_n_n.lhsIdx i q 1).val = (q ⟨0, by decide⟩).val :=
  dot_S4096x64_S64x1_S4096x1_1_0_0_1_n_n.lhsIdx_val_of_single rfl i q
theorem rhs_axis0 (i : S4096x1.Idx) (q : dot_S4096x64_S64x1_S4096x1_1_0_0_1_n_n.contr.Idx) :
    (dot_S4096x64_S64x1_S4096x1_1_0_0_1_n_n.rhsIdx i q 0).val = (q ⟨0, by decide⟩).val :=
  dot_S4096x64_S64x1_S4096x1_1_0_0_1_n_n.rhsIdx_val_of_single rfl i q
theorem rhs_axis1 (i : S4096x1.Idx) (q : dot_S4096x64_S64x1_S4096x1_1_0_0_1_n_n.contr.Idx) :
    (dot_S4096x64_S64x1_S4096x1_1_0_0_1_n_n.rhsIdx i q 1).val = (i 1).val := by
  unfold DotDims.rhsIdx
  rw [dif_neg (show ¬(1 : Fin S64x1.rank) ∈ dot_S4096x64_S64x1_S4096x1_1_0_0_1_n_n.rhsBatch by decide), dif_pos (show (1 : Fin S64x1.rank) ∈ dot_S4096x64_S64x1_S4096x1_1_0_0_1_n_n.rhsNonContracting by decide)]
  rfl

theorem dot_apply (u : (⟨S4096x64, .f32⟩ : BufTy).Contents (Elt Ideal)) (w : (⟨S64x1, .f32⟩ : BufTy).Contents (Elt Ideal))
    (r : Fin 4096) (z : Fin 1) :
    Host.dotGeneral (F := Ideal) (φ₁ := .f32) (φ₂ := .f32) dot_S4096x64_S64x1_S4096x1_1_0_0_1_n_n none u w (ix2 r z) = ∑ k : Fin 64, u (ix2 r k) * w (ix2 k z) := by
  simp only [Host.dotGeneral]
  rw [Ideal.dotGeneral_apply, ← Equiv.sum_comp (contrEquiv1 dot_S4096x64_S64x1_S4096x1_1_0_0_1_n_n 64 rfl rfl).symm]
  refine Finset.sum_congr rfl fun k _ => ?_
  have hk := contrEquiv1_symm_val dot_S4096x64_S64x1_S4096x1_1_0_0_1_n_n 64 rfl rfl k
  have el : dot_S4096x64_S64x1_S4096x1_1_0_0_1_n_n.lhsIdx (ix2 r z) ((contrEquiv1 dot_S4096x64_S64x1_S4096x1_1_0_0_1_n_n 64 rfl rfl).symm k) = ix2 r k := funext fun a => Fin.ext (by
    match a with
    | ⟨0, _⟩ => exact lhs_axis0 _ _
    | ⟨1, _⟩ => exact (lhs_axis1 _ _).trans hk)
  have er : dot_S4096x64_S64x1_S4096x1_1_0_0_1_n_n.rhsIdx (ix2 r z) ((contrEquiv1 dot_S4096x64_S64x1_S4096x1_1_0_0_1_n_n 64 rfl rfl).symm k) = ix2 k z := funext fun a => Fin.ext (by
    match a with
    | ⟨0, _⟩ => exact (rhs_axis0 _ _).trans hk
    | ⟨1, _⟩ => exact rhs_axis1 _ _)
  rw [el, er]

theorem bias_apply (b : (⟨S1, .f32⟩ : BufTy).Contents (Elt Ideal)) (r : Fin 4096) (z : Fin 1) :
    broadcastInDim S4096x1 ![0, 1] bcast_S1x1_S4096x1_0_1 (broadcastInDim S1x1 ![1] bcast_S1_S1x1_1 b) (ix2 r z) = b (ix1 (0 : Fin 1)) := by
  refine (broadcastInDim_apply ![0, 1] bcast_S1x1_S4096x1_0_1 _ (ix2 r z) (ix2 (0 : Fin 1) (0 : Fin 1)) fun a => ?_).trans ?_
  · match a with
    | ⟨0, _⟩ => rfl
    | ⟨1, _⟩ => rfl
  · exact broadcastInDim_apply ![1] bcast_S1_S1x1_1 b (ix2 (0 : Fin 1) (0 : Fin 1)) (ix1 (0 : Fin 1)) fun a => by
      match a with
      | ⟨0, _⟩ => rfl

theorem one_apply (j : S4096x1.Idx) :
    broadcastInDim S4096x1 ![] bcast_S_S4096x1 (constant (F := Ideal) S_ .f32 0x3F800000#32) j = (1 : EReal) := by
  rw [broadcastInDim_scalar_apply, constant_apply, Ideal.ofBits_one_f32]

theorem coef_apply (u : (⟨S4096x64, .f32⟩ : BufTy).Contents (Elt Ideal)) (w : (⟨S64x1, .f32⟩ : BufTy).Contents (Elt Ideal))
    (b : (⟨S1, .f32⟩ : BufTy).Contents (Elt Ideal)) (r : Fin 4096) (z : Fin 1) :
    coef (F := Ideal) u w b (ix2 r z)
      = Ideal.logistic ((∑ k : Fin 64, u (ix2 r k) * w (ix2 k (0 : Fin 1))) + b (ix1 (0 : Fin 1))) := by
  obtain rfl : z = 0 := Subsingleton.elim _ _
  show Ideal.div (broadcastInDim S4096x1 ![] bcast_S_S4096x1 (constant (F := Ideal) S_ .f32 0x3F800000#32) (ix2 r 0))
      (broadcastInDim S4096x1 ![] bcast_S_S4096x1 (constant (F := Ideal) S_ .f32 0x3F800000#32) (ix2 r 0)
        + Ideal.exp (-(Host.dotGeneral (F := Ideal) (φ₁ := .f32) (φ₂ := .f32) dot_S4096x64_S64x1_S4096x1_1_0_0_1_n_n none u w (ix2 r 0)
            + broadcastInDim S4096x1 ![0, 1] bcast_S1x1_S4096x1_0_1 (broadcastInDim S1x1 ![1] bcast_S1_S1x1_1 b) (ix2 r 0)))) = _
  rw [one_apply, dot_apply, bias_apply]
  rfl

theorem col_apply (c : (⟨S4096x1, .f32⟩ : BufTy).Contents (Elt Ideal)) (r : Fin 4096) (j : Fin 64) :
    broadcastInDim S4096x64 ![0, 1] bcast_S4096x1_S4096x64_0_1 c (ix2 r j) = c (ix2 r (0 : Fin 1)) :=
  broadcastInDim_apply ![0, 1] bcast_S4096x1_S4096x64_0_1 c (ix2 r j) (ix2 r (0 : Fin 1)) fun a => by
    match a with
    | ⟨0, _⟩ => rfl
    | ⟨1, _⟩ => rfl

theorem fusion_apply (u1 u2 u3 : (⟨S4096x64, .f32⟩ : BufTy).Contents (Elt Ideal))
    (w1 : (⟨S64x1, .f32⟩ : BufTy).Contents (Elt Ideal)) (b1 : (⟨S1, .f32⟩ : BufTy).Contents (Elt Ideal))
    (w2 : (⟨S64x1, .f32⟩ : BufTy).Contents (Elt Ideal)) (b2 : (⟨S1, .f32⟩ : BufTy).Contents (Elt Ideal))
    (w3 : (⟨S64x1, .f32⟩ : BufTy).Contents (Elt Ideal)) (b3 : (⟨S1, .f32⟩ : BufTy).Contents (Elt Ideal))
    (r : Fin 4096) (j : Fin 64) :
    fusion (F := Ideal) u1 u2 u3 w1 b1 w2 b2 w3 b3 (ix2 r j)
      = coef (F := Ideal) u1 w1 b1 (ix2 r (0 : Fin 1)) * u1 (ix2 r j) + coef (F := Ideal) u2 w2 b2 (ix2 r (0 : Fin 1)) * u2 (ix2 r j)
        + coef (F := Ideal) u3 w3 b3 (ix2 r (0 : Fin 1)) * u3 (ix2 r j) := by
  unfold fusion
  rw [addf_apply, addf_apply, mulf_apply, mulf_apply, mulf_apply, col_apply, col_apply, col_apply]

end Cert.ReferenceIdeal.FusionRead

namespace Cert.KernelIdeal.Hand

open Idealize.ShloMosaic Idealize.ShloMosaic.ValueIdx Idealize.SL.Sem
open Cert.KernelIdeal Cert.KernelIdeal.Gen

theorem weight_row_apply (w : (⟨S64x1, .f32⟩ : BufTy).Contents (Elt Ideal)) (k : Fin 64) :
    transpose S1x64 [1, 0] w transposes_S64x1_S1x64_1_0 (ix2 (0 : Fin 1) k) = w (ix2 k (0 : Fin 1)) :=
  transpose_ix2_apply w transposes_S64x1_S1x64_1_0 (0 : Fin 1) k

theorem bias_cell_apply (b : (⟨S1, .f32⟩ : BufTy).Contents (Elt Ideal)) :
    shapeCast S1x1 b shapeCasts_S1_S1x1 (ix2 (0 : Fin 1) (0 : Fin 1)) = b (ix1 (0 : Fin 1)) :=
  shapeCast_a_1a_apply b shapeCasts_S1_S1x1 (0 : Fin 1) (0 : Fin 1)

theorem fusion_bridge_of (u1 u2 u3 : Vec Ideal S4096x64 .f32)
    (wt1 : Vec Ideal S1x64 .f32) (bt1 : Vec Ideal S1x1 .f32) (wt2 : Vec Ideal S1x64 .f32) (bt2 : Vec Ideal S1x1 .f32)
    (wt3 : Vec Ideal S1x64 .f32) (bt3 : Vec Ideal S1x1 .f32)
    (w1 : (⟨S64x1, .f32⟩ : BufTy).Contents (Elt Ideal)) (b1 : (⟨S1, .f32⟩ : BufTy).Contents (Elt Ideal))
    (w2 : (⟨S64x1, .f32⟩ : BufTy).Contents (Elt Ideal)) (b2 : (⟨S1, .f32⟩ : BufTy).Contents (Elt Ideal))
    (w3 : (⟨S64x1, .f32⟩ : BufTy).Contents (Elt Ideal)) (b3 : (⟨S1, .f32⟩ : BufTy).Contents (Elt Ideal))
    (hw1 : ∀ k : Fin 64, wt1 (ix2 (0 : Fin 1) k) = w1 (ix2 k (0 : Fin 1)))
    (hb1 : bt1 (ix2 (0 : Fin 1) (0 : Fin 1)) = b1 (ix1 (0 : Fin 1)))
    (hw2 : ∀ k : Fin 64, wt2 (ix2 (0 : Fin 1) k) = w2 (ix2 k (0 : Fin 1)))
    (hb2 : bt2 (ix2 (0 : Fin 1) (0 : Fin 1)) = b2 (ix1 (0 : Fin 1)))
    (hw3 : ∀ k : Fin 64, wt3 (ix2 (0 : Fin 1) k) = w3 (ix2 k (0 : Fin 1)))
    (hb3 : bt3 (ix2 (0 : Fin 1) (0 : Fin 1)) = b3 (ix1 (0 : Fin 1))) :
    G7 u1 u2 u3 wt1 bt1 wt2 bt2 wt3 bt3 = Cert.ReferenceIdeal.Hand.fusion (F := Ideal) u1 u2 u3 w1 b1 w2 b2 w3 b3 := by
  funext i
  obtain ⟨r, j, rfl⟩ : ∃ (r : Fin 4096) (j : Fin 64), i = ix2 r j := ⟨i 0, i 1, eq_ix2 i⟩
  rw [G7_apply]
  refine Eq.trans ?_ (Cert.ReferenceIdeal.FusionRead.fusion_apply u1 u2 u3 w1 b1 w2 b2 w3 b3 r j).symm
  rw [Cert.ReferenceIdeal.FusionRead.coef_apply, Cert.ReferenceIdeal.FusionRead.coef_apply,
    Cert.ReferenceIdeal.FusionRead.coef_apply]
  unfold gate7
  simp only [hw1, hb1, hw2, hb2, hw3, hb3]

theorem fusion_bridge (u1 u2 u3 : (⟨S4096x64, .f32⟩ : BufTy).Contents (Elt Ideal))
    (w1 : (⟨S64x1, .f32⟩ : BufTy).Contents (Elt Ideal)) (b1 : (⟨S1, .f32⟩ : BufTy).Contents (Elt Ideal))
    (w2 : (⟨S64x1, .f32⟩ : BufTy).Contents (Elt Ideal)) (b2 : (⟨S1, .f32⟩ : BufTy).Contents (Elt Ideal))
    (w3 : (⟨S64x1, .f32⟩ : BufTy).Contents (Elt Ideal)) (b3 : (⟨S1, .f32⟩ : BufTy).Contents (Elt Ideal)) :
    G7 u1 u2 u3
      (transpose S1x64 [1, 0] w1 transposes_S64x1_S1x64_1_0) (shapeCast S1x1 b1 shapeCasts_S1_S1x1)
      (transpose S1x64 [1, 0] w2 transposes_S64x1_S1x64_1_0) (shapeCast S1x1 b2 shapeCasts_S1_S1x1)
      (transpose S1x64 [1, 0] w3 transposes_S64x1_S1x64_1_0) (shapeCast S1x1 b3 shapeCasts_S1_S1x1)
      = Cert.ReferenceIdeal.Hand.fusion (F := Ideal) u1 u2 u3 w1 b1 w2 b2 w3 b3 :=
  fusion_bridge_of u1 u2 u3 _ _ _ _ _ _ w1 b1 w2 b2 w3 b3
    (weight_row_apply w1) (bias_cell_apply b1) (weight_row_apply w2) (bias_cell_apply b2)
    (weight_row_apply w3) (bias_cell_apply b3)

end Cert.KernelIdeal.Hand

end
-- ==== Proof.KI.CatDefs.lean ====
import proofs.«133221_j41652592836945_2_alg».proof.KernelIdeal

noncomputable section

namespace Cert.KernelIdeal.Hand

open Idealize.ShloMosaic Idealize.SL.Sem
open Cert.KernelIdeal.Facts₀

variable {F : FTy → Type} [FloatOps F] [Facts₀]

def cat3 (a b c : (⟨S12000x64, .f32⟩ : BufTy).Contents (Elt F)) : (⟨S12000x192, .f32⟩ : BufTy).Contents (Elt F) :=
  concatenate S12000x192 1 [⟨S12000x64, a⟩, ⟨S12000x64, b⟩, ⟨S12000x64, c⟩] concatenates_S12000x64_S12000x64_S12000x64_S12000x192_d1

def up192 (vals : (⟨S400000, .f32⟩ : BufTy).Contents (Elt F)) (rows cols : (⟨S400000, .i32⟩ : BufTy).Contents (Elt F)) (x : (⟨S12000x192, .f32⟩ : BufTy).Contents (Elt F)) : (⟨S8000x192, .f32⟩ : BufTy).Contents (Elt F) :=
  Host.scatterAdd scatter_S8000x192_S400000x1_S400000x192_1_0_0_1 (broadcastInDim S8000x192 ![] bcast_S_S8000x192 (constant S_ .f32 0x00000000#32)) (broadcastInDim S400000x1 ![0] bcast_S400000_S400000x1_0 rows) (mulf (broadcastInDim S400000x192 ![0, 1] bcast_S400000x1_S400000x192_0_1 (broadcastInDim S400000x1 ![0] bcast_S400000_S400000x1_0 vals)) (Host.gather gather_S12000x192_S400000x1_S400000x192_1_0_n_n_0_1_1192 x (broadcastInDim S400000x1 ![0] bcast_S400000_S400000x1_0 (select (cmpi .slt cols (broadcastInDim S400000 ![] bcast_S_S400000 (constantI S_ 32 0#32))) (addi cols (broadcastInDim S400000 ![] bcast_S_S400000 (constantI S_ 32 12000#32))) cols))))

def gatherRows192 (idx : (⟨S4096, .i32⟩ : BufTy).Contents (Elt F)) (x : (⟨S8000x192, .f32⟩ : BufTy).Contents (Elt F)) : (⟨S4096x192, .f32⟩ : BufTy).Contents (Elt F) :=
  Host.gather gather_S8000x192_S4096x1_S4096x192_1_0_n_n_0_1_1192 x (broadcastInDim S4096x1 ![0] bcast_S4096_S4096x1_0 (select (cmpi .slt idx (broadcastInDim S4096 ![] bcast_S_S4096 (constantI S_ 32 0#32))) (addi idx (broadcastInDim S4096 ![] bcast_S_S4096 (constantI S_ 32 8000#32))) idx))

def slice0 (x : (⟨S4096x192, .f32⟩ : BufTy).Contents (Elt F)) : (⟨S4096x64, .f32⟩ : BufTy).Contents (Elt F) :=
  extractStridedSlice S4096x64 ![0, 0] x slices_S4096x192_S4096x64_0_0

def slice64 (x : (⟨S4096x192, .f32⟩ : BufTy).Contents (Elt F)) : (⟨S4096x64, .f32⟩ : BufTy).Contents (Elt F) :=
  extractStridedSlice S4096x64 ![0, 64] x slices_S4096x192_S4096x64_0_64

def slice128 (x : (⟨S4096x192, .f32⟩ : BufTy).Contents (Elt F)) : (⟨S4096x64, .f32⟩ : BufTy).Contents (Elt F) :=
  extractStridedSlice S4096x64 ![0, 128] x slices_S4096x192_S4096x64_0_128

section
variable (vals : (⟨S400000, .f32⟩ : BufTy).Contents (Elt F)) (rows cols : (⟨S400000, .i32⟩ : BufTy).Contents (Elt F))
  (idx : (⟨S4096, .i32⟩ : BufTy).Contents (Elt F)) (a b c : (⟨S12000x64, .f32⟩ : BufTy).Contents (Elt F))

def catBuFull : (⟨S4096x192, .f32⟩ : BufTy).Contents (Elt F) :=
  gatherRows192 idx (up192 vals rows cols (cat3 a b c))

def catBu0 : (⟨S4096x64, .f32⟩ : BufTy).Contents (Elt F) := slice0 (gatherRows192 idx (up192 vals rows cols (cat3 a b c)))

def catBu1 : (⟨S4096x64, .f32⟩ : BufTy).Contents (Elt F) := slice64 (gatherRows192 idx (up192 vals rows cols (cat3 a b c)))

def catBu2 : (⟨S4096x64, .f32⟩ : BufTy).Contents (Elt F) := slice128 (gatherRows192 idx (up192 vals rows cols (cat3 a b c)))

end

end Cert.KernelIdeal.Hand

end
-- ==== Proof.KI.CatSplit.lean ====
import Idealize.ShloMosaic.Lib.ValueIdx
import Idealize.ShloMosaic.Lib.Pipeline.Value
import proofs.«133221_j41652592836945_2_alg».proof.Proof.KI.CatDefs
import proofs.«133221_j41652592836945_2_alg».proof.Proof.Ref.Stages

noncomputable section

open scoped BigOperators

namespace Cert.KernelIdeal.Hand

open Idealize.ShloMosaic Idealize.ShloMosaic.ValueIdx Idealize.SL.Sem

section RowGather
variable {α : Type}

def clampRow {w : Nat} (N : Nat) (hN : 0 < N) (v : BitVec w) : Fin N := ⟨min v.toInt.toNat (N - 1), by omega⟩

abbrev rowGatherDims (N K C : Nat)
    (wf : GatherDims.WF ⟨2, ![N, C]⟩ ⟨2, ![K, 1]⟩ ⟨2, ![K, C]⟩ [1] [0] [] [0] [] 1 ![1, C]) :
    GatherDims ⟨2, ![N, C]⟩ ⟨2, ![K, 1]⟩ ⟨2, ![K, C]⟩ where
  offsetDims := [1]
  collapsedSliceDims := [0]
  operandBatchingDims := []
  startIndicesBatchingDims := []
  startIndexMap := [0]
  indexVectorDim := 1
  sliceSizes := ![1, C]
  wf := wf

theorem gather_rows_apply {N K C w : Nat} (hN : 0 < N)
    (wf : GatherDims.WF ⟨2, ![N, C]⟩ ⟨2, ![K, 1]⟩ ⟨2, ![K, C]⟩ [1] [0] [] [0] [] 1 ![1, C])
    (x : (⟨2, ![N, C]⟩ : Shape).Idx → α) (idx : IVec ⟨2, ![K, 1]⟩ w) (k : Fin K) (j : Fin C) :
    Host.gather (rowGatherDims N K C wf) x idx (ix2 k j)
      = x (ix2 (clampRow N hN (idx (ix2 k 0))) j) := by
  unfold Host.gather clampRow
  congr 1
  funext a
  refine Fin.ext ?_
  match a with
  | ⟨0, _⟩ =>
    show (rowGatherDims N K C wf).start (ix2 k j) idx 0 + (rowGatherDims N K C wf).batchCoord (ix2 k j) 0
      + (rowGatherDims N K C wf).offCoord (ix2 k j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N K C wf).startIndexMap from List.mem_singleton.mpr rfl)]
    have hsi : (rowGatherDims N K C wf).siIdx (ix2 k j) ⟨List.idxOf (0 : Fin 2) (rowGatherDims N K C wf).startIndexMap,
        List.idxOf_lt_length_iff.2 (List.mem_singleton.mpr rfl)⟩ = ix2 k 0 := by
      funext b; refine Fin.ext ?_
      match b with
      | ⟨0, _⟩ => rfl
      | ⟨1, _⟩ => rfl
    rw [hsi]
    rfl
  | ⟨1, _⟩ =>
    show (rowGatherDims N K C wf).start (ix2 k j) idx 1 + (rowGatherDims N K C wf).batchCoord (ix2 k j) 1
      + (rowGatherDims N K C wf).offCoord (ix2 k j) 1 = _
    rw [GatherDims.batchCoord_eq_zero _ _ _ List.not_mem_nil]
    have hs : (rowGatherDims N K C wf).start (ix2 k j) idx 1 = 0 := by
      unfold GatherDims.start
      rw [dif_neg (show (1 : Fin 2) ∉ [(0 : Fin 2)] from by decide)]
    rw [hs]
    unfold GatherDims.offCoord
    have h1 : (1 : Fin 2) ∈ (rowGatherDims N K C wf).sKept :=
      show (1 : Fin 2) ∈ (List.finRange 2).filter (fun a => a ∉ [(0 : Fin 2)] ++ []) from by decide
    rw [dif_pos h1]
    simp only [Nat.add_zero, Nat.zero_add]
    rfl

end RowGather

section RowScatter

abbrev rowScatterDims (N K C : Nat) (wf : ScatterDims.WF ⟨2, ![N, C]⟩ ⟨2, ![K, 1]⟩ ⟨2, ![K, C]⟩ [1] [0] [0] 1) :
    ScatterDims ⟨2, ![N, C]⟩ ⟨2, ![K, 1]⟩ ⟨2, ![K, C]⟩ where
  updateWindowDims := [1]
  insertedWindowDims := [0]
  scatterDimsToOperandDims := [0]
  indexVectorDim := 1
  wf := wf

variable {N K C w : Nat} (wf : ScatterDims.WF ⟨2, ![N, C]⟩ ⟨2, ![K, 1]⟩ ⟨2, ![K, C]⟩ [1] [0] [0] 1)
  (idx : IVec ⟨2, ![K, 1]⟩ w) (k : Fin K) (j' : Fin C)

theorem rowScatter_start0 : (rowScatterDims N K C wf).start (ix2 k j') idx 0 = (idx (ix2 k 0)).toInt := by
  unfold ScatterDims.start
  rw [dif_pos (show (0 : Fin 2) ∈ (rowScatterDims N K C wf).scatterDimsToOperandDims from List.mem_singleton.mpr rfl)]
  have hsi : (rowScatterDims N K C wf).siIdx (ix2 k j') ⟨List.idxOf (0 : Fin 2) (rowScatterDims N K C wf).scatterDimsToOperandDims,
      List.idxOf_lt_length_iff.2 (List.mem_singleton.mpr rfl)⟩ = ix2 k 0 := by
    funext b; refine Fin.ext ?_
    match b with
    | ⟨0, _⟩ => rfl
    | ⟨1, _⟩ => rfl
  rw [hsi]

theorem rowScatter_start1 : (rowScatterDims N K C wf).start (ix2 k j') idx 1 = 0 := by
  unfold ScatterDims.start
  rw [dif_neg (show (1 : Fin 2) ∉ [(0 : Fin 2)] from by decide)]

theorem rowScatter_window0 : (rowScatterDims N K C wf).window (ix2 k j') 0 = 0 := by
  unfold ScatterDims.window
  have h0 : (0 : Fin 2) ∉ (rowScatterDims N K C wf).sKept :=
    show (0 : Fin 2) ∉ (List.finRange 2).filter (fun a => a ∉ [(0 : Fin 2)]) from by decide
  rw [dif_neg h0]

theorem rowScatter_window1 : (rowScatterDims N K C wf).window (ix2 k j') 1 = j'.val := by
  unfold ScatterDims.window
  have h1 : (1 : Fin 2) ∈ (rowScatterDims N K C wf).sKept :=
    show (1 : Fin 2) ∈ (List.finRange 2).filter (fun a => a ∉ [(0 : Fin 2)]) from by decide
  rw [dif_pos h1]
  rfl

theorem rowScatter_resultIdx?_eq_some_iff (r : Fin N) (j : Fin C) :
    (rowScatterDims N K C wf).resultIdx? (ix2 k j') idx = some (ix2 r j)
      ↔ (idx (ix2 k 0)).toInt = (r.val : Int) ∧ j' = j := by
  unfold ScatterDims.resultIdx?
  split
  · next h =>
    rw [Option.some.injEq]
    constructor
    · intro e
      have e0 : ((rowScatterDims N K C wf).start (ix2 k j') idx 0 + ((rowScatterDims N K C wf).window (ix2 k j') 0 : Nat)).toNat = r.val :=
        congrArg (fun f => (f 0).val) e
      have e1 : ((rowScatterDims N K C wf).start (ix2 k j') idx 1 + ((rowScatterDims N K C wf).window (ix2 k j') 1 : Nat)).toNat = j.val :=
        congrArg (fun f => (f 1).val) e
      have h0 := (h 0).1
      rw [rowScatter_start0, rowScatter_window0] at e0 h0
      rw [rowScatter_start1, rowScatter_window1] at e1
      exact ⟨by omega, Fin.ext (by omega)⟩
    · rintro ⟨hx, rfl⟩
      funext a
      refine Fin.ext ?_
      match a with
      | ⟨0, _⟩ =>
        show ((rowScatterDims N K C wf).start (ix2 k j') idx 0 + ((rowScatterDims N K C wf).window (ix2 k j') 0 : Nat)).toNat = r.val
        rw [rowScatter_start0, rowScatter_window0]; omega
      | ⟨1, _⟩ =>
        show ((rowScatterDims N K C wf).start (ix2 k j') idx 1 + ((rowScatterDims N K C wf).window (ix2 k j') 1 : Nat)).toNat = j'.val
        rw [rowScatter_start1, rowScatter_window1]; omega
  · next h =>
    constructor
    · intro e; cases e
    · rintro ⟨hx, rfl⟩
      exfalso
      apply h
      intro a
      match a with
      | ⟨0, _⟩ =>
        show 0 ≤ (rowScatterDims N K C wf).start (ix2 k j') idx 0 + ((rowScatterDims N K C wf).window (ix2 k j') 0 : Nat)
          ∧ (rowScatterDims N K C wf).start (ix2 k j') idx 0 + ((rowScatterDims N K C wf).window (ix2 k j') 0 : Nat) < (N : Int)
        rw [rowScatter_start0, rowScatter_window0]
        have := r.isLt
        omega
      | ⟨1, _⟩ =>
        show 0 ≤ (rowScatterDims N K C wf).start (ix2 k j') idx 1 + ((rowScatterDims N K C wf).window (ix2 k j') 1 : Nat)
          ∧ (rowScatterDims N K C wf).start (ix2 k j') idx 1 + ((rowScatterDims N K C wf).window (ix2 k j') 1 : Nat) < (C : Int)
        rw [rowScatter_start1, rowScatter_window1]
        have := j'.isLt
        omega

theorem scatterAdd_rows_apply {φ : FTy} (x : FVec Ideal ⟨2, ![N, C]⟩ φ) (upd : FVec Ideal ⟨2, ![K, C]⟩ φ) (r : Fin N) (j : Fin C) :
    Host.scatterAdd (rowScatterDims N K C wf) x idx upd (ix2 r j)
      = x (ix2 r j) + ∑ k : Fin K, if (idx (ix2 k 0)).toInt = (r.val : Int) then upd (ix2 k j) else 0 := by
  unfold Host.scatterAdd
  rw [Ideal.hostScatterAdd_def]
  unfold Ideal.hostScatterAdd
  congr 1
  rw [Finset.sum_filter, sum_idx2]
  refine Finset.sum_congr rfl fun k _ => ?_
  by_cases hA : (idx (ix2 k 0)).toInt = (r.val : Int)
  · rw [if_pos hA, Finset.sum_eq_single j]
    · rw [if_pos ((rowScatter_resultIdx?_eq_some_iff wf idx k j r j).2 ⟨hA, rfl⟩)]
    · intro b _ hb
      rw [if_neg (fun e => hb ((rowScatter_resultIdx?_eq_some_iff wf idx k b r j).1 e).2)]
    · intro h; exact absurd (Finset.mem_univ _) h
  · rw [if_neg hA]
    exact Finset.sum_eq_zero fun b _ => if_neg (fun e => hA ((rowScatter_resultIdx?_eq_some_iff wf idx k b r j).1 e).1)

end RowScatter

section Layout
variable {α : Type}

theorem bcast_scalar_apply {t : Shape} (dims : Fin 0 → Fin t.rank) (h : (⟨0, ![]⟩ : Shape).BroadcastsInDim t dims)
    (v : (⟨0, ![]⟩ : Shape).Idx → α) (j : t.Idx) : broadcastInDim t dims h v j = v ix0 := by
  unfold broadcastInDim
  exact congrArg v (funext fun a => a.elim0)

theorem bcast_vec_col_apply {K : Nat} (h : (⟨1, ![K]⟩ : Shape).BroadcastsInDim ⟨2, ![K, 1]⟩ ![0])
    (v : (⟨1, ![K]⟩ : Shape).Idx → α) (k : Fin K) (z : Fin 1) :
    broadcastInDim ⟨2, ![K, 1]⟩ ![0] h v (ix2 k z) = v (ix1 k) := by
  refine broadcastInDim_apply _ h v _ _ fun a => ?_
  match a with
  | ⟨0, _⟩ =>
    show k.val = if K = 1 then 0 else k.val
    have := k.isLt
    split <;> omega

theorem bcast_col_wide_apply {K C : Nat} (h : (⟨2, ![K, 1]⟩ : Shape).BroadcastsInDim ⟨2, ![K, C]⟩ ![0, 1])
    (v : (⟨2, ![K, 1]⟩ : Shape).Idx → α) (k : Fin K) (j : Fin C) :
    broadcastInDim ⟨2, ![K, C]⟩ ![0, 1] h v (ix2 k j) = v (ix2 k 0) := by
  refine broadcastInDim_apply _ h v _ _ fun a => ?_
  match a with
  | ⟨0, _⟩ =>
    show k.val = if K = 1 then 0 else k.val
    have := k.isLt
    split <;> omega
  | ⟨1, _⟩ =>
    show (0 : Nat) = if (1 : Nat) = 1 then 0 else j.val
    rfl

theorem slice_cols_apply {R C W : Nat} (off : Nat) (h : (⟨2, ![R, C]⟩ : Shape).Slices ![0, off] ⟨2, ![R, W]⟩)
    (x : (⟨2, ![R, C]⟩ : Shape).Idx → α) (t : Fin R) (j : Fin W) (hj : off + j.val < C) :
    extractStridedSlice ⟨2, ![R, W]⟩ ![0, off] x h (ix2 t j) = x (ix2 t ⟨off + j.val, hj⟩) := by
  refine extractStridedSlice_apply _ x h _ _ fun a => ?_
  match a with
  | ⟨0, _⟩ => show t.val = 0 + t.val; omega
  | ⟨1, _⟩ => rfl

theorem cat3_cols_apply0 {N : Nat} (x₀ x₁ x₂ : (⟨2, ![N, 64]⟩ : Shape).Idx → α)
    (h : Shape.Concatenates [(⟨2, ![N, 64]⟩ : Shape), ⟨2, ![N, 64]⟩, ⟨2, ![N, 64]⟩] ⟨2, ![N, 192]⟩ 1) (q : Fin N) (j : Fin 64) :
    concatenate ⟨2, ![N, 192]⟩ 1 [⟨⟨2, ![N, 64]⟩, x₀⟩, ⟨⟨2, ![N, 64]⟩, x₁⟩, ⟨⟨2, ![N, 64]⟩, x₂⟩] h (ix2 q ⟨0 + j.val, by omega⟩)
      = x₀ (ix2 q j) := by
  refine concatenate_apply_piece 1 [⟨⟨2, ![N, 64]⟩, x₀⟩, ⟨⟨2, ![N, 64]⟩, x₁⟩, ⟨⟨2, ![N, 64]⟩, x₂⟩] h _ 0 (show (0 : Nat) < 3 from by decide) ⟨2, ![N, 64]⟩ x₀ rfl rfl 0 rfl (ix2 q j) (fun b hb => ?_) ?_
  · match b with
    | ⟨0, _⟩ => rfl
    | ⟨1, _⟩ => exact absurd rfl hb
  · rfl

theorem cat3_cols_apply1 {N : Nat} (x₀ x₁ x₂ : (⟨2, ![N, 64]⟩ : Shape).Idx → α)
    (h : Shape.Concatenates [(⟨2, ![N, 64]⟩ : Shape), ⟨2, ![N, 64]⟩, ⟨2, ![N, 64]⟩] ⟨2, ![N, 192]⟩ 1) (q : Fin N) (j : Fin 64) :
    concatenate ⟨2, ![N, 192]⟩ 1 [⟨⟨2, ![N, 64]⟩, x₀⟩, ⟨⟨2, ![N, 64]⟩, x₁⟩, ⟨⟨2, ![N, 64]⟩, x₂⟩] h (ix2 q ⟨64 + j.val, by omega⟩)
      = x₁ (ix2 q j) := by
  refine concatenate_apply_piece 1 [⟨⟨2, ![N, 64]⟩, x₀⟩, ⟨⟨2, ![N, 64]⟩, x₁⟩, ⟨⟨2, ![N, 64]⟩, x₂⟩] h _ 1 (show (1 : Nat) < 3 from by decide) ⟨2, ![N, 64]⟩ x₁ rfl rfl 64 rfl (ix2 q j) (fun b hb => ?_) ?_
  · match b with
    | ⟨0, _⟩ => rfl
    | ⟨1, _⟩ => exact absurd rfl hb
  · rfl

theorem cat3_cols_apply2 {N : Nat} (x₀ x₁ x₂ : (⟨2, ![N, 64]⟩ : Shape).Idx → α)
    (h : Shape.Concatenates [(⟨2, ![N, 64]⟩ : Shape), ⟨2, ![N, 64]⟩, ⟨2, ![N, 64]⟩] ⟨2, ![N, 192]⟩ 1) (q : Fin N) (j : Fin 64) :
    concatenate ⟨2, ![N, 192]⟩ 1 [⟨⟨2, ![N, 64]⟩, x₀⟩, ⟨⟨2, ![N, 64]⟩, x₁⟩, ⟨⟨2, ![N, 64]⟩, x₂⟩] h (ix2 q ⟨128 + j.val, by omega⟩)
      = x₂ (ix2 q j) := by
  refine concatenate_apply_piece 1 [⟨⟨2, ![N, 64]⟩, x₀⟩, ⟨⟨2, ![N, 64]⟩, x₁⟩, ⟨⟨2, ![N, 64]⟩, x₂⟩] h _ 2 (show (2 : Nat) < 3 from by decide) ⟨2, ![N, 64]⟩ x₂ rfl rfl 128 rfl (ix2 q j) (fun b hb => ?_) ?_
  · match b with
    | ⟨0, _⟩ => rfl
    | ⟨1, _⟩ => exact absurd rfl hb
  · rfl

end Layout

section Stages

def normIdx (n v : BitVec 32) : BitVec 32 := Scalar.select (IntOp.cmpi .slt v 0#32) (IntOp.addi v n) v

def upSum (vals : (⟨1, ![400000]⟩ : Shape).Idx → EReal) (rows cols : (⟨1, ![400000]⟩ : Shape).Idx → BitVec 32)
    (col : Fin 12000 → EReal) (r : Fin 8000) : EReal :=
  Ideal.ofBits .f32 0x00000000#32 + ∑ k : Fin 400000, if (rows (ix1 k)).toInt = (r.val : Int) then
    vals (ix1 k) * col (clampRow 12000 (by decide) (normIdx 12000#32 (cols (ix1 k)))) else 0

section Ref
variable [Cert.ReferenceIdeal.Facts₀]

theorem ref_gather12000_apply (x : (⟨Cert.ReferenceIdeal.S12000x64, .f32⟩ : BufTy).Contents (Elt Ideal)) (ci : (⟨Cert.ReferenceIdeal.S400000x1, .i32⟩ : BufTy).Contents (Elt Ideal))
    (k : Fin 400000) (j : Fin 64) :
    Host.gather Cert.ReferenceIdeal.gather_S12000x64_S400000x1_S400000x64_1_0_n_n_0_1_164 x ci (ix2 k j)
      = x (ix2 (clampRow 12000 (by decide) (ci (ix2 k 0))) j) :=
  gather_rows_apply (N := 12000) (K := 400000) (C := 64) (by decide) _ x ci k j

theorem ref_gather8000_apply (x : (⟨Cert.ReferenceIdeal.S8000x64, .f32⟩ : BufTy).Contents (Elt Ideal)) (ci : (⟨Cert.ReferenceIdeal.S4096x1, .i32⟩ : BufTy).Contents (Elt Ideal))
    (t : Fin 4096) (j : Fin 64) :
    Host.gather Cert.ReferenceIdeal.gather_S8000x64_S4096x1_S4096x64_1_0_n_n_0_1_164 x ci (ix2 t j)
      = x (ix2 (clampRow 8000 (by decide) (ci (ix2 t 0))) j) :=
  gather_rows_apply (N := 8000) (K := 4096) (C := 64) (by decide) _ x ci t j

theorem ref_scatter_apply (x : (⟨Cert.ReferenceIdeal.S8000x64, .f32⟩ : BufTy).Contents (Elt Ideal)) (ri : (⟨Cert.ReferenceIdeal.S400000x1, .i32⟩ : BufTy).Contents (Elt Ideal))
    (upd : (⟨Cert.ReferenceIdeal.S400000x64, .f32⟩ : BufTy).Contents (Elt Ideal)) (r : Fin 8000) (j : Fin 64) :
    Host.scatterAdd (F := Ideal) (φ := .f32) Cert.ReferenceIdeal.scatter_S8000x64_S400000x1_S400000x64_1_0_0_1 x ri upd (ix2 r j)
      = x (ix2 r j) + ∑ k : Fin 400000, if (ri (ix2 k 0)).toInt = (r.val : Int) then upd (ix2 k j) else 0 :=
  scatterAdd_rows_apply (N := 8000) (K := 400000) (C := 64) (φ := .f32) _ ri x upd r j

theorem ref_gatherRows_apply (idx : (⟨Cert.ReferenceIdeal.S4096, .i32⟩ : BufTy).Contents (Elt Ideal)) (x : (⟨Cert.ReferenceIdeal.S8000x64, .f32⟩ : BufTy).Contents (Elt Ideal))
    (t : Fin 4096) (j : Fin 64) :
    Cert.ReferenceIdeal.Hand.gatherRows idx x (ix2 t j) = x (ix2 (clampRow 8000 (by decide) (normIdx 8000#32 (idx (ix1 t)))) j) := by
  unfold Cert.ReferenceIdeal.Hand.gatherRows
  rw [ref_gather8000_apply, bcast_vec_col_apply]
  rfl

theorem ref_up64_apply (vals : (⟨Cert.ReferenceIdeal.S400000, .f32⟩ : BufTy).Contents (Elt Ideal)) (rows cols : (⟨Cert.ReferenceIdeal.S400000, .i32⟩ : BufTy).Contents (Elt Ideal))
    (x : (⟨Cert.ReferenceIdeal.S12000x64, .f32⟩ : BufTy).Contents (Elt Ideal)) (r : Fin 8000) (j : Fin 64) :
    Cert.ReferenceIdeal.Hand.up64 vals rows cols x (ix2 r j) = upSum vals rows cols (fun q => x (ix2 q j)) r := by
  unfold Cert.ReferenceIdeal.Hand.up64 upSum
  rw [ref_scatter_apply]
  refine congr (congrArg HAdd.hAdd ?_) (Finset.sum_congr rfl fun k _ => ?_)
  · rfl
  rw [bcast_vec_col_apply, mulf_apply, bcast_col_wide_apply, bcast_vec_col_apply, ref_gather12000_apply, bcast_vec_col_apply]
  rfl

end Ref

section Ker
variable [Cert.KernelIdeal.Facts₀]
open Cert.KernelIdeal

theorem ker_gather12000_apply (x : (⟨S12000x192, .f32⟩ : BufTy).Contents (Elt Ideal)) (ci : (⟨S400000x1, .i32⟩ : BufTy).Contents (Elt Ideal))
    (k : Fin 400000) (j : Fin 192) :
    Host.gather gather_S12000x192_S400000x1_S400000x192_1_0_n_n_0_1_1192 x ci (ix2 k j)
      = x (ix2 (clampRow 12000 (by decide) (ci (ix2 k 0))) j) :=
  gather_rows_apply (N := 12000) (K := 400000) (C := 192) (by decide) _ x ci k j

theorem ker_gather8000_apply (x : (⟨S8000x192, .f32⟩ : BufTy).Contents (Elt Ideal)) (ci : (⟨S4096x1, .i32⟩ : BufTy).Contents (Elt Ideal))
    (t : Fin 4096) (j : Fin 192) :
    Host.gather gather_S8000x192_S4096x1_S4096x192_1_0_n_n_0_1_1192 x ci (ix2 t j)
      = x (ix2 (clampRow 8000 (by decide) (ci (ix2 t 0))) j) :=
  gather_rows_apply (N := 8000) (K := 4096) (C := 192) (by decide) _ x ci t j

theorem ker_scatter_apply (x : (⟨S8000x192, .f32⟩ : BufTy).Contents (Elt Ideal)) (ri : (⟨S400000x1, .i32⟩ : BufTy).Contents (Elt Ideal))
    (upd : (⟨S400000x192, .f32⟩ : BufTy).Contents (Elt Ideal)) (r : Fin 8000) (j : Fin 192) :
    Host.scatterAdd (F := Ideal) (φ := .f32) scatter_S8000x192_S400000x1_S400000x192_1_0_0_1 x ri upd (ix2 r j)
      = x (ix2 r j) + ∑ k : Fin 400000, if (ri (ix2 k 0)).toInt = (r.val : Int) then upd (ix2 k j) else 0 :=
  scatterAdd_rows_apply (N := 8000) (K := 400000) (C := 192) (φ := .f32) _ ri x upd r j

theorem gatherRows192_apply (idx : (⟨S4096, .i32⟩ : BufTy).Contents (Elt Ideal)) (x : (⟨S8000x192, .f32⟩ : BufTy).Contents (Elt Ideal))
    (t : Fin 4096) (j : Fin 192) :
    gatherRows192 idx x (ix2 t j) = x (ix2 (clampRow 8000 (by decide) (normIdx 8000#32 (idx (ix1 t)))) j) := by
  unfold gatherRows192
  rw [ker_gather8000_apply, bcast_vec_col_apply]
  rfl

theorem up192_apply (vals : (⟨S400000, .f32⟩ : BufTy).Contents (Elt Ideal)) (rows cols : (⟨S400000, .i32⟩ : BufTy).Contents (Elt Ideal))
    (x : (⟨S12000x192, .f32⟩ : BufTy).Contents (Elt Ideal)) (r : Fin 8000) (j : Fin 192) :
    up192 vals rows cols x (ix2 r j) = upSum vals rows cols (fun q => x (ix2 q j)) r := by
  unfold up192 upSum
  rw [ker_scatter_apply]
  refine congr (congrArg HAdd.hAdd ?_) (Finset.sum_congr rfl fun k _ => ?_)
  · rfl
  rw [bcast_vec_col_apply, mulf_apply, bcast_col_wide_apply, bcast_vec_col_apply, ker_gather12000_apply, bcast_vec_col_apply]
  rfl

theorem slice0_apply (x : (⟨S4096x192, .f32⟩ : BufTy).Contents (Elt Ideal)) (t : Fin 4096) (j : Fin 64) :
    slice0 x (ix2 t j) = x (ix2 t ⟨0 + j.val, by omega⟩) :=
  slice_cols_apply (R := 4096) (C := 192) (W := 64) 0 _ x t j _

theorem slice64_apply (x : (⟨S4096x192, .f32⟩ : BufTy).Contents (Elt Ideal)) (t : Fin 4096) (j : Fin 64) :
    slice64 x (ix2 t j) = x (ix2 t ⟨64 + j.val, by omega⟩) :=
  slice_cols_apply (R := 4096) (C := 192) (W := 64) 64 _ x t j _

theorem slice128_apply (x : (⟨S4096x192, .f32⟩ : BufTy).Contents (Elt Ideal)) (t : Fin 4096) (j : Fin 64) :
    slice128 x (ix2 t j) = x (ix2 t ⟨128 + j.val, by omega⟩) :=
  slice_cols_apply (R := 4096) (C := 192) (W := 64) 128 _ x t j _

theorem cat3_apply0 (a b c : (⟨S12000x64, .f32⟩ : BufTy).Contents (Elt Ideal)) (q : Fin 12000) (j : Fin 64) :
    cat3 a b c (ix2 q ⟨0 + j.val, by omega⟩) = a (ix2 q j) :=
  cat3_cols_apply0 (N := 12000) a b c _ q j

theorem cat3_apply1 (a b c : (⟨S12000x64, .f32⟩ : BufTy).Contents (Elt Ideal)) (q : Fin 12000) (j : Fin 64) :
    cat3 a b c (ix2 q ⟨64 + j.val, by omega⟩) = b (ix2 q j) :=
  cat3_cols_apply1 (N := 12000) a b c _ q j

theorem cat3_apply2 (a b c : (⟨S12000x64, .f32⟩ : BufTy).Contents (Elt Ideal)) (q : Fin 12000) (j : Fin 64) :
    cat3 a b c (ix2 q ⟨128 + j.val, by omega⟩) = c (ix2 q j) :=
  cat3_cols_apply2 (N := 12000) a b c _ q j

end Ker

end Stages

section Main
variable [Cert.KernelIdeal.Facts₀] [Cert.ReferenceIdeal.Facts₀]
open Cert.KernelIdeal

variable (vals : (⟨S400000, .f32⟩ : BufTy).Contents (Elt Ideal)) (rows cols : (⟨S400000, .i32⟩ : BufTy).Contents (Elt Ideal))
  (idx : (⟨S4096, .i32⟩ : BufTy).Contents (Elt Ideal)) (a b c : (⟨S12000x64, .f32⟩ : BufTy).Contents (Elt Ideal))

theorem catBu0_eq : catBu0 (F := Ideal) vals rows cols idx a b c
    = Cert.ReferenceIdeal.Hand.gatherRows idx (Cert.ReferenceIdeal.Hand.up64 vals rows cols a) := by
  funext i
  obtain ⟨t, j, rfl⟩ : ∃ t j, i = ix2 t j := ⟨i 0, i 1, eq_ix2 i⟩
  unfold catBu0
  rw [slice0_apply, gatherRows192_apply, up192_apply, ref_gatherRows_apply, ref_up64_apply]
  refine congrArg (fun f => upSum vals rows cols f _) (funext fun q => ?_)
  exact cat3_apply0 a b c q j

theorem catBu1_eq : catBu1 (F := Ideal) vals rows cols idx a b c
    = Cert.ReferenceIdeal.Hand.gatherRows idx (Cert.ReferenceIdeal.Hand.up64 vals rows cols b) := by
  funext i
  obtain ⟨t, j, rfl⟩ : ∃ t j, i = ix2 t j := ⟨i 0, i 1, eq_ix2 i⟩
  unfold catBu1
  rw [slice64_apply, gatherRows192_apply, up192_apply, ref_gatherRows_apply, ref_up64_apply]
  refine congrArg (fun f => upSum vals rows cols f _) (funext fun q => ?_)
  exact cat3_apply1 a b c q j

theorem catBu2_eq : catBu2 (F := Ideal) vals rows cols idx a b c
    = Cert.ReferenceIdeal.Hand.gatherRows idx (Cert.ReferenceIdeal.Hand.up64 vals rows cols c) := by
  funext i
  obtain ⟨t, j, rfl⟩ : ∃ t j, i = ix2 t j := ⟨i 0, i 1, eq_ix2 i⟩
  unfold catBu2
  rw [slice128_apply, gatherRows192_apply, up192_apply, ref_gatherRows_apply, ref_up64_apply]
  refine congrArg (fun f => upSum vals rows cols f _) (funext fun q => ?_)
  exact cat3_apply2 a b c q j

end Main

end Cert.KernelIdeal.Hand

end
-- ==== Proof.KI.NceDefs.lean ====
import proofs.«133221_j41652592836945_2_alg».proof.KernelIdeal
import Idealize.ShloMosaic.Lib.ValueIdx

noncomputable section

namespace Cert.KernelIdeal.Hand

open Idealize.ShloMosaic Idealize.SL.Sem Idealize.ShloMosaic.ValueIdx
open Cert.KernelIdeal.Facts₀
open scoped BigOperators

variable [Facts₀]

abbrev nceκ : EReal := ((67108864 / 13421773 : ℝ) : EReal)

abbrev nceε : EReal := Ideal.ofBits .f32 0x322BCC77#32

def ncePos12000 (e1 e2 : Vec Ideal S12000x64 .f32) (r : Fin 12000) : EReal :=
  Ideal.exp ((∑ k : Fin 64, e1 (ix2 r k) * e2 (ix2 r k)) * nceκ)

def nceNeg12000 (e1b e2b : Vec Ideal S12000x64 .bf16) (r : Fin 12000) : EReal :=
  ∑ j : Fin 6, ∑ q : Fin 2000,
    Ideal.exp ((∑ k : Fin 64, e1b (ix2 r k) * e2b (ix2 (⟨j.val * 2000 + q.val, by omega⟩ : Fin 12000) k)) * nceκ)

def nceRow12000 (e1 : Vec Ideal S12000x64 .f32) (e1b : Vec Ideal S12000x64 .bf16) (e2 : Vec Ideal S12000x64 .f32)
    (e2b : Vec Ideal S12000x64 .bf16) (r : Fin 12000) : EReal :=
  0 - Ideal.log (Ideal.div (ncePos12000 e1 e2 r) (nceNeg12000 e1b e2b r + nceε) + nceε)

def nceRows12000 (e1 : Vec Ideal S12000x64 .f32) (e1b : Vec Ideal S12000x64 .bf16) (e2 : Vec Ideal S12000x64 .f32)
    (e2b : Vec Ideal S12000x64 .bf16) : Vec Ideal S12000x1 .f32 :=
  fun i => nceRow12000 e1 e1b e2 e2b (i 0)

theorem nceRows12000_apply (e1 : Vec Ideal S12000x64 .f32) (e1b : Vec Ideal S12000x64 .bf16)
    (e2 : Vec Ideal S12000x64 .f32) (e2b : Vec Ideal S12000x64 .bf16) (r : Fin 12000) (c : Fin 1) :
    nceRows12000 e1 e1b e2 e2b (ix2 r c) = nceRow12000 e1 e1b e2 e2b r := rfl

theorem nceRows12000_ix2 (e1 : Vec Ideal S12000x64 .f32) (e1b : Vec Ideal S12000x64 .bf16)
    (e2 : Vec Ideal S12000x64 .f32) (e2b : Vec Ideal S12000x64 .bf16) (r : Fin 12000) (c : Fin 1) :
    nceRows12000 e1 e1b e2 e2b (ix2 r c)
      = 0 - Ideal.log (Ideal.div (Ideal.exp ((∑ k : Fin 64, e1 (ix2 r k) * e2 (ix2 r k)) * ((67108864 / 13421773 : ℝ) : EReal)))
          ((∑ j : Fin 6, ∑ q : Fin 2000,
              Ideal.exp ((∑ k : Fin 64, e1b (ix2 r k) * e2b (ix2 (⟨j.val * 2000 + q.val, by omega⟩ : Fin 12000) k))
                * ((67108864 / 13421773 : ℝ) : EReal)))
            + Ideal.ofBits .f32 0x322BCC77#32)
          + Ideal.ofBits .f32 0x322BCC77#32) := rfl

def nceLoss12000 (e1 e2 : (⟨S12000x64, .f32⟩ : BufTy).Contents (Elt Ideal)) : (⟨S_, .f32⟩ : BufTy).Contents (Elt Ideal) :=
  Host.divf (F := Ideal) (Host.reduceAdd (F := Ideal) (nceRows12000 e1 (truncf (F := Ideal) .bf16 e1 bitsLt_bf16_f32) e2 (truncf (F := Ideal) .bf16 e2 bitsLt_bf16_f32)) (constant S_ .f32 0x00000000#32) reducesTo_S12000x1_S_d0_1 h_S_) (constant S_ .f32 0x463B8000#32)

def ncePos4096 (e1 e2 : Vec Ideal S4096x64 .f32) (r : Fin 4096) : EReal :=
  Ideal.exp ((∑ k : Fin 64, e1 (ix2 r k) * e2 (ix2 r k)) * nceκ)

def nceNeg4096 (e1b e2b : Vec Ideal S4096x64 .bf16) (r : Fin 4096) : EReal :=
  ∑ j : Fin 4, ∑ q : Fin 1024,
    Ideal.exp ((∑ k : Fin 64, e1b (ix2 r k) * e2b (ix2 (⟨j.val * 1024 + q.val, by omega⟩ : Fin 4096) k)) * nceκ)

def nceRow4096 (e1 : Vec Ideal S4096x64 .f32) (e1b : Vec Ideal S4096x64 .bf16) (e2 : Vec Ideal S4096x64 .f32)
    (e2b : Vec Ideal S4096x64 .bf16) (r : Fin 4096) : EReal :=
  0 - Ideal.log (Ideal.div (ncePos4096 e1 e2 r) (nceNeg4096 e1b e2b r + nceε) + nceε)

def nceRows4096 (e1 : Vec Ideal S4096x64 .f32) (e1b : Vec Ideal S4096x64 .bf16) (e2 : Vec Ideal S4096x64 .f32)
    (e2b : Vec Ideal S4096x64 .bf16) : Vec Ideal S4096x1 .f32 :=
  fun i => nceRow4096 e1 e1b e2 e2b (i 0)

theorem nceRows4096_apply (e1 : Vec Ideal S4096x64 .f32) (e1b : Vec Ideal S4096x64 .bf16)
    (e2 : Vec Ideal S4096x64 .f32) (e2b : Vec Ideal S4096x64 .bf16) (r : Fin 4096) (c : Fin 1) :
    nceRows4096 e1 e1b e2 e2b (ix2 r c) = nceRow4096 e1 e1b e2 e2b r := rfl

theorem nceRows4096_ix2 (e1 : Vec Ideal S4096x64 .f32) (e1b : Vec Ideal S4096x64 .bf16)
    (e2 : Vec Ideal S4096x64 .f32) (e2b : Vec Ideal S4096x64 .bf16) (r : Fin 4096) (c : Fin 1) :
    nceRows4096 e1 e1b e2 e2b (ix2 r c)
      = 0 - Ideal.log (Ideal.div (Ideal.exp ((∑ k : Fin 64, e1 (ix2 r k) * e2 (ix2 r k)) * ((67108864 / 13421773 : ℝ) : EReal)))
          ((∑ j : Fin 4, ∑ q : Fin 1024,
              Ideal.exp ((∑ k : Fin 64, e1b (ix2 r k) * e2b (ix2 (⟨j.val * 1024 + q.val, by omega⟩ : Fin 4096) k))
                * ((67108864 / 13421773 : ℝ) : EReal)))
            + Ideal.ofBits .f32 0x322BCC77#32)
          + Ideal.ofBits .f32 0x322BCC77#32) := rfl

def nceLoss4096 (e1 e2 : (⟨S4096x64, .f32⟩ : BufTy).Contents (Elt Ideal)) : (⟨S_, .f32⟩ : BufTy).Contents (Elt Ideal) :=
  Host.divf (F := Ideal) (Host.reduceAdd (F := Ideal) (nceRows4096 e1 (truncf (F := Ideal) .bf16 e1 bitsLt_bf16_f32) e2 (truncf (F := Ideal) .bf16 e2 bitsLt_bf16_f32)) (constant S_ .f32 0x00000000#32) reducesTo_S4096x1_S_d0_1 h_S_) (constant S_ .f32 0x45800000#32)

end Cert.KernelIdeal.Hand

end
-- ==== Proof.LibSums.lean ====
import Mathlib.Algebra.BigOperators.Fin
import Mathlib.Data.Fintype.BigOperators
import Mathlib.Data.Fin.SuccPred
import Mathlib.Logic.Equiv.Fin.Basic

namespace Cert.LibSums

theorem sum_dite_lt {M : Type*} [AddCommMonoid M] {n N : ℕ} (h : n ≤ N) (f : Fin n → M) :
    ∑ k : Fin N, (if hk : k.val < n then f ⟨k.val, hk⟩ else 0) = ∑ k : Fin n, f k := by

  refine (Fintype.sum_of_injective (Fin.castLE h) (Fin.castLE_injective h) f _ ?_ ?_).symm
  · intro i hi
    by_cases hk : i.val < n
    · exact absurd ⟨⟨i.val, hk⟩, Fin.ext rfl⟩ hi
    · simp only [hk, dite_false]
  · intro i
    have hi : (Fin.castLE h i).val < n := i.isLt
    simp only [hi, dite_true]
    rfl

theorem blocks_lt {B S : ℕ} (b : Fin B) (s : Fin S) : b.val * S + s.val < B * S :=
  calc b.val * S + s.val < b.val * S + S := Nat.add_lt_add_left s.isLt _
    _ = (b.val + 1) * S := (Nat.succ_mul _ _).symm
    _ ≤ B * S := Nat.mul_le_mul_right _ b.isLt

theorem sum_blocks {M : Type*} [AddCommMonoid M] (B S : ℕ) (f : Fin (B * S) → M) :
    ∑ b : Fin B, ∑ s : Fin S, f ⟨b.val * S + s.val, blocks_lt b s⟩ = ∑ k : Fin (B * S), f k := by

  rw [← Fintype.sum_prod_type' (fun (b : Fin B) (s : Fin S) => f ⟨b.val * S + s.val, blocks_lt b s⟩)]
  refine Fintype.sum_equiv finProdFinEquiv _ _ ?_
  rintro ⟨b, s⟩
  refine congrArg f (Fin.ext ?_)
  show b.val * S + s.val = s.val + S * b.val
  rw [Nat.mul_comm, Nat.add_comm]

end Cert.LibSums
-- ==== Proof.KI.NceBridge.lean ====
import proofs.«133221_j41652592836945_2_alg».proof.Proof.KI.NceDefs
import proofs.«133221_j41652592836945_2_alg».proof.Proof.Ref.Stages
import proofs.«133221_j41652592836945_2_alg».proof.Proof.LibSums
import Idealize.ShloMosaic.Lib.IdealHost
import Idealize.ShloMosaic.Lib.ValueLayout
import Idealize.ShloMosaic.Lib.ValueIdxRank1
import Idealize.ShloMosaic.PureOps.Ideal.Laws

noncomputable section

namespace Cert.ReferenceIdeal.Hand.Nce

open Idealize.ShloMosaic Idealize.SL.Sem Idealize.ShloMosaic.ValueIdx
open Cert.ReferenceIdeal Cert.ReferenceIdeal.Facts₀
open scoped BigOperators

variable [Cert.ReferenceIdeal.Facts₀]

theorem ofBits_temp : Ideal.ofBits .f32 0x3E4CCCCD#32 = ((13421773 / 67108864 : ℝ) : EReal) := by
  simp [Ideal.ofBits, Ideal.ieee, -EReal.coe_mul]; norm_num

theorem div_temp (x : EReal) :
    Ideal.div x (Ideal.ofBits .f32 0x3E4CCCCD#32) = x * ((67108864 / 13421773 : ℝ) : EReal) := by
  rw [ofBits_temp, Ideal.div_coe (by norm_num)]
  congr 2; norm_num

theorem pos12000 (e1 e2 : FVec Ideal S12000x64 .f32) (r : Fin 12000) :
    Host.reduceAdd (mulf e1 e2) (constant S_ .f32 0x00000000#32) reducesTo_S12000x64_S12000_d1 h_S_ (ix1 r)
      = ∑ k : Fin 64, e1 (ix2 r k) * e2 (ix2 r k) := by
  have h : S12000x64.Reduces [1] S12000 := by decide
  rw [hostReduceAdd_apply, Ideal.hostReduceAdd_single _ h]
  show Ideal.ofBits .f32 0x00000000#32 + _ = _
  rw [Ideal.ofBits_zero_f32, zero_add]
  refine Finset.sum_congr rfl fun (k : Fin 64) _ => ?_
  have hl : h.lift (ix1 r) k = ix2 r k := by
    funext a; match a with | ⟨0, _⟩ => rfl | ⟨1, _⟩ => rfl
  rw [hl]; rfl

theorem dot12000_rank : dot_S12000x64_S64x12000_S12000x12000_1_0_0_1_n_n.contr.rank = 1 := rfl
theorem dot12000_size :
    dot_S12000x64_S64x12000_S12000x12000_1_0_0_1_n_n.contr.size ⟨0, by rw [dot12000_rank]; exact Nat.one_pos⟩ = 64 := rfl

theorem dot12000 (e1 e2 : FVec Ideal S12000x64 .f32) (r q : Fin 12000) :
    Host.dotGeneral dot_S12000x64_S64x12000_S12000x12000_1_0_0_1_n_n none e1
        (transpose S64x12000 [1, 0] e2 transposes_S12000x64_S64x12000_1_0) (ix2 r q)
      = ∑ k : Fin 64, e1 (ix2 r k) * e2 (ix2 q k) := by
  simp only [Host.dotGeneral]
  rw [Ideal.dotGeneral_apply,
    ← Equiv.sum_comp (contrEquiv1 dot_S12000x64_S64x12000_S12000x12000_1_0_0_1_n_n 64 dot12000_rank dot12000_size).symm]
  refine Finset.sum_congr rfl fun (k : Fin 64) _ => ?_
  have hl : dot_S12000x64_S64x12000_S12000x12000_1_0_0_1_n_n.lhsIdx (ix2 r q)
      ((contrEquiv1 dot_S12000x64_S64x12000_S12000x12000_1_0_0_1_n_n 64 dot12000_rank dot12000_size).symm k) = ix2 r k := by
    funext a; match a with | ⟨0, _⟩ => rfl | ⟨1, _⟩ => rfl
  have hr : dot_S12000x64_S64x12000_S12000x12000_1_0_0_1_n_n.rhsIdx (ix2 r q)
      ((contrEquiv1 dot_S12000x64_S64x12000_S12000x12000_1_0_0_1_n_n 64 dot12000_rank dot12000_size).symm k) = ix2 k q := by
    funext a; match a with | ⟨0, _⟩ => rfl | ⟨1, _⟩ => rfl
  rw [hl, hr, transpose_ix2_apply]

theorem neg12000 (e1 e2 : FVec Ideal S12000x64 .f32) (r : Fin 12000) :
    Host.reduceAdd (Host.exp (Host.divf (Host.dotGeneral dot_S12000x64_S64x12000_S12000x12000_1_0_0_1_n_n none e1
          (transpose S64x12000 [1, 0] e2 transposes_S12000x64_S64x12000_1_0))
        (broadcastInDim S12000x12000 ![] bcast_S_S12000x12000 (constant S_ .f32 0x3E4CCCCD#32))))
      (constant S_ .f32 0x00000000#32) reducesTo_S12000x12000_S12000_d1 h_S_ (ix1 r)
      = ∑ q : Fin 12000, Ideal.exp ((∑ k : Fin 64, e1 (ix2 r k) * e2 (ix2 q k)) * ((67108864 / 13421773 : ℝ) : EReal)) := by
  have h : S12000x12000.Reduces [1] S12000 := by decide
  rw [hostReduceAdd_apply, Ideal.hostReduceAdd_single _ h]
  show Ideal.ofBits .f32 0x00000000#32 + _ = _
  rw [Ideal.ofBits_zero_f32, zero_add]
  refine Finset.sum_congr rfl fun (q : Fin 12000) _ => ?_
  have hl : h.lift (ix1 r) q = ix2 r q := by
    funext a; match a with | ⟨0, _⟩ => rfl | ⟨1, _⟩ => rfl
  rw [hl]
  show Ideal.exp (Ideal.div (Host.dotGeneral dot_S12000x64_S64x12000_S12000x12000_1_0_0_1_n_n none e1
      (transpose S64x12000 [1, 0] e2 transposes_S12000x64_S64x12000_1_0) (ix2 r q))
    (broadcastInDim S12000x12000 ![] bcast_S_S12000x12000 (constant (F := Ideal) S_ .f32 0x3E4CCCCD#32) (ix2 r q))) = _
  rw [dot12000, broadcastInDim_scalar_apply, constant_apply, div_temp]

def rows12000 (e1 e2 : FVec Ideal S12000x64 .f32) : FVec Ideal S12000 .f32 :=
  Host.negf (Host.log (addf (Host.divf (Host.exp (Host.divf (Host.reduceAdd (mulf e1 e2) (constant S_ .f32 0x00000000#32) reducesTo_S12000x64_S12000_d1 h_S_) (broadcastInDim S12000 ![] bcast_S_S12000 (constant S_ .f32 0x3E4CCCCD#32)))) (addf (Host.reduceAdd (Host.exp (Host.divf (Host.dotGeneral dot_S12000x64_S64x12000_S12000x12000_1_0_0_1_n_n none e1 (transpose S64x12000 [1, 0] e2 transposes_S12000x64_S64x12000_1_0)) (broadcastInDim S12000x12000 ![] bcast_S_S12000x12000 (constant S_ .f32 0x3E4CCCCD#32)))) (constant S_ .f32 0x00000000#32) reducesTo_S12000x12000_S12000_d1 h_S_) (broadcastInDim S12000 ![] bcast_S_S12000 (constant S_ .f32 0x322BCC77#32)))) (broadcastInDim S12000 ![] bcast_S_S12000 (constant S_ .f32 0x322BCC77#32))))

theorem infonce12000_rows (e1 e2 : FVec Ideal S12000x64 .f32) :
    infonce12000 (F := Ideal) e1 e2
      = Host.divf (Host.reduceAdd (rows12000 e1 e2) (constant S_ .f32 0x00000000#32) reducesTo_S12000_S_d0 h_S_) (constant S_ .f32 0x463B8000#32) := rfl

theorem rows12000_apply (e1 e2 : FVec Ideal S12000x64 .f32) (r : Fin 12000) :
    rows12000 e1 e2 (ix1 r)
      = 0 - Ideal.log (Ideal.div (Ideal.exp ((∑ k : Fin 64, e1 (ix2 r k) * e2 (ix2 r k)) * ((67108864 / 13421773 : ℝ) : EReal)))
          ((∑ q : Fin 12000, Ideal.exp ((∑ k : Fin 64, e1 (ix2 r k) * e2 (ix2 q k)) * ((67108864 / 13421773 : ℝ) : EReal)))
            + Ideal.ofBits .f32 0x322BCC77#32)
          + Ideal.ofBits .f32 0x322BCC77#32) := by
  show -(Ideal.log (Ideal.div (Ideal.exp (Ideal.div
      (Host.reduceAdd (mulf e1 e2) (constant (F := Ideal) S_ .f32 0x00000000#32) reducesTo_S12000x64_S12000_d1 h_S_ (ix1 r))
      (broadcastInDim S12000 ![] bcast_S_S12000 (constant (F := Ideal) S_ .f32 0x3E4CCCCD#32) (ix1 r))))
    (Host.reduceAdd (Host.exp (Host.divf (Host.dotGeneral dot_S12000x64_S64x12000_S12000x12000_1_0_0_1_n_n none e1
          (transpose S64x12000 [1, 0] e2 transposes_S12000x64_S64x12000_1_0))
        (broadcastInDim S12000x12000 ![] bcast_S_S12000x12000 (constant (F := Ideal) S_ .f32 0x3E4CCCCD#32))))
      (constant (F := Ideal) S_ .f32 0x00000000#32) reducesTo_S12000x12000_S12000_d1 h_S_ (ix1 r)
      + broadcastInDim S12000 ![] bcast_S_S12000 (constant (F := Ideal) S_ .f32 0x322BCC77#32) (ix1 r))
    + broadcastInDim S12000 ![] bcast_S_S12000 (constant (F := Ideal) S_ .f32 0x322BCC77#32) (ix1 r))) = _
  rw [pos12000, neg12000, broadcastInDim_scalar_apply, broadcastInDim_scalar_apply, constant_apply, constant_apply,
    div_temp, zero_sub]

theorem rows12000_blocks (e1 e2 : FVec Ideal S12000x64 .f32) (r : Fin 12000) :
    rows12000 e1 e2 (ix1 r)
      = 0 - Ideal.log (Ideal.div (Ideal.exp ((∑ k : Fin 64, e1 (ix2 r k) * e2 (ix2 r k)) * ((67108864 / 13421773 : ℝ) : EReal)))
          ((∑ j : Fin 6, ∑ q : Fin 2000,
              Ideal.exp ((∑ k : Fin 64, e1 (ix2 r k) * e2 (ix2 (⟨j.val * 2000 + q.val, by omega⟩ : Fin 12000) k))
                * ((67108864 / 13421773 : ℝ) : EReal)))
            + Ideal.ofBits .f32 0x322BCC77#32)
          + Ideal.ofBits .f32 0x322BCC77#32) := by
  rw [rows12000_apply]
  have hb := Cert.LibSums.sum_blocks 6 2000 fun q : Fin 12000 =>
    Ideal.exp ((∑ k : Fin 64, e1 (ix2 r k) * e2 (ix2 q k)) * ((67108864 / 13421773 : ℝ) : EReal))
  exact congrArg (fun s => 0 - Ideal.log (Ideal.div (Ideal.exp ((∑ k : Fin 64, e1 (ix2 r k) * e2 (ix2 r k)) * ((67108864 / 13421773 : ℝ) : EReal)))
    (s + Ideal.ofBits .f32 0x322BCC77#32) + Ideal.ofBits .f32 0x322BCC77#32)) hb.symm

theorem pos4096 (e1 e2 : FVec Ideal S4096x64 .f32) (r : Fin 4096) :
    Host.reduceAdd (mulf e1 e2) (constant S_ .f32 0x00000000#32) reducesTo_S4096x64_S4096_d1 h_S_ (ix1 r)
      = ∑ k : Fin 64, e1 (ix2 r k) * e2 (ix2 r k) := by
  have h : S4096x64.Reduces [1] S4096 := by decide
  rw [hostReduceAdd_apply, Ideal.hostReduceAdd_single _ h]
  show Ideal.ofBits .f32 0x00000000#32 + _ = _
  rw [Ideal.ofBits_zero_f32, zero_add]
  refine Finset.sum_congr rfl fun (k : Fin 64) _ => ?_
  have hl : h.lift (ix1 r) k = ix2 r k := by
    funext a; match a with | ⟨0, _⟩ => rfl | ⟨1, _⟩ => rfl
  rw [hl]; rfl

theorem dot4096_rank : dot_S4096x64_S64x4096_S4096x4096_1_0_0_1_n_n.contr.rank = 1 := rfl
theorem dot4096_size :
    dot_S4096x64_S64x4096_S4096x4096_1_0_0_1_n_n.contr.size ⟨0, by rw [dot4096_rank]; exact Nat.one_pos⟩ = 64 := rfl

theorem dot4096 (e1 e2 : FVec Ideal S4096x64 .f32) (r q : Fin 4096) :
    Host.dotGeneral dot_S4096x64_S64x4096_S4096x4096_1_0_0_1_n_n none e1
        (transpose S64x4096 [1, 0] e2 transposes_S4096x64_S64x4096_1_0) (ix2 r q)
      = ∑ k : Fin 64, e1 (ix2 r k) * e2 (ix2 q k) := by
  simp only [Host.dotGeneral]
  rw [Ideal.dotGeneral_apply,
    ← Equiv.sum_comp (contrEquiv1 dot_S4096x64_S64x4096_S4096x4096_1_0_0_1_n_n 64 dot4096_rank dot4096_size).symm]
  refine Finset.sum_congr rfl fun (k : Fin 64) _ => ?_
  have hl : dot_S4096x64_S64x4096_S4096x4096_1_0_0_1_n_n.lhsIdx (ix2 r q)
      ((contrEquiv1 dot_S4096x64_S64x4096_S4096x4096_1_0_0_1_n_n 64 dot4096_rank dot4096_size).symm k) = ix2 r k := by
    funext a; match a with | ⟨0, _⟩ => rfl | ⟨1, _⟩ => rfl
  have hr : dot_S4096x64_S64x4096_S4096x4096_1_0_0_1_n_n.rhsIdx (ix2 r q)
      ((contrEquiv1 dot_S4096x64_S64x4096_S4096x4096_1_0_0_1_n_n 64 dot4096_rank dot4096_size).symm k) = ix2 k q := by
    funext a; match a with | ⟨0, _⟩ => rfl | ⟨1, _⟩ => rfl
  rw [hl, hr, transpose_ix2_apply]

theorem neg4096 (e1 e2 : FVec Ideal S4096x64 .f32) (r : Fin 4096) :
    Host.reduceAdd (Host.exp (Host.divf (Host.dotGeneral dot_S4096x64_S64x4096_S4096x4096_1_0_0_1_n_n none e1
          (transpose S64x4096 [1, 0] e2 transposes_S4096x64_S64x4096_1_0))
        (broadcastInDim S4096x4096 ![] bcast_S_S4096x4096 (constant S_ .f32 0x3E4CCCCD#32))))
      (constant S_ .f32 0x00000000#32) reducesTo_S4096x4096_S4096_d1 h_S_ (ix1 r)
      = ∑ q : Fin 4096, Ideal.exp ((∑ k : Fin 64, e1 (ix2 r k) * e2 (ix2 q k)) * ((67108864 / 13421773 : ℝ) : EReal)) := by
  have h : S4096x4096.Reduces [1] S4096 := by decide
  rw [hostReduceAdd_apply, Ideal.hostReduceAdd_single _ h]
  show Ideal.ofBits .f32 0x00000000#32 + _ = _
  rw [Ideal.ofBits_zero_f32, zero_add]
  refine Finset.sum_congr rfl fun (q : Fin 4096) _ => ?_
  have hl : h.lift (ix1 r) q = ix2 r q := by
    funext a; match a with | ⟨0, _⟩ => rfl | ⟨1, _⟩ => rfl
  rw [hl]
  show Ideal.exp (Ideal.div (Host.dotGeneral dot_S4096x64_S64x4096_S4096x4096_1_0_0_1_n_n none e1
      (transpose S64x4096 [1, 0] e2 transposes_S4096x64_S64x4096_1_0) (ix2 r q))
    (broadcastInDim S4096x4096 ![] bcast_S_S4096x4096 (constant (F := Ideal) S_ .f32 0x3E4CCCCD#32) (ix2 r q))) = _
  rw [dot4096, broadcastInDim_scalar_apply, constant_apply, div_temp]

def rows4096 (e1 e2 : FVec Ideal S4096x64 .f32) : FVec Ideal S4096 .f32 :=
  Host.negf (Host.log (addf (Host.divf (Host.exp (Host.divf (Host.reduceAdd (mulf e1 e2) (constant S_ .f32 0x00000000#32) reducesTo_S4096x64_S4096_d1 h_S_) (broadcastInDim S4096 ![] bcast_S_S4096 (constant S_ .f32 0x3E4CCCCD#32)))) (addf (Host.reduceAdd (Host.exp (Host.divf (Host.dotGeneral dot_S4096x64_S64x4096_S4096x4096_1_0_0_1_n_n none e1 (transpose S64x4096 [1, 0] e2 transposes_S4096x64_S64x4096_1_0)) (broadcastInDim S4096x4096 ![] bcast_S_S4096x4096 (constant S_ .f32 0x3E4CCCCD#32)))) (constant S_ .f32 0x00000000#32) reducesTo_S4096x4096_S4096_d1 h_S_) (broadcastInDim S4096 ![] bcast_S_S4096 (constant S_ .f32 0x322BCC77#32)))) (broadcastInDim S4096 ![] bcast_S_S4096 (constant S_ .f32 0x322BCC77#32))))

theorem infonce4096_rows (e1 e2 : FVec Ideal S4096x64 .f32) :
    infonce4096 (F := Ideal) e1 e2
      = Host.divf (Host.reduceAdd (rows4096 e1 e2) (constant S_ .f32 0x00000000#32) reducesTo_S4096_S_d0 h_S_) (constant S_ .f32 0x45800000#32) := rfl

theorem rows4096_apply (e1 e2 : FVec Ideal S4096x64 .f32) (r : Fin 4096) :
    rows4096 e1 e2 (ix1 r)
      = 0 - Ideal.log (Ideal.div (Ideal.exp ((∑ k : Fin 64, e1 (ix2 r k) * e2 (ix2 r k)) * ((67108864 / 13421773 : ℝ) : EReal)))
          ((∑ q : Fin 4096, Ideal.exp ((∑ k : Fin 64, e1 (ix2 r k) * e2 (ix2 q k)) * ((67108864 / 13421773 : ℝ) : EReal)))
            + Ideal.ofBits .f32 0x322BCC77#32)
          + Ideal.ofBits .f32 0x322BCC77#32) := by
  show -(Ideal.log (Ideal.div (Ideal.exp (Ideal.div
      (Host.reduceAdd (mulf e1 e2) (constant (F := Ideal) S_ .f32 0x00000000#32) reducesTo_S4096x64_S4096_d1 h_S_ (ix1 r))
      (broadcastInDim S4096 ![] bcast_S_S4096 (constant (F := Ideal) S_ .f32 0x3E4CCCCD#32) (ix1 r))))
    (Host.reduceAdd (Host.exp (Host.divf (Host.dotGeneral dot_S4096x64_S64x4096_S4096x4096_1_0_0_1_n_n none e1
          (transpose S64x4096 [1, 0] e2 transposes_S4096x64_S64x4096_1_0))
        (broadcastInDim S4096x4096 ![] bcast_S_S4096x4096 (constant (F := Ideal) S_ .f32 0x3E4CCCCD#32))))
      (constant (F := Ideal) S_ .f32 0x00000000#32) reducesTo_S4096x4096_S4096_d1 h_S_ (ix1 r)
      + broadcastInDim S4096 ![] bcast_S_S4096 (constant (F := Ideal) S_ .f32 0x322BCC77#32) (ix1 r))
    + broadcastInDim S4096 ![] bcast_S_S4096 (constant (F := Ideal) S_ .f32 0x322BCC77#32) (ix1 r))) = _
  rw [pos4096, neg4096, broadcastInDim_scalar_apply, broadcastInDim_scalar_apply, constant_apply, constant_apply,
    div_temp, zero_sub]

theorem rows4096_blocks (e1 e2 : FVec Ideal S4096x64 .f32) (r : Fin 4096) :
    rows4096 e1 e2 (ix1 r)
      = 0 - Ideal.log (Ideal.div (Ideal.exp ((∑ k : Fin 64, e1 (ix2 r k) * e2 (ix2 r k)) * ((67108864 / 13421773 : ℝ) : EReal)))
          ((∑ j : Fin 4, ∑ q : Fin 1024,
              Ideal.exp ((∑ k : Fin 64, e1 (ix2 r k) * e2 (ix2 (⟨j.val * 1024 + q.val, by omega⟩ : Fin 4096) k))
                * ((67108864 / 13421773 : ℝ) : EReal)))
            + Ideal.ofBits .f32 0x322BCC77#32)
          + Ideal.ofBits .f32 0x322BCC77#32) := by
  rw [rows4096_apply]
  have hb := Cert.LibSums.sum_blocks 4 1024 fun q : Fin 4096 =>
    Ideal.exp ((∑ k : Fin 64, e1 (ix2 r k) * e2 (ix2 q k)) * ((67108864 / 13421773 : ℝ) : EReal))
  exact congrArg (fun s => 0 - Ideal.log (Ideal.div (Ideal.exp ((∑ k : Fin 64, e1 (ix2 r k) * e2 (ix2 r k)) * ((67108864 / 13421773 : ℝ) : EReal)))
    (s + Ideal.ofBits .f32 0x322BCC77#32) + Ideal.ofBits .f32 0x322BCC77#32)) hb.symm

end Cert.ReferenceIdeal.Hand.Nce

namespace Cert.KernelIdeal.Hand

open Idealize.ShloMosaic Idealize.SL.Sem Idealize.ShloMosaic.ValueIdx
open scoped BigOperators

variable [Cert.KernelIdeal.Facts₀] [Cert.ReferenceIdeal.Facts₀]

theorem nce_total_col {n : ℕ} (h' : (⟨2, ![n, 1]⟩ : Shape).ReducesTo [0, 1] ⟨0, ![]⟩) (hu : 0 < (⟨0, ![]⟩ : Shape).numel)
    (x : FVec Ideal ⟨2, ![n, 1]⟩ .f32) (j : (⟨0, ![]⟩ : Shape).Idx) :
    Host.reduceAdd x (constant ⟨0, ![]⟩ .f32 0x00000000#32) h' hu j = ∑ r : Fin n, x (ix2 r 0) := by
  rw [hostReduceAdd_apply, Ideal.hostReduceAdd_total _ (fun b => b.elim0)]
  show Ideal.ofBits .f32 0x00000000#32 + _ = _
  rw [Ideal.ofBits_zero_f32, zero_add, sum_idx2]
  refine Finset.sum_congr rfl fun r _ => ?_
  rw [Fin.sum_univ_one]

theorem nce_total_vec {n : ℕ} (h' : (⟨1, ![n]⟩ : Shape).ReducesTo [0] ⟨0, ![]⟩) (hu : 0 < (⟨0, ![]⟩ : Shape).numel)
    (x : FVec Ideal ⟨1, ![n]⟩ .f32) (j : (⟨0, ![]⟩ : Shape).Idx) :
    Host.reduceAdd x (constant ⟨0, ![]⟩ .f32 0x00000000#32) h' hu j = ∑ r : Fin n, x (ix1 r) := by
  rw [hostReduceAdd_apply, Ideal.hostReduceAdd_total _ (fun b => b.elim0)]
  show Ideal.ofBits .f32 0x00000000#32 + _ = _
  rw [Ideal.ofBits_zero_f32, zero_add, ← Equiv.sum_comp (idxEquiv1 (n := n)).symm]
  rfl

theorem nceRow12000_eq (e1 e2 : Vec Ideal S12000x64 .f32) (r : Fin 12000) :
    nceRows12000 e1 (truncf (F := Ideal) .bf16 e1 Facts₀.bitsLt_bf16_f32) e2 (truncf (F := Ideal) .bf16 e2 Facts₀.bitsLt_bf16_f32) (ix2 r 0)
      = Cert.ReferenceIdeal.Hand.Nce.rows12000 e1 e2 (ix1 r) := by
  rw [Cert.ReferenceIdeal.Hand.Nce.rows12000_blocks]
  rfl

theorem nceLoss12000_eq (e1 e2 : (⟨S12000x64, .f32⟩ : BufTy).Contents (Elt Ideal)) :
    nceLoss12000 e1 e2 = Cert.ReferenceIdeal.Hand.infonce12000 (F := Ideal) e1 e2 := by
  funext j
  rw [Cert.ReferenceIdeal.Hand.Nce.infonce12000_rows]
  unfold nceLoss12000
  rw [hostDivf_apply, hostDivf_apply, nce_total_col, nce_total_vec]
  congr 1
  exact Finset.sum_congr rfl fun r _ => nceRow12000_eq e1 e2 r

theorem nceRow4096_eq (e1 e2 : Vec Ideal S4096x64 .f32) (r : Fin 4096) :
    nceRows4096 e1 (truncf (F := Ideal) .bf16 e1 Facts₀.bitsLt_bf16_f32) e2 (truncf (F := Ideal) .bf16 e2 Facts₀.bitsLt_bf16_f32) (ix2 r 0)
      = Cert.ReferenceIdeal.Hand.Nce.rows4096 e1 e2 (ix1 r) := by
  rw [Cert.ReferenceIdeal.Hand.Nce.rows4096_blocks]
  rfl

theorem nceLoss4096_eq (e1 e2 : (⟨S4096x64, .f32⟩ : BufTy).Contents (Elt Ideal)) :
    nceLoss4096 e1 e2 = Cert.ReferenceIdeal.Hand.infonce4096 (F := Ideal) e1 e2 := by
  funext j
  rw [Cert.ReferenceIdeal.Hand.Nce.infonce4096_rows]
  unfold nceLoss4096
  rw [hostDivf_apply, hostDivf_apply, nce_total_col, nce_total_vec]
  congr 1
  exact Finset.sum_congr rfl fun r _ => nceRow4096_eq e1 e2 r

end Cert.KernelIdeal.Hand

end
-- ==== Proof.KI.NceLossK.lean ====
import proofs.«133221_j41652592836945_2_alg».proof.Proof.KI.NceBridge

noncomputable section

namespace Cert.KernelIdeal.Hand

open Idealize.ShloMosaic Idealize.SL.Sem
open Cert.KernelIdeal.Facts₀

variable [Cert.KernelIdeal.Facts₀] [Cert.ReferenceIdeal.Facts₀]

theorem nceScalar12000 (e1 e2 : (⟨S12000x64, .f32⟩ : BufTy).Contents (Elt Ideal))
    (out : (⟨S12000x1, .f32⟩ : BufTy).Contents (Elt Ideal))
    (h : out = nceRows12000 e1 (truncf (F := Ideal) .bf16 e1 bitsLt_bf16_f32) e2 (truncf (F := Ideal) .bf16 e2 bitsLt_bf16_f32)) :
    Host.divf (F := Ideal) (Host.reduceAdd (F := Ideal) out (constant S_ .f32 0x00000000#32) reducesTo_S12000x1_S_d0_1 h_S_) (constant S_ .f32 0x463B8000#32)
      = Cert.ReferenceIdeal.Hand.infonce12000 (F := Ideal) e1 e2 := by
  subst h
  exact nceLoss12000_eq e1 e2

theorem nceScalar4096 (e1 e2 : (⟨S4096x64, .f32⟩ : BufTy).Contents (Elt Ideal))
    (out : (⟨S4096x1, .f32⟩ : BufTy).Contents (Elt Ideal))
    (h : out = nceRows4096 e1 (truncf (F := Ideal) .bf16 e1 bitsLt_bf16_f32) e2 (truncf (F := Ideal) .bf16 e2 bitsLt_bf16_f32)) :
    Host.divf (F := Ideal) (Host.reduceAdd (F := Ideal) out (constant S_ .f32 0x00000000#32) reducesTo_S4096x1_S_d0_1 h_S_) (constant S_ .f32 0x45800000#32)
      = Cert.ReferenceIdeal.Hand.infonce4096 (F := Ideal) e1 e2 := by
  subst h
  exact nceLoss4096_eq e1 e2

end Cert.KernelIdeal.Hand

end
-- ==== Proof.KI.GateValue.lean ====
import proofs.«133221_j41652592836945_2_alg».proof.Proof.KI.Gate
import Idealize.ShloMosaic.Lib.Pipeline.Value
import Idealize.ShloMosaic.Lib.ValueIdx
import Idealize.ShloMosaic.Lib.ValueIdxCoords

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat)
open Cert.KernelIdeal Cert.KernelIdeal.Gen

variable {F : FTy → Type} [FloatOps F] [Named F]

variable (V : (c : Dev nD) → (b : Ref sig .tc) → Buf (Elt F) ((c : Thread nD τ).loc b))

open Idealize.ShloMosaic.ValueIdx

theorem hz0 : (![0, 0] : Fin 2 → Nat) = fun _ => 0 := funext fun a => by fin_cases a <;> rfl

def gateBlk (x : Vec F S1200x64 .f32) (w : Vec F S64x64 .f32) (b : Vec F S1x64 .f32) : Vec F S1200x64 .f32 :=
  mulf x (logistic (addf
    (matmul dot_S1200x64_S64x64_S1200x64_1_0_0_1_n_n none (truncf .bf16 x bitsLt_bf16_f32) (truncf .bf16 w bitsLt_bf16_f32)
      (constant S1200x64 .f32 0x00000000#32))
    (broadcastTo S1200x64 b broadcasts_S1x64_S1200x64)))

theorem pay2_eq (x : Vec F S1200x64 .f32) (w : Vec F S64x64 .f32) (b : Vec F S1x64 .f32) : k0_pay2 x w b = gateBlk x w b := rfl
theorem pay3_eq (x : Vec F S1200x64 .f32) (w : Vec F S64x64 .f32) (b : Vec F S1x64 .f32) : k0_pay3 x w b = gateBlk x w b := rfl
theorem pay4_eq (x : Vec F S1200x64 .f32) (w : Vec F S64x64 .f32) (b : Vec F S1x64 .f32) : k0_pay4 x w b = gateBlk x w b := rfl

def rowBlk (x : Vec F S12000x64 .f32) (q : Fin 10) : Vec F S1200x64 .f32 :=
  fun y => x (ix2 (⟨q.val * 1200 + (y 0).val, by have h : (y 0).val < 1200 := (y 0).isLt; omega⟩ : Fin 12000)
    (⟨(y 1).val, idx2_lt1 y⟩ : Fin 64))

def gateArr (x : Vec F S12000x64 .f32) (w : Vec F S64x64 .f32) (b : Vec F S1x64 .f32) : Vec F S12000x64 .f32 :=
  fun i => gateBlk (rowBlk x ⟨(i 0).val / 1200, by have h : (i 0).val < 12000 := (i 0).isLt; omega⟩) w b
    (ix2 (⟨(i 0).val % 1200, by omega⟩ : Fin 1200) (⟨(i 1).val, idx2_lt1 i⟩ : Fin 64))

theorem gateArr_at_block (x : Vec F S12000x64 .f32) (w : Vec F S64x64 .f32) (b : Vec F S1x64 .f32) (q : Fin 10)
    (y : S1200x64.Idx) (i : S12000x64.Idx) (hi0 : (i 0).val = q.val * 1200 + (y 0).val) (hi1 : (i 1).val = (y 1).val) :
    gateArr x w b i = gateBlk (rowBlk x q) w b y := by
  have hy : (y 0).val < 1200 := (y 0).isLt
  have e1 : (i 0).val / 1200 = q.val := by omega
  have e2 : (i 0).val % 1200 = (y 0).val := by omega
  unfold gateArr
  refine congr (congrArg (fun Q => gateBlk (rowBlk x Q) w b) (Fin.ext e1)) (funext fun a => ?_)
  match a with
  | ⟨0, _⟩ => exact Fin.ext e2
  | ⟨1, _⟩ => exact Fin.ext hi1

theorem idx_facts0 : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

def blkOf (t : Fin cfg0.N) : Fin 10 := ⟨t.val, by have h : t.val < grid0.N := t.isLt; rw [N_0] at h; exact h⟩

theorem iblk0_0_eq (c : Dev nD) (t : Fin cfg0.N) :
    (iblk0 V c 0 t : Vec F S1200x64 .f32) = rowBlk (V c main_arg0) (blkOf t) := by
  obtain ⟨⟨e0, e1⟩, -⟩ := idx_facts0 t
  funext y
  show (V c main_arg0 : S12000x64.Idx → Elt F .f32) (((cfg0.win 0).blk t).view.emb y) = (V c main_arg0 : S12000x64.Idx → Elt F .f32) (ix2 _ _)
  refine congrArg (V c main_arg0 : S12000x64.Idx → Elt F .f32) ?_
  funext a; apply Fin.ext
  match a with
  | ⟨0, _⟩ => show win0_0.index t (0 : Fin 2) * 1200 + 1 * (y 0).val = t.val * 1200 + (y 0).val; rw [e0]; omega
  | ⟨1, _⟩ => show win0_0.index t (1 : Fin 2) * 64 + 1 * (y 1).val = (y 1).val; rw [e1]; omega

theorem iblk0_1_eq (c : Dev nD) (t : Fin cfg0.N) : (iblk0 V c 1 t : Vec F S64x64 .f32) = V c main_arg1 := by
  obtain ⟨-, ⟨e0, e1⟩, -⟩ := idx_facts0 t
  funext y
  show (V c main_arg1 : S64x64.Idx → Elt F .f32) (((cfg0.win 1).blk t).view.emb y) = (V c main_arg1 : S64x64.Idx → Elt F .f32) y
  refine congrArg (V c main_arg1 : S64x64.Idx → Elt F .f32) ?_
  funext a; apply Fin.ext
  match a with
  | ⟨0, _⟩ => show win0_1.index t (0 : Fin 2) * 64 + 1 * (y 0).val = (y 0).val; rw [e0]; omega
  | ⟨1, _⟩ => show win0_1.index t (1 : Fin 2) * 64 + 1 * (y 1).val = (y 1).val; rw [e1]; omega

theorem iblk0_2_eq (c : Dev nD) (t : Fin cfg0.N) : (iblk0 V c 2 t : Vec F S1x64 .f32) = V c main_arg2 := by
  obtain ⟨-, -, ⟨e0, e1⟩, -⟩ := idx_facts0 t
  funext y
  show (V c main_arg2 : S1x64.Idx → Elt F .f32) (((cfg0.win 2).blk t).view.emb y) = (V c main_arg2 : S1x64.Idx → Elt F .f32) y
  refine congrArg (V c main_arg2 : S1x64.Idx → Elt F .f32) ?_
  funext a; apply Fin.ext
  match a with
  | ⟨0, _⟩ => show win0_2.index t (0 : Fin 2) * 1 + 1 * (y 0).val = (y 0).val; rw [e0]; omega
  | ⟨1, _⟩ => show win0_2.index t (1 : Fin 2) * 64 + 1 * (y 1).val = (y 1).val; rw [e1]; omega

theorem iblk0_3_eq (c : Dev nD) (t : Fin cfg0.N) : (iblk0 V c 3 t : Vec F S64x64 .f32) = V c main_arg3 := by
  obtain ⟨-, -, -, ⟨e0, e1⟩, -⟩ := idx_facts0 t
  funext y
  show (V c main_arg3 : S64x64.Idx → Elt F .f32) (((cfg0.win 3).blk t).view.emb y) = (V c main_arg3 : S64x64.Idx → Elt F .f32) y
  refine congrArg (V c main_arg3 : S64x64.Idx → Elt F .f32) ?_
  funext a; apply Fin.ext
  match a with
  | ⟨0, _⟩ => show win0_3.index t (0 : Fin 2) * 64 + 1 * (y 0).val = (y 0).val; rw [e0]; omega
  | ⟨1, _⟩ => show win0_3.index t (1 : Fin 2) * 64 + 1 * (y 1).val = (y 1).val; rw [e1]; omega

theorem iblk0_4_eq (c : Dev nD) (t : Fin cfg0.N) : (iblk0 V c 4 t : Vec F S1x64 .f32) = V c main_arg4 := by
  obtain ⟨-, -, -, -, ⟨e0, e1⟩, -⟩ := idx_facts0 t
  funext y
  show (V c main_arg4 : S1x64.Idx → Elt F .f32) (((cfg0.win 4).blk t).view.emb y) = (V c main_arg4 : S1x64.Idx → Elt F .f32) y
  refine congrArg (V c main_arg4 : S1x64.Idx → Elt F .f32) ?_
  funext a; apply Fin.ext
  match a with
  | ⟨0, _⟩ => show win0_4.index t (0 : Fin 2) * 1 + 1 * (y 0).val = (y 0).val; rw [e0]; omega
  | ⟨1, _⟩ => show win0_4.index t (1 : Fin 2) * 64 + 1 * (y 1).val = (y 1).val; rw [e1]; omega

theorem iblk0_5_eq (c : Dev nD) (t : Fin cfg0.N) : (iblk0 V c 5 t : Vec F S64x64 .f32) = V c main_arg5 := by
  obtain ⟨-, -, -, -, -, ⟨e0, e1⟩, -⟩ := idx_facts0 t
  funext y
  show (V c main_arg5 : S64x64.Idx → Elt F .f32) (((cfg0.win 5).blk t).view.emb y) = (V c main_arg5 : S64x64.Idx → Elt F .f32) y
  refine congrArg (V c main_arg5 : S64x64.Idx → Elt F .f32) ?_
  funext a; apply Fin.ext
  match a with
  | ⟨0, _⟩ => show win0_5.index t (0 : Fin 2) * 64 + 1 * (y 0).val = (y 0).val; rw [e0]; omega
  | ⟨1, _⟩ => show win0_5.index t (1 : Fin 2) * 64 + 1 * (y 1).val = (y 1).val; rw [e1]; omega

theorem iblk0_6_eq (c : Dev nD) (t : Fin cfg0.N) : (iblk0 V c 6 t : Vec F S1x64 .f32) = V c main_arg6 := by
  obtain ⟨-, -, -, -, -, -, ⟨e0, e1⟩, -⟩ := idx_facts0 t
  funext y
  show (V c main_arg6 : S1x64.Idx → Elt F .f32) (((cfg0.win 6).blk t).view.emb y) = (V c main_arg6 : S1x64.Idx → Elt F .f32) y
  refine congrArg (V c main_arg6 : S1x64.Idx → Elt F .f32) ?_
  funext a; apply Fin.ext
  match a with
  | ⟨0, _⟩ => show win0_6.index t (0 : Fin 2) * 1 + 1 * (y 0).val = (y 0).val; rw [e0]; omega
  | ⟨1, _⟩ => show win0_6.index t (1 : Fin 2) * 64 + 1 * (y 1).val = (y 1).val; rw [e1]; omega

theorem flushed0_7_eq (c : Dev nD) (t : Fin cfg0.N) :
    (dat0 V c).flushed 7 t
      = ((cfg0.win 7).blk t).view.read (Elt F) (gateArr (V c main_arg0) (V c main_arg1) (V c main_arg2)) := by
  show (cfg0.win 7).cut (grid0.coords t) ((dat0 V c).after 7 t) = _
  rw [after0_7]
  unfold out0_7
  rw [View.canon_unit_zero hz0]
  simp only [View.ld_unit_zero (S := S1200x64) hz0, View.ld_unit_zero (S := S64x64) hz0, View.ld_unit_zero (S := S1x64) hz0]
  rw [pay2_eq, iblk0_0_eq, iblk0_1_eq, iblk0_2_eq]
  obtain ⟨-, -, -, -, -, -, -, ⟨e0, e1⟩, -⟩ := idx_facts0 t
  funext y
  show gateBlk (rowBlk (V c main_arg0) (blkOf t)) (V c main_arg1) (V c main_arg2) y
    = gateArr (V c main_arg0) (V c main_arg1) (V c main_arg2) (((cfg0.win 7).blk t).view.emb y)
  refine (gateArr_at_block _ _ _ (blkOf t) y _ ?_ ?_).symm
  · show win0_7.index t (0 : Fin 2) * 1200 + 1 * (y 0).val = t.val * 1200 + (y 0).val; rw [e0]; omega
  · show win0_7.index t (1 : Fin 2) * 64 + 1 * (y 1).val = (y 1).val; rw [e1]; omega

theorem mem_blk0_7 (t : Fin cfg0.N) (i : S12000x64.Idx) :
    i ∈ ((cfg0.win 7).blk t).view.set ↔ ∀ a : Fin 2, win0_7.index t a * S1200x64.size a ≤ (i a).val ∧ (i a).val < win0_7.index t a * S1200x64.size a + S1200x64.size a := by
  show i ∈ ((View.whole main_v0_0).slice (win0_7.rect t)).set ↔ _
  rw [View.set_slice_whole, Rect.mem_set_unit]
  exact Iff.rfl

theorem cover0_7 (i : S12000x64.Idx) :
    ∃ t : Fin cfg0.N, (cfg0.win 7).flush t = true ∧ i ∈ ((cfg0.win 7).blk t).view.set := by
  have hi0 : (i 0).val < 12000 := (i 0).isLt
  have hi1 : (i 1).val < 64 := (i 1).isLt
  obtain ⟨t, ht⟩ : ∃ t : Fin cfg0.N, t.val = (i 0).val / 1200 :=
    ⟨⟨(i 0).val / 1200, by show _ < grid0.N; rw [N_0]; omega⟩, rfl⟩
  obtain ⟨-, -, -, -, -, -, -, ⟨e0, e1⟩, -⟩ := idx_facts0 t
  refine ⟨t, flush0_7 t, ?_⟩
  rw [mem_blk0_7]
  intro a
  match a with
  | ⟨0, _⟩ => show win0_7.index t (0 : Fin 2) * 1200 ≤ (i 0).val ∧ (i 0).val < win0_7.index t (0 : Fin 2) * 1200 + 1200; rw [e0, ht]; omega
  | ⟨1, _⟩ => show win0_7.index t (1 : Fin 2) * 64 ≤ (i 1).val ∧ (i 1).val < win0_7.index t (1 : Fin 2) * 64 + 64; rw [e1]; omega

theorem final0_7 (c : Dev nD) :
    (dat0 V c).arrAt 7 cfg0.N = gateArr (V c main_arg0) (V c main_arg1) (V c main_arg2) :=
  (dat0 V c).arrAt_eq_of_cover 7 (gateArr (V c main_arg0) (V c main_arg1) (V c main_arg2)) (fun t _ => flushed0_7_eq V c t) cover0_7

theorem flushed0_8_eq (c : Dev nD) (t : Fin cfg0.N) :
    (dat0 V c).flushed 8 t
      = ((cfg0.win 8).blk t).view.read (Elt F) (gateArr (V c main_arg0) (V c main_arg3) (V c main_arg4)) := by
  show (cfg0.win 8).cut (grid0.coords t) ((dat0 V c).after 8 t) = _
  rw [after0_8]
  unfold out0_8
  rw [View.canon_unit_zero hz0]
  simp only [View.ld_unit_zero (S := S1200x64) hz0, View.ld_unit_zero (S := S64x64) hz0, View.ld_unit_zero (S := S1x64) hz0]
  rw [pay3_eq, iblk0_0_eq, iblk0_3_eq, iblk0_4_eq]
  obtain ⟨-, -, -, -, -, -, -, -, ⟨e0, e1⟩, -⟩ := idx_facts0 t
  funext y
  show gateBlk (rowBlk (V c main_arg0) (blkOf t)) (V c main_arg3) (V c main_arg4) y
    = gateArr (V c main_arg0) (V c main_arg3) (V c main_arg4) (((cfg0.win 8).blk t).view.emb y)
  refine (gateArr_at_block _ _ _ (blkOf t) y _ ?_ ?_).symm
  · show win0_8.index t (0 : Fin 2) * 1200 + 1 * (y 0).val = t.val * 1200 + (y 0).val; rw [e0]; omega
  · show win0_8.index t (1 : Fin 2) * 64 + 1 * (y 1).val = (y 1).val; rw [e1]; omega

theorem mem_blk0_8 (t : Fin cfg0.N) (i : S12000x64.Idx) :
    i ∈ ((cfg0.win 8).blk t).view.set ↔ ∀ a : Fin 2, win0_8.index t a * S1200x64.size a ≤ (i a).val ∧ (i a).val < win0_8.index t a * S1200x64.size a + S1200x64.size a := by
  show i ∈ ((View.whole main_v0_1).slice (win0_8.rect t)).set ↔ _
  rw [View.set_slice_whole, Rect.mem_set_unit]
  exact Iff.rfl

theorem cover0_8 (i : S12000x64.Idx) :
    ∃ t : Fin cfg0.N, (cfg0.win 8).flush t = true ∧ i ∈ ((cfg0.win 8).blk t).view.set := by
  have hi0 : (i 0).val < 12000 := (i 0).isLt
  have hi1 : (i 1).val < 64 := (i 1).isLt
  obtain ⟨t, ht⟩ : ∃ t : Fin cfg0.N, t.val = (i 0).val / 1200 :=
    ⟨⟨(i 0).val / 1200, by show _ < grid0.N; rw [N_0]; omega⟩, rfl⟩
  obtain ⟨-, -, -, -, -, -, -, -, ⟨e0, e1⟩, -⟩ := idx_facts0 t
  refine ⟨t, flush0_8 t, ?_⟩
  rw [mem_blk0_8]
  intro a
  match a with
  | ⟨0, _⟩ => show win0_8.index t (0 : Fin 2) * 1200 ≤ (i 0).val ∧ (i 0).val < win0_8.index t (0 : Fin 2) * 1200 + 1200; rw [e0, ht]; omega
  | ⟨1, _⟩ => show win0_8.index t (1 : Fin 2) * 64 ≤ (i 1).val ∧ (i 1).val < win0_8.index t (1 : Fin 2) * 64 + 64; rw [e1]; omega

theorem final0_8 (c : Dev nD) :
    (dat0 V c).arrAt 8 cfg0.N = gateArr (V c main_arg0) (V c main_arg3) (V c main_arg4) :=
  (dat0 V c).arrAt_eq_of_cover 8 (gateArr (V c main_arg0) (V c main_arg3) (V c main_arg4)) (fun t _ => flushed0_8_eq V c t) cover0_8

theorem flushed0_9_eq (c : Dev nD) (t : Fin cfg0.N) :
    (dat0 V c).flushed 9 t
      = ((cfg0.win 9).blk t).view.read (Elt F) (gateArr (V c main_arg0) (V c main_arg5) (V c main_arg6)) := by
  show (cfg0.win 9).cut (grid0.coords t) ((dat0 V c).after 9 t) = _
  rw [after0_9]
  unfold out0_9
  rw [View.canon_unit_zero hz0]
  simp only [View.ld_unit_zero (S := S1200x64) hz0, View.ld_unit_zero (S := S64x64) hz0, View.ld_unit_zero (S := S1x64) hz0]
  rw [pay4_eq, iblk0_0_eq, iblk0_5_eq, iblk0_6_eq]
  obtain ⟨-, -, -, -, -, -, -, -, -, ⟨e0, e1⟩⟩ := idx_facts0 t
  funext y
  show gateBlk (rowBlk (V c main_arg0) (blkOf t)) (V c main_arg5) (V c main_arg6) y
    = gateArr (V c main_arg0) (V c main_arg5) (V c main_arg6) (((cfg0.win 9).blk t).view.emb y)
  refine (gateArr_at_block _ _ _ (blkOf t) y _ ?_ ?_).symm
  · show win0_9.index t (0 : Fin 2) * 1200 + 1 * (y 0).val = t.val * 1200 + (y 0).val; rw [e0]; omega
  · show win0_9.index t (1 : Fin 2) * 64 + 1 * (y 1).val = (y 1).val; rw [e1]; omega

theorem mem_blk0_9 (t : Fin cfg0.N) (i : S12000x64.Idx) :
    i ∈ ((cfg0.win 9).blk t).view.set ↔ ∀ a : Fin 2, win0_9.index t a * S1200x64.size a ≤ (i a).val ∧ (i a).val < win0_9.index t a * S1200x64.size a + S1200x64.size a := by
  show i ∈ ((View.whole main_v0_2).slice (win0_9.rect t)).set ↔ _
  rw [View.set_slice_whole, Rect.mem_set_unit]
  exact Iff.rfl

theorem cover0_9 (i : S12000x64.Idx) :
    ∃ t : Fin cfg0.N, (cfg0.win 9).flush t = true ∧ i ∈ ((cfg0.win 9).blk t).view.set := by
  have hi0 : (i 0).val < 12000 := (i 0).isLt
  have hi1 : (i 1).val < 64 := (i 1).isLt
  obtain ⟨t, ht⟩ : ∃ t : Fin cfg0.N, t.val = (i 0).val / 1200 :=
    ⟨⟨(i 0).val / 1200, by show _ < grid0.N; rw [N_0]; omega⟩, rfl⟩
  obtain ⟨-, -, -, -, -, -, -, -, -, ⟨e0, e1⟩⟩ := idx_facts0 t
  refine ⟨t, flush0_9 t, ?_⟩
  rw [mem_blk0_9]
  intro a
  match a with
  | ⟨0, _⟩ => show win0_9.index t (0 : Fin 2) * 1200 ≤ (i 0).val ∧ (i 0).val < win0_9.index t (0 : Fin 2) * 1200 + 1200; rw [e0, ht]; omega
  | ⟨1, _⟩ => show win0_9.index t (1 : Fin 2) * 64 ≤ (i 1).val ∧ (i 1).val < win0_9.index t (1 : Fin 2) * 64 + 64; rw [e1]; omega

theorem final0_9 (c : Dev nD) :
    (dat0 V c).arrAt 9 cfg0.N = gateArr (V c main_arg0) (V c main_arg5) (V c main_arg6) :=
  (dat0 V c).arrAt_eq_of_cover 9 (gateArr (V c main_arg0) (V c main_arg5) (V c main_arg6)) (fun t _ => flushed0_9_eq V c t) cover0_9

end Cert.KernelIdeal.Hand

end
-- ==== Proof.KI.GateBridge.lean ====
import proofs.«133221_j41652592836945_2_alg».proof.Proof.KI.GateValue
import proofs.«133221_j41652592836945_2_alg».proof.Proof.Ref.Stages
import proofs.«133221_j41652592836945_2_alg».proof.Proof.Gen.ReferenceIdeal
import Idealize.ShloMosaic.PureOps.Ideal.Laws
import Idealize.ShloMosaic.Lib.IdealHost

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat)
open Idealize.ShloMosaic.ValueIdx
open Cert.KernelIdeal Cert.KernelIdeal.Gen
open scoped BigOperators

theorem lhs_gate_0 (i : S1200x64.Idx) (q : dot_S1200x64_S64x64_S1200x64_1_0_0_1_n_n.contr.Idx) :
    (dot_S1200x64_S64x64_S1200x64_1_0_0_1_n_n.lhsIdx i q 0).val = (i 0).val := by
  unfold DotDims.lhsIdx
  rw [dif_neg (show ¬(0 : Fin S1200x64.rank) ∈ dot_S1200x64_S64x64_S1200x64_1_0_0_1_n_n.lhsBatch by decide), dif_pos (show (0 : Fin S1200x64.rank) ∈ dot_S1200x64_S64x64_S1200x64_1_0_0_1_n_n.lhsNonContracting by decide)]
  rfl
theorem lhs_gate_1 (i : S1200x64.Idx) (q : dot_S1200x64_S64x64_S1200x64_1_0_0_1_n_n.contr.Idx) :
    (dot_S1200x64_S64x64_S1200x64_1_0_0_1_n_n.lhsIdx i q 1).val = (q ⟨0, by decide⟩).val :=
  dot_S1200x64_S64x64_S1200x64_1_0_0_1_n_n.lhsIdx_val_of_single rfl i q
theorem rhs_gate_0 (i : S1200x64.Idx) (q : dot_S1200x64_S64x64_S1200x64_1_0_0_1_n_n.contr.Idx) :
    (dot_S1200x64_S64x64_S1200x64_1_0_0_1_n_n.rhsIdx i q 0).val = (q ⟨0, by decide⟩).val :=
  dot_S1200x64_S64x64_S1200x64_1_0_0_1_n_n.rhsIdx_val_of_single rfl i q
theorem rhs_gate_1 (i : S1200x64.Idx) (q : dot_S1200x64_S64x64_S1200x64_1_0_0_1_n_n.contr.Idx) :
    (dot_S1200x64_S64x64_S1200x64_1_0_0_1_n_n.rhsIdx i q 1).val = (i 1).val := by
  unfold DotDims.rhsIdx
  rw [dif_neg (show ¬(1 : Fin S64x64.rank) ∈ dot_S1200x64_S64x64_S1200x64_1_0_0_1_n_n.rhsBatch by decide), dif_pos (show (1 : Fin S64x64.rank) ∈ dot_S1200x64_S64x64_S1200x64_1_0_0_1_n_n.rhsNonContracting by decide)]
  rfl

abbrev blkRow (i : S1200x64.Idx) (k : Fin 64) : S1200x64.Idx := fun a => match a with
  | ⟨0, _⟩ => ⟨(i 0).val, (i 0).isLt⟩
  | ⟨1, _⟩ => ⟨k.val, k.isLt⟩

abbrev blkCol (i : S1200x64.Idx) (k : Fin 64) : S64x64.Idx := fun a => match a with
  | ⟨0, _⟩ => ⟨k.val, k.isLt⟩
  | ⟨1, _⟩ => ⟨(i 1).val, (i 1).isLt⟩

abbrev blkBias (i : S1200x64.Idx) : S1x64.Idx := fun a => match a with
  | ⟨0, _⟩ => ⟨0, Nat.one_pos⟩
  | ⟨1, _⟩ => ⟨(i 1).val, (i 1).isLt⟩

theorem gate_matmul_apply (X : FVec Ideal S1200x64 .bf16) (W : FVec Ideal S64x64 .bf16) (i : S1200x64.Idx) :
    matmul dot_S1200x64_S64x64_S1200x64_1_0_0_1_n_n none X W (constant S1200x64 .f32 0x00000000#32) i
      = ∑ k : Fin 64, X (blkRow i k) * W (blkCol i k) := by
  simp only [matmul]
  rw [Ideal.matmul_constant_zero_apply, ← Equiv.sum_comp (ValueIdx.contrEquiv1 dot_S1200x64_S64x64_S1200x64_1_0_0_1_n_n 64 rfl rfl).symm]
  refine Finset.sum_congr rfl fun k _ => ?_
  have hk := ValueIdx.contrEquiv1_symm_val dot_S1200x64_S64x64_S1200x64_1_0_0_1_n_n 64 rfl rfl k
  have el : dot_S1200x64_S64x64_S1200x64_1_0_0_1_n_n.lhsIdx i ((ValueIdx.contrEquiv1 dot_S1200x64_S64x64_S1200x64_1_0_0_1_n_n 64 rfl rfl).symm k) = blkRow i k := funext fun a => Fin.ext (by
    match a with
    | ⟨0, _⟩ => exact lhs_gate_0 _ _
    | ⟨1, _⟩ => exact (lhs_gate_1 _ _).trans hk)
  have er : dot_S1200x64_S64x64_S1200x64_1_0_0_1_n_n.rhsIdx i ((ValueIdx.contrEquiv1 dot_S1200x64_S64x64_S1200x64_1_0_0_1_n_n 64 rfl rfl).symm k) = blkCol i k := funext fun a => Fin.ext (by
    match a with
    | ⟨0, _⟩ => exact (rhs_gate_0 _ _).trans hk
    | ⟨1, _⟩ => exact rhs_gate_1 _ _)
  rw [el, er]

theorem gateBlk_ideal_apply (x : Vec Ideal S1200x64 .f32) (w : Vec Ideal S64x64 .f32) (b : Vec Ideal S1x64 .f32) (i : S1200x64.Idx) :
    gateBlk (F := Ideal) x w b i
      = x i * Ideal.logistic ((∑ k : Fin 64, x (blkRow i k) * w (blkCol i k)) + b (blkBias i)) := by
  unfold gateBlk
  show x i * Ideal.logistic
      (matmul (F := Ideal) (φ₁ := .bf16) (φ₂ := .bf16) dot_S1200x64_S64x64_S1200x64_1_0_0_1_n_n none
          (truncf (F := Ideal) (φ := .f32) .bf16 x bitsLt_bf16_f32) (truncf (F := Ideal) (φ := .f32) .bf16 w bitsLt_bf16_f32)
          (constant (F := Ideal) S1200x64 .f32 0x00000000#32) i
        + broadcastTo (α := EReal) S1200x64 b broadcasts_S1x64_S1200x64 i) = _
  rw [gate_matmul_apply, broadcastTo_apply b broadcasts_S1x64_S1200x64 i (blkBias i) (fun a => match a with
    | ⟨0, _⟩ => by show 0 = if (1 : Nat) = 1 then 0 else _; rw [if_pos rfl]
    | ⟨1, _⟩ => by show (i 1).val = if (64 : Nat) = 1 then 0 else (i 1).val; rw [if_neg (by decide)])]
  rfl

abbrev arrRow (i : S12000x64.Idx) (k : Fin 64) : S12000x64.Idx := fun a => match a with
  | ⟨0, _⟩ => ⟨(i 0).val, (i 0).isLt⟩
  | ⟨1, _⟩ => ⟨k.val, k.isLt⟩

abbrev arrCol (i : S12000x64.Idx) (k : Fin 64) : S64x64.Idx := fun a => match a with
  | ⟨0, _⟩ => ⟨k.val, k.isLt⟩
  | ⟨1, _⟩ => ⟨(i 1).val, (i 1).isLt⟩

abbrev arrBias (i : S12000x64.Idx) : S1x64.Idx := fun a => match a with
  | ⟨0, _⟩ => ⟨0, Nat.one_pos⟩
  | ⟨1, _⟩ => ⟨(i 1).val, (i 1).isLt⟩

theorem rowBlk_apply {F : FTy → Type} (x : Vec F S12000x64 .f32) (q : Fin 10) (y : S1200x64.Idx) (i : S12000x64.Idx)
    (h0 : (i 0).val = q.val * 1200 + (y 0).val) (h1 : (i 1).val = (y 1).val) : rowBlk x q y = x i := by
  unfold rowBlk
  refine congrArg x (funext fun a => ?_)
  match a with
  | ⟨0, _⟩ => exact Fin.ext h0.symm
  | ⟨1, _⟩ => exact Fin.ext h1.symm

theorem gateArr_ideal_apply (x : Vec Ideal S12000x64 .f32) (w : Vec Ideal S64x64 .f32) (b : Vec Ideal S1x64 .f32) (i : S12000x64.Idx) :
    gateArr (F := Ideal) x w b i
      = x i * Ideal.logistic ((∑ k : Fin 64, x (arrRow i k) * w (arrCol i k)) + b (arrBias i)) := by
  have hi0 : (i 0).val < 12000 := (i 0).isLt
  unfold gateArr
  rw [gateBlk_ideal_apply]
  refine congrArg₂ (· * ·) (rowBlk_apply x _ _ i ?_ rfl) (congrArg Ideal.logistic (congrArg₂ (· + ·)
    (Finset.sum_congr rfl fun k _ => congrArg₂ (· * ·) (rowBlk_apply x _ _ (arrRow i k) ?_ rfl) (congrArg w ?_)) (congrArg b ?_)))
  · show (i 0).val = (i 0).val / 1200 * 1200 + (i 0).val % 1200; omega
  · show (i 0).val = (i 0).val / 1200 * 1200 + (i 0).val % 1200; omega
  · funext a; match a with
    | ⟨0, _⟩ => rfl
    | ⟨1, _⟩ => rfl
  · funext a; match a with
    | ⟨0, _⟩ => rfl
    | ⟨1, _⟩ => rfl

theorem lhs_ref_0 (i : Cert.ReferenceIdeal.S12000x64.Idx) (q : Cert.ReferenceIdeal.dot_S12000x64_S64x64_S12000x64_1_0_0_1_n_n.contr.Idx) :
    (Cert.ReferenceIdeal.dot_S12000x64_S64x64_S12000x64_1_0_0_1_n_n.lhsIdx i q 0).val = (i 0).val := by
  unfold DotDims.lhsIdx
  rw [dif_neg (show ¬(0 : Fin Cert.ReferenceIdeal.S12000x64.rank) ∈ Cert.ReferenceIdeal.dot_S12000x64_S64x64_S12000x64_1_0_0_1_n_n.lhsBatch by decide), dif_pos (show (0 : Fin Cert.ReferenceIdeal.S12000x64.rank) ∈ Cert.ReferenceIdeal.dot_S12000x64_S64x64_S12000x64_1_0_0_1_n_n.lhsNonContracting by decide)]
  rfl
theorem lhs_ref_1 (i : Cert.ReferenceIdeal.S12000x64.Idx) (q : Cert.ReferenceIdeal.dot_S12000x64_S64x64_S12000x64_1_0_0_1_n_n.contr.Idx) :
    (Cert.ReferenceIdeal.dot_S12000x64_S64x64_S12000x64_1_0_0_1_n_n.lhsIdx i q 1).val = (q ⟨0, by decide⟩).val :=
  Cert.ReferenceIdeal.dot_S12000x64_S64x64_S12000x64_1_0_0_1_n_n.lhsIdx_val_of_single rfl i q
theorem rhs_ref_0 (i : Cert.ReferenceIdeal.S12000x64.Idx) (q : Cert.ReferenceIdeal.dot_S12000x64_S64x64_S12000x64_1_0_0_1_n_n.contr.Idx) :
    (Cert.ReferenceIdeal.dot_S12000x64_S64x64_S12000x64_1_0_0_1_n_n.rhsIdx i q 0).val = (q ⟨0, by decide⟩).val :=
  Cert.ReferenceIdeal.dot_S12000x64_S64x64_S12000x64_1_0_0_1_n_n.rhsIdx_val_of_single rfl i q
theorem rhs_ref_1 (i : Cert.ReferenceIdeal.S12000x64.Idx) (q : Cert.ReferenceIdeal.dot_S12000x64_S64x64_S12000x64_1_0_0_1_n_n.contr.Idx) :
    (Cert.ReferenceIdeal.dot_S12000x64_S64x64_S12000x64_1_0_0_1_n_n.rhsIdx i q 1).val = (i 1).val := by
  unfold DotDims.rhsIdx
  rw [dif_neg (show ¬(1 : Fin Cert.ReferenceIdeal.S64x64.rank) ∈ Cert.ReferenceIdeal.dot_S12000x64_S64x64_S12000x64_1_0_0_1_n_n.rhsBatch by decide), dif_pos (show (1 : Fin Cert.ReferenceIdeal.S64x64.rank) ∈ Cert.ReferenceIdeal.dot_S12000x64_S64x64_S12000x64_1_0_0_1_n_n.rhsNonContracting by decide)]
  rfl

abbrev refRow (i : Cert.ReferenceIdeal.S12000x64.Idx) (k : Fin 64) : Cert.ReferenceIdeal.S12000x64.Idx := fun a => match a with
  | ⟨0, _⟩ => ⟨(i 0).val, (i 0).isLt⟩
  | ⟨1, _⟩ => ⟨k.val, k.isLt⟩

abbrev refCol (i : Cert.ReferenceIdeal.S12000x64.Idx) (k : Fin 64) : Cert.ReferenceIdeal.S64x64.Idx := fun a => match a with
  | ⟨0, _⟩ => ⟨k.val, k.isLt⟩
  | ⟨1, _⟩ => ⟨(i 1).val, (i 1).isLt⟩

abbrev refBias (i : Cert.ReferenceIdeal.S12000x64.Idx) : Cert.ReferenceIdeal.S1x64.Idx := fun a => match a with
  | ⟨0, _⟩ => ⟨0, Nat.one_pos⟩
  | ⟨1, _⟩ => ⟨(i 1).val, (i 1).isLt⟩

theorem ref_dot_apply (x : (⟨Cert.ReferenceIdeal.S12000x64, .f32⟩ : BufTy).Contents (Elt Ideal)) (w : (⟨Cert.ReferenceIdeal.S64x64, .f32⟩ : BufTy).Contents (Elt Ideal)) (i : Cert.ReferenceIdeal.S12000x64.Idx) :
    Host.dotGeneral (F := Ideal) (φ₁ := .f32) (φ₂ := .f32) Cert.ReferenceIdeal.dot_S12000x64_S64x64_S12000x64_1_0_0_1_n_n none x w i = ∑ k : Fin 64, x (refRow i k) * w (refCol i k) := by
  simp only [Host.dotGeneral]
  rw [Ideal.dotGeneral_apply, ← Equiv.sum_comp (ValueIdx.contrEquiv1 Cert.ReferenceIdeal.dot_S12000x64_S64x64_S12000x64_1_0_0_1_n_n 64 rfl rfl).symm]
  refine Finset.sum_congr rfl fun k _ => ?_
  have hk := ValueIdx.contrEquiv1_symm_val Cert.ReferenceIdeal.dot_S12000x64_S64x64_S12000x64_1_0_0_1_n_n 64 rfl rfl k
  have el : Cert.ReferenceIdeal.dot_S12000x64_S64x64_S12000x64_1_0_0_1_n_n.lhsIdx i ((ValueIdx.contrEquiv1 Cert.ReferenceIdeal.dot_S12000x64_S64x64_S12000x64_1_0_0_1_n_n 64 rfl rfl).symm k) = refRow i k := funext fun a => Fin.ext (by
    match a with
    | ⟨0, _⟩ => exact lhs_ref_0 _ _
    | ⟨1, _⟩ => exact (lhs_ref_1 _ _).trans hk)
  have er : Cert.ReferenceIdeal.dot_S12000x64_S64x64_S12000x64_1_0_0_1_n_n.rhsIdx i ((ValueIdx.contrEquiv1 Cert.ReferenceIdeal.dot_S12000x64_S64x64_S12000x64_1_0_0_1_n_n 64 rfl rfl).symm k) = refCol i k := funext fun a => Fin.ext (by
    match a with
    | ⟨0, _⟩ => exact (rhs_ref_0 _ _).trans hk
    | ⟨1, _⟩ => exact rhs_ref_1 _ _)
  rw [el, er]

theorem gate_ref_apply (x : (⟨Cert.ReferenceIdeal.S12000x64, .f32⟩ : BufTy).Contents (Elt Ideal)) (w : (⟨Cert.ReferenceIdeal.S64x64, .f32⟩ : BufTy).Contents (Elt Ideal))
    (b : (⟨Cert.ReferenceIdeal.S1x64, .f32⟩ : BufTy).Contents (Elt Ideal)) (i : Cert.ReferenceIdeal.S12000x64.Idx) :
    Cert.ReferenceIdeal.Hand.gate (F := Ideal) x w b i
      = x i * Ideal.logistic ((∑ k : Fin 64, x (refRow i k) * w (refCol i k)) + b (refBias i)) := by
  unfold Cert.ReferenceIdeal.Hand.gate
  show x i * Ideal.div (Ideal.ofBits .f32 0x3F800000#32) (Ideal.ofBits .f32 0x3F800000#32
      + Ideal.exp (-(Host.dotGeneral (F := Ideal) (φ₁ := .f32) (φ₂ := .f32) Cert.ReferenceIdeal.dot_S12000x64_S64x64_S12000x64_1_0_0_1_n_n none x w i
          + broadcastInDim (α := EReal) Cert.ReferenceIdeal.S12000x64 ![0, 1] Cert.ReferenceIdeal.Facts₀.bcast_S1x64_S12000x64_0_1 b i))) = _
  rw [Ideal.ofBits_one_f32, ref_dot_apply, broadcastInDim_apply _ Cert.ReferenceIdeal.Facts₀.bcast_S1x64_S12000x64_0_1 b i (refBias i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])]
  rfl

theorem gate_bridge (x : (⟨S12000x64, .f32⟩ : BufTy).Contents (Elt Ideal)) (w : (⟨S64x64, .f32⟩ : BufTy).Contents (Elt Ideal))
    (b : (⟨S1x64, .f32⟩ : BufTy).Contents (Elt Ideal)) :
    gateArr (F := Ideal) x w b = Cert.ReferenceIdeal.Hand.gate x w b := by
  funext i
  rw [gateArr_ideal_apply]
  exact (gate_ref_apply x w b i).symm

section Region

variable (V : (c : Dev nD) → (b : Ref sig .tc) → Buf (Elt Ideal) ((c : Thread nD τ).loc b))

theorem region0_out7 (c : Dev nD) :
    (dat0 V c).arrAt 7 cfg0.N = Cert.ReferenceIdeal.Hand.gate (V c main_arg0) (V c main_arg1) (V c main_arg2) :=
  (final0_7 V c).trans (gate_bridge _ _ _)
theorem region0_out8 (c : Dev nD) :
    (dat0 V c).arrAt 8 cfg0.N = Cert.ReferenceIdeal.Hand.gate (V c main_arg0) (V c main_arg3) (V c main_arg4) :=
  (final0_8 V c).trans (gate_bridge _ _ _)
theorem region0_out9 (c : Dev nD) :
    (dat0 V c).arrAt 9 cfg0.N = Cert.ReferenceIdeal.Hand.gate (V c main_arg0) (V c main_arg5) (V c main_arg6) :=
  (final0_9 V c).trans (gate_bridge _ _ _)

end Region

end Cert.KernelIdeal.Hand

end
-- ==== Proof.LibNary3.lean ====
import Idealize.ShloMosaic.Lib.StableHlo.Run

noncomputable section

namespace Idealize.ShloMosaic.StableHlo

variable {nD : Nat} {τ : Topo} {sig : RefSig} {Val : EltTy → Type}
variable {x a b y : Ref sig .tc}

theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

end
-- ==== Proof.KI.Host1.lean ====
import proofs.«133221_j41652592836945_2_alg».proof.Proof.KI.Fold
import proofs.«133221_j41652592836945_2_alg».proof.Proof.KI.Args
import proofs.«133221_j41652592836945_2_alg».proof.Proof.Ref.Stages
import proofs.«133221_j41652592836945_2_alg».proof.Proof.LibNary3
import proofs.«133221_j41652592836945_2_alg».proof.Proof.KI.CatDefs
import proofs.«133221_j41652592836945_2_alg».proof.Proof.Gen.ReferenceIdeal

set_option maxRecDepth 16384

noncomputable section

namespace Cert.KernelIdeal.Hand

open Idealize.ShloMosaic Idealize.ShloMosaic.TcCoe Idealize.ShloMosaic.Tactic
open Idealize.SL Idealize.SL.Sem
open Idealize.ShloMosaic.StableHlo
open Cert.KernelIdeal Cert.KernelIdeal.Gen

variable {F : FTy → Type} [FloatOps F] [Named F]

variable (m : (ℓ : Loc nD τ sig) → Buf (Elt F) ℓ)

def argsK (c : Dev nD) : Cert.ReferenceIdeal.Hand.Args F :=
  ⟨m ((c : Thread nD τ).loc main_arg0),
   m ((c : Thread nD τ).loc main_arg1),
   m ((c : Thread nD τ).loc main_arg2),
   m ((c : Thread nD τ).loc main_arg3),
   m ((c : Thread nD τ).loc main_arg4),
   m ((c : Thread nD τ).loc main_arg5),
   m ((c : Thread nD τ).loc main_arg6),
   m ((c : Thread nD τ).loc main_arg7),
   m ((c : Thread nD τ).loc main_arg8),
   m ((c : Thread nD τ).loc main_arg9),
   m ((c : Thread nD τ).loc main_arg10),
   m ((c : Thread nD τ).loc main_arg11),
   m ((c : Thread nD τ).loc main_arg12),
   m ((c : Thread nD τ).loc main_arg13),
   m ((c : Thread nD τ).loc main_arg14),
   m ((c : Thread nD τ).loc main_arg15),
   m ((c : Thread nD τ).loc main_arg16),
   m ((c : Thread nD τ).loc main_arg17),
   m ((c : Thread nD τ).loc main_arg18),
   m ((c : Thread nD τ).loc main_arg19),
   m ((c : Thread nD τ).loc main_arg20),
   m ((c : Thread nD τ).loc main_arg21),
   m ((c : Thread nD τ).loc main_arg22),
   m ((c : Thread nD τ).loc main_arg23),
   m ((c : Thread nD τ).loc main_arg24),
   m ((c : Thread nD τ).loc main_arg25),
   m ((c : Thread nD τ).loc main_arg26),
   m ((c : Thread nD τ).loc main_arg27),
   m ((c : Thread nD τ).loc main_arg28)⟩

abbrev opsA : List (HloOp τ sig (Elt F)) :=
  ( StableHlo.unary main_arg13 main_v1 (broadcastInDim S400000x1 ![0] bcast_S400000_S400000x1_0 : (⟨S400000, .f32⟩ : BufTy).Contents (Elt F) → (⟨S400000x1, .f32⟩ : BufTy).Contents (Elt F))
  :: StableHlo.nullary main_c (constantI S_ 32 0#32)
  :: StableHlo.unary main_c main_v2 (broadcastInDim S400000 ![] bcast_S_S400000 : (⟨S_, .i32⟩ : BufTy).Contents (Elt F) → (⟨S400000, .i32⟩ : BufTy).Contents (Elt F))
  :: StableHlo.binary main_arg19 main_v2 main_v3 (cmpi .slt : (⟨S400000, .i32⟩ : BufTy).Contents (Elt F) → (⟨S400000, .i32⟩ : BufTy).Contents (Elt F) → (⟨S400000, .i1⟩ : BufTy).Contents (Elt F))
  :: StableHlo.nullary main_c_0 (constantI S_ 32 12000#32)
  :: StableHlo.unary main_c_0 main_v4 (broadcastInDim S400000 ![] bcast_S_S400000 : (⟨S_, .i32⟩ : BufTy).Contents (Elt F) → (⟨S400000, .i32⟩ : BufTy).Contents (Elt F))
  :: StableHlo.binary main_arg19 main_v4 main_v5 (addi : (⟨S400000, .i32⟩ : BufTy).Contents (Elt F) → (⟨S400000, .i32⟩ : BufTy).Contents (Elt F) → (⟨S400000, .i32⟩ : BufTy).Contents (Elt F))
  :: StableHlo.ternary main_v3 main_v5 main_arg19 main_v6 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F))
  :: StableHlo.unary main_v6 main_v7 (broadcastInDim S400000x1 ![0] bcast_S400000_S400000x1_0 : (⟨S400000, .i32⟩ : BufTy).Contents (Elt F) → (⟨S400000x1, .i32⟩ : BufTy).Contents (Elt F))
  :: StableHlo.binary main_v0_2 main_v7 main_v8 ((fun x i => Host.gather gather_S12000x64_S400000x1_S400000x64_1_0_n_n_0_1_164 x i) : (⟨S12000x64, .f32⟩ : BufTy).Contents (Elt F) → (⟨S400000x1, .i32⟩ : BufTy).Contents (Elt F) → (⟨S400000x64, .f32⟩ : BufTy).Contents (Elt F))
  :: StableHlo.unary main_v1 main_v9 (broadcastInDim S400000x64 ![0, 1] bcast_S400000x1_S400000x64_0_1 : (⟨S400000x1, .f32⟩ : BufTy).Contents (Elt F) → (⟨S400000x64, .f32⟩ : BufTy).Contents (Elt F))
  :: StableHlo.binary main_v9 main_v8 main_v10 (mulf : (⟨S400000x64, .f32⟩ : BufTy).Contents (Elt F) → (⟨S400000x64, .f32⟩ : BufTy).Contents (Elt F) → (⟨S400000x64, .f32⟩ : BufTy).Contents (Elt F))
  :: StableHlo.nullary main_cst (constant S_ .f32 0x00000000#32)
  :: StableHlo.unary main_cst main_v11 (broadcastInDim S8000x64 ![] bcast_S_S8000x64 : (⟨S_, .f32⟩ : BufTy).Contents (Elt F) → (⟨S8000x64, .f32⟩ : BufTy).Contents (Elt F))
  :: StableHlo.unary main_arg18 main_v12 (broadcastInDim S400000x1 ![0] bcast_S400000_S400000x1_0 : (⟨S400000, .i32⟩ : BufTy).Contents (Elt F) → (⟨S400000x1, .i32⟩ : BufTy).Contents (Elt F))
  :: StableHlo.ternary main_v11 main_v12 main_v10 main_v13 ((fun x i u => Host.scatterAdd scatter_S8000x64_S400000x1_S400000x64_1_0_0_1 x i u) : (⟨S8000x64, .f32⟩ : BufTy).Contents (Elt F) → (⟨S400000x1, .i32⟩ : BufTy).Contents (Elt F) → (⟨S400000x64, .f32⟩ : BufTy).Contents (Elt F) → (⟨S8000x64, .f32⟩ : BufTy).Contents (Elt F))
  :: StableHlo.unary main_arg14 main_v14 (broadcastInDim S400000x1 ![0] bcast_S400000_S400000x1_0 : (⟨S400000, .f32⟩ : BufTy).Contents (Elt F) → (⟨S400000x1, .f32⟩ : BufTy).Contents (Elt F))
  :: StableHlo.nullary main_c_1 (constantI S_ 32 0#32)
  :: StableHlo.unary main_c_1 main_v15 (broadcastInDim S400000 ![] bcast_S_S400000 : (⟨S_, .i32⟩ : BufTy).Contents (Elt F) → (⟨S400000, .i32⟩ : BufTy).Contents (Elt F))
  :: StableHlo.binary main_arg21 main_v15 main_v16 (cmpi .slt : (⟨S400000, .i32⟩ : BufTy).Contents (Elt F) → (⟨S400000, .i32⟩ : BufTy).Contents (Elt F) → (⟨S400000, .i1⟩ : BufTy).Contents (Elt F))
  :: StableHlo.nullary main_c_2 (constantI S_ 32 8000#32)
  :: StableHlo.unary main_c_2 main_v17 (broadcastInDim S400000 ![] bcast_S_S400000 : (⟨S_, .i32⟩ : BufTy).Contents (Elt F) → (⟨S400000, .i32⟩ : BufTy).Contents (Elt F))
  :: StableHlo.binary main_arg21 main_v17 main_v18 (addi : (⟨S400000, .i32⟩ : BufTy).Contents (Elt F) → (⟨S400000, .i32⟩ : BufTy).Contents (Elt F) → (⟨S400000, .i32⟩ : BufTy).Contents (Elt F))
  :: StableHlo.ternary main_v16 main_v18 main_arg21 main_v19 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F))
  :: StableHlo.unary main_v19 main_v20 (broadcastInDim S400000x1 ![0] bcast_S400000_S400000x1_0 : (⟨S400000, .i32⟩ : BufTy).Contents (Elt F) → (⟨S400000x1, .i32⟩ : BufTy).Contents (Elt F))
  :: StableHlo.binary main_v13 main_v20 main_v21 ((fun x i => Host.gather gather_S8000x64_S400000x1_S400000x64_1_0_n_n_0_1_164 x i) : (⟨S8000x64, .f32⟩ : BufTy).Contents (Elt F) → (⟨S400000x1, .i32⟩ : BufTy).Contents (Elt F) → (⟨S400000x64, .f32⟩ : BufTy).Contents (Elt F))
  :: StableHlo.unary main_v14 main_v22 (broadcastInDim S400000x64 ![0, 1] bcast_S400000x1_S400000x64_0_1 : (⟨S400000x1, .f32⟩ : BufTy).Contents (Elt F) → (⟨S400000x64, .f32⟩ : BufTy).Contents (Elt F))
  :: StableHlo.binary main_v22 main_v21 main_v23 (mulf : (⟨S400000x64, .f32⟩ : BufTy).Contents (Elt F) → (⟨S400000x64, .f32⟩ : BufTy).Contents (Elt F) → (⟨S400000x64, .f32⟩ : BufTy).Contents (Elt F))
  :: StableHlo.nullary main_cst_3 (constant S_ .f32 0x00000000#32)
  :: StableHlo.unary main_cst_3 main_v24 (broadcastInDim S12000x64 ![] bcast_S_S12000x64 : (⟨S_, .f32⟩ : BufTy).Contents (Elt F) → (⟨S12000x64, .f32⟩ : BufTy).Contents (Elt F))
  :: StableHlo.unary main_arg20 main_v25 (broadcastInDim S400000x1 ![0] bcast_S400000_S400000x1_0 : (⟨S400000, .i32⟩ : BufTy).Contents (Elt F) → (⟨S400000x1, .i32⟩ : BufTy).Contents (Elt F))
  :: StableHlo.ternary main_v24 main_v25 main_v23 main_v26 ((fun x i u => Host.scatterAdd scatter_S12000x64_S400000x1_S400000x64_1_0_0_1 x i u) : (⟨S12000x64, .f32⟩ : BufTy).Contents (Elt F) → (⟨S400000x1, .i32⟩ : BufTy).Contents (Elt F) → (⟨S400000x64, .f32⟩ : BufTy).Contents (Elt F) → (⟨S12000x64, .f32⟩ : BufTy).Contents (Elt F))
  :: StableHlo.binary main_v26 main_v0_2 main_v27 (addf : (⟨S12000x64, .f32⟩ : BufTy).Contents (Elt F) → (⟨S12000x64, .f32⟩ : BufTy).Contents (Elt F) → (⟨S12000x64, .f32⟩ : BufTy).Contents (Elt F))
  :: StableHlo.unary main_arg13 main_v28 (broadcastInDim S400000x1 ![0] bcast_S400000_S400000x1_0 : (⟨S400000, .f32⟩ : BufTy).Contents (Elt F) → (⟨S400000x1, .f32⟩ : BufTy).Contents (Elt F))
  :: StableHlo.nullary main_c_4 (constantI S_ 32 0#32)
  :: StableHlo.unary main_c_4 main_v29 (broadcastInDim S400000 ![] bcast_S_S400000 : (⟨S_, .i32⟩ : BufTy).Contents (Elt F) → (⟨S400000, .i32⟩ : BufTy).Contents (Elt F))
  :: StableHlo.binary main_arg19 main_v29 main_v30 (cmpi .slt : (⟨S400000, .i32⟩ : BufTy).Contents (Elt F) → (⟨S400000, .i32⟩ : BufTy).Contents (Elt F) → (⟨S400000, .i1⟩ : BufTy).Contents (Elt F))
  :: StableHlo.nullary main_c_5 (constantI S_ 32 12000#32)
  :: StableHlo.unary main_c_5 main_v31 (broadcastInDim S400000 ![] bcast_S_S400000 : (⟨S_, .i32⟩ : BufTy).Contents (Elt F) → (⟨S400000, .i32⟩ : BufTy).Contents (Elt F))
  :: StableHlo.binary main_arg19 main_v31 main_v32 (addi : (⟨S400000, .i32⟩ : BufTy).Contents (Elt F) → (⟨S400000, .i32⟩ : BufTy).Contents (Elt F) → (⟨S400000, .i32⟩ : BufTy).Contents (Elt F))
  :: StableHlo.ternary main_v30 main_v32 main_arg19 main_v33 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F))
  :: StableHlo.unary main_v33 main_v34 (broadcastInDim S400000x1 ![0] bcast_S400000_S400000x1_0 : (⟨S400000, .i32⟩ : BufTy).Contents (Elt F) → (⟨S400000x1, .i32⟩ : BufTy).Contents (Elt F))
  :: StableHlo.binary main_v27 main_v34 main_v35 ((fun x i => Host.gather gather_S12000x64_S400000x1_S400000x64_1_0_n_n_0_1_164 x i) : (⟨S12000x64, .f32⟩ : BufTy).Contents (Elt F) → (⟨S400000x1, .i32⟩ : BufTy).Contents (Elt F) → (⟨S400000x64, .f32⟩ : BufTy).Contents (Elt F))
  :: StableHlo.unary main_v28 main_v36 (broadcastInDim S400000x64 ![0, 1] bcast_S400000x1_S400000x64_0_1 : (⟨S400000x1, .f32⟩ : BufTy).Contents (Elt F) → (⟨S400000x64, .f32⟩ : BufTy).Contents (Elt F))
  :: StableHlo.binary main_v36 main_v35 main_v37 (mulf : (⟨S400000x64, .f32⟩ : BufTy).Contents (Elt F) → (⟨S400000x64, .f32⟩ : BufTy).Contents (Elt F) → (⟨S400000x64, .f32⟩ : BufTy).Contents (Elt F))
  :: StableHlo.nullary main_cst_6 (constant S_ .f32 0x00000000#32)
  :: StableHlo.unary main_cst_6 main_v38 (broadcastInDim S8000x64 ![] bcast_S_S8000x64 : (⟨S_, .f32⟩ : BufTy).Contents (Elt F) → (⟨S8000x64, .f32⟩ : BufTy).Contents (Elt F))
  :: StableHlo.unary main_arg18 main_v39 (broadcastInDim S400000x1 ![0] bcast_S400000_S400000x1_0 : (⟨S400000, .i32⟩ : BufTy).Contents (Elt F) → (⟨S400000x1, .i32⟩ : BufTy).Contents (Elt F))
  :: StableHlo.ternary main_v38 main_v39 main_v37 main_v40 ((fun x i u => Host.scatterAdd scatter_S8000x64_S400000x1_S400000x64_1_0_0_1 x i u) : (⟨S8000x64, .f32⟩ : BufTy).Contents (Elt F) → (⟨S400000x1, .i32⟩ : BufTy).Contents (Elt F) → (⟨S400000x64, .f32⟩ : BufTy).Contents (Elt F) → (⟨S8000x64, .f32⟩ : BufTy).Contents (Elt F))
  :: StableHlo.unary main_arg14 main_v41 (broadcastInDim S400000x1 ![0] bcast_S400000_S400000x1_0 : (⟨S400000, .f32⟩ : BufTy).Contents (Elt F) → (⟨S400000x1, .f32⟩ : BufTy).Contents (Elt F))
  :: StableHlo.nullary main_c_7 (constantI S_ 32 0#32)
  :: StableHlo.unary main_c_7 main_v42 (broadcastInDim S400000 ![] bcast_S_S400000 : (⟨S_, .i32⟩ : BufTy).Contents (Elt F) → (⟨S400000, .i32⟩ : BufTy).Contents (Elt F))
  :: StableHlo.binary main_arg21 main_v42 main_v43 (cmpi .slt : (⟨S400000, .i32⟩ : BufTy).Contents (Elt F) → (⟨S400000, .i32⟩ : BufTy).Contents (Elt F) → (⟨S400000, .i1⟩ : BufTy).Contents (Elt F))
  :: StableHlo.nullary main_c_8 (constantI S_ 32 8000#32)
  :: StableHlo.unary main_c_8 main_v44 (broadcastInDim S400000 ![] bcast_S_S400000 : (⟨S_, .i32⟩ : BufTy).Contents (Elt F) → (⟨S400000, .i32⟩ : BufTy).Contents (Elt F))
  :: StableHlo.binary main_arg21 main_v44 main_v45 (addi : (⟨S400000, .i32⟩ : BufTy).Contents (Elt F) → (⟨S400000, .i32⟩ : BufTy).Contents (Elt F) → (⟨S400000, .i32⟩ : BufTy).Contents (Elt F))
  :: StableHlo.ternary main_v43 main_v45 main_arg21 main_v46 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F))
  :: StableHlo.unary main_v46 main_v47 (broadcastInDim S400000x1 ![0] bcast_S400000_S400000x1_0 : (⟨S400000, .i32⟩ : BufTy).Contents (Elt F) → (⟨S400000x1, .i32⟩ : BufTy).Contents (Elt F))
  :: StableHlo.binary main_v40 main_v47 main_v48 ((fun x i => Host.gather gather_S8000x64_S400000x1_S400000x64_1_0_n_n_0_1_164 x i) : (⟨S8000x64, .f32⟩ : BufTy).Contents (Elt F) → (⟨S400000x1, .i32⟩ : BufTy).Contents (Elt F) → (⟨S400000x64, .f32⟩ : BufTy).Contents (Elt F))
  :: StableHlo.unary main_v41 main_v49 (broadcastInDim S400000x64 ![0, 1] bcast_S400000x1_S400000x64_0_1 : (⟨S400000x1, .f32⟩ : BufTy).Contents (Elt F) → (⟨S400000x64, .f32⟩ : BufTy).Contents (Elt F))
  :: StableHlo.binary main_v49 main_v48 main_v50 (mulf : (⟨S400000x64, .f32⟩ : BufTy).Contents (Elt F) → (⟨S400000x64, .f32⟩ : BufTy).Contents (Elt F) → (⟨S400000x64, .f32⟩ : BufTy).Contents (Elt F))
  :: StableHlo.nullary main_cst_9 (constant S_ .f32 0x00000000#32)
  :: StableHlo.unary main_cst_9 main_v51 (broadcastInDim S12000x64 ![] bcast_S_S12000x64 : (⟨S_, .f32⟩ : BufTy).Contents (Elt F) → (⟨S12000x64, .f32⟩ : BufTy).Contents (Elt F))
  :: StableHlo.unary main_arg20 main_v52 (broadcastInDim S400000x1 ![0] bcast_S400000_S400000x1_0 : (⟨S400000, .i32⟩ : BufTy).Contents (Elt F) → (⟨S400000x1, .i32⟩ : BufTy).Contents (Elt F))
  :: StableHlo.ternary main_v51 main_v52 main_v50 main_v53 ((fun x i u => Host.scatterAdd scatter_S12000x64_S400000x1_S400000x64_1_0_0_1 x i u) : (⟨S12000x64, .f32⟩ : BufTy).Contents (Elt F) → (⟨S400000x1, .i32⟩ : BufTy).Contents (Elt F) → (⟨S400000x64, .f32⟩ : BufTy).Contents (Elt F) → (⟨S12000x64, .f32⟩ : BufTy).Contents (Elt F))
  :: StableHlo.binary main_v53 main_v27 main_v54 (addf : (⟨S12000x64, .f32⟩ : BufTy).Contents (Elt F) → (⟨S12000x64, .f32⟩ : BufTy).Contents (Elt F) → (⟨S12000x64, .f32⟩ : BufTy).Contents (Elt F))
  :: StableHlo.unary main_v0_2 main_v55 (broadcastInDim S1x12000x64 ![1, 2] bcast_S12000x64_S1x12000x64_1_2 : (⟨S12000x64, .f32⟩ : BufTy).Contents (Elt F) → (⟨S1x12000x64, .f32⟩ : BufTy).Contents (Elt F))
  :: StableHlo.unary main_v27 main_v56 (broadcastInDim S1x12000x64 ![1, 2] bcast_S12000x64_S1x12000x64_1_2 : (⟨S12000x64, .f32⟩ : BufTy).Contents (Elt F) → (⟨S1x12000x64, .f32⟩ : BufTy).Contents (Elt F))
  :: StableHlo.unary main_v54 main_v57 (broadcastInDim S1x12000x64 ![1, 2] bcast_S12000x64_S1x12000x64_1_2 : (⟨S12000x64, .f32⟩ : BufTy).Contents (Elt F) → (⟨S1x12000x64, .f32⟩ : BufTy).Contents (Elt F))
  :: StableHlo.nary ![main_v55, main_v56, main_v57] main_v58 (fun u => concatenate S3x12000x64 0 [⟨S1x12000x64, u 0⟩, ⟨S1x12000x64, u 1⟩, ⟨S1x12000x64, u 2⟩] concatenates_S1x12000x64_S1x12000x64_S1x12000x64_S3x12000x64_d0)
  :: StableHlo.nullary main_cst_10 (constant S_ .f32 0x00000000#32)
  :: StableHlo.binary main_v58 main_cst_10 main_v59 ((fun x v => Host.reduceAdd x v reducesTo_S3x12000x64_S12000x64_d0 h_S_) : (⟨S3x12000x64, .f32⟩ : BufTy).Contents (Elt F) → (⟨S_, .f32⟩ : BufTy).Contents (Elt F) → (⟨S12000x64, .f32⟩ : BufTy).Contents (Elt F))
  :: StableHlo.nullary main_cst_11 (constant S_ .f32 0x40400000#32)
  :: StableHlo.unary main_cst_11 main_v60 (broadcastInDim S12000x64 ![] bcast_S_S12000x64 : (⟨S_, .f32⟩ : BufTy).Contents (Elt F) → (⟨S12000x64, .f32⟩ : BufTy).Contents (Elt F))
  :: StableHlo.binary main_v59 main_v60 main_v61 (Host.divf : (⟨S12000x64, .f32⟩ : BufTy).Contents (Elt F) → (⟨S12000x64, .f32⟩ : BufTy).Contents (Elt F) → (⟨S12000x64, .f32⟩ : BufTy).Contents (Elt F))
  :: [] )

abbrev opsA_W : List (Ref sig .tc) := [main_v1, main_c, main_v2, main_v3, main_c_0, main_v4, main_v5, main_v6, main_v7, main_v8, main_v9, main_v10, main_cst, main_v11, main_v12, main_v13, main_v14, main_c_1, main_v15, main_v16, main_c_2, main_v17, main_v18, main_v19, main_v20, main_v21, main_v22, main_v23, main_cst_3, main_v24, main_v25, main_v26, main_v27, main_v28, main_c_4, main_v29, main_v30, main_c_5, main_v31, main_v32, main_v33, main_v34, main_v35, main_v36, main_v37, main_cst_6, main_v38, main_v39, main_v40, main_v41, main_c_7, main_v42, main_v43, main_c_8, main_v44, main_v45, main_v46, main_v47, main_v48, main_v49, main_v50, main_cst_9, main_v51, main_v52, main_v53, main_v54, main_v55, main_v56, main_v57, main_v58, main_cst_10, main_v59, main_cst_11, main_v60, main_v61]
set_option maxHeartbeats 4000000 in
theorem opsA_writes : (opsA : List (HloOp τ sig (Elt F))).Forall fun op => op.writes ⊆ (opsA_W.map (Proc.devRef (τ := τ) .tc)).toFinset := by
  simp only [List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide +kernel)

theorem opsA_keep (U : Valuation τ sig (Elt F)) (r : Ref sig .tc) (h : r ∉ opsA_W) : after opsA U (Proc.devRef .tc r) = U (Proc.devRef .tc r) :=
  after_of_writes_sub opsA U opsA_writes h

abbrev opsB : List (HloOp τ sig (Elt F)) :=
  ( StableHlo.unary main_arg15 main_v62 (broadcastInDim S240000x1 ![0] bcast_S240000_S240000x1_0 : (⟨S240000, .f32⟩ : BufTy).Contents (Elt F) → (⟨S240000x1, .f32⟩ : BufTy).Contents (Elt F))
  :: StableHlo.nullary main_c_12 (constantI S_ 32 0#32)
  :: StableHlo.unary main_c_12 main_v63 (broadcastInDim S240000 ![] bcast_S_S240000 : (⟨S_, .i32⟩ : BufTy).Contents (Elt F) → (⟨S240000, .i32⟩ : BufTy).Contents (Elt F))
  :: StableHlo.binary main_arg23 main_v63 main_v64 (cmpi .slt : (⟨S240000, .i32⟩ : BufTy).Contents (Elt F) → (⟨S240000, .i32⟩ : BufTy).Contents (Elt F) → (⟨S240000, .i1⟩ : BufTy).Contents (Elt F))
  :: StableHlo.nullary main_c_13 (constantI S_ 32 12000#32)
  :: StableHlo.unary main_c_13 main_v65 (broadcastInDim S240000 ![] bcast_S_S240000 : (⟨S_, .i32⟩ : BufTy).Contents (Elt F) → (⟨S240000, .i32⟩ : BufTy).Contents (Elt F))
  :: StableHlo.binary main_arg23 main_v65 main_v66 (addi : (⟨S240000, .i32⟩ : BufTy).Contents (Elt F) → (⟨S240000, .i32⟩ : BufTy).Contents (Elt F) → (⟨S240000, .i32⟩ : BufTy).Contents (Elt F))
  :: StableHlo.ternary main_v64 main_v66 main_arg23 main_v67 (select : (⟨S240000, .i1⟩ : BufTy).Contents (Elt F) → (⟨S240000, .i32⟩ : BufTy).Contents (Elt F) → (⟨S240000, .i32⟩ : BufTy).Contents (Elt F) → (⟨S240000, .i32⟩ : BufTy).Contents (Elt F))
  :: StableHlo.unary main_v67 main_v68 (broadcastInDim S240000x1 ![0] bcast_S240000_S240000x1_0 : (⟨S240000, .i32⟩ : BufTy).Contents (Elt F) → (⟨S240000x1, .i32⟩ : BufTy).Contents (Elt F))
  :: StableHlo.binary main_v0_0 main_v68 main_v69 ((fun x i => Host.gather gather_S12000x64_S240000x1_S240000x64_1_0_n_n_0_1_164 x i) : (⟨S12000x64, .f32⟩ : BufTy).Contents (Elt F) → (⟨S240000x1, .i32⟩ : BufTy).Contents (Elt F) → (⟨S240000x64, .f32⟩ : BufTy).Contents (Elt F))
  :: StableHlo.unary main_v62 main_v70 (broadcastInDim S240000x64 ![0, 1] bcast_S240000x1_S240000x64_0_1 : (⟨S240000x1, .f32⟩ : BufTy).Contents (Elt F) → (⟨S240000x64, .f32⟩ : BufTy).Contents (Elt F))
  :: StableHlo.binary main_v70 main_v69 main_v71 (mulf : (⟨S240000x64, .f32⟩ : BufTy).Contents (Elt F) → (⟨S240000x64, .f32⟩ : BufTy).Contents (Elt F) → (⟨S240000x64, .f32⟩ : BufTy).Contents (Elt F))
  :: StableHlo.nullary main_cst_14 (constant S_ .f32 0x00000000#32)
  :: StableHlo.unary main_cst_14 main_v72 (broadcastInDim S12000x64 ![] bcast_S_S12000x64 : (⟨S_, .f32⟩ : BufTy).Contents (Elt F) → (⟨S12000x64, .f32⟩ : BufTy).Contents (Elt F))
  :: StableHlo.unary main_arg22 main_v73 (broadcastInDim S240000x1 ![0] bcast_S240000_S240000x1_0 : (⟨S240000, .i32⟩ : BufTy).Contents (Elt F) → (⟨S240000x1, .i32⟩ : BufTy).Contents (Elt F))
  :: StableHlo.ternary main_v72 main_v73 main_v71 main_v74 ((fun x i u => Host.scatterAdd scatter_S12000x64_S240000x1_S240000x64_1_0_0_1 x i u) : (⟨S12000x64, .f32⟩ : BufTy).Contents (Elt F) → (⟨S240000x1, .i32⟩ : BufTy).Contents (Elt F) → (⟨S240000x64, .f32⟩ : BufTy).Contents (Elt F) → (⟨S12000x64, .f32⟩ : BufTy).Contents (Elt F))
  :: StableHlo.binary main_v74 main_v0_0 main_v75 (addf : (⟨S12000x64, .f32⟩ : BufTy).Contents (Elt F) → (⟨S12000x64, .f32⟩ : BufTy).Contents (Elt F) → (⟨S12000x64, .f32⟩ : BufTy).Contents (Elt F))
  :: StableHlo.unary main_arg15 main_v76 (broadcastInDim S240000x1 ![0] bcast_S240000_S240000x1_0 : (⟨S240000, .f32⟩ : BufTy).Contents (Elt F) → (⟨S240000x1, .f32⟩ : BufTy).Contents (Elt F))
  :: StableHlo.nullary main_c_15 (constantI S_ 32 0#32)
  :: StableHlo.unary main_c_15 main_v77 (broadcastInDim S240000 ![] bcast_S_S240000 : (⟨S_, .i32⟩ : BufTy).Contents (Elt F) → (⟨S240000, .i32⟩ : BufTy).Contents (Elt F))
  :: StableHlo.binary main_arg23 main_v77 main_v78 (cmpi .slt : (⟨S240000, .i32⟩ : BufTy).Contents (Elt F) → (⟨S240000, .i32⟩ : BufTy).Contents (Elt F) → (⟨S240000, .i1⟩ : BufTy).Contents (Elt F))
  :: StableHlo.nullary main_c_16 (constantI S_ 32 12000#32)
  :: StableHlo.unary main_c_16 main_v79 (broadcastInDim S240000 ![] bcast_S_S240000 : (⟨S_, .i32⟩ : BufTy).Contents (Elt F) → (⟨S240000, .i32⟩ : BufTy).Contents (Elt F))
  :: StableHlo.binary main_arg23 main_v79 main_v80 (addi : (⟨S240000, .i32⟩ : BufTy).Contents (Elt F) → (⟨S240000, .i32⟩ : BufTy).Contents (Elt F) → (⟨S240000, .i32⟩ : BufTy).Contents (Elt F))
  :: StableHlo.ternary main_v78 main_v80 main_arg23 main_v81 (select : (⟨S240000, .i1⟩ : BufTy).Contents (Elt F) → (⟨S240000, .i32⟩ : BufTy).Contents (Elt F) → (⟨S240000, .i32⟩ : BufTy).Contents (Elt F) → (⟨S240000, .i32⟩ : BufTy).Contents (Elt F))
  :: StableHlo.unary main_v81 main_v82 (broadcastInDim S240000x1 ![0] bcast_S240000_S240000x1_0 : (⟨S240000, .i32⟩ : BufTy).Contents (Elt F) → (⟨S240000x1, .i32⟩ : BufTy).Contents (Elt F))
  :: StableHlo.binary main_v75 main_v82 main_v83 ((fun x i => Host.gather gather_S12000x64_S240000x1_S240000x64_1_0_n_n_0_1_164 x i) : (⟨S12000x64, .f32⟩ : BufTy).Contents (Elt F) → (⟨S240000x1, .i32⟩ : BufTy).Contents (Elt F) → (⟨S240000x64, .f32⟩ : BufTy).Contents (Elt F))
  :: StableHlo.unary main_v76 main_v84 (broadcastInDim S240000x64 ![0, 1] bcast_S240000x1_S240000x64_0_1 : (⟨S240000x1, .f32⟩ : BufTy).Contents (Elt F) → (⟨S240000x64, .f32⟩ : BufTy).Contents (Elt F))
  :: StableHlo.binary main_v84 main_v83 main_v85 (mulf : (⟨S240000x64, .f32⟩ : BufTy).Contents (Elt F) → (⟨S240000x64, .f32⟩ : BufTy).Contents (Elt F) → (⟨S240000x64, .f32⟩ : BufTy).Contents (Elt F))
  :: StableHlo.nullary main_cst_17 (constant S_ .f32 0x00000000#32)
  :: StableHlo.unary main_cst_17 main_v86 (broadcastInDim S12000x64 ![] bcast_S_S12000x64 : (⟨S_, .f32⟩ : BufTy).Contents (Elt F) → (⟨S12000x64, .f32⟩ : BufTy).Contents (Elt F))
  :: StableHlo.unary main_arg22 main_v87 (broadcastInDim S240000x1 ![0] bcast_S240000_S240000x1_0 : (⟨S240000, .i32⟩ : BufTy).Contents (Elt F) → (⟨S240000x1, .i32⟩ : BufTy).Contents (Elt F))
  :: StableHlo.ternary main_v86 main_v87 main_v85 main_v88 ((fun x i u => Host.scatterAdd scatter_S12000x64_S240000x1_S240000x64_1_0_0_1 x i u) : (⟨S12000x64, .f32⟩ : BufTy).Contents (Elt F) → (⟨S240000x1, .i32⟩ : BufTy).Contents (Elt F) → (⟨S240000x64, .f32⟩ : BufTy).Contents (Elt F) → (⟨S12000x64, .f32⟩ : BufTy).Contents (Elt F))
  :: StableHlo.binary main_v88 main_v75 main_v89 (addf : (⟨S12000x64, .f32⟩ : BufTy).Contents (Elt F) → (⟨S12000x64, .f32⟩ : BufTy).Contents (Elt F) → (⟨S12000x64, .f32⟩ : BufTy).Contents (Elt F))
  :: StableHlo.unary main_v0_0 main_v90 (broadcastInDim S1x12000x64 ![1, 2] bcast_S12000x64_S1x12000x64_1_2 : (⟨S12000x64, .f32⟩ : BufTy).Contents (Elt F) → (⟨S1x12000x64, .f32⟩ : BufTy).Contents (Elt F))
  :: StableHlo.unary main_v75 main_v91 (broadcastInDim S1x12000x64 ![1, 2] bcast_S12000x64_S1x12000x64_1_2 : (⟨S12000x64, .f32⟩ : BufTy).Contents (Elt F) → (⟨S1x12000x64, .f32⟩ : BufTy).Contents (Elt F))
  :: StableHlo.unary main_v89 main_v92 (broadcastInDim S1x12000x64 ![1, 2] bcast_S12000x64_S1x12000x64_1_2 : (⟨S12000x64, .f32⟩ : BufTy).Contents (Elt F) → (⟨S1x12000x64, .f32⟩ : BufTy).Contents (Elt F))
  :: StableHlo.nary ![main_v90, main_v91, main_v92] main_v93 (fun u => concatenate S3x12000x64 0 [⟨S1x12000x64, u 0⟩, ⟨S1x12000x64, u 1⟩, ⟨S1x12000x64, u 2⟩] concatenates_S1x12000x64_S1x12000x64_S1x12000x64_S3x12000x64_d0)
  :: StableHlo.nullary main_cst_18 (constant S_ .f32 0x00000000#32)
  :: StableHlo.binary main_v93 main_cst_18 main_v94 ((fun x v => Host.reduceAdd x v reducesTo_S3x12000x64_S12000x64_d0 h_S_) : (⟨S3x12000x64, .f32⟩ : BufTy).Contents (Elt F) → (⟨S_, .f32⟩ : BufTy).Contents (Elt F) → (⟨S12000x64, .f32⟩ : BufTy).Contents (Elt F))
  :: StableHlo.nullary main_cst_19 (constant S_ .f32 0x40400000#32)
  :: StableHlo.unary main_cst_19 main_v95 (broadcastInDim S12000x64 ![] bcast_S_S12000x64 : (⟨S_, .f32⟩ : BufTy).Contents (Elt F) → (⟨S12000x64, .f32⟩ : BufTy).Contents (Elt F))
  :: StableHlo.binary main_v94 main_v95 main_v96 (Host.divf : (⟨S12000x64, .f32⟩ : BufTy).Contents (Elt F) → (⟨S12000x64, .f32⟩ : BufTy).Contents (Elt F) → (⟨S12000x64, .f32⟩ : BufTy).Contents (Elt F))
  :: [] )

abbrev opsB_W : List (Ref sig .tc) := [main_v62, main_c_12, main_v63, main_v64, main_c_13, main_v65, main_v66, main_v67, main_v68, main_v69, main_v70, main_v71, main_cst_14, main_v72, main_v73, main_v74, main_v75, main_v76, main_c_15, main_v77, main_v78, main_c_16, main_v79, main_v80, main_v81, main_v82, main_v83, main_v84, main_v85, main_cst_17, main_v86, main_v87, main_v88, main_v89, main_v90, main_v91, main_v92, main_v93, main_cst_18, main_v94, main_cst_19, main_v95, main_v96]
set_option maxHeartbeats 4000000 in
theorem opsB_writes : (opsB : List (HloOp τ sig (Elt F))).Forall fun op => op.writes ⊆ (opsB_W.map (Proc.devRef (τ := τ) .tc)).toFinset := by
  simp only [List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide +kernel)

theorem opsB_keep (U : Valuation τ sig (Elt F)) (r : Ref sig .tc) (h : r ∉ opsB_W) : after opsB U (Proc.devRef .tc r) = U (Proc.devRef .tc r) :=
  after_of_writes_sub opsB U opsB_writes h

abbrev opsC : List (HloOp τ sig (Elt F)) :=
  ( StableHlo.unary main_arg17 main_v97 (broadcastInDim S120000x1 ![0] bcast_S120000_S120000x1_0 : (⟨S120000, .f32⟩ : BufTy).Contents (Elt F) → (⟨S120000x1, .f32⟩ : BufTy).Contents (Elt F))
  :: StableHlo.nullary main_c_20 (constantI S_ 32 0#32)
  :: StableHlo.unary main_c_20 main_v98 (broadcastInDim S120000 ![] bcast_S_S120000 : (⟨S_, .i32⟩ : BufTy).Contents (Elt F) → (⟨S120000, .i32⟩ : BufTy).Contents (Elt F))
  :: StableHlo.binary main_arg27 main_v98 main_v99 (cmpi .slt : (⟨S120000, .i32⟩ : BufTy).Contents (Elt F) → (⟨S120000, .i32⟩ : BufTy).Contents (Elt F) → (⟨S120000, .i1⟩ : BufTy).Contents (Elt F))
  :: StableHlo.nullary main_c_21 (constantI S_ 32 12000#32)
  :: StableHlo.unary main_c_21 main_v100 (broadcastInDim S120000 ![] bcast_S_S120000 : (⟨S_, .i32⟩ : BufTy).Contents (Elt F) → (⟨S120000, .i32⟩ : BufTy).Contents (Elt F))
  :: StableHlo.binary main_arg27 main_v100 main_v101 (addi : (⟨S120000, .i32⟩ : BufTy).Contents (Elt F) → (⟨S120000, .i32⟩ : BufTy).Contents (Elt F) → (⟨S120000, .i32⟩ : BufTy).Contents (Elt F))
  :: StableHlo.ternary main_v99 main_v101 main_arg27 main_v102 (select : (⟨S120000, .i1⟩ : BufTy).Contents (Elt F) → (⟨S120000, .i32⟩ : BufTy).Contents (Elt F) → (⟨S120000, .i32⟩ : BufTy).Contents (Elt F) → (⟨S120000, .i32⟩ : BufTy).Contents (Elt F))
  :: StableHlo.unary main_v102 main_v103 (broadcastInDim S120000x1 ![0] bcast_S120000_S120000x1_0 : (⟨S120000, .i32⟩ : BufTy).Contents (Elt F) → (⟨S120000x1, .i32⟩ : BufTy).Contents (Elt F))
  :: StableHlo.binary main_v0_1 main_v103 main_v104 ((fun x i => Host.gather gather_S12000x64_S120000x1_S120000x64_1_0_n_n_0_1_164 x i) : (⟨S12000x64, .f32⟩ : BufTy).Contents (Elt F) → (⟨S120000x1, .i32⟩ : BufTy).Contents (Elt F) → (⟨S120000x64, .f32⟩ : BufTy).Contents (Elt F))
  :: StableHlo.unary main_v97 main_v105 (broadcastInDim S120000x64 ![0, 1] bcast_S120000x1_S120000x64_0_1 : (⟨S120000x1, .f32⟩ : BufTy).Contents (Elt F) → (⟨S120000x64, .f32⟩ : BufTy).Contents (Elt F))
  :: StableHlo.binary main_v105 main_v104 main_v106 (mulf : (⟨S120000x64, .f32⟩ : BufTy).Contents (Elt F) → (⟨S120000x64, .f32⟩ : BufTy).Contents (Elt F) → (⟨S120000x64, .f32⟩ : BufTy).Contents (Elt F))
  :: StableHlo.nullary main_cst_22 (constant S_ .f32 0x00000000#32)
  :: StableHlo.unary main_cst_22 main_v107 (broadcastInDim S12000x64 ![] bcast_S_S12000x64 : (⟨S_, .f32⟩ : BufTy).Contents (Elt F) → (⟨S12000x64, .f32⟩ : BufTy).Contents (Elt F))
  :: StableHlo.unary main_arg26 main_v108 (broadcastInDim S120000x1 ![0] bcast_S120000_S120000x1_0 : (⟨S120000, .i32⟩ : BufTy).Contents (Elt F) → (⟨S120000x1, .i32⟩ : BufTy).Contents (Elt F))
  :: StableHlo.ternary main_v107 main_v108 main_v106 main_v109 ((fun x i u => Host.scatterAdd scatter_S12000x64_S120000x1_S120000x64_1_0_0_1 x i u) : (⟨S12000x64, .f32⟩ : BufTy).Contents (Elt F) → (⟨S120000x1, .i32⟩ : BufTy).Contents (Elt F) → (⟨S120000x64, .f32⟩ : BufTy).Contents (Elt F) → (⟨S12000x64, .f32⟩ : BufTy).Contents (Elt F))
  :: StableHlo.unary main_arg16 main_v110 (broadcastInDim S120000x1 ![0] bcast_S120000_S120000x1_0 : (⟨S120000, .f32⟩ : BufTy).Contents (Elt F) → (⟨S120000x1, .f32⟩ : BufTy).Contents (Elt F))
  :: StableHlo.nullary main_c_23 (constantI S_ 32 0#32)
  :: StableHlo.unary main_c_23 main_v111 (broadcastInDim S120000 ![] bcast_S_S120000 : (⟨S_, .i32⟩ : BufTy).Contents (Elt F) → (⟨S120000, .i32⟩ : BufTy).Contents (Elt F))
  :: StableHlo.binary main_arg25 main_v111 main_v112 (cmpi .slt : (⟨S120000, .i32⟩ : BufTy).Contents (Elt F) → (⟨S120000, .i32⟩ : BufTy).Contents (Elt F) → (⟨S120000, .i1⟩ : BufTy).Contents (Elt F))
  :: StableHlo.nullary main_c_24 (constantI S_ 32 12000#32)
  :: StableHlo.unary main_c_24 main_v113 (broadcastInDim S120000 ![] bcast_S_S120000 : (⟨S_, .i32⟩ : BufTy).Contents (Elt F) → (⟨S120000, .i32⟩ : BufTy).Contents (Elt F))
  :: StableHlo.binary main_arg25 main_v113 main_v114 (addi : (⟨S120000, .i32⟩ : BufTy).Contents (Elt F) → (⟨S120000, .i32⟩ : BufTy).Contents (Elt F) → (⟨S120000, .i32⟩ : BufTy).Contents (Elt F))
  :: StableHlo.ternary main_v112 main_v114 main_arg25 main_v115 (select : (⟨S120000, .i1⟩ : BufTy).Contents (Elt F) → (⟨S120000, .i32⟩ : BufTy).Contents (Elt F) → (⟨S120000, .i32⟩ : BufTy).Contents (Elt F) → (⟨S120000, .i32⟩ : BufTy).Contents (Elt F))
  :: StableHlo.unary main_v115 main_v116 (broadcastInDim S120000x1 ![0] bcast_S120000_S120000x1_0 : (⟨S120000, .i32⟩ : BufTy).Contents (Elt F) → (⟨S120000x1, .i32⟩ : BufTy).Contents (Elt F))
  :: StableHlo.binary main_v109 main_v116 main_v117 ((fun x i => Host.gather gather_S12000x64_S120000x1_S120000x64_1_0_n_n_0_1_164 x i) : (⟨S12000x64, .f32⟩ : BufTy).Contents (Elt F) → (⟨S120000x1, .i32⟩ : BufTy).Contents (Elt F) → (⟨S120000x64, .f32⟩ : BufTy).Contents (Elt F))
  :: StableHlo.unary main_v110 main_v118 (broadcastInDim S120000x64 ![0, 1] bcast_S120000x1_S120000x64_0_1 : (⟨S120000x1, .f32⟩ : BufTy).Contents (Elt F) → (⟨S120000x64, .f32⟩ : BufTy).Contents (Elt F))
  :: StableHlo.binary main_v118 main_v117 main_v119 (mulf : (⟨S120000x64, .f32⟩ : BufTy).Contents (Elt F) → (⟨S120000x64, .f32⟩ : BufTy).Contents (Elt F) → (⟨S120000x64, .f32⟩ : BufTy).Contents (Elt F))
  :: StableHlo.nullary main_cst_25 (constant S_ .f32 0x00000000#32)
  :: StableHlo.unary main_cst_25 main_v120 (broadcastInDim S12000x64 ![] bcast_S_S12000x64 : (⟨S_, .f32⟩ : BufTy).Contents (Elt F) → (⟨S12000x64, .f32⟩ : BufTy).Contents (Elt F))
  :: StableHlo.unary main_arg24 main_v121 (broadcastInDim S120000x1 ![0] bcast_S120000_S120000x1_0 : (⟨S120000, .i32⟩ : BufTy).Contents (Elt F) → (⟨S120000x1, .i32⟩ : BufTy).Contents (Elt F))
  :: StableHlo.ternary main_v120 main_v121 main_v119 main_v122 ((fun x i u => Host.scatterAdd scatter_S12000x64_S120000x1_S120000x64_1_0_0_1 x i u) : (⟨S12000x64, .f32⟩ : BufTy).Contents (Elt F) → (⟨S120000x1, .i32⟩ : BufTy).Contents (Elt F) → (⟨S120000x64, .f32⟩ : BufTy).Contents (Elt F) → (⟨S12000x64, .f32⟩ : BufTy).Contents (Elt F))
  :: StableHlo.binary main_v122 main_v0_1 main_v123 (addf : (⟨S12000x64, .f32⟩ : BufTy).Contents (Elt F) → (⟨S12000x64, .f32⟩ : BufTy).Contents (Elt F) → (⟨S12000x64, .f32⟩ : BufTy).Contents (Elt F))
  :: StableHlo.unary main_arg17 main_v124 (broadcastInDim S120000x1 ![0] bcast_S120000_S120000x1_0 : (⟨S120000, .f32⟩ : BufTy).Contents (Elt F) → (⟨S120000x1, .f32⟩ : BufTy).Contents (Elt F))
  :: StableHlo.nullary main_c_26 (constantI S_ 32 0#32)
  :: StableHlo.unary main_c_26 main_v125 (broadcastInDim S120000 ![] bcast_S_S120000 : (⟨S_, .i32⟩ : BufTy).Contents (Elt F) → (⟨S120000, .i32⟩ : BufTy).Contents (Elt F))
  :: StableHlo.binary main_arg27 main_v125 main_v126 (cmpi .slt : (⟨S120000, .i32⟩ : BufTy).Contents (Elt F) → (⟨S120000, .i32⟩ : BufTy).Contents (Elt F) → (⟨S120000, .i1⟩ : BufTy).Contents (Elt F))
  :: StableHlo.nullary main_c_27 (constantI S_ 32 12000#32)
  :: StableHlo.unary main_c_27 main_v127 (broadcastInDim S120000 ![] bcast_S_S120000 : (⟨S_, .i32⟩ : BufTy).Contents (Elt F) → (⟨S120000, .i32⟩ : BufTy).Contents (Elt F))
  :: StableHlo.binary main_arg27 main_v127 main_v128 (addi : (⟨S120000, .i32⟩ : BufTy).Contents (Elt F) → (⟨S120000, .i32⟩ : BufTy).Contents (Elt F) → (⟨S120000, .i32⟩ : BufTy).Contents (Elt F))
  :: StableHlo.ternary main_v126 main_v128 main_arg27 main_v129 (select : (⟨S120000, .i1⟩ : BufTy).Contents (Elt F) → (⟨S120000, .i32⟩ : BufTy).Contents (Elt F) → (⟨S120000, .i32⟩ : BufTy).Contents (Elt F) → (⟨S120000, .i32⟩ : BufTy).Contents (Elt F))
  :: StableHlo.unary main_v129 main_v130 (broadcastInDim S120000x1 ![0] bcast_S120000_S120000x1_0 : (⟨S120000, .i32⟩ : BufTy).Contents (Elt F) → (⟨S120000x1, .i32⟩ : BufTy).Contents (Elt F))
  :: StableHlo.binary main_v123 main_v130 main_v131 ((fun x i => Host.gather gather_S12000x64_S120000x1_S120000x64_1_0_n_n_0_1_164 x i) : (⟨S12000x64, .f32⟩ : BufTy).Contents (Elt F) → (⟨S120000x1, .i32⟩ : BufTy).Contents (Elt F) → (⟨S120000x64, .f32⟩ : BufTy).Contents (Elt F))
  :: StableHlo.unary main_v124 main_v132 (broadcastInDim S120000x64 ![0, 1] bcast_S120000x1_S120000x64_0_1 : (⟨S120000x1, .f32⟩ : BufTy).Contents (Elt F) → (⟨S120000x64, .f32⟩ : BufTy).Contents (Elt F))
  :: StableHlo.binary main_v132 main_v131 main_v133 (mulf : (⟨S120000x64, .f32⟩ : BufTy).Contents (Elt F) → (⟨S120000x64, .f32⟩ : BufTy).Contents (Elt F) → (⟨S120000x64, .f32⟩ : BufTy).Contents (Elt F))
  :: StableHlo.nullary main_cst_28 (constant S_ .f32 0x00000000#32)
  :: StableHlo.unary main_cst_28 main_v134 (broadcastInDim S12000x64 ![] bcast_S_S12000x64 : (⟨S_, .f32⟩ : BufTy).Contents (Elt F) → (⟨S12000x64, .f32⟩ : BufTy).Contents (Elt F))
  :: StableHlo.unary main_arg26 main_v135 (broadcastInDim S120000x1 ![0] bcast_S120000_S120000x1_0 : (⟨S120000, .i32⟩ : BufTy).Contents (Elt F) → (⟨S120000x1, .i32⟩ : BufTy).Contents (Elt F))
  :: StableHlo.ternary main_v134 main_v135 main_v133 main_v136 ((fun x i u => Host.scatterAdd scatter_S12000x64_S120000x1_S120000x64_1_0_0_1 x i u) : (⟨S12000x64, .f32⟩ : BufTy).Contents (Elt F) → (⟨S120000x1, .i32⟩ : BufTy).Contents (Elt F) → (⟨S120000x64, .f32⟩ : BufTy).Contents (Elt F) → (⟨S12000x64, .f32⟩ : BufTy).Contents (Elt F))
  :: StableHlo.unary main_arg16 main_v137 (broadcastInDim S120000x1 ![0] bcast_S120000_S120000x1_0 : (⟨S120000, .f32⟩ : BufTy).Contents (Elt F) → (⟨S120000x1, .f32⟩ : BufTy).Contents (Elt F))
  :: StableHlo.nullary main_c_29 (constantI S_ 32 0#32)
  :: StableHlo.unary main_c_29 main_v138 (broadcastInDim S120000 ![] bcast_S_S120000 : (⟨S_, .i32⟩ : BufTy).Contents (Elt F) → (⟨S120000, .i32⟩ : BufTy).Contents (Elt F))
  :: StableHlo.binary main_arg25 main_v138 main_v139 (cmpi .slt : (⟨S120000, .i32⟩ : BufTy).Contents (Elt F) → (⟨S120000, .i32⟩ : BufTy).Contents (Elt F) → (⟨S120000, .i1⟩ : BufTy).Contents (Elt F))
  :: StableHlo.nullary main_c_30 (constantI S_ 32 12000#32)
  :: StableHlo.unary main_c_30 main_v140 (broadcastInDim S120000 ![] bcast_S_S120000 : (⟨S_, .i32⟩ : BufTy).Contents (Elt F) → (⟨S120000, .i32⟩ : BufTy).Contents (Elt F))
  :: StableHlo.binary main_arg25 main_v140 main_v141 (addi : (⟨S120000, .i32⟩ : BufTy).Contents (Elt F) → (⟨S120000, .i32⟩ : BufTy).Contents (Elt F) → (⟨S120000, .i32⟩ : BufTy).Contents (Elt F))
  :: StableHlo.ternary main_v139 main_v141 main_arg25 main_v142 (select : (⟨S120000, .i1⟩ : BufTy).Contents (Elt F) → (⟨S120000, .i32⟩ : BufTy).Contents (Elt F) → (⟨S120000, .i32⟩ : BufTy).Contents (Elt F) → (⟨S120000, .i32⟩ : BufTy).Contents (Elt F))
  :: StableHlo.unary main_v142 main_v143 (broadcastInDim S120000x1 ![0] bcast_S120000_S120000x1_0 : (⟨S120000, .i32⟩ : BufTy).Contents (Elt F) → (⟨S120000x1, .i32⟩ : BufTy).Contents (Elt F))
  :: StableHlo.binary main_v136 main_v143 main_v144 ((fun x i => Host.gather gather_S12000x64_S120000x1_S120000x64_1_0_n_n_0_1_164 x i) : (⟨S12000x64, .f32⟩ : BufTy).Contents (Elt F) → (⟨S120000x1, .i32⟩ : BufTy).Contents (Elt F) → (⟨S120000x64, .f32⟩ : BufTy).Contents (Elt F))
  :: StableHlo.unary main_v137 main_v145 (broadcastInDim S120000x64 ![0, 1] bcast_S120000x1_S120000x64_0_1 : (⟨S120000x1, .f32⟩ : BufTy).Contents (Elt F) → (⟨S120000x64, .f32⟩ : BufTy).Contents (Elt F))
  :: StableHlo.binary main_v145 main_v144 main_v146 (mulf : (⟨S120000x64, .f32⟩ : BufTy).Contents (Elt F) → (⟨S120000x64, .f32⟩ : BufTy).Contents (Elt F) → (⟨S120000x64, .f32⟩ : BufTy).Contents (Elt F))
  :: StableHlo.nullary main_cst_31 (constant S_ .f32 0x00000000#32)
  :: StableHlo.unary main_cst_31 main_v147 (broadcastInDim S12000x64 ![] bcast_S_S12000x64 : (⟨S_, .f32⟩ : BufTy).Contents (Elt F) → (⟨S12000x64, .f32⟩ : BufTy).Contents (Elt F))
  :: StableHlo.unary main_arg24 main_v148 (broadcastInDim S120000x1 ![0] bcast_S120000_S120000x1_0 : (⟨S120000, .i32⟩ : BufTy).Contents (Elt F) → (⟨S120000x1, .i32⟩ : BufTy).Contents (Elt F))
  :: StableHlo.ternary main_v147 main_v148 main_v146 main_v149 ((fun x i u => Host.scatterAdd scatter_S12000x64_S120000x1_S120000x64_1_0_0_1 x i u) : (⟨S12000x64, .f32⟩ : BufTy).Contents (Elt F) → (⟨S120000x1, .i32⟩ : BufTy).Contents (Elt F) → (⟨S120000x64, .f32⟩ : BufTy).Contents (Elt F) → (⟨S12000x64, .f32⟩ : BufTy).Contents (Elt F))
  :: StableHlo.binary main_v149 main_v123 main_v150 (addf : (⟨S12000x64, .f32⟩ : BufTy).Contents (Elt F) → (⟨S12000x64, .f32⟩ : BufTy).Contents (Elt F) → (⟨S12000x64, .f32⟩ : BufTy).Contents (Elt F))
  :: StableHlo.unary main_v0_1 main_v151 (broadcastInDim S1x12000x64 ![1, 2] bcast_S12000x64_S1x12000x64_1_2 : (⟨S12000x64, .f32⟩ : BufTy).Contents (Elt F) → (⟨S1x12000x64, .f32⟩ : BufTy).Contents (Elt F))
  :: StableHlo.unary main_v123 main_v152 (broadcastInDim S1x12000x64 ![1, 2] bcast_S12000x64_S1x12000x64_1_2 : (⟨S12000x64, .f32⟩ : BufTy).Contents (Elt F) → (⟨S1x12000x64, .f32⟩ : BufTy).Contents (Elt F))
  :: StableHlo.unary main_v150 main_v153 (broadcastInDim S1x12000x64 ![1, 2] bcast_S12000x64_S1x12000x64_1_2 : (⟨S12000x64, .f32⟩ : BufTy).Contents (Elt F) → (⟨S1x12000x64, .f32⟩ : BufTy).Contents (Elt F))
  :: StableHlo.nary ![main_v151, main_v152, main_v153] main_v154 (fun u => concatenate S3x12000x64 0 [⟨S1x12000x64, u 0⟩, ⟨S1x12000x64, u 1⟩, ⟨S1x12000x64, u 2⟩] concatenates_S1x12000x64_S1x12000x64_S1x12000x64_S3x12000x64_d0)
  :: StableHlo.nullary main_cst_32 (constant S_ .f32 0x00000000#32)
  :: StableHlo.binary main_v154 main_cst_32 main_v155 ((fun x v => Host.reduceAdd x v reducesTo_S3x12000x64_S12000x64_d0 h_S_) : (⟨S3x12000x64, .f32⟩ : BufTy).Contents (Elt F) → (⟨S_, .f32⟩ : BufTy).Contents (Elt F) → (⟨S12000x64, .f32⟩ : BufTy).Contents (Elt F))
  :: StableHlo.nullary main_cst_33 (constant S_ .f32 0x40400000#32)
  :: StableHlo.unary main_cst_33 main_v156 (broadcastInDim S12000x64 ![] bcast_S_S12000x64 : (⟨S_, .f32⟩ : BufTy).Contents (Elt F) → (⟨S12000x64, .f32⟩ : BufTy).Contents (Elt F))
  :: StableHlo.binary main_v155 main_v156 main_v157 (Host.divf : (⟨S12000x64, .f32⟩ : BufTy).Contents (Elt F) → (⟨S12000x64, .f32⟩ : BufTy).Contents (Elt F) → (⟨S12000x64, .f32⟩ : BufTy).Contents (Elt F))
  :: [] )

abbrev opsC_W : List (Ref sig .tc) := [main_v97, main_c_20, main_v98, main_v99, main_c_21, main_v100, main_v101, main_v102, main_v103, main_v104, main_v105, main_v106, main_cst_22, main_v107, main_v108, main_v109, main_v110, main_c_23, main_v111, main_v112, main_c_24, main_v113, main_v114, main_v115, main_v116, main_v117, main_v118, main_v119, main_cst_25, main_v120, main_v121, main_v122, main_v123, main_v124, main_c_26, main_v125, main_v126, main_c_27, main_v127, main_v128, main_v129, main_v130, main_v131, main_v132, main_v133, main_cst_28, main_v134, main_v135, main_v136, main_v137, main_c_29, main_v138, main_v139, main_c_30, main_v140, main_v141, main_v142, main_v143, main_v144, main_v145, main_v146, main_cst_31, main_v147, main_v148, main_v149, main_v150, main_v151, main_v152, main_v153, main_v154, main_cst_32, main_v155, main_cst_33, main_v156, main_v157]
set_option maxHeartbeats 4000000 in
theorem opsC_writes : (opsC : List (HloOp τ sig (Elt F))).Forall fun op => op.writes ⊆ (opsC_W.map (Proc.devRef (τ := τ) .tc)).toFinset := by
  simp only [List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide +kernel)

theorem opsC_keep (U : Valuation τ sig (Elt F)) (r : Ref sig .tc) (h : r ∉ opsC_W) : after opsC U (Proc.devRef .tc r) = U (Proc.devRef .tc r) :=
  after_of_writes_sub opsC U opsC_writes h

abbrev opsD : List (HloOp τ sig (Elt F)) :=
  ( StableHlo.nary ![main_v61, main_v96, main_v157] main_v158 (fun u => concatenate S12000x192 1 [⟨S12000x64, u 0⟩, ⟨S12000x64, u 1⟩, ⟨S12000x64, u 2⟩] concatenates_S12000x64_S12000x64_S12000x64_S12000x192_d1)
  :: StableHlo.unary main_arg13 main_v159 (broadcastInDim S400000x1 ![0] bcast_S400000_S400000x1_0 : (⟨S400000, .f32⟩ : BufTy).Contents (Elt F) → (⟨S400000x1, .f32⟩ : BufTy).Contents (Elt F))
  :: StableHlo.nullary main_c_34 (constantI S_ 32 0#32)
  :: StableHlo.unary main_c_34 main_v160 (broadcastInDim S400000 ![] bcast_S_S400000 : (⟨S_, .i32⟩ : BufTy).Contents (Elt F) → (⟨S400000, .i32⟩ : BufTy).Contents (Elt F))
  :: StableHlo.binary main_arg19 main_v160 main_v161 (cmpi .slt : (⟨S400000, .i32⟩ : BufTy).Contents (Elt F) → (⟨S400000, .i32⟩ : BufTy).Contents (Elt F) → (⟨S400000, .i1⟩ : BufTy).Contents (Elt F))
  :: StableHlo.nullary main_c_35 (constantI S_ 32 12000#32)
  :: StableHlo.unary main_c_35 main_v162 (broadcastInDim S400000 ![] bcast_S_S400000 : (⟨S_, .i32⟩ : BufTy).Contents (Elt F) → (⟨S400000, .i32⟩ : BufTy).Contents (Elt F))
  :: StableHlo.binary main_arg19 main_v162 main_v163 (addi : (⟨S400000, .i32⟩ : BufTy).Contents (Elt F) → (⟨S400000, .i32⟩ : BufTy).Contents (Elt F) → (⟨S400000, .i32⟩ : BufTy).Contents (Elt F))
  :: StableHlo.ternary main_v161 main_v163 main_arg19 main_v164 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F))
  :: StableHlo.unary main_v164 main_v165 (broadcastInDim S400000x1 ![0] bcast_S400000_S400000x1_0 : (⟨S400000, .i32⟩ : BufTy).Contents (Elt F) → (⟨S400000x1, .i32⟩ : BufTy).Contents (Elt F))
  :: StableHlo.binary main_v158 main_v165 main_v166 ((fun x i => Host.gather gather_S12000x192_S400000x1_S400000x192_1_0_n_n_0_1_1192 x i) : (⟨S12000x192, .f32⟩ : BufTy).Contents (Elt F) → (⟨S400000x1, .i32⟩ : BufTy).Contents (Elt F) → (⟨S400000x192, .f32⟩ : BufTy).Contents (Elt F))
  :: StableHlo.unary main_v159 main_v167 (broadcastInDim S400000x192 ![0, 1] bcast_S400000x1_S400000x192_0_1 : (⟨S400000x1, .f32⟩ : BufTy).Contents (Elt F) → (⟨S400000x192, .f32⟩ : BufTy).Contents (Elt F))
  :: StableHlo.binary main_v167 main_v166 main_v168 (mulf : (⟨S400000x192, .f32⟩ : BufTy).Contents (Elt F) → (⟨S400000x192, .f32⟩ : BufTy).Contents (Elt F) → (⟨S400000x192, .f32⟩ : BufTy).Contents (Elt F))
  :: StableHlo.nullary main_cst_36 (constant S_ .f32 0x00000000#32)
  :: StableHlo.unary main_cst_36 main_v169 (broadcastInDim S8000x192 ![] bcast_S_S8000x192 : (⟨S_, .f32⟩ : BufTy).Contents (Elt F) → (⟨S8000x192, .f32⟩ : BufTy).Contents (Elt F))
  :: StableHlo.unary main_arg18 main_v170 (broadcastInDim S400000x1 ![0] bcast_S400000_S400000x1_0 : (⟨S400000, .i32⟩ : BufTy).Contents (Elt F) → (⟨S400000x1, .i32⟩ : BufTy).Contents (Elt F))
  :: StableHlo.ternary main_v169 main_v170 main_v168 main_v171 ((fun x i u => Host.scatterAdd scatter_S8000x192_S400000x1_S400000x192_1_0_0_1 x i u) : (⟨S8000x192, .f32⟩ : BufTy).Contents (Elt F) → (⟨S400000x1, .i32⟩ : BufTy).Contents (Elt F) → (⟨S400000x192, .f32⟩ : BufTy).Contents (Elt F) → (⟨S8000x192, .f32⟩ : BufTy).Contents (Elt F))
  :: StableHlo.nullary main_c_37 (constantI S_ 32 0#32)
  :: StableHlo.unary main_c_37 main_v172 (broadcastInDim S4096 ![] bcast_S_S4096 : (⟨S_, .i32⟩ : BufTy).Contents (Elt F) → (⟨S4096, .i32⟩ : BufTy).Contents (Elt F))
  :: StableHlo.binary main_arg28 main_v172 main_v173 (cmpi .slt : (⟨S4096, .i32⟩ : BufTy).Contents (Elt F) → (⟨S4096, .i32⟩ : BufTy).Contents (Elt F) → (⟨S4096, .i1⟩ : BufTy).Contents (Elt F))
  :: StableHlo.nullary main_c_38 (constantI S_ 32 8000#32)
  :: StableHlo.unary main_c_38 main_v174 (broadcastInDim S4096 ![] bcast_S_S4096 : (⟨S_, .i32⟩ : BufTy).Contents (Elt F) → (⟨S4096, .i32⟩ : BufTy).Contents (Elt F))
  :: StableHlo.binary main_arg28 main_v174 main_v175 (addi : (⟨S4096, .i32⟩ : BufTy).Contents (Elt F) → (⟨S4096, .i32⟩ : BufTy).Contents (Elt F) → (⟨S4096, .i32⟩ : BufTy).Contents (Elt F))
  :: StableHlo.ternary main_v173 main_v175 main_arg28 main_v176 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F))
  :: StableHlo.unary main_v176 main_v177 (broadcastInDim S4096x1 ![0] bcast_S4096_S4096x1_0 : (⟨S4096, .i32⟩ : BufTy).Contents (Elt F) → (⟨S4096x1, .i32⟩ : BufTy).Contents (Elt F))
  :: StableHlo.binary main_v171 main_v177 main_v178 ((fun x i => Host.gather gather_S8000x192_S4096x1_S4096x192_1_0_n_n_0_1_1192 x i) : (⟨S8000x192, .f32⟩ : BufTy).Contents (Elt F) → (⟨S4096x1, .i32⟩ : BufTy).Contents (Elt F) → (⟨S4096x192, .f32⟩ : BufTy).Contents (Elt F))
  :: StableHlo.unary main_v178 main_v179 ((extractStridedSlice S4096x64 ![0, 0] · slices_S4096x192_S4096x64_0_0) : (⟨S4096x192, .f32⟩ : BufTy).Contents (Elt F) → (⟨S4096x64, .f32⟩ : BufTy).Contents (Elt F))
  :: StableHlo.unary main_v178 main_v180 ((extractStridedSlice S4096x64 ![0, 64] · slices_S4096x192_S4096x64_0_64) : (⟨S4096x192, .f32⟩ : BufTy).Contents (Elt F) → (⟨S4096x64, .f32⟩ : BufTy).Contents (Elt F))
  :: StableHlo.unary main_v178 main_v181 ((extractStridedSlice S4096x64 ![0, 128] · slices_S4096x192_S4096x64_0_128) : (⟨S4096x192, .f32⟩ : BufTy).Contents (Elt F) → (⟨S4096x64, .f32⟩ : BufTy).Contents (Elt F))
  :: [] )

abbrev opsD_W : List (Ref sig .tc) := [main_v158, main_v159, main_c_34, main_v160, main_v161, main_c_35, main_v162, main_v163, main_v164, main_v165, main_v166, main_v167, main_v168, main_cst_36, main_v169, main_v170, main_v171, main_c_37, main_v172, main_v173, main_c_38, main_v174, main_v175, main_v176, main_v177, main_v178, main_v179, main_v180, main_v181]
set_option maxHeartbeats 4000000 in
theorem opsD_writes : (opsD : List (HloOp τ sig (Elt F))).Forall fun op => op.writes ⊆ (opsD_W.map (Proc.devRef (τ := τ) .tc)).toFinset := by
  simp only [List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide +kernel)

theorem opsD_keep (U : Valuation τ sig (Elt F)) (r : Ref sig .tc) (h : r ∉ opsD_W) : after opsD U (Proc.devRef .tc r) = U (Proc.devRef .tc r) :=
  after_of_writes_sub opsD U opsD_writes h

theorem hostOps1_split : (hostOps1 : List (HloOp τ sig (Elt F))) = opsA ++ (opsB ++ (opsC ++ opsD)) := rfl

set_option maxHeartbeats 4000000 in

theorem opsA_val (U : Valuation τ sig (Elt F)) :
    after opsA U (Proc.devRef .tc main_v61)
      = Cert.ReferenceIdeal.Hand.convStack (fun x => Cert.ReferenceIdeal.Hand.pu64 (U (Proc.devRef .tc main_arg14)) (U (Proc.devRef .tc main_arg20)) (U (Proc.devRef .tc main_arg21)) (Cert.ReferenceIdeal.Hand.up64 (U (Proc.devRef .tc main_arg13)) (U (Proc.devRef .tc main_arg18)) (U (Proc.devRef .tc main_arg19)) x)) (U (Proc.devRef .tc main_v0_2)) := by
  unfold opsA
  simp (disch := decide) only [after_cons, after_nil, nullary_result', unary_result', binary_result', ternary_result', nary3_result', nullary_result_ne', unary_result_ne', binary_result_ne', ternary_result_ne', nary_result_ne']
  rfl

set_option maxHeartbeats 4000000 in

theorem opsB_val (U : Valuation τ sig (Elt F)) :
    after opsB U (Proc.devRef .tc main_v96)
      = Cert.ReferenceIdeal.Hand.convStack (fun x => Cert.ReferenceIdeal.Hand.geo64 (U (Proc.devRef .tc main_arg15)) (U (Proc.devRef .tc main_arg22)) (U (Proc.devRef .tc main_arg23)) x) (U (Proc.devRef .tc main_v0_0)) := by
  unfold opsB
  simp (disch := decide) only [after_cons, after_nil, nullary_result', unary_result', binary_result', ternary_result', nary3_result', nullary_result_ne', unary_result_ne', binary_result_ne', ternary_result_ne', nary_result_ne']
  rfl

set_option maxHeartbeats 4000000 in

theorem opsC_val (U : Valuation τ sig (Elt F)) :
    after opsC U (Proc.devRef .tc main_v157)
      = Cert.ReferenceIdeal.Hand.convStack (fun x => Cert.ReferenceIdeal.Hand.src64 (U (Proc.devRef .tc main_arg16)) (U (Proc.devRef .tc main_arg24)) (U (Proc.devRef .tc main_arg25)) (Cert.ReferenceIdeal.Hand.tar64 (U (Proc.devRef .tc main_arg17)) (U (Proc.devRef .tc main_arg26)) (U (Proc.devRef .tc main_arg27)) x)) (U (Proc.devRef .tc main_v0_1)) := by
  unfold opsC
  simp (disch := decide) only [after_cons, after_nil, nullary_result', unary_result', binary_result', ternary_result', nary3_result', nullary_result_ne', unary_result_ne', binary_result_ne', ternary_result_ne', nary_result_ne']
  rfl

set_option maxHeartbeats 4000000 in

theorem opsD_val0 (U : Valuation τ sig (Elt F)) :
    after opsD U (Proc.devRef .tc main_v179)
      = catBu0 (U (Proc.devRef .tc main_arg13)) (U (Proc.devRef .tc main_arg18)) (U (Proc.devRef .tc main_arg19)) (U (Proc.devRef .tc main_arg28)) (U (Proc.devRef .tc main_v61)) (U (Proc.devRef .tc main_v96)) (U (Proc.devRef .tc main_v157)) := by
  unfold opsD
  simp (disch := decide) only [after_cons, after_nil, nullary_result', unary_result', binary_result', ternary_result', nary3_result', nullary_result_ne', unary_result_ne', binary_result_ne', ternary_result_ne', nary_result_ne']
  rfl

set_option maxHeartbeats 4000000 in

theorem opsD_val1 (U : Valuation τ sig (Elt F)) :
    after opsD U (Proc.devRef .tc main_v180)
      = catBu1 (U (Proc.devRef .tc main_arg13)) (U (Proc.devRef .tc main_arg18)) (U (Proc.devRef .tc main_arg19)) (U (Proc.devRef .tc main_arg28)) (U (Proc.devRef .tc main_v61)) (U (Proc.devRef .tc main_v96)) (U (Proc.devRef .tc main_v157)) := by
  unfold opsD
  simp (disch := decide) only [after_cons, after_nil, nullary_result', unary_result', binary_result', ternary_result', nary3_result', nullary_result_ne', unary_result_ne', binary_result_ne', ternary_result_ne', nary_result_ne']
  rfl

set_option maxHeartbeats 4000000 in

theorem opsD_val2 (U : Valuation τ sig (Elt F)) :
    after opsD U (Proc.devRef .tc main_v181)
      = catBu2 (U (Proc.devRef .tc main_arg13)) (U (Proc.devRef .tc main_arg18)) (U (Proc.devRef .tc main_arg19)) (U (Proc.devRef .tc main_arg28)) (U (Proc.devRef .tc main_v61)) (U (Proc.devRef .tc main_v96)) (U (Proc.devRef .tc main_v157)) := by
  unfold opsD
  simp (disch := decide) only [after_cons, after_nil, nullary_result', unary_result', binary_result', ternary_result', nary3_result', nullary_result_ne', unary_result_ne', binary_result_ne', ternary_result_ne', nary_result_ne']
  rfl

theorem W2_split (c : Dev nD) : W2 m c = after opsD (after opsC (after opsB (after opsA (W1 m c)))) := by
  show after hostOps1 (W1 m c) = _
  rw [hostOps1_split, StableHlo.after_append, StableHlo.after_append, StableHlo.after_append]

theorem ABC_keep (c : Dev nD) (r : Ref sig .tc) (hA : r ∉ opsA_W) (hB : r ∉ opsB_W) (hC : r ∉ opsC_W) :
    after opsC (after opsB (after opsA (W1 m c))) (Proc.devRef .tc r) = W1 m c (Proc.devRef .tc r) := by
  rw [opsC_keep _ r hC, opsB_keep _ r hB, opsA_keep _ r hA]

theorem hg_poisK (c : Dev nD) :
    W2 m c (Proc.devRef .tc main_v61) = Cert.ReferenceIdeal.Hand.convStack (Cert.ReferenceIdeal.Hand.mv_step (argsK m c)) (W1 m c (Proc.devRef .tc main_v0_2)) := by
  rw [W2_split, opsD_keep _ main_v61 (by decide +kernel), opsC_keep _ main_v61 (by decide +kernel), opsB_keep _ main_v61 (by decide +kernel), opsA_val,
    W1_arg m c main_arg13 (by decide), W1_arg m c main_arg14 (by decide), W1_arg m c main_arg18 (by decide), W1_arg m c main_arg19 (by decide), W1_arg m c main_arg20 (by decide), W1_arg m c main_arg21 (by decide)]
  rfl

theorem geo_poisK (c : Dev nD) :
    W2 m c (Proc.devRef .tc main_v96) = Cert.ReferenceIdeal.Hand.convStack (Cert.ReferenceIdeal.Hand.geo_step (argsK m c)) (W1 m c (Proc.devRef .tc main_v0_0)) := by
  rw [W2_split, opsD_keep _ main_v96 (by decide +kernel), opsC_keep _ main_v96 (by decide +kernel), opsB_val,
    opsA_keep _ main_arg15 (by decide +kernel), opsA_keep _ main_arg22 (by decide +kernel), opsA_keep _ main_arg23 (by decide +kernel), opsA_keep _ main_v0_0 (by decide +kernel),
    W1_arg m c main_arg15 (by decide), W1_arg m c main_arg22 (by decide), W1_arg m c main_arg23 (by decide)]
  rfl

theorem trans_poisK (c : Dev nD) :
    W2 m c (Proc.devRef .tc main_v157) = Cert.ReferenceIdeal.Hand.convStack (Cert.ReferenceIdeal.Hand.di_step (argsK m c)) (W1 m c (Proc.devRef .tc main_v0_1)) := by
  rw [W2_split, opsD_keep _ main_v157 (by decide +kernel), opsC_val,
    opsB_keep _ main_arg16 (by decide +kernel), opsB_keep _ main_arg24 (by decide +kernel), opsB_keep _ main_arg25 (by decide +kernel), opsB_keep _ main_arg17 (by decide +kernel), opsB_keep _ main_arg26 (by decide +kernel), opsB_keep _ main_arg27 (by decide +kernel), opsB_keep _ main_v0_1 (by decide +kernel),
    opsA_keep _ main_arg16 (by decide +kernel), opsA_keep _ main_arg24 (by decide +kernel), opsA_keep _ main_arg25 (by decide +kernel), opsA_keep _ main_arg17 (by decide +kernel), opsA_keep _ main_arg26 (by decide +kernel), opsA_keep _ main_arg27 (by decide +kernel), opsA_keep _ main_v0_1 (by decide +kernel),
    W1_arg m c main_arg16 (by decide), W1_arg m c main_arg24 (by decide), W1_arg m c main_arg25 (by decide), W1_arg m c main_arg17 (by decide), W1_arg m c main_arg26 (by decide), W1_arg m c main_arg27 (by decide)]
  rfl

theorem hg_buK (c : Dev nD) :
    W2 m c (Proc.devRef .tc main_v179) = catBu0 (argsK m c).up_vals (argsK m c).up_rows (argsK m c).up_cols (argsK m c).user_idx
      (W2 m c (Proc.devRef .tc main_v61)) (W2 m c (Proc.devRef .tc main_v96)) (W2 m c (Proc.devRef .tc main_v157)) := by
  rw [W2_split, opsD_val0, opsD_keep _ main_v61 (by decide +kernel), opsD_keep _ main_v96 (by decide +kernel), opsD_keep _ main_v157 (by decide +kernel),
    ABC_keep m c main_arg13 (by decide +kernel) (by decide +kernel) (by decide +kernel),
    ABC_keep m c main_arg18 (by decide +kernel) (by decide +kernel) (by decide +kernel),
    ABC_keep m c main_arg19 (by decide +kernel) (by decide +kernel) (by decide +kernel),
    ABC_keep m c main_arg28 (by decide +kernel) (by decide +kernel) (by decide +kernel),
    W1_arg m c main_arg13 (by decide), W1_arg m c main_arg18 (by decide), W1_arg m c main_arg19 (by decide), W1_arg m c main_arg28 (by decide)]
  rfl

theorem geo_buK (c : Dev nD) :
    W2 m c (Proc.devRef .tc main_v180) = catBu1 (argsK m c).up_vals (argsK m c).up_rows (argsK m c).up_cols (argsK m c).user_idx
      (W2 m c (Proc.devRef .tc main_v61)) (W2 m c (Proc.devRef .tc main_v96)) (W2 m c (Proc.devRef .tc main_v157)) := by
  rw [W2_split, opsD_val1, opsD_keep _ main_v61 (by decide +kernel), opsD_keep _ main_v96 (by decide +kernel), opsD_keep _ main_v157 (by decide +kernel),
    ABC_keep m c main_arg13 (by decide +kernel) (by decide +kernel) (by decide +kernel),
    ABC_keep m c main_arg18 (by decide +kernel) (by decide +kernel) (by decide +kernel),
    ABC_keep m c main_arg19 (by decide +kernel) (by decide +kernel) (by decide +kernel),
    ABC_keep m c main_arg28 (by decide +kernel) (by decide +kernel) (by decide +kernel),
    W1_arg m c main_arg13 (by decide), W1_arg m c main_arg18 (by decide), W1_arg m c main_arg19 (by decide), W1_arg m c main_arg28 (by decide)]
  rfl

theorem trans_buK (c : Dev nD) :
    W2 m c (Proc.devRef .tc main_v181) = catBu2 (argsK m c).up_vals (argsK m c).up_rows (argsK m c).up_cols (argsK m c).user_idx
      (W2 m c (Proc.devRef .tc main_v61)) (W2 m c (Proc.devRef .tc main_v96)) (W2 m c (Proc.devRef .tc main_v157)) := by
  rw [W2_split, opsD_val2, opsD_keep _ main_v61 (by decide +kernel), opsD_keep _ main_v96 (by decide +kernel), opsD_keep _ main_v157 (by decide +kernel),
    ABC_keep m c main_arg13 (by decide +kernel) (by decide +kernel) (by decide +kernel),
    ABC_keep m c main_arg18 (by decide +kernel) (by decide +kernel) (by decide +kernel),
    ABC_keep m c main_arg19 (by decide +kernel) (by decide +kernel) (by decide +kernel),
    ABC_keep m c main_arg28 (by decide +kernel) (by decide +kernel) (by decide +kernel),
    W1_arg m c main_arg13 (by decide), W1_arg m c main_arg18 (by decide), W1_arg m c main_arg19 (by decide), W1_arg m c main_arg28 (by decide)]
  rfl

end Cert.KernelIdeal.Hand

end
-- ==== Proof.KI.HostRest.lean ====
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.StableHlo.Run
import proofs.«133221_j41652592836945_2_alg».proof.Proof.KI.Fold
import proofs.«133221_j41652592836945_2_alg».proof.Proof.KI.Args
import proofs.«133221_j41652592836945_2_alg».proof.Proof.Ref.Stages
import proofs.«133221_j41652592836945_2_alg».proof.Proof.Gen.ReferenceIdeal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

variable (m : (ℓ : Loc nD τ sig) → Buf (Elt F) ℓ)

local notation "n12" => Cert.ReferenceIdeal.Hand.l2norm12000
local notation "n4" => Cert.ReferenceIdeal.Hand.l2norm4096

theorem sqrt_main_v182 (c : Dev nD) :
    W3 m c (Proc.devRef .tc main_v182) = Host.sqrt (broadcastInDim S12000x1 ![0] bcast_S12000_S12000x1_0 (Host.reduceAdd (mulf (W2 m c (Proc.devRef .tc main_v61)) (W2 m c (Proc.devRef .tc main_v61))) (constant S_ .f32 0x00000000#32) reducesTo_S12000x64_S12000_d1 h_S_)) := by
  show StableHlo.after hostOps1_1 (W2 m c) (Proc.devRef .tc main_v182) = _
  generalize W2 m c = V
  after_results; rfl

theorem norm_main_v186 (c : Dev nD) :
    W4 m c (Proc.devRef .tc main_v186) = n12 (W2 m c (Proc.devRef .tc main_v61)) := by
  show StableHlo.after hostOps1_2 (W3 m c) (Proc.devRef .tc main_v186) = _
  have e1 := sqrt_main_v182 m c
  have e2 := W3_of m c main_v61 (by decide +kernel)
  generalize W2 m c (Proc.devRef .tc main_v61) = x at e1 e2 ⊢
  generalize W3 m c = V at e1 e2 ⊢
  after_results
  rw [e1, e2]
  rfl

theorem W14_main_v186 (c : Dev nD) :
    W14 m c (Proc.devRef .tc main_v186) = n12 (W2 m c (Proc.devRef .tc main_v61)) :=
  ((W14_of m c main_v186 (by decide +kernel)).trans ((W13_of m c main_v186 (by decide +kernel)).trans ((W12_of m c main_v186 (by decide +kernel)).trans ((W11_of m c main_v186 (by decide +kernel)).trans ((W10_of m c main_v186 (by decide +kernel)).trans ((W9_of m c main_v186 (by decide +kernel)).trans ((W8_of m c main_v186 (by decide +kernel)).trans ((W7_of m c main_v186 (by decide +kernel)).trans ((W6_of m c main_v186 (by decide +kernel)).trans ((W5_of m c main_v186 (by decide +kernel)))))))))))).trans ((norm_main_v186 m c).trans (congrArg n12 (rfl)))

theorem sqrt_main_v187 (c : Dev nD) :
    W5 m c (Proc.devRef .tc main_v187) = Host.sqrt (broadcastInDim S12000x1 ![0] bcast_S12000_S12000x1_0 (Host.reduceAdd (mulf (W4 m c (Proc.devRef .tc main_v96)) (W4 m c (Proc.devRef .tc main_v96))) (constant S_ .f32 0x00000000#32) reducesTo_S12000x64_S12000_d1 h_S_)) := by
  show StableHlo.after hostOps1_3 (W4 m c) (Proc.devRef .tc main_v187) = _
  generalize W4 m c = V
  after_results; rfl

theorem norm_main_v191 (c : Dev nD) :
    W6 m c (Proc.devRef .tc main_v191) = n12 (W4 m c (Proc.devRef .tc main_v96)) := by
  show StableHlo.after hostOps1_4 (W5 m c) (Proc.devRef .tc main_v191) = _
  have e1 := sqrt_main_v187 m c
  have e2 := W5_of m c main_v96 (by decide +kernel)
  generalize W4 m c (Proc.devRef .tc main_v96) = x at e1 e2 ⊢
  generalize W5 m c = V at e1 e2 ⊢
  after_results
  rw [e1, e2]
  rfl

theorem W14_main_v191 (c : Dev nD) :
    W14 m c (Proc.devRef .tc main_v191) = n12 (W2 m c (Proc.devRef .tc main_v96)) :=
  ((W14_of m c main_v191 (by decide +kernel)).trans ((W13_of m c main_v191 (by decide +kernel)).trans ((W12_of m c main_v191 (by decide +kernel)).trans ((W11_of m c main_v191 (by decide +kernel)).trans ((W10_of m c main_v191 (by decide +kernel)).trans ((W9_of m c main_v191 (by decide +kernel)).trans ((W8_of m c main_v191 (by decide +kernel)).trans ((W7_of m c main_v191 (by decide +kernel)))))))))).trans ((norm_main_v191 m c).trans (congrArg n12 ((W4_of m c main_v96 (by decide +kernel)).trans ((W3_of m c main_v96 (by decide +kernel))))))

theorem sqrt_main_v192 (c : Dev nD) :
    W7 m c (Proc.devRef .tc main_v192) = Host.sqrt (broadcastInDim S12000x1 ![0] bcast_S12000_S12000x1_0 (Host.reduceAdd (mulf (W6 m c (Proc.devRef .tc main_v157)) (W6 m c (Proc.devRef .tc main_v157))) (constant S_ .f32 0x00000000#32) reducesTo_S12000x64_S12000_d1 h_S_)) := by
  show StableHlo.after hostOps1_5 (W6 m c) (Proc.devRef .tc main_v192) = _
  generalize W6 m c = V
  after_results; rfl

theorem norm_main_v196 (c : Dev nD) :
    W8 m c (Proc.devRef .tc main_v196) = n12 (W6 m c (Proc.devRef .tc main_v157)) := by
  show StableHlo.after hostOps1_6 (W7 m c) (Proc.devRef .tc main_v196) = _
  have e1 := sqrt_main_v192 m c
  have e2 := W7_of m c main_v157 (by decide +kernel)
  generalize W6 m c (Proc.devRef .tc main_v157) = x at e1 e2 ⊢
  generalize W7 m c = V at e1 e2 ⊢
  after_results
  rw [e1, e2]
  rfl

theorem W14_main_v196 (c : Dev nD) :
    W14 m c (Proc.devRef .tc main_v196) = n12 (W2 m c (Proc.devRef .tc main_v157)) :=
  ((W14_of m c main_v196 (by decide +kernel)).trans ((W13_of m c main_v196 (by decide +kernel)).trans ((W12_of m c main_v196 (by decide +kernel)).trans ((W11_of m c main_v196 (by decide +kernel)).trans ((W10_of m c main_v196 (by decide +kernel)).trans ((W9_of m c main_v196 (by decide +kernel)))))))).trans ((norm_main_v196 m c).trans (congrArg n12 ((W6_of m c main_v157 (by decide +kernel)).trans ((W5_of m c main_v157 (by decide +kernel)).trans ((W4_of m c main_v157 (by decide +kernel)).trans ((W3_of m c main_v157 (by decide +kernel))))))))

theorem sqrt_main_v197 (c : Dev nD) :
    W9 m c (Proc.devRef .tc main_v197) = Host.sqrt (broadcastInDim S4096x1 ![0] bcast_S4096_S4096x1_0 (Host.reduceAdd (mulf (W8 m c (Proc.devRef .tc main_v179)) (W8 m c (Proc.devRef .tc main_v179))) (constant S_ .f32 0x00000000#32) reducesTo_S4096x64_S4096_d1 h_S_)) := by
  show StableHlo.after hostOps1_7 (W8 m c) (Proc.devRef .tc main_v197) = _
  generalize W8 m c = V
  after_results; rfl

theorem norm_main_v201 (c : Dev nD) :
    W10 m c (Proc.devRef .tc main_v201) = n4 (W8 m c (Proc.devRef .tc main_v179)) := by
  show StableHlo.after hostOps1_8 (W9 m c) (Proc.devRef .tc main_v201) = _
  have e1 := sqrt_main_v197 m c
  have e2 := W9_of m c main_v179 (by decide +kernel)
  generalize W8 m c (Proc.devRef .tc main_v179) = x at e1 e2 ⊢
  generalize W9 m c = V at e1 e2 ⊢
  after_results
  rw [e1, e2]
  rfl

theorem W14_main_v201 (c : Dev nD) :
    W14 m c (Proc.devRef .tc main_v201) = n4 (W2 m c (Proc.devRef .tc main_v179)) :=
  ((W14_of m c main_v201 (by decide +kernel)).trans ((W13_of m c main_v201 (by decide +kernel)).trans ((W12_of m c main_v201 (by decide +kernel)).trans ((W11_of m c main_v201 (by decide +kernel)))))).trans ((norm_main_v201 m c).trans (congrArg n4 ((W8_of m c main_v179 (by decide +kernel)).trans ((W7_of m c main_v179 (by decide +kernel)).trans ((W6_of m c main_v179 (by decide +kernel)).trans ((W5_of m c main_v179 (by decide +kernel)).trans ((W4_of m c main_v179 (by decide +kernel)).trans ((W3_of m c main_v179 (by decide +kernel))))))))))

theorem sqrt_main_v202 (c : Dev nD) :
    W11 m c (Proc.devRef .tc main_v202) = Host.sqrt (broadcastInDim S4096x1 ![0] bcast_S4096_S4096x1_0 (Host.reduceAdd (mulf (W10 m c (Proc.devRef .tc main_v180)) (W10 m c (Proc.devRef .tc main_v180))) (constant S_ .f32 0x00000000#32) reducesTo_S4096x64_S4096_d1 h_S_)) := by
  show StableHlo.after hostOps1_9 (W10 m c) (Proc.devRef .tc main_v202) = _
  generalize W10 m c = V
  after_results; rfl

theorem norm_main_v206 (c : Dev nD) :
    W12 m c (Proc.devRef .tc main_v206) = n4 (W10 m c (Proc.devRef .tc main_v180)) := by
  show StableHlo.after hostOps1_10 (W11 m c) (Proc.devRef .tc main_v206) = _
  have e1 := sqrt_main_v202 m c
  have e2 := W11_of m c main_v180 (by decide +kernel)
  generalize W10 m c (Proc.devRef .tc main_v180) = x at e1 e2 ⊢
  generalize W11 m c = V at e1 e2 ⊢
  after_results
  rw [e1, e2]
  rfl

theorem W14_main_v206 (c : Dev nD) :
    W14 m c (Proc.devRef .tc main_v206) = n4 (W2 m c (Proc.devRef .tc main_v180)) :=
  ((W14_of m c main_v206 (by decide +kernel)).trans ((W13_of m c main_v206 (by decide +kernel)))).trans ((norm_main_v206 m c).trans (congrArg n4 ((W10_of m c main_v180 (by decide +kernel)).trans ((W9_of m c main_v180 (by decide +kernel)).trans ((W8_of m c main_v180 (by decide +kernel)).trans ((W7_of m c main_v180 (by decide +kernel)).trans ((W6_of m c main_v180 (by decide +kernel)).trans ((W5_of m c main_v180 (by decide +kernel)).trans ((W4_of m c main_v180 (by decide +kernel)).trans ((W3_of m c main_v180 (by decide +kernel))))))))))))

theorem sqrt_main_v207 (c : Dev nD) :
    W13 m c (Proc.devRef .tc main_v207) = Host.sqrt (broadcastInDim S4096x1 ![0] bcast_S4096_S4096x1_0 (Host.reduceAdd (mulf (W12 m c (Proc.devRef .tc main_v181)) (W12 m c (Proc.devRef .tc main_v181))) (constant S_ .f32 0x00000000#32) reducesTo_S4096x64_S4096_d1 h_S_)) := by
  show StableHlo.after hostOps1_11 (W12 m c) (Proc.devRef .tc main_v207) = _
  generalize W12 m c = V
  after_results; rfl

theorem norm_main_v211 (c : Dev nD) :
    W14 m c (Proc.devRef .tc main_v211) = n4 (W12 m c (Proc.devRef .tc main_v181)) := by
  show StableHlo.after hostOps1_12 (W13 m c) (Proc.devRef .tc main_v211) = _
  have e1 := sqrt_main_v207 m c
  have e2 := W13_of m c main_v181 (by decide +kernel)
  generalize W12 m c (Proc.devRef .tc main_v181) = x at e1 e2 ⊢
  generalize W13 m c = V at e1 e2 ⊢
  after_results
  rw [e1, e2]
  rfl

theorem W14_main_v211 (c : Dev nD) :
    W14 m c (Proc.devRef .tc main_v211) = n4 (W2 m c (Proc.devRef .tc main_v181)) :=
  (rfl).trans ((norm_main_v211 m c).trans (congrArg n4 ((W12_of m c main_v181 (by decide +kernel)).trans ((W11_of m c main_v181 (by decide +kernel)).trans ((W10_of m c main_v181 (by decide +kernel)).trans ((W9_of m c main_v181 (by decide +kernel)).trans ((W8_of m c main_v181 (by decide +kernel)).trans ((W7_of m c main_v181 (by decide +kernel)).trans ((W6_of m c main_v181 (by decide +kernel)).trans ((W5_of m c main_v181 (by decide +kernel)).trans ((W4_of m c main_v181 (by decide +kernel)).trans ((W3_of m c main_v181 (by decide +kernel))))))))))))))

theorem W14_main_v212 (c : Dev nD) :
    W14 m c (Proc.devRef .tc main_v212) = truncf .bf16 (W14 m c (Proc.devRef .tc main_v186) : (⟨S12000x64, .f32⟩ : BufTy).Contents (Elt F)) bitsLt_bf16_f32 := by
  rw [W14_of m c main_v186 (by decide +kernel)]
  show StableHlo.after hostOps1_12 (W13 m c) (Proc.devRef .tc main_v212) = _
  generalize W13 m c = V
  after_results

theorem W14_main_v213 (c : Dev nD) :
    W14 m c (Proc.devRef .tc main_v213) = truncf .bf16 (W14 m c (Proc.devRef .tc main_v191) : (⟨S12000x64, .f32⟩ : BufTy).Contents (Elt F)) bitsLt_bf16_f32 := by
  rw [W14_of m c main_v191 (by decide +kernel)]
  show StableHlo.after hostOps1_12 (W13 m c) (Proc.devRef .tc main_v213) = _
  generalize W13 m c = V
  after_results

theorem keep15_main_v186 (c : Dev nD) : W15 m c (Proc.devRef .tc main_v186) = W14 m c (Proc.devRef .tc main_v186) :=
  ((W15_arr m c 0).trans (((dat1 (V14 m) c).arrAt_in 0 rfl _).trans (A_eq1 (V14 m) c 0))).trans rfl

theorem keep16_main_v186 (c : Dev nD) : W16 m c (Proc.devRef .tc main_v186) = W14 m c (Proc.devRef .tc main_v186) :=
  (show W16 m c (Proc.devRef .tc main_v186) = W15 m c (Proc.devRef .tc main_v186) from W16_of m c main_v186 (by decide +kernel)).trans (keep15_main_v186 m c)

theorem keep15_main_v191 (c : Dev nD) : W15 m c (Proc.devRef .tc main_v191) = W14 m c (Proc.devRef .tc main_v191) :=
  ((W15_arr m c 2).trans (((dat1 (V14 m) c).arrAt_in 2 rfl _).trans (A_eq1 (V14 m) c 2))).trans rfl

theorem keep16_main_v191 (c : Dev nD) : W16 m c (Proc.devRef .tc main_v191) = W14 m c (Proc.devRef .tc main_v191) :=
  (show W16 m c (Proc.devRef .tc main_v191) = W15 m c (Proc.devRef .tc main_v191) from W16_of m c main_v191 (by decide +kernel)).trans (keep15_main_v191 m c)

theorem keep17_main_v191 (c : Dev nD) : W17 m c (Proc.devRef .tc main_v191) = W14 m c (Proc.devRef .tc main_v191) :=
  (show W17 m c (Proc.devRef .tc main_v191) = W16 m c (Proc.devRef .tc main_v191) from W17_of_ne m c main_v191 (by decide)).trans (keep16_main_v191 m c)

theorem keep18_main_v191 (c : Dev nD) : W18 m c (Proc.devRef .tc main_v191) = W14 m c (Proc.devRef .tc main_v191) :=
  (show W18 m c (Proc.devRef .tc main_v191) = W17 m c (Proc.devRef .tc main_v191) from W18_of m c main_v191 (by decide +kernel)).trans (keep17_main_v191 m c)

theorem keep15_main_v196 (c : Dev nD) : W15 m c (Proc.devRef .tc main_v196) = W14 m c (Proc.devRef .tc main_v196) :=
  W15_of_ne m c main_v196 (by decide)

theorem keep16_main_v196 (c : Dev nD) : W16 m c (Proc.devRef .tc main_v196) = W14 m c (Proc.devRef .tc main_v196) :=
  (show W16 m c (Proc.devRef .tc main_v196) = W15 m c (Proc.devRef .tc main_v196) from W16_of m c main_v196 (by decide +kernel)).trans (keep15_main_v196 m c)

theorem keep17_main_v196 (c : Dev nD) : W17 m c (Proc.devRef .tc main_v196) = W14 m c (Proc.devRef .tc main_v196) :=
  (show W17 m c (Proc.devRef .tc main_v196) = W16 m c (Proc.devRef .tc main_v196) from ((W17_arr m c 2).trans (((dat2 (V16 m) c).arrAt_in 2 rfl _).trans (A_eq2 (V16 m) c 2))).trans rfl).trans (keep16_main_v196 m c)

theorem keep18_main_v196 (c : Dev nD) : W18 m c (Proc.devRef .tc main_v196) = W14 m c (Proc.devRef .tc main_v196) :=
  (show W18 m c (Proc.devRef .tc main_v196) = W17 m c (Proc.devRef .tc main_v196) from W18_of m c main_v196 (by decide +kernel)).trans (keep17_main_v196 m c)

theorem keep15_main_v201 (c : Dev nD) : W15 m c (Proc.devRef .tc main_v201) = W14 m c (Proc.devRef .tc main_v201) :=
  W15_of_ne m c main_v201 (by decide)

theorem keep16_main_v201 (c : Dev nD) : W16 m c (Proc.devRef .tc main_v201) = W14 m c (Proc.devRef .tc main_v201) :=
  (show W16 m c (Proc.devRef .tc main_v201) = W15 m c (Proc.devRef .tc main_v201) from W16_of m c main_v201 (by decide +kernel)).trans (keep15_main_v201 m c)

theorem keep17_main_v201 (c : Dev nD) : W17 m c (Proc.devRef .tc main_v201) = W14 m c (Proc.devRef .tc main_v201) :=
  (show W17 m c (Proc.devRef .tc main_v201) = W16 m c (Proc.devRef .tc main_v201) from W17_of_ne m c main_v201 (by decide)).trans (keep16_main_v201 m c)

theorem keep18_main_v201 (c : Dev nD) : W18 m c (Proc.devRef .tc main_v201) = W14 m c (Proc.devRef .tc main_v201) :=
  (show W18 m c (Proc.devRef .tc main_v201) = W17 m c (Proc.devRef .tc main_v201) from W18_of m c main_v201 (by decide +kernel)).trans (keep17_main_v201 m c)

theorem keep19_main_v201 (c : Dev nD) : W19 m c (Proc.devRef .tc main_v201) = W14 m c (Proc.devRef .tc main_v201) :=
  (show W19 m c (Proc.devRef .tc main_v201) = W18 m c (Proc.devRef .tc main_v201) from W19_of_ne m c main_v201 (by decide)).trans (keep18_main_v201 m c)

theorem keep20_main_v201 (c : Dev nD) : W20 m c (Proc.devRef .tc main_v201) = W14 m c (Proc.devRef .tc main_v201) :=
  (show W20 m c (Proc.devRef .tc main_v201) = W19 m c (Proc.devRef .tc main_v201) from W20_of m c main_v201 (by decide +kernel)).trans (keep19_main_v201 m c)

theorem keep21_main_v201 (c : Dev nD) : W21 m c (Proc.devRef .tc main_v201) = W14 m c (Proc.devRef .tc main_v201) :=
  (show W21 m c (Proc.devRef .tc main_v201) = W20 m c (Proc.devRef .tc main_v201) from ((W21_arr m c 0).trans (((dat4 (V20 m) c).arrAt_in 0 rfl _).trans (A_eq4 (V20 m) c 0))).trans rfl).trans (keep20_main_v201 m c)

theorem keep22_main_v201 (c : Dev nD) : W22 m c (Proc.devRef .tc main_v201) = W14 m c (Proc.devRef .tc main_v201) :=
  (show W22 m c (Proc.devRef .tc main_v201) = W21 m c (Proc.devRef .tc main_v201) from W22_of m c main_v201 (by decide +kernel)).trans (keep21_main_v201 m c)

theorem keep23_main_v201 (c : Dev nD) : W23 m c (Proc.devRef .tc main_v201) = W14 m c (Proc.devRef .tc main_v201) :=
  (show W23 m c (Proc.devRef .tc main_v201) = W22 m c (Proc.devRef .tc main_v201) from ((W23_arr m c 0).trans (((dat5 (V22 m) c).arrAt_in 0 rfl _).trans (A_eq5 (V22 m) c 0))).trans rfl).trans (keep22_main_v201 m c)

theorem keep24_main_v201 (c : Dev nD) : W24 m c (Proc.devRef .tc main_v201) = W14 m c (Proc.devRef .tc main_v201) :=
  (show W24 m c (Proc.devRef .tc main_v201) = W23 m c (Proc.devRef .tc main_v201) from W24_of m c main_v201 (by decide +kernel)).trans (keep23_main_v201 m c)

theorem keep25_main_v201 (c : Dev nD) : W25 m c (Proc.devRef .tc main_v201) = W14 m c (Proc.devRef .tc main_v201) :=
  (show W25 m c (Proc.devRef .tc main_v201) = W24 m c (Proc.devRef .tc main_v201) from W25_of_ne m c main_v201 (by decide)).trans (keep24_main_v201 m c)

theorem keep26_main_v201 (c : Dev nD) : W26 m c (Proc.devRef .tc main_v201) = W14 m c (Proc.devRef .tc main_v201) :=
  (show W26 m c (Proc.devRef .tc main_v201) = W25 m c (Proc.devRef .tc main_v201) from W26_of m c main_v201 (by decide +kernel)).trans (keep25_main_v201 m c)

theorem keep15_main_v206 (c : Dev nD) : W15 m c (Proc.devRef .tc main_v206) = W14 m c (Proc.devRef .tc main_v206) :=
  W15_of_ne m c main_v206 (by decide)

theorem keep16_main_v206 (c : Dev nD) : W16 m c (Proc.devRef .tc main_v206) = W14 m c (Proc.devRef .tc main_v206) :=
  (show W16 m c (Proc.devRef .tc main_v206) = W15 m c (Proc.devRef .tc main_v206) from W16_of m c main_v206 (by decide +kernel)).trans (keep15_main_v206 m c)

theorem keep17_main_v206 (c : Dev nD) : W17 m c (Proc.devRef .tc main_v206) = W14 m c (Proc.devRef .tc main_v206) :=
  (show W17 m c (Proc.devRef .tc main_v206) = W16 m c (Proc.devRef .tc main_v206) from W17_of_ne m c main_v206 (by decide)).trans (keep16_main_v206 m c)

theorem keep18_main_v206 (c : Dev nD) : W18 m c (Proc.devRef .tc main_v206) = W14 m c (Proc.devRef .tc main_v206) :=
  (show W18 m c (Proc.devRef .tc main_v206) = W17 m c (Proc.devRef .tc main_v206) from W18_of m c main_v206 (by decide +kernel)).trans (keep17_main_v206 m c)

theorem keep19_main_v206 (c : Dev nD) : W19 m c (Proc.devRef .tc main_v206) = W14 m c (Proc.devRef .tc main_v206) :=
  (show W19 m c (Proc.devRef .tc main_v206) = W18 m c (Proc.devRef .tc main_v206) from W19_of_ne m c main_v206 (by decide)).trans (keep18_main_v206 m c)

theorem keep20_main_v206 (c : Dev nD) : W20 m c (Proc.devRef .tc main_v206) = W14 m c (Proc.devRef .tc main_v206) :=
  (show W20 m c (Proc.devRef .tc main_v206) = W19 m c (Proc.devRef .tc main_v206) from W20_of m c main_v206 (by decide +kernel)).trans (keep19_main_v206 m c)

theorem keep21_main_v206 (c : Dev nD) : W21 m c (Proc.devRef .tc main_v206) = W14 m c (Proc.devRef .tc main_v206) :=
  (show W21 m c (Proc.devRef .tc main_v206) = W20 m c (Proc.devRef .tc main_v206) from ((W21_arr m c 2).trans (((dat4 (V20 m) c).arrAt_in 2 rfl _).trans (A_eq4 (V20 m) c 2))).trans rfl).trans (keep20_main_v206 m c)

theorem keep22_main_v206 (c : Dev nD) : W22 m c (Proc.devRef .tc main_v206) = W14 m c (Proc.devRef .tc main_v206) :=
  (show W22 m c (Proc.devRef .tc main_v206) = W21 m c (Proc.devRef .tc main_v206) from W22_of m c main_v206 (by decide +kernel)).trans (keep21_main_v206 m c)

theorem keep23_main_v206 (c : Dev nD) : W23 m c (Proc.devRef .tc main_v206) = W14 m c (Proc.devRef .tc main_v206) :=
  (show W23 m c (Proc.devRef .tc main_v206) = W22 m c (Proc.devRef .tc main_v206) from W23_of_ne m c main_v206 (by decide)).trans (keep22_main_v206 m c)

theorem keep24_main_v206 (c : Dev nD) : W24 m c (Proc.devRef .tc main_v206) = W14 m c (Proc.devRef .tc main_v206) :=
  (show W24 m c (Proc.devRef .tc main_v206) = W23 m c (Proc.devRef .tc main_v206) from W24_of m c main_v206 (by decide +kernel)).trans (keep23_main_v206 m c)

theorem keep25_main_v206 (c : Dev nD) : W25 m c (Proc.devRef .tc main_v206) = W14 m c (Proc.devRef .tc main_v206) :=
  (show W25 m c (Proc.devRef .tc main_v206) = W24 m c (Proc.devRef .tc main_v206) from ((W25_arr m c 0).trans (((dat6 (V24 m) c).arrAt_in 0 rfl _).trans (A_eq6 (V24 m) c 0))).trans rfl).trans (keep24_main_v206 m c)

theorem keep26_main_v206 (c : Dev nD) : W26 m c (Proc.devRef .tc main_v206) = W14 m c (Proc.devRef .tc main_v206) :=
  (show W26 m c (Proc.devRef .tc main_v206) = W25 m c (Proc.devRef .tc main_v206) from W26_of m c main_v206 (by decide +kernel)).trans (keep25_main_v206 m c)

theorem keep15_main_v211 (c : Dev nD) : W15 m c (Proc.devRef .tc main_v211) = W14 m c (Proc.devRef .tc main_v211) :=
  W15_of_ne m c main_v211 (by decide)

theorem keep16_main_v211 (c : Dev nD) : W16 m c (Proc.devRef .tc main_v211) = W14 m c (Proc.devRef .tc main_v211) :=
  (show W16 m c (Proc.devRef .tc main_v211) = W15 m c (Proc.devRef .tc main_v211) from W16_of m c main_v211 (by decide +kernel)).trans (keep15_main_v211 m c)

theorem keep17_main_v211 (c : Dev nD) : W17 m c (Proc.devRef .tc main_v211) = W14 m c (Proc.devRef .tc main_v211) :=
  (show W17 m c (Proc.devRef .tc main_v211) = W16 m c (Proc.devRef .tc main_v211) from W17_of_ne m c main_v211 (by decide)).trans (keep16_main_v211 m c)

theorem keep18_main_v211 (c : Dev nD) : W18 m c (Proc.devRef .tc main_v211) = W14 m c (Proc.devRef .tc main_v211) :=
  (show W18 m c (Proc.devRef .tc main_v211) = W17 m c (Proc.devRef .tc main_v211) from W18_of m c main_v211 (by decide +kernel)).trans (keep17_main_v211 m c)

theorem keep19_main_v211 (c : Dev nD) : W19 m c (Proc.devRef .tc main_v211) = W14 m c (Proc.devRef .tc main_v211) :=
  (show W19 m c (Proc.devRef .tc main_v211) = W18 m c (Proc.devRef .tc main_v211) from W19_of_ne m c main_v211 (by decide)).trans (keep18_main_v211 m c)

theorem keep20_main_v211 (c : Dev nD) : W20 m c (Proc.devRef .tc main_v211) = W14 m c (Proc.devRef .tc main_v211) :=
  (show W20 m c (Proc.devRef .tc main_v211) = W19 m c (Proc.devRef .tc main_v211) from W20_of m c main_v211 (by decide +kernel)).trans (keep19_main_v211 m c)

theorem keep21_main_v211 (c : Dev nD) : W21 m c (Proc.devRef .tc main_v211) = W14 m c (Proc.devRef .tc main_v211) :=
  (show W21 m c (Proc.devRef .tc main_v211) = W20 m c (Proc.devRef .tc main_v211) from W21_of_ne m c main_v211 (by decide)).trans (keep20_main_v211 m c)

theorem keep22_main_v211 (c : Dev nD) : W22 m c (Proc.devRef .tc main_v211) = W14 m c (Proc.devRef .tc main_v211) :=
  (show W22 m c (Proc.devRef .tc main_v211) = W21 m c (Proc.devRef .tc main_v211) from W22_of m c main_v211 (by decide +kernel)).trans (keep21_main_v211 m c)

theorem keep23_main_v211 (c : Dev nD) : W23 m c (Proc.devRef .tc main_v211) = W14 m c (Proc.devRef .tc main_v211) :=
  (show W23 m c (Proc.devRef .tc main_v211) = W22 m c (Proc.devRef .tc main_v211) from ((W23_arr m c 2).trans (((dat5 (V22 m) c).arrAt_in 2 rfl _).trans (A_eq5 (V22 m) c 2))).trans rfl).trans (keep22_main_v211 m c)

theorem keep24_main_v211 (c : Dev nD) : W24 m c (Proc.devRef .tc main_v211) = W14 m c (Proc.devRef .tc main_v211) :=
  (show W24 m c (Proc.devRef .tc main_v211) = W23 m c (Proc.devRef .tc main_v211) from W24_of m c main_v211 (by decide +kernel)).trans (keep23_main_v211 m c)

theorem keep25_main_v211 (c : Dev nD) : W25 m c (Proc.devRef .tc main_v211) = W14 m c (Proc.devRef .tc main_v211) :=
  (show W25 m c (Proc.devRef .tc main_v211) = W24 m c (Proc.devRef .tc main_v211) from ((W25_arr m c 2).trans (((dat6 (V24 m) c).arrAt_in 2 rfl _).trans (A_eq6 (V24 m) c 2))).trans rfl).trans (keep24_main_v211 m c)

theorem keep26_main_v211 (c : Dev nD) : W26 m c (Proc.devRef .tc main_v211) = W14 m c (Proc.devRef .tc main_v211) :=
  (show W26 m c (Proc.devRef .tc main_v211) = W25 m c (Proc.devRef .tc main_v211) from W26_of m c main_v211 (by decide +kernel)).trans (keep25_main_v211 m c)

theorem in16_main_v217 (c : Dev nD) :
    W16 m c (Proc.devRef .tc main_v217) = truncf .bf16 (W14 m c (Proc.devRef .tc main_v186) : (⟨S12000x64, .f32⟩ : BufTy).Contents (Elt F)) bitsLt_bf16_f32 := by
  rw [← keep15_main_v186 m c]
  show StableHlo.after hostOps2 (W15 m c) (Proc.devRef .tc main_v217) = _
  generalize W15 m c = V
  after_results

theorem in16_main_v218 (c : Dev nD) :
    W16 m c (Proc.devRef .tc main_v218) = truncf .bf16 (W14 m c (Proc.devRef .tc main_v196) : (⟨S12000x64, .f32⟩ : BufTy).Contents (Elt F)) bitsLt_bf16_f32 := by
  rw [← keep15_main_v196 m c]
  show StableHlo.after hostOps2 (W15 m c) (Proc.devRef .tc main_v218) = _
  generalize W15 m c = V
  after_results

theorem in18_main_v223 (c : Dev nD) :
    W18 m c (Proc.devRef .tc main_v223) = truncf .bf16 (W14 m c (Proc.devRef .tc main_v191) : (⟨S12000x64, .f32⟩ : BufTy).Contents (Elt F)) bitsLt_bf16_f32 := by
  rw [← keep17_main_v191 m c]
  show StableHlo.after hostOps3 (W17 m c) (Proc.devRef .tc main_v223) = _
  generalize W17 m c = V
  after_results

theorem in18_main_v224 (c : Dev nD) :
    W18 m c (Proc.devRef .tc main_v224) = truncf .bf16 (W14 m c (Proc.devRef .tc main_v196) : (⟨S12000x64, .f32⟩ : BufTy).Contents (Elt F)) bitsLt_bf16_f32 := by
  rw [← keep17_main_v196 m c]
  show StableHlo.after hostOps3 (W17 m c) (Proc.devRef .tc main_v224) = _
  generalize W17 m c = V
  after_results

theorem in20_main_v229 (c : Dev nD) :
    W20 m c (Proc.devRef .tc main_v229) = truncf .bf16 (W14 m c (Proc.devRef .tc main_v201) : (⟨S4096x64, .f32⟩ : BufTy).Contents (Elt F)) bitsLt_bf16_f32 := by
  rw [← keep19_main_v201 m c]
  show StableHlo.after hostOps4 (W19 m c) (Proc.devRef .tc main_v229) = _
  generalize W19 m c = V
  after_results

theorem in20_main_v230 (c : Dev nD) :
    W20 m c (Proc.devRef .tc main_v230) = truncf .bf16 (W14 m c (Proc.devRef .tc main_v206) : (⟨S4096x64, .f32⟩ : BufTy).Contents (Elt F)) bitsLt_bf16_f32 := by
  rw [← keep19_main_v206 m c]
  show StableHlo.after hostOps4 (W19 m c) (Proc.devRef .tc main_v230) = _
  generalize W19 m c = V
  after_results

theorem in22_main_v234 (c : Dev nD) :
    W22 m c (Proc.devRef .tc main_v234) = truncf .bf16 (W14 m c (Proc.devRef .tc main_v201) : (⟨S4096x64, .f32⟩ : BufTy).Contents (Elt F)) bitsLt_bf16_f32 := by
  rw [← keep21_main_v201 m c]
  show StableHlo.after hostOps5 (W21 m c) (Proc.devRef .tc main_v234) = _
  generalize W21 m c = V
  after_results

theorem in22_main_v235 (c : Dev nD) :
    W22 m c (Proc.devRef .tc main_v235) = truncf .bf16 (W14 m c (Proc.devRef .tc main_v211) : (⟨S4096x64, .f32⟩ : BufTy).Contents (Elt F)) bitsLt_bf16_f32 := by
  rw [← keep21_main_v211 m c]
  show StableHlo.after hostOps5 (W21 m c) (Proc.devRef .tc main_v235) = _
  generalize W21 m c = V
  after_results

theorem in24_main_v240 (c : Dev nD) :
    W24 m c (Proc.devRef .tc main_v240) = truncf .bf16 (W14 m c (Proc.devRef .tc main_v206) : (⟨S4096x64, .f32⟩ : BufTy).Contents (Elt F)) bitsLt_bf16_f32 := by
  rw [← keep23_main_v206 m c]
  show StableHlo.after hostOps6 (W23 m c) (Proc.devRef .tc main_v240) = _
  generalize W23 m c = V
  after_results

theorem in24_main_v241 (c : Dev nD) :
    W24 m c (Proc.devRef .tc main_v241) = truncf .bf16 (W14 m c (Proc.devRef .tc main_v211) : (⟨S4096x64, .f32⟩ : BufTy).Contents (Elt F)) bitsLt_bf16_f32 := by
  rw [← keep23_main_v211 m c]
  show StableHlo.after hostOps6 (W23 m c) (Proc.devRef .tc main_v241) = _
  generalize W23 m c = V
  after_results

theorem W27_main_v252 (c : Dev nD) : W27 m c (Proc.devRef .tc main_v252) = (dat7 (V26 m) c).arrAt 9 cfg7.N := W27_arr m c 9

end Cert.KernelIdeal.Hand

end
-- ==== Proof.KI.HostLoss.lean ====
import Idealize.ShloMosaic.Lib.StableHlo.Run
import proofs.«133221_j41652592836945_2_alg».proof.Proof.KI.Fold
import proofs.«133221_j41652592836945_2_alg».proof.Proof.KI.Args

set_option maxRecDepth 16384

noncomputable section

namespace Cert.KernelIdeal.Hand

open Idealize.ShloMosaic Idealize.ShloMosaic.TcCoe Idealize.ShloMosaic.Tactic
open Idealize.SL Idealize.SL.Sem
open Idealize.ShloMosaic.StableHlo (after_cons after_nil nullary_result unary_result binary_result ternary_result quaternary_result
  reshape_result binaryIndexed_result nary4_result nary_result unaryIndexed_result nullary_result_ne unary_result_ne binary_result_ne
  ternary_result_ne quaternary_result_ne reshape_result_ne binaryIndexed_result_ne nary_result_ne unaryIndexed_result_ne)
open Cert.KernelIdeal Cert.KernelIdeal.Gen

variable {F : FTy → Type} [FloatOps F] [Named F]

variable (m : (ℓ : Loc nD τ sig) → Buf (Elt F) ℓ)

theorem W16_main_v216 (c : Dev nD) :
    (W16 m c (Proc.devRef .tc main_v216) : (⟨S_, .f32⟩ : BufTy).Contents (Elt F))
      = Host.divf (Host.reduceAdd (W15 m c (Proc.devRef .tc main_v214) : (⟨S12000x1, .f32⟩ : BufTy).Contents (Elt F)) (constant S_ .f32 0x00000000#32) reducesTo_S12000x1_S_d0_1 h_S_) (constant S_ .f32 0x463B8000#32) := by
  show StableHlo.after hostOps2 (W15 m c) (Proc.devRef .tc main_v216) = _
  after_results

theorem W16_main_v217 (c : Dev nD) :
    (W16 m c (Proc.devRef .tc main_v217) : (⟨S12000x64, .bf16⟩ : BufTy).Contents (Elt F))
      = truncf .bf16 (W15 m c (Proc.devRef .tc main_v186) : (⟨S12000x64, .f32⟩ : BufTy).Contents (Elt F)) bitsLt_bf16_f32 := by
  show StableHlo.after hostOps2 (W15 m c) (Proc.devRef .tc main_v217) = _
  after_results

theorem W16_main_v218 (c : Dev nD) :
    (W16 m c (Proc.devRef .tc main_v218) : (⟨S12000x64, .bf16⟩ : BufTy).Contents (Elt F))
      = truncf .bf16 (W15 m c (Proc.devRef .tc main_v196) : (⟨S12000x64, .f32⟩ : BufTy).Contents (Elt F)) bitsLt_bf16_f32 := by
  show StableHlo.after hostOps2 (W15 m c) (Proc.devRef .tc main_v218) = _
  after_results

theorem W18_main_v221 (c : Dev nD) :
    (W18 m c (Proc.devRef .tc main_v221) : (⟨S_, .f32⟩ : BufTy).Contents (Elt F))
      = Host.divf (Host.reduceAdd (W17 m c (Proc.devRef .tc main_v219) : (⟨S12000x1, .f32⟩ : BufTy).Contents (Elt F)) (constant S_ .f32 0x00000000#32) reducesTo_S12000x1_S_d0_1 h_S_) (constant S_ .f32 0x463B8000#32) := by
  show StableHlo.after hostOps3 (W17 m c) (Proc.devRef .tc main_v221) = _
  after_results

theorem W18_main_v222 (c : Dev nD) :
    (W18 m c (Proc.devRef .tc main_v222) : (⟨S_, .f32⟩ : BufTy).Contents (Elt F))
      = addf (W16 m c (Proc.devRef .tc main_v216) : (⟨S_, .f32⟩ : BufTy).Contents (Elt F)) (W18 m c (Proc.devRef .tc main_v221) : (⟨S_, .f32⟩ : BufTy).Contents (Elt F)) := by
  rw [W18_main_v221, ← W17_of_ne m c main_v216 (by decide)]
  show StableHlo.after hostOps3 (W17 m c) (Proc.devRef .tc main_v222) = _
  after_results

theorem W18_main_v223 (c : Dev nD) :
    (W18 m c (Proc.devRef .tc main_v223) : (⟨S12000x64, .bf16⟩ : BufTy).Contents (Elt F))
      = truncf .bf16 (W17 m c (Proc.devRef .tc main_v191) : (⟨S12000x64, .f32⟩ : BufTy).Contents (Elt F)) bitsLt_bf16_f32 := by
  show StableHlo.after hostOps3 (W17 m c) (Proc.devRef .tc main_v223) = _
  after_results

theorem W18_main_v224 (c : Dev nD) :
    (W18 m c (Proc.devRef .tc main_v224) : (⟨S12000x64, .bf16⟩ : BufTy).Contents (Elt F))
      = truncf .bf16 (W17 m c (Proc.devRef .tc main_v196) : (⟨S12000x64, .f32⟩ : BufTy).Contents (Elt F)) bitsLt_bf16_f32 := by
  show StableHlo.after hostOps3 (W17 m c) (Proc.devRef .tc main_v224) = _
  after_results

theorem W20_main_v227 (c : Dev nD) :
    (W20 m c (Proc.devRef .tc main_v227) : (⟨S_, .f32⟩ : BufTy).Contents (Elt F))
      = Host.divf (Host.reduceAdd (W19 m c (Proc.devRef .tc main_v225) : (⟨S12000x1, .f32⟩ : BufTy).Contents (Elt F)) (constant S_ .f32 0x00000000#32) reducesTo_S12000x1_S_d0_1 h_S_) (constant S_ .f32 0x463B8000#32) := by
  show StableHlo.after hostOps4 (W19 m c) (Proc.devRef .tc main_v227) = _
  after_results

theorem W20_main_v228 (c : Dev nD) :
    (W20 m c (Proc.devRef .tc main_v228) : (⟨S_, .f32⟩ : BufTy).Contents (Elt F))
      = addf (W18 m c (Proc.devRef .tc main_v222) : (⟨S_, .f32⟩ : BufTy).Contents (Elt F)) (W20 m c (Proc.devRef .tc main_v227) : (⟨S_, .f32⟩ : BufTy).Contents (Elt F)) := by
  rw [W20_main_v227, ← W19_of_ne m c main_v222 (by decide)]
  show StableHlo.after hostOps4 (W19 m c) (Proc.devRef .tc main_v228) = _
  after_results

theorem W20_main_v229 (c : Dev nD) :
    (W20 m c (Proc.devRef .tc main_v229) : (⟨S4096x64, .bf16⟩ : BufTy).Contents (Elt F))
      = truncf .bf16 (W19 m c (Proc.devRef .tc main_v201) : (⟨S4096x64, .f32⟩ : BufTy).Contents (Elt F)) bitsLt_bf16_f32 := by
  show StableHlo.after hostOps4 (W19 m c) (Proc.devRef .tc main_v229) = _
  after_results

theorem W20_main_v230 (c : Dev nD) :
    (W20 m c (Proc.devRef .tc main_v230) : (⟨S4096x64, .bf16⟩ : BufTy).Contents (Elt F))
      = truncf .bf16 (W19 m c (Proc.devRef .tc main_v206) : (⟨S4096x64, .f32⟩ : BufTy).Contents (Elt F)) bitsLt_bf16_f32 := by
  show StableHlo.after hostOps4 (W19 m c) (Proc.devRef .tc main_v230) = _
  after_results

theorem W22_main_v233 (c : Dev nD) :
    (W22 m c (Proc.devRef .tc main_v233) : (⟨S_, .f32⟩ : BufTy).Contents (Elt F))
      = Host.divf (Host.reduceAdd (W21 m c (Proc.devRef .tc main_v231) : (⟨S4096x1, .f32⟩ : BufTy).Contents (Elt F)) (constant S_ .f32 0x00000000#32) reducesTo_S4096x1_S_d0_1 h_S_) (constant S_ .f32 0x45800000#32) := by
  show StableHlo.after hostOps5 (W21 m c) (Proc.devRef .tc main_v233) = _
  after_results

theorem W22_main_v234 (c : Dev nD) :
    (W22 m c (Proc.devRef .tc main_v234) : (⟨S4096x64, .bf16⟩ : BufTy).Contents (Elt F))
      = truncf .bf16 (W21 m c (Proc.devRef .tc main_v201) : (⟨S4096x64, .f32⟩ : BufTy).Contents (Elt F)) bitsLt_bf16_f32 := by
  show StableHlo.after hostOps5 (W21 m c) (Proc.devRef .tc main_v234) = _
  after_results

theorem W22_main_v235 (c : Dev nD) :
    (W22 m c (Proc.devRef .tc main_v235) : (⟨S4096x64, .bf16⟩ : BufTy).Contents (Elt F))
      = truncf .bf16 (W21 m c (Proc.devRef .tc main_v211) : (⟨S4096x64, .f32⟩ : BufTy).Contents (Elt F)) bitsLt_bf16_f32 := by
  show StableHlo.after hostOps5 (W21 m c) (Proc.devRef .tc main_v235) = _
  after_results

theorem W24_main_v238 (c : Dev nD) :
    (W24 m c (Proc.devRef .tc main_v238) : (⟨S_, .f32⟩ : BufTy).Contents (Elt F))
      = Host.divf (Host.reduceAdd (W23 m c (Proc.devRef .tc main_v236) : (⟨S4096x1, .f32⟩ : BufTy).Contents (Elt F)) (constant S_ .f32 0x00000000#32) reducesTo_S4096x1_S_d0_1 h_S_) (constant S_ .f32 0x45800000#32) := by
  show StableHlo.after hostOps6 (W23 m c) (Proc.devRef .tc main_v238) = _
  after_results

theorem W24_main_v239 (c : Dev nD) :
    (W24 m c (Proc.devRef .tc main_v239) : (⟨S_, .f32⟩ : BufTy).Contents (Elt F))
      = addf (W22 m c (Proc.devRef .tc main_v233) : (⟨S_, .f32⟩ : BufTy).Contents (Elt F)) (W24 m c (Proc.devRef .tc main_v238) : (⟨S_, .f32⟩ : BufTy).Contents (Elt F)) := by
  rw [W24_main_v238, ← W23_of_ne m c main_v233 (by decide)]
  show StableHlo.after hostOps6 (W23 m c) (Proc.devRef .tc main_v239) = _
  after_results

theorem W24_main_v240 (c : Dev nD) :
    (W24 m c (Proc.devRef .tc main_v240) : (⟨S4096x64, .bf16⟩ : BufTy).Contents (Elt F))
      = truncf .bf16 (W23 m c (Proc.devRef .tc main_v206) : (⟨S4096x64, .f32⟩ : BufTy).Contents (Elt F)) bitsLt_bf16_f32 := by
  show StableHlo.after hostOps6 (W23 m c) (Proc.devRef .tc main_v240) = _
  after_results

theorem W24_main_v241 (c : Dev nD) :
    (W24 m c (Proc.devRef .tc main_v241) : (⟨S4096x64, .bf16⟩ : BufTy).Contents (Elt F))
      = truncf .bf16 (W23 m c (Proc.devRef .tc main_v211) : (⟨S4096x64, .f32⟩ : BufTy).Contents (Elt F)) bitsLt_bf16_f32 := by
  show StableHlo.after hostOps6 (W23 m c) (Proc.devRef .tc main_v241) = _
  after_results

theorem W26_main_v244 (c : Dev nD) :
    (W26 m c (Proc.devRef .tc main_v244) : (⟨S_, .f32⟩ : BufTy).Contents (Elt F))
      = Host.divf (Host.reduceAdd (W25 m c (Proc.devRef .tc main_v242) : (⟨S4096x1, .f32⟩ : BufTy).Contents (Elt F)) (constant S_ .f32 0x00000000#32) reducesTo_S4096x1_S_d0_1 h_S_) (constant S_ .f32 0x45800000#32) := by
  show StableHlo.after hostOps7 (W25 m c) (Proc.devRef .tc main_v244) = _
  after_results

theorem W26_main_v245 (c : Dev nD) :
    (W26 m c (Proc.devRef .tc main_v245) : (⟨S_, .f32⟩ : BufTy).Contents (Elt F))
      = addf (W24 m c (Proc.devRef .tc main_v239) : (⟨S_, .f32⟩ : BufTy).Contents (Elt F)) (W26 m c (Proc.devRef .tc main_v244) : (⟨S_, .f32⟩ : BufTy).Contents (Elt F)) := by
  rw [W26_main_v244, ← W25_of_ne m c main_v239 (by decide)]
  show StableHlo.after hostOps7 (W25 m c) (Proc.devRef .tc main_v245) = _
  after_results

theorem W26_main_v246 (c : Dev nD) :
    (W26 m c (Proc.devRef .tc main_v246) : (⟨S1x64, .f32⟩ : BufTy).Contents (Elt F))
      = transpose S1x64 [1, 0] (m ((c : Thread nD τ).loc main_arg7) : (⟨S64x1, .f32⟩ : BufTy).Contents (Elt F)) transposes_S64x1_S1x64_1_0 := by
  have h : (W26 m c (Proc.devRef .tc main_v246) : (⟨S1x64, .f32⟩ : BufTy).Contents (Elt F))
      = transpose S1x64 [1, 0] (W25 m c (Proc.devRef .tc main_arg7) : (⟨S64x1, .f32⟩ : BufTy).Contents (Elt F)) transposes_S64x1_S1x64_1_0 := by
    show StableHlo.after hostOps7 (W25 m c) (Proc.devRef .tc main_v246) = _
    after_results
  rw [h, W25_arg m c main_arg7 (by decide)]

theorem W26_main_v247 (c : Dev nD) :
    (W26 m c (Proc.devRef .tc main_v247) : (⟨S1x64, .f32⟩ : BufTy).Contents (Elt F))
      = transpose S1x64 [1, 0] (m ((c : Thread nD τ).loc main_arg9) : (⟨S64x1, .f32⟩ : BufTy).Contents (Elt F)) transposes_S64x1_S1x64_1_0 := by
  have h : (W26 m c (Proc.devRef .tc main_v247) : (⟨S1x64, .f32⟩ : BufTy).Contents (Elt F))
      = transpose S1x64 [1, 0] (W25 m c (Proc.devRef .tc main_arg9) : (⟨S64x1, .f32⟩ : BufTy).Contents (Elt F)) transposes_S64x1_S1x64_1_0 := by
    show StableHlo.after hostOps7 (W25 m c) (Proc.devRef .tc main_v247) = _
    after_results
  rw [h, W25_arg m c main_arg9 (by decide)]

theorem W26_main_v248 (c : Dev nD) :
    (W26 m c (Proc.devRef .tc main_v248) : (⟨S1x64, .f32⟩ : BufTy).Contents (Elt F))
      = transpose S1x64 [1, 0] (m ((c : Thread nD τ).loc main_arg11) : (⟨S64x1, .f32⟩ : BufTy).Contents (Elt F)) transposes_S64x1_S1x64_1_0 := by
  have h : (W26 m c (Proc.devRef .tc main_v248) : (⟨S1x64, .f32⟩ : BufTy).Contents (Elt F))
      = transpose S1x64 [1, 0] (W25 m c (Proc.devRef .tc main_arg11) : (⟨S64x1, .f32⟩ : BufTy).Contents (Elt F)) transposes_S64x1_S1x64_1_0 := by
    show StableHlo.after hostOps7 (W25 m c) (Proc.devRef .tc main_v248) = _
    after_results
  rw [h, W25_arg m c main_arg11 (by decide)]

theorem W26_main_v249 (c : Dev nD) :
    (W26 m c (Proc.devRef .tc main_v249) : (⟨S1x1, .f32⟩ : BufTy).Contents (Elt F))
      = shapeCast S1x1 (m ((c : Thread nD τ).loc main_arg8) : (⟨S1, .f32⟩ : BufTy).Contents (Elt F)) shapeCasts_S1_S1x1 := by
  have h : (W26 m c (Proc.devRef .tc main_v249) : (⟨S1x1, .f32⟩ : BufTy).Contents (Elt F))
      = shapeCast S1x1 (W25 m c (Proc.devRef .tc main_arg8) : (⟨S1, .f32⟩ : BufTy).Contents (Elt F)) shapeCasts_S1_S1x1 := by
    show StableHlo.after hostOps7 (W25 m c) (Proc.devRef .tc main_v249) = _
    after_results <;> rfl
  rw [h, W25_arg m c main_arg8 (by decide)]

theorem W26_main_v250 (c : Dev nD) :
    (W26 m c (Proc.devRef .tc main_v250) : (⟨S1x1, .f32⟩ : BufTy).Contents (Elt F))
      = shapeCast S1x1 (m ((c : Thread nD τ).loc main_arg10) : (⟨S1, .f32⟩ : BufTy).Contents (Elt F)) shapeCasts_S1_S1x1 := by
  have h : (W26 m c (Proc.devRef .tc main_v250) : (⟨S1x1, .f32⟩ : BufTy).Contents (Elt F))
      = shapeCast S1x1 (W25 m c (Proc.devRef .tc main_arg10) : (⟨S1, .f32⟩ : BufTy).Contents (Elt F)) shapeCasts_S1_S1x1 := by
    show StableHlo.after hostOps7 (W25 m c) (Proc.devRef .tc main_v250) = _
    after_results <;> rfl
  rw [h, W25_arg m c main_arg10 (by decide)]

theorem W26_main_v251 (c : Dev nD) :
    (W26 m c (Proc.devRef .tc main_v251) : (⟨S1x1, .f32⟩ : BufTy).Contents (Elt F))
      = shapeCast S1x1 (m ((c : Thread nD τ).loc main_arg12) : (⟨S1, .f32⟩ : BufTy).Contents (Elt F)) shapeCasts_S1_S1x1 := by
  have h : (W26 m c (Proc.devRef .tc main_v251) : (⟨S1x1, .f32⟩ : BufTy).Contents (Elt F))
      = shapeCast S1x1 (W25 m c (Proc.devRef .tc main_arg12) : (⟨S1, .f32⟩ : BufTy).Contents (Elt F)) shapeCasts_S1_S1x1 := by
    show StableHlo.after hostOps7 (W25 m c) (Proc.devRef .tc main_v251) = _
    after_results <;> rfl
  rw [h, W25_arg m c main_arg12 (by decide)]

theorem W27_main_v228 (c : Dev nD) : W27 m c (Proc.devRef .tc main_v228) = W20 m c (Proc.devRef .tc main_v228) :=
  (W27_of_ne m c main_v228 (by decide)).trans <|
  (W26_of m c main_v228 (by decide +kernel)).trans <|
  (W25_of_ne m c main_v228 (by decide)).trans <|
  (W24_of m c main_v228 (by decide +kernel)).trans <|
  (W23_of_ne m c main_v228 (by decide)).trans <|
  (W22_of m c main_v228 (by decide +kernel)).trans <|
  (W21_of_ne m c main_v228 (by decide))

theorem W27_main_v245 (c : Dev nD) : W27 m c (Proc.devRef .tc main_v245) = W26 m c (Proc.devRef .tc main_v245) :=
  W27_of_ne m c main_v245 (by decide)

theorem W27_loss_poi (c : Dev nD) :
    (W27 m c (Proc.devRef .tc main_v228) : (⟨S_, .f32⟩ : BufTy).Contents (Elt F))
      = addf (addf (Host.divf (Host.reduceAdd (W15 m c (Proc.devRef .tc main_v214) : (⟨S12000x1, .f32⟩ : BufTy).Contents (Elt F)) (constant S_ .f32 0x00000000#32) reducesTo_S12000x1_S_d0_1 h_S_) (constant S_ .f32 0x463B8000#32))
          (Host.divf (Host.reduceAdd (W17 m c (Proc.devRef .tc main_v219) : (⟨S12000x1, .f32⟩ : BufTy).Contents (Elt F)) (constant S_ .f32 0x00000000#32) reducesTo_S12000x1_S_d0_1 h_S_) (constant S_ .f32 0x463B8000#32)))
        (Host.divf (Host.reduceAdd (W19 m c (Proc.devRef .tc main_v225) : (⟨S12000x1, .f32⟩ : BufTy).Contents (Elt F)) (constant S_ .f32 0x00000000#32) reducesTo_S12000x1_S_d0_1 h_S_) (constant S_ .f32 0x463B8000#32)) := by
  rw [W27_main_v228, W20_main_v228, W18_main_v222, W16_main_v216, W18_main_v221, W20_main_v227]

theorem W27_loss_user (c : Dev nD) :
    (W27 m c (Proc.devRef .tc main_v245) : (⟨S_, .f32⟩ : BufTy).Contents (Elt F))
      = addf (addf (Host.divf (Host.reduceAdd (W21 m c (Proc.devRef .tc main_v231) : (⟨S4096x1, .f32⟩ : BufTy).Contents (Elt F)) (constant S_ .f32 0x00000000#32) reducesTo_S4096x1_S_d0_1 h_S_) (constant S_ .f32 0x45800000#32))
          (Host.divf (Host.reduceAdd (W23 m c (Proc.devRef .tc main_v236) : (⟨S4096x1, .f32⟩ : BufTy).Contents (Elt F)) (constant S_ .f32 0x00000000#32) reducesTo_S4096x1_S_d0_1 h_S_) (constant S_ .f32 0x45800000#32)))
        (Host.divf (Host.reduceAdd (W25 m c (Proc.devRef .tc main_v242) : (⟨S4096x1, .f32⟩ : BufTy).Contents (Elt F)) (constant S_ .f32 0x00000000#32) reducesTo_S4096x1_S_d0_1 h_S_) (constant S_ .f32 0x45800000#32)) := by
  rw [W27_main_v245, W26_main_v245, W24_main_v239, W22_main_v233, W24_main_v238, W26_main_v244]

end Cert.KernelIdeal.Hand

end
-- ==== Proof.KI.NceValue1.lean ====
import proofs.«133221_j41652592836945_2_alg».proof.Proof.KI.Nce1
import proofs.«133221_j41652592836945_2_alg».proof.Proof.KI.NceDefs
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.Tactic Idealize.SL.Sem Idealize.ShloMosaic.ValueIdx
open Idealize.ShloMosaic.Pipeline (Dat)
open Cert.KernelIdeal Cert.KernelIdeal.Gen
open scoped BigOperators

section Pieces

variable {F : FTy → Type} [FloatOps F] [Named F]

theorem hz1 : (![0, 0] : Fin 2 → Nat) = fun _ => 0 := funext fun a => by fin_cases a <;> rfl

theorem sout1_A_eq (c : Dev nD) (i : grid1.Coords) (arg2 : Memref sig .tc .vmem S600x64 .f32) (harg2 : arg2.IsWhole) (arg3 : Memref sig .tc .vmem S600x64 .bf16) (harg3 : arg3.IsWhole) (arg4 : Memref sig .tc .vmem S600x64 .f32) (harg4 : arg4.IsWhole) (arg5 : Memref sig .tc .vmem S2000x64 .bf16) (harg5 : arg5.IsWhole) (arg6 : Memref sig .tc .vmem S600x1 .f32) (harg6 : arg6.IsWhole) (arg7 : Memref sig .tc .vmem S600x1 .f32) (harg7 : arg7.IsWhole) (hc0 : cond1_0 i) (hc1 : ¬cond1_1 i)
    (x0 : Vec F S600x64 .f32) (x1 : Vec F S600x64 .bf16) (x2 : Vec F S600x64 .f32) (x3 : Vec F S2000x64 .bf16) :
    sout1_A_0 c i arg2 harg2 arg3 harg3 arg4 harg4 arg5 harg5 arg6 harg6 arg7 harg7 hc0 hc1 x0 x1 x2 x3 = k1_pay2 x1 x3 (k1_pay1 (F := F)) := by
  unfold sout1_A_0
  rw [View.read_writes_eq_canon _ _ _ (scover1_A_0 c i arg2 harg2 arg3 harg3 arg4 harg4 arg5 harg5 arg6 harg6 arg7 harg7 hc0 hc1 x0 x1 x2 x3)]
  unfold kernelRun1_A
  dsimp only
  sl_unfold_words
  rw [View.canon_cons_unit_zero (S := S600x1) hz1, View.readCov_unit_zero (S := S600x1) _ hz1]
  simp only [View.readAt_eq_ld, harg2.read_unread, harg3.read_unread, harg4.read_unread, harg5.read_unread, harg7.read_unread, View.ld_unit_zero (S := S600x64) hz1, View.ld_unit_zero (S := S2000x64) hz1, View.ld_unit_zero (S := S600x1) hz1]

theorem sout1_B_eq (c : Dev nD) (i : grid1.Coords) (arg2 : Memref sig .tc .vmem S600x64 .f32) (harg2 : arg2.IsWhole) (arg3 : Memref sig .tc .vmem S600x64 .bf16) (harg3 : arg3.IsWhole) (arg4 : Memref sig .tc .vmem S600x64 .f32) (harg4 : arg4.IsWhole) (arg5 : Memref sig .tc .vmem S2000x64 .bf16) (harg5 : arg5.IsWhole) (arg6 : Memref sig .tc .vmem S600x1 .f32) (harg6 : arg6.IsWhole) (arg7 : Memref sig .tc .vmem S600x1 .f32) (harg7 : arg7.IsWhole) (hc0 : ¬cond1_0 i) (hc1 : ¬cond1_1 i)
    (x0 : Vec F S600x64 .f32) (x1 : Vec F S600x64 .bf16) (x2 : Vec F S600x64 .f32) (x3 : Vec F S2000x64 .bf16) (xs0 : Vec F S600x1 .f32) :
    sout1_B_0 c i arg2 harg2 arg3 harg3 arg4 harg4 arg5 harg5 arg6 harg6 arg7 harg7 hc0 hc1 x0 x1 x2 x3 xs0 = k1_pay2 x1 x3 xs0 := by
  unfold sout1_B_0
  rw [View.read_writes_eq_canon _ _ _ (scover1_B_0 c i arg2 harg2 arg3 harg3 arg4 harg4 arg5 harg5 arg6 harg6 arg7 harg7 hc0 hc1 x0 x1 x2 x3 xs0)]
  unfold kernelRun1_B
  dsimp only
  sl_unfold_words
  rw [View.canon_unit_zero (S := S600x1) hz1]
  simp only [View.readAt_eq_ld, harg2.read_unread, harg3.read_unread, harg4.read_unread, harg5.read_unread, harg7.read_unread, View.ld_unit_zero (S := S600x64) hz1, View.ld_unit_zero (S := S2000x64) hz1, View.ld_unit_zero (S := S600x1) hz1]

theorem sout1_C_eq (c : Dev nD) (i : grid1.Coords) (arg2 : Memref sig .tc .vmem S600x64 .f32) (harg2 : arg2.IsWhole) (arg3 : Memref sig .tc .vmem S600x64 .bf16) (harg3 : arg3.IsWhole) (arg4 : Memref sig .tc .vmem S600x64 .f32) (harg4 : arg4.IsWhole) (arg5 : Memref sig .tc .vmem S2000x64 .bf16) (harg5 : arg5.IsWhole) (arg6 : Memref sig .tc .vmem S600x1 .f32) (harg6 : arg6.IsWhole) (arg7 : Memref sig .tc .vmem S600x1 .f32) (harg7 : arg7.IsWhole) (hc0 : ¬cond1_0 i) (hc1 : cond1_1 i)
    (x0 : Vec F S600x64 .f32) (x1 : Vec F S600x64 .bf16) (x2 : Vec F S600x64 .f32) (x3 : Vec F S2000x64 .bf16) (xs0 : Vec F S600x1 .f32) :
    sout1_C_0 c i arg2 harg2 arg3 harg3 arg4 harg4 arg5 harg5 arg6 harg6 arg7 harg7 hc0 hc1 x0 x1 x2 x3 xs0 = k1_pay2 x1 x3 xs0 := by
  unfold sout1_C_0
  rw [View.read_writes_eq_canon _ _ _ (scover1_C_0 c i arg2 harg2 arg3 harg3 arg4 harg4 arg5 harg5 arg6 harg6 arg7 harg7 hc0 hc1 x0 x1 x2 x3 xs0)]
  unfold kernelRun1_C
  dsimp only
  sl_unfold_words
  rw [View.canon_unit_zero (S := S600x1) hz1]
  simp only [View.readAt_eq_ld, harg2.read_unread, harg3.read_unread, harg4.read_unread, harg5.read_unread, harg7.read_unread, View.ld_unit_zero (S := S600x64) hz1, View.ld_unit_zero (S := S2000x64) hz1, View.ld_unit_zero (S := S600x1) hz1]

theorem out1_C_eq (c : Dev nD) (i : grid1.Coords) (arg2 : Memref sig .tc .vmem S600x64 .f32) (harg2 : arg2.IsWhole) (arg3 : Memref sig .tc .vmem S600x64 .bf16) (harg3 : arg3.IsWhole) (arg4 : Memref sig .tc .vmem S600x64 .f32) (harg4 : arg4.IsWhole) (arg5 : Memref sig .tc .vmem S2000x64 .bf16) (harg5 : arg5.IsWhole) (arg6 : Memref sig .tc .vmem S600x1 .f32) (harg6 : arg6.IsWhole) (arg7 : Memref sig .tc .vmem S600x1 .f32) (harg7 : arg7.IsWhole) (hc0 : ¬cond1_0 i) (hc1 : cond1_1 i)
    (x0 : Vec F S600x64 .f32) (x1 : Vec F S600x64 .bf16) (x2 : Vec F S600x64 .f32) (x3 : Vec F S2000x64 .bf16) (xs0 : Vec F S600x1 .f32) :
    out1_C_4 c i arg2 harg2 arg3 harg3 arg4 harg4 arg5 harg5 arg6 harg6 arg7 harg7 hc0 hc1 x0 x1 x2 x3 xs0 = k1_pay3 x0 x2 (k1_pay2 x1 x3 xs0) := by
  unfold out1_C_4
  rw [View.read_writes_eq_canon _ _ _ (cover1_C_4 c i arg2 harg2 arg3 harg3 arg4 harg4 arg5 harg5 arg6 harg6 arg7 harg7 hc0 hc1 x0 x1 x2 x3 xs0)]
  unfold kernelRun1_C
  dsimp only
  sl_unfold_words
  rw [View.canon_unit_zero (S := S600x1) hz1, View.readCov_unit_zero (S := S600x1) _ hz1]
  simp only [View.readAt_eq_ld, harg2.read_unread, harg3.read_unread, harg4.read_unread, harg5.read_unread, harg7.read_unread, View.ld_unit_zero (S := S600x64) hz1, View.ld_unit_zero (S := S2000x64) hz1, View.ld_unit_zero (S := S600x1) hz1]

end Pieces

section Fold

variable {F : FTy → Type} [FloatOps F] [Named F]
variable (V : (c : Dev nD) → (b : Ref sig .tc) → Buf (Elt F) ((c : Thread nD τ).loc b))

abbrev xb1_0 (c : Dev nD) (t : Fin cfg1.N) : Vec F S600x64 .f32 := iblk1 V c 0 t
abbrev xb1_1 (c : Dev nD) (t : Fin cfg1.N) : Vec F S600x64 .bf16 := iblk1 V c 1 t
abbrev xb1_2 (c : Dev nD) (t : Fin cfg1.N) : Vec F S600x64 .f32 := iblk1 V c 2 t
abbrev xb1_3 (c : Dev nD) (t : Fin cfg1.N) : Vec F S2000x64 .bf16 := iblk1 V c 3 t

def accReset1 (c : Dev nD) (n : ℕ) (h : n < cfg1.N) : Vec F S600x1 .f32 :=
  k1_pay2 (xb1_1 V c ⟨n, h⟩) (xb1_3 V c ⟨n, h⟩) (k1_pay1 (F := F))
def accStep1 (c : Dev nD) (n : ℕ) (h : n < cfg1.N) (acc : Vec F S600x1 .f32) : Vec F S600x1 .f32 :=
  k1_pay2 (xb1_1 V c ⟨n, h⟩) (xb1_3 V c ⟨n, h⟩) acc

theorem acc1_reset (c : Dev nD) (n : ℕ) (h : n < cfg1.N) (h0 : n % 6 = 0) :
    (outsAt1 V c n h).2 = accReset1 V c n h := by
  have h1 : ¬(⟨n, h⟩ : Fin cfg1.N).val % 6 = 5 := by dsimp only; omega
  rw [outsAt1_A V c ⟨n, h⟩ h0 h1]; dsimp only
  exact sout1_A_eq (F := F) c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩) (ms1_3 ⟨n, h⟩) (hs1_3 ⟨n, h⟩) (ms1_4 ⟨n, h⟩) (hs1_4 ⟨n, h⟩) scM1_0 (Memref.isWhole_whole _) ((hcond1_0 ⟨n, h⟩).mpr h0) (fun hh => h1 ((hcond1_1 ⟨n, h⟩).mp hh)) (iblk1 V c 0 ⟨n, h⟩) (iblk1 V c 1 ⟨n, h⟩) (iblk1 V c 2 ⟨n, h⟩) (iblk1 V c 3 ⟨n, h⟩)

theorem acc1_step (c : Dev nD) (n : ℕ) (h : n + 1 < cfg1.N) (h0 : ¬(n + 1) % 6 = 0) :
    (outsAt1 V c (n + 1) h).2 = accStep1 V c (n + 1) h (outsAt1 V c n (Nat.lt_of_succ_lt h)).2 := by
  by_cases h1 : (n + 1) % 6 = 5
  · rw [outsAt1_C V c ⟨n + 1, h⟩ h0 h1]; dsimp only
    exact sout1_C_eq (F := F) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) scM1_0 (Memref.isWhole_whole _) (fun hh => h0 ((hcond1_0 ⟨n + 1, h⟩).mp hh)) ((hcond1_1 ⟨n + 1, h⟩).mpr h1) (iblk1 V c 0 ⟨n + 1, h⟩) (iblk1 V c 1 ⟨n + 1, h⟩) (iblk1 V c 2 ⟨n + 1, h⟩) (iblk1 V c 3 ⟨n + 1, h⟩) (outsAt1 V c n (Nat.lt_of_succ_lt h)).2
  · rw [outsAt1_B V c ⟨n + 1, h⟩ h0 h1]; dsimp only
    exact sout1_B_eq (F := F) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) scM1_0 (Memref.isWhole_whole _) (fun hh => h0 ((hcond1_0 ⟨n + 1, h⟩).mp hh)) (fun hh => h1 ((hcond1_1 ⟨n + 1, h⟩).mp hh)) (iblk1 V c 0 ⟨n + 1, h⟩) (iblk1 V c 1 ⟨n + 1, h⟩) (iblk1 V c 2 ⟨n + 1, h⟩) (iblk1 V c 3 ⟨n + 1, h⟩) (outsAt1 V c n (Nat.lt_of_succ_lt h)).2

theorem acc1_fold (c : Dev nD) (t : ℕ) (ht : t < cfg1.N) (h' : 6 * (t / 6) + t % 6 < cfg1.N) :
    (outsAt1 V c t ht).2 = Pipeline.accAt (accReset1 V c) (accStep1 V c) (6 * (t / 6)) (t % 6) h' :=
  Pipeline.eq_accAt_of_mod (fun n h => (outsAt1 V c n h).2) 6 (accReset1 V c) (accStep1 V c)
    (acc1_reset V c) (acc1_step V c) (by decide) t ht h'

theorem out1_last (c : Dev nD) (t : Fin cfg1.N) (h1 : t.val % 6 = 5) :
    (outsAt1 V c t.val t.isLt).1 = k1_pay3 (xb1_0 V c t) (xb1_2 V c t) (outsAt1 V c t.val t.isLt).2 := by
  have h0 : ¬t.val % 6 = 0 := by omega
  rw [outsAt1_C V c t h0 h1]; dsimp only
  exact (out1_C_eq (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) (fun hh => h0 ((hcond1_0 t).mp hh)) ((hcond1_1 t).mpr h1) (iblk1 V c 0 t) (iblk1 V c 1 t) (iblk1 V c 2 t) (iblk1 V c 3 t) _).trans
    (congrArg (k1_pay3 (xb1_0 V c t) (xb1_2 V c t)) (sout1_C_eq (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) (fun hh => h0 ((hcond1_0 t).mp hh)) ((hcond1_1 t).mpr h1) (iblk1 V c 0 t) (iblk1 V c 1 t) (iblk1 V c 2 t) (iblk1 V c 3 t) _).symm)

end Fold

section Payloads

theorem lhs_mm1_0 (i : S600x2000.Idx) (q : dot_S600x64_S64x2000_S600x2000_1_0_0_1_n_n.contr.Idx) :
    (dot_S600x64_S64x2000_S600x2000_1_0_0_1_n_n.lhsIdx i q 0).val = (i 0).val := by
  unfold DotDims.lhsIdx
  rw [dif_neg (show ¬(0 : Fin S600x64.rank) ∈ dot_S600x64_S64x2000_S600x2000_1_0_0_1_n_n.lhsBatch by decide), dif_pos (show (0 : Fin S600x64.rank) ∈ dot_S600x64_S64x2000_S600x2000_1_0_0_1_n_n.lhsNonContracting by decide)]
  rfl
theorem lhs_mm1_1 (i : S600x2000.Idx) (q : dot_S600x64_S64x2000_S600x2000_1_0_0_1_n_n.contr.Idx) :
    (dot_S600x64_S64x2000_S600x2000_1_0_0_1_n_n.lhsIdx i q 1).val = (q ⟨0, by decide⟩).val :=
  dot_S600x64_S64x2000_S600x2000_1_0_0_1_n_n.lhsIdx_val_of_single rfl i q

theorem rhs_mm1_0 (i : S600x2000.Idx) (q : dot_S600x64_S64x2000_S600x2000_1_0_0_1_n_n.contr.Idx) :
    (dot_S600x64_S64x2000_S600x2000_1_0_0_1_n_n.rhsIdx i q 0).val = (q ⟨0, by decide⟩).val :=
  dot_S600x64_S64x2000_S600x2000_1_0_0_1_n_n.rhsIdx_val_of_single rfl i q
theorem rhs_mm1_1 (i : S600x2000.Idx) (q : dot_S600x64_S64x2000_S600x2000_1_0_0_1_n_n.contr.Idx) :
    (dot_S600x64_S64x2000_S600x2000_1_0_0_1_n_n.rhsIdx i q 1).val = (i 1).val := by
  unfold DotDims.rhsIdx
  rw [dif_neg (show ¬(1 : Fin S64x2000.rank) ∈ dot_S600x64_S64x2000_S600x2000_1_0_0_1_n_n.rhsBatch by decide), dif_pos (show (1 : Fin S64x2000.rank) ∈ dot_S600x64_S64x2000_S600x2000_1_0_0_1_n_n.rhsNonContracting by decide)]
  rfl

theorem mm1_apply (a : FVec Ideal S600x64 .bf16) (b : FVec Ideal S64x2000 .bf16) (r : Fin 600) (q : Fin 2000) :
    matmul dot_S600x64_S64x2000_S600x2000_1_0_0_1_n_n none a b (constant S600x2000 .f32 0x00000000#32) (ix2 r q)
      = ∑ k : Fin 64, a (ix2 r k) * b (ix2 k q) := by
  simp only [matmul]
  rw [Ideal.matmul_constant_zero_apply, ← Equiv.sum_comp (contrEquiv1 dot_S600x64_S64x2000_S600x2000_1_0_0_1_n_n 64 rfl rfl).symm]
  refine Finset.sum_congr rfl fun k _ => ?_
  have hk := contrEquiv1_symm_val dot_S600x64_S64x2000_S600x2000_1_0_0_1_n_n 64 rfl rfl k
  have el : dot_S600x64_S64x2000_S600x2000_1_0_0_1_n_n.lhsIdx (ix2 r q) ((contrEquiv1 dot_S600x64_S64x2000_S600x2000_1_0_0_1_n_n 64 rfl rfl).symm k) = ix2 r k := funext fun a => Fin.ext (by
    match a with
    | ⟨0, _⟩ => exact lhs_mm1_0 _ _
    | ⟨1, _⟩ => exact (lhs_mm1_1 _ _).trans hk)
  have er : dot_S600x64_S64x2000_S600x2000_1_0_0_1_n_n.rhsIdx (ix2 r q) ((contrEquiv1 dot_S600x64_S64x2000_S600x2000_1_0_0_1_n_n 64 rfl rfl).symm k) = ix2 k q := funext fun a => Fin.ext (by
    match a with
    | ⟨0, _⟩ => exact (rhs_mm1_0 _ _).trans hk
    | ⟨1, _⟩ => exact rhs_mm1_1 _ _)
  rw [el, er]

theorem tr1_apply {α : Type} (x : S2000x64.Idx → α) (k : Fin 64) (q : Fin 2000) :
    transpose S64x2000 [1, 0] x transposes_S2000x64_p1_0_S64x2000 (ix2 k q) = x (ix2 q k) :=
  transpose_apply [1, 0] x transposes_S2000x64_p1_0_S64x2000 (ix2 k q) (ix2 q k) fun b => by
    match b with
    | ⟨0, _⟩ => rfl
    | ⟨1, _⟩ => rfl

theorem col1_apply {α : Type} (x : S600.Idx → α) (r : Fin 600) (z : Fin 1) :
    shapeCast S600x1 x shapeCasts_S600_S600x1 (ix2 r z) = x (ix1 r) :=
  shapeCast_apply x shapeCasts_S600_S600x1 (ix2 r z) (ix1 r) (by
    rw [Shape.rowMajor_val_one, Shape.rowMajor_val_two]
    show r.val = r.val * 1 + z.val
    have := z.isLt; omega)

theorem lift1_2000 (r : Fin 600) (q : Fin 2000) : reduces_S600x2000_S600.lift (ix1 r) q = ix2 r q :=
  funext fun a => Fin.ext (by match a with | ⟨0, _⟩ => rfl | ⟨1, _⟩ => rfl)
theorem lift1_64 (r : Fin 600) (k : Fin 64) : reduces_S600x64_S600.lift (ix1 r) k = ix2 r k :=
  funext fun a => Fin.ext (by match a with | ⟨0, _⟩ => rfl | ⟨1, _⟩ => rfl)

theorem inv_temp1 : (Named.named (F := Ideal) κ "inv_temp" (φ := .f32) 0x40A00000#32 : EReal) = ((67108864 / 13421773 : ℝ) : EReal) := rfl

theorem k1_pay1_apply (i : S600x1.Idx) : k1_pay1 (F := Ideal) i = 0 := by
  unfold k1_pay1
  refine (congrFun (shapeCast_self _ _) i).trans ?_
  exact Ideal.ofBits_zero_f32

theorem k1_pay2_apply (v3 : Vec Ideal S600x64 .bf16) (v5 : Vec Ideal S2000x64 .bf16) (v11 : Vec Ideal S600x1 .f32) (r : Fin 600) (z : Fin 1) :
    k1_pay2 (F := Ideal) v3 v5 v11 (ix2 r z)
      = v11 (ix2 r z) + ∑ q : Fin 2000, Ideal.exp ((∑ k : Fin 64, v3 (ix2 r k) * v5 (ix2 q k)) * ((67108864 / 13421773 : ℝ) : EReal)) := by
  unfold k1_pay2
  refine (congrFun (shapeCast_self _ _) (ix2 r z)).trans ?_
  refine (addf_apply _ _ _).trans ?_
  refine congrArg (fun y => v11 (ix2 r z) + y) ?_
  refine (col1_apply _ r z).trans ?_
  refine (Ideal.multiReduction_add_single _ 0x00000000#32 reduces_S600x2000_S600 _ _ (ix1 r)).trans ?_
  refine Finset.sum_congr rfl fun q _ => ?_
  refine congrArg Ideal.exp ?_
  refine congrArg₂ (fun a b : EReal => a * b) ?_ inv_temp1
  refine (congrArg _ (lift1_2000 r q)).trans ?_
  refine (mm1_apply _ _ r q).trans ?_
  exact Finset.sum_congr rfl fun k _ => congrArg₂ (fun a b : EReal => a * b)
    (congrFun (shapeCast_self v3 _) (ix2 r k)) ((tr1_apply _ k q).trans (congrFun (shapeCast_self v5 _) (ix2 q k)))

theorem k1_pay3_apply (v22 v24 : Vec Ideal S600x64 .f32) (v32 : Vec Ideal S600x1 .f32) (r : Fin 600) (z : Fin 1) :
    k1_pay3 (F := Ideal) v22 v24 v32 (ix2 r z)
      = 0 - Ideal.log (Ideal.div (Ideal.exp ((∑ k : Fin 64, v22 (ix2 r k) * v24 (ix2 r k)) * ((67108864 / 13421773 : ℝ) : EReal)))
          (v32 (ix2 r z) + Ideal.ofBits .f32 0x322BCC77#32) + Ideal.ofBits .f32 0x322BCC77#32) := by
  unfold k1_pay3
  refine (congrArg (fun y : EReal => Ideal.ofBits .f32 0x00000000#32 - Ideal.log (Ideal.div (Ideal.exp y)
      (v32 (ix2 r z) + Ideal.ofBits .f32 0x322BCC77#32) + Ideal.ofBits .f32 0x322BCC77#32)) ?_).trans
    (congrArg (fun w : EReal => w - Ideal.log (Ideal.div (Ideal.exp ((∑ k : Fin 64, v22 (ix2 r k) * v24 (ix2 r k)) * ((67108864 / 13421773 : ℝ) : EReal)))
      (v32 (ix2 r z) + Ideal.ofBits .f32 0x322BCC77#32) + Ideal.ofBits .f32 0x322BCC77#32)) Ideal.ofBits_zero_f32)
  refine congrArg₂ (fun a b : EReal => a * b) ?_ inv_temp1
  refine (col1_apply _ r z).trans ?_
  refine (Ideal.multiReduction_add_single _ 0x00000000#32 reduces_S600x64_S600 _ _ (ix1 r)).trans ?_
  exact Finset.sum_congr rfl fun k _ => (congrArg _ (lift1_64 r k)).trans
    (congrArg₂ (fun a b : EReal => a * b) (congrFun (shapeCast_self v22 _) (ix2 r k)) (congrFun (shapeCast_self v24 _) (ix2 r k)))

end Payloads

section Arrays

variable (V : (c : Dev nD) → (b : Ref sig .tc) → Buf (Elt Ideal) ((c : Thread nD τ).loc b))

abbrev ar1_0 (c : Dev nD) : Vec Ideal S12000x64 .f32 := V c (Pipeline.arrRef spec1 0)
abbrev ar1_1 (c : Dev nD) : Vec Ideal S12000x64 .bf16 := V c (Pipeline.arrRef spec1 1)
abbrev ar1_2 (c : Dev nD) : Vec Ideal S12000x64 .f32 := V c (Pipeline.arrRef spec1 2)
abbrev ar1_3 (c : Dev nD) : Vec Ideal S12000x64 .bf16 := V c (Pipeline.arrRef spec1 3)

theorem idx1_0 : ∀ t : Fin cfg1.N, win1_0.index t (0 : Fin 2) = t.val / 6 ∧ win1_0.index t (1 : Fin 2) = 0 :=
  (by decide +kernel : ∀ t : Fin grid1.N, win1_0.index t (0 : Fin 2) = t.val / 6 ∧ win1_0.index t (1 : Fin 2) = 0)
theorem idx1_1 : ∀ t : Fin cfg1.N, win1_1.index t (0 : Fin 2) = t.val / 6 ∧ win1_1.index t (1 : Fin 2) = 0 :=
  (by decide +kernel : ∀ t : Fin grid1.N, win1_1.index t (0 : Fin 2) = t.val / 6 ∧ win1_1.index t (1 : Fin 2) = 0)
theorem idx1_2 : ∀ t : Fin cfg1.N, win1_2.index t (0 : Fin 2) = t.val / 6 ∧ win1_2.index t (1 : Fin 2) = 0 :=
  (by decide +kernel : ∀ t : Fin grid1.N, win1_2.index t (0 : Fin 2) = t.val / 6 ∧ win1_2.index t (1 : Fin 2) = 0)
theorem idx1_3 : ∀ t : Fin cfg1.N, win1_3.index t (0 : Fin 2) = t.val % 6 ∧ win1_3.index t (1 : Fin 2) = 0 :=
  (by decide +kernel : ∀ t : Fin grid1.N, win1_3.index t (0 : Fin 2) = t.val % 6 ∧ win1_3.index t (1 : Fin 2) = 0)
theorem idx1_4 : ∀ t : Fin cfg1.N, win1_4.index t (0 : Fin 2) = t.val / 6 ∧ win1_4.index t (1 : Fin 2) = 0 :=
  (by decide +kernel : ∀ t : Fin grid1.N, win1_4.index t (0 : Fin 2) = t.val / 6 ∧ win1_4.index t (1 : Fin 2) = 0)

theorem row1_lt (t : Fin cfg1.N) (r : Fin 600) : 600 * (t.val / 6) + r.val < 12000 := by
  have := t.isLt; have hN : cfg1.N = 120 := N_1; have := r.isLt; omega

theorem col1_lt (t : Fin cfg1.N) (q : Fin 2000) : (t.val % 6) * 2000 + q.val < 12000 := by
  have := q.isLt; have := Nat.mod_lt t.val (show 0 < 6 by decide); omega

theorem xb1_0_apply (c : Dev nD) (t : Fin cfg1.N) (r : Fin 600) (k : Fin 64) :
    xb1_0 V c t (ix2 r k) = ar1_0 V c (ix2 (⟨600 * (t.val / 6) + r.val, row1_lt t r⟩ : Fin 12000) k) := by
  unfold xb1_0 iblk1
  rw [View.read_apply]
  show V c (Pipeline.arrRef spec1 0) (((cfg1.win 0).blk t).view.emb (ix2 r k)) = V c (Pipeline.arrRef spec1 0) _
  refine congrArg (V c (Pipeline.arrRef spec1 0)) ?_
  funext a; apply Fin.ext
  match a with
  | ⟨0, _⟩ => show win1_0.index t 0 * 600 + 1 * r.val = 600 * (t.val / 6) + r.val; rw [(idx1_0 t).1]; omega
  | ⟨1, _⟩ => show win1_0.index t 1 * 64 + 1 * k.val = k.val; rw [(idx1_0 t).2]; omega

theorem xb1_1_apply (c : Dev nD) (t : Fin cfg1.N) (r : Fin 600) (k : Fin 64) :
    xb1_1 V c t (ix2 r k) = ar1_1 V c (ix2 (⟨600 * (t.val / 6) + r.val, row1_lt t r⟩ : Fin 12000) k) := by
  unfold xb1_1 iblk1
  rw [View.read_apply]
  show V c (Pipeline.arrRef spec1 1) (((cfg1.win 1).blk t).view.emb (ix2 r k)) = V c (Pipeline.arrRef spec1 1) _
  refine congrArg (V c (Pipeline.arrRef spec1 1)) ?_
  funext a; apply Fin.ext
  match a with
  | ⟨0, _⟩ => show win1_1.index t 0 * 600 + 1 * r.val = 600 * (t.val / 6) + r.val; rw [(idx1_1 t).1]; omega
  | ⟨1, _⟩ => show win1_1.index t 1 * 64 + 1 * k.val = k.val; rw [(idx1_1 t).2]; omega

theorem xb1_2_apply (c : Dev nD) (t : Fin cfg1.N) (r : Fin 600) (k : Fin 64) :
    xb1_2 V c t (ix2 r k) = ar1_2 V c (ix2 (⟨600 * (t.val / 6) + r.val, row1_lt t r⟩ : Fin 12000) k) := by
  unfold xb1_2 iblk1
  rw [View.read_apply]
  show V c (Pipeline.arrRef spec1 2) (((cfg1.win 2).blk t).view.emb (ix2 r k)) = V c (Pipeline.arrRef spec1 2) _
  refine congrArg (V c (Pipeline.arrRef spec1 2)) ?_
  funext a; apply Fin.ext
  match a with
  | ⟨0, _⟩ => show win1_2.index t 0 * 600 + 1 * r.val = 600 * (t.val / 6) + r.val; rw [(idx1_2 t).1]; omega
  | ⟨1, _⟩ => show win1_2.index t 1 * 64 + 1 * k.val = k.val; rw [(idx1_2 t).2]; omega

theorem xb1_3_apply (c : Dev nD) (t : Fin cfg1.N) (q : Fin 2000) (k : Fin 64) :
    xb1_3 V c t (ix2 q k) = ar1_3 V c (ix2 (⟨(t.val % 6) * 2000 + q.val, col1_lt t q⟩ : Fin 12000) k) := by
  unfold xb1_3 iblk1
  rw [View.read_apply]
  show V c (Pipeline.arrRef spec1 3) (((cfg1.win 3).blk t).view.emb (ix2 q k)) = V c (Pipeline.arrRef spec1 3) _
  refine congrArg (V c (Pipeline.arrRef spec1 3)) ?_
  funext a; apply Fin.ext
  match a with
  | ⟨0, _⟩ => show win1_3.index t 0 * 2000 + 1 * q.val = (t.val % 6) * 2000 + q.val; rw [(idx1_3 t).1]; omega
  | ⟨1, _⟩ => show win1_3.index t 1 * 64 + 1 * k.val = k.val; rw [(idx1_3 t).2]; omega

def rowSum1 (c : Dev nD) (n : ℕ) (r : Fin 600) : EReal :=
  if h : n < cfg1.N then
    ∑ q : Fin 2000, Ideal.exp ((∑ k : Fin 64, xb1_1 V c ⟨n, h⟩ (ix2 r k) * xb1_3 V c ⟨n, h⟩ (ix2 q k)) * ((67108864 / 13421773 : ℝ) : EReal))
  else 0

theorem accReset1_apply (c : Dev nD) (n : ℕ) (h : n < cfg1.N) (i : S600x1.Idx) :
    accReset1 V c n h i = (fun _ : S600x1.Idx => (0 : EReal)) i + rowSum1 V c n (i 0) := by
  obtain ⟨r, z, rfl⟩ : ∃ (r : Fin 600) (z : Fin 1), i = ix2 r z := ⟨i 0, i 1, eq_ix2 i⟩
  unfold accReset1 rowSum1
  rw [dif_pos h]
  exact (k1_pay2_apply _ _ _ r z).trans (congrArg (fun y : EReal => y + _) (k1_pay1_apply (ix2 r z)))

theorem accStep1_apply (c : Dev nD) (n : ℕ) (h : n < cfg1.N) (acc : Vec Ideal S600x1 .f32) (i : S600x1.Idx) :
    accStep1 V c n h acc i = acc i + rowSum1 V c n (i 0) := by
  obtain ⟨r, z, rfl⟩ : ∃ (r : Fin 600) (z : Fin 1), i = ix2 r z := ⟨i 0, i 1, eq_ix2 i⟩
  unfold accStep1 rowSum1
  rw [dif_pos h]
  exact k1_pay2_apply _ _ _ r z

theorem acc1_apply (c : Dev nD) (t : Fin cfg1.N) (i : S600x1.Idx) :
    (outsAt1 V c t.val t.isLt).2 i = 0 + ∑ s ∈ Finset.range (t.val % 6 + 1), rowSum1 V c (6 * (t.val / 6) + s) (i 0) := by
  have hlt : 6 * (t.val / 6) + t.val % 6 < cfg1.N := by rw [Nat.div_add_mod]; exact t.isLt
  rw [acc1_fold V c t.val t.isLt hlt]
  exact Pipeline.accAt_add_apply (accReset1 V c) (accStep1 V c) (fun _ => (0 : EReal)) (fun n i => rowSum1 V c n (i 0))
    (6 * (t.val / 6)) 5 (fun h i => accReset1_apply V c _ h i) (fun n h acc i _ _ => accStep1_apply V c n h acc i)
    (t.val % 6) (by have := Nat.mod_lt t.val (show 0 < 6 by decide); omega) hlt i

theorem rowSum1_eq (c : Dev nD) (t : Fin cfg1.N) (j : Fin 6) (r : Fin 600) :
    rowSum1 V c (6 * (t.val / 6) + j.val) r
      = ∑ q : Fin 2000, Ideal.exp ((∑ k : Fin 64, ar1_1 V c (ix2 (⟨600 * (t.val / 6) + r.val, row1_lt t r⟩ : Fin 12000) k)
          * ar1_3 V c (ix2 (⟨j.val * 2000 + q.val, by omega⟩ : Fin 12000) k)) * ((67108864 / 13421773 : ℝ) : EReal)) := by
  have hN : cfg1.N = 120 := N_1
  have h : 6 * (t.val / 6) + j.val < cfg1.N := by have := t.isLt; have := j.isLt; omega
  unfold rowSum1
  rw [dif_pos h]
  refine Finset.sum_congr rfl fun q _ => congrArg Ideal.exp (congrArg (fun y : EReal => y * ((67108864 / 13421773 : ℝ) : EReal)) (Finset.sum_congr rfl fun k _ => ?_))
  rw [xb1_1_apply V c ⟨_, h⟩ r k, xb1_3_apply V c ⟨_, h⟩ q k]
  refine congrArg₂ (fun a b : EReal => a * b) (congrArg (fun R : Fin 12000 => ar1_1 V c (ix2 R k)) (Fin.ext ?_))
    (congrArg (fun R : Fin 12000 => ar1_3 V c (ix2 R k)) (Fin.ext ?_))
  · show 600 * ((6 * (t.val / 6) + j.val) / 6) + r.val = 600 * (t.val / 6) + r.val
    have := j.isLt; omega
  · show (6 * (t.val / 6) + j.val) % 6 * 2000 + q.val = j.val * 2000 + q.val
    have := j.isLt; omega

theorem acc1_last (c : Dev nD) (t : Fin cfg1.N) (h1 : t.val % 6 = 5) (r : Fin 600) (z : Fin 1) :
    (outsAt1 V c t.val t.isLt).2 (ix2 r z)
      = ∑ j : Fin 6, ∑ q : Fin 2000, Ideal.exp ((∑ k : Fin 64, ar1_1 V c (ix2 (⟨600 * (t.val / 6) + r.val, row1_lt t r⟩ : Fin 12000) k)
          * ar1_3 V c (ix2 (⟨j.val * 2000 + q.val, by omega⟩ : Fin 12000) k)) * ((67108864 / 13421773 : ℝ) : EReal)) := by
  have h6 : t.val % 6 + 1 = 6 := by omega
  rw [acc1_apply V c t (ix2 r z), h6, zero_add, Finset.sum_range]
  exact Finset.sum_congr rfl fun j _ => rowSum1_eq V c t j r

theorem flushed1_eq (c : Dev nD) (t : Fin cfg1.N) (hf : (cfg1.win 4).flush t = true) :
    (dat1 V c).flushed 4 t
      = ((cfg1.win 4).blk t).view.read (Elt Ideal) (nceRows12000 (ar1_0 V c) (ar1_1 V c) (ar1_2 V c) (ar1_3 V c)) := by
  have h1 : t.val % 6 = 5 := (flush1_4 t).mp hf
  show (cfg1.win 4).cut (grid1.coords t) ((dat1 V c).after 4 t) = _
  rw [after1_4]
  funext y
  obtain ⟨r, z, rfl⟩ : ∃ (r : Fin 600) (z : Fin 1), y = ix2 r z := ⟨y 0, y 1, eq_ix2 y⟩
  rw [View.read_apply]
  show (outsAt1 V c t.val t.isLt).1 (ix2 r z)
    = nceRows12000 (ar1_0 V c) (ar1_1 V c) (ar1_2 V c) (ar1_3 V c) (((cfg1.win 4).blk t).view.emb (ix2 r z))
  have hemb : ((cfg1.win 4).blk t).view.emb (ix2 r z) = ix2 (⟨600 * (t.val / 6) + r.val, row1_lt t r⟩ : Fin 12000) z := by
    funext a; apply Fin.ext
    match a with
    | ⟨0, _⟩ => show win1_4.index t 0 * 600 + 1 * r.val = 600 * (t.val / 6) + r.val; rw [(idx1_4 t).1]; omega
    | ⟨1, _⟩ => show win1_4.index t 1 * 1 + 1 * z.val = z.val; rw [(idx1_4 t).2]; omega
  refine Eq.trans ?_ (congrArg (nceRows12000 (ar1_0 V c) (ar1_1 V c) (ar1_2 V c) (ar1_3 V c)) hemb.symm)
  rw [nceRows12000_ix2, out1_last V c t h1]
  refine (k1_pay3_apply _ _ _ r z).trans ?_
  rw [acc1_last V c t h1 r z]
  refine congrArg (fun P : EReal => 0 - Ideal.log (Ideal.div (Ideal.exp (P * ((67108864 / 13421773 : ℝ) : EReal))) (_ + Ideal.ofBits .f32 0x322BCC77#32) + Ideal.ofBits .f32 0x322BCC77#32)) ?_
  exact Finset.sum_congr rfl fun k _ => by rw [xb1_0_apply V c t r k, xb1_2_apply V c t r k]

theorem final1_4 (c : Dev nD) :
    (dat1 V c).arrAt 4 cfg1.N = nceRows12000 (ar1_0 V c) (ar1_1 V c) (ar1_2 V c) (ar1_3 V c) :=
  (dat1 V c).arrAt_eq_of_cover 4 _ (flushed1_eq V c) fun i => by
    have hi0 : (i 0 : Nat) < 12000 := (i 0).isLt
    have hi1 : (i 1 : Nat) < 1 := (i 1).isLt
    have hN : cfg1.N = 120 := N_1
    obtain ⟨t, ht⟩ : ∃ t : Fin cfg1.N, t.val = 6 * ((i 0 : Nat) / 600) + 5 := ⟨⟨_, by omega⟩, rfl⟩
    refine ⟨t, (flush1_4 t).mpr (by omega), ?_⟩
    show i ∈ ((View.whole (Pipeline.arrRef spec1 4)).slice (win1_4.rect t)).set
    rw [View.set_slice_whole, Rect.mem_set_unit]
    intro a
    match a with
    | ⟨0, _⟩ =>
      show win1_4.index t 0 * 600 ≤ (i 0 : Nat) ∧ (i 0 : Nat) < win1_4.index t 0 * 600 + 600
      rw [(idx1_4 t).1]; omega
    | ⟨1, _⟩ =>
      show win1_4.index t 1 * 1 ≤ (i 1 : Nat) ∧ (i 1 : Nat) < win1_4.index t 1 * 1 + 1
      rw [(idx1_4 t).2]; omega

end Arrays

end Cert.KernelIdeal.Hand

end
-- ==== Proof.KI.Results.lean ====
import proofs.«133221_j41652592836945_2_alg».proof.Proof.KI.Args
import proofs.«133221_j41652592836945_2_alg».proof.Proof.KI.FusionBridge
import proofs.«133221_j41652592836945_2_alg».proof.Proof.KI.CatSplit
import proofs.«133221_j41652592836945_2_alg».proof.Proof.KI.NceLossK
import proofs.«133221_j41652592836945_2_alg».proof.Proof.KI.GateBridge
import proofs.«133221_j41652592836945_2_alg».proof.Proof.KI.Host1
import proofs.«133221_j41652592836945_2_alg».proof.Proof.KI.HostRest
import proofs.«133221_j41652592836945_2_alg».proof.Proof.KI.HostLoss
import proofs.«133221_j41652592836945_2_alg».proof.Proof.KI.NceValue1
import proofs.«133221_j41652592836945_2_alg».proof.Proof.KI.NceValue2
import proofs.«133221_j41652592836945_2_alg».proof.Proof.KI.NceValue3
import proofs.«133221_j41652592836945_2_alg».proof.Proof.KI.NceValue4
import proofs.«133221_j41652592836945_2_alg».proof.Proof.KI.NceValue5
import proofs.«133221_j41652592836945_2_alg».proof.Proof.KI.NceValue6

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen
open Cert.ReferenceIdeal.Hand (Args gate convStack mv_step geo_step di_step geo_gated seq_gated col_gated
  hg_pois geo_pois trans_pois hg_bu geo_bu trans_bu n_hg_p n_geo_p n_tr_p n_hg_u n_geo_u n_tr_u l2norm12000 l2norm4096
  nce_p_hg_geo nce_p_hg_tr nce_p_geo_tr nce_u_hg_geo nce_u_hg_tr nce_u_geo_tr res_fusion res_loss_poi res_loss_user)

variable (m : (ℓ : Loc nD τ sig) → Buf (Elt Ideal) ℓ)

section Compose
variable (c : Dev nD)

theorem kv0_0 : W1 m c (Proc.devRef .tc main_v0_0) = geo_gated (argsK m c) :=
  ((W1_arr m c 7).trans (region0_out7 (V0 m) c)).trans rfl
theorem kv0_1 : W1 m c (Proc.devRef .tc main_v0_1) = seq_gated (argsK m c) :=
  ((W1_arr m c 8).trans (region0_out8 (V0 m) c)).trans rfl
theorem kv0_2 : W1 m c (Proc.devRef .tc main_v0_2) = col_gated (argsK m c) :=
  ((W1_arr m c 9).trans (region0_out9 (V0 m) c)).trans rfl

theorem k_hg_pois : W2 m c (Proc.devRef .tc main_v61) = hg_pois (argsK m c) := by
  rw [hg_poisK, kv0_2]; rfl
theorem k_geo_pois : W2 m c (Proc.devRef .tc main_v96) = geo_pois (argsK m c) := by
  rw [geo_poisK, kv0_0]; rfl
theorem k_trans_pois : W2 m c (Proc.devRef .tc main_v157) = trans_pois (argsK m c) := by
  rw [trans_poisK, kv0_1]; rfl

theorem k_hg_bu : W2 m c (Proc.devRef .tc main_v179) = hg_bu (argsK m c) := by
  rw [hg_buK, catBu0_eq, k_hg_pois]; rfl
theorem k_geo_bu : W2 m c (Proc.devRef .tc main_v180) = geo_bu (argsK m c) := by
  rw [geo_buK, catBu1_eq, k_geo_pois]; rfl
theorem k_trans_bu : W2 m c (Proc.devRef .tc main_v181) = trans_bu (argsK m c) := by
  rw [trans_buK, catBu2_eq, k_trans_pois]; rfl

theorem k_n_hg_p : W14 m c (Proc.devRef .tc main_v186) = n_hg_p (argsK m c) := by rw [W14_main_v186, k_hg_pois]; rfl
theorem k_n_geo_p : W14 m c (Proc.devRef .tc main_v191) = n_geo_p (argsK m c) := by rw [W14_main_v191, k_geo_pois]; rfl
theorem k_n_tr_p : W14 m c (Proc.devRef .tc main_v196) = n_tr_p (argsK m c) := by rw [W14_main_v196, k_trans_pois]; rfl
theorem k_n_hg_u : W14 m c (Proc.devRef .tc main_v201) = n_hg_u (argsK m c) := by rw [W14_main_v201, k_hg_bu]; rfl
theorem k_n_geo_u : W14 m c (Proc.devRef .tc main_v206) = n_geo_u (argsK m c) := by rw [W14_main_v206, k_geo_bu]; rfl
theorem k_n_tr_u : W14 m c (Proc.devRef .tc main_v211) = n_tr_u (argsK m c) := by rw [W14_main_v211, k_trans_bu]; rfl

theorem rows1 : W15 m c (Proc.devRef .tc main_v214)
    = nceRows12000 (n_hg_p (argsK m c)) (truncf (F := Ideal) .bf16 (n_hg_p (argsK m c) : FVec Ideal S12000x64 .f32) bitsLt_bf16_f32)
        (n_geo_p (argsK m c)) (truncf (F := Ideal) .bf16 (n_geo_p (argsK m c) : FVec Ideal S12000x64 .f32) bitsLt_bf16_f32) := by
  refine ((W15_arr m c 4).trans (final1_4 (V14 m) c)).trans ?_
  show nceRows12000 (W14 m c (Proc.devRef .tc main_v186)) (W14 m c (Proc.devRef .tc main_v212)) (W14 m c (Proc.devRef .tc main_v191)) (W14 m c (Proc.devRef .tc main_v213)) = _
  rw [W14_main_v212, W14_main_v213, k_n_hg_p, k_n_geo_p]

theorem rows2 : W17 m c (Proc.devRef .tc main_v219)
    = nceRows12000 (n_hg_p (argsK m c)) (truncf (F := Ideal) .bf16 (n_hg_p (argsK m c) : FVec Ideal S12000x64 .f32) bitsLt_bf16_f32)
        (n_tr_p (argsK m c)) (truncf (F := Ideal) .bf16 (n_tr_p (argsK m c) : FVec Ideal S12000x64 .f32) bitsLt_bf16_f32) := by
  refine ((W17_arr m c 4).trans (final2_4 (V16 m) c)).trans ?_
  show nceRows12000 (W16 m c (Proc.devRef .tc main_v186)) (W16 m c (Proc.devRef .tc main_v217)) (W16 m c (Proc.devRef .tc main_v196)) (W16 m c (Proc.devRef .tc main_v218)) = _
  rw [keep16_main_v186, in16_main_v217, keep16_main_v196, in16_main_v218, k_n_hg_p, k_n_tr_p]

theorem rows3 : W19 m c (Proc.devRef .tc main_v225)
    = nceRows12000 (n_geo_p (argsK m c)) (truncf (F := Ideal) .bf16 (n_geo_p (argsK m c) : FVec Ideal S12000x64 .f32) bitsLt_bf16_f32)
        (n_tr_p (argsK m c)) (truncf (F := Ideal) .bf16 (n_tr_p (argsK m c) : FVec Ideal S12000x64 .f32) bitsLt_bf16_f32) := by
  refine ((W19_arr m c 4).trans (final3_4 (V18 m) c)).trans ?_
  show nceRows12000 (W18 m c (Proc.devRef .tc main_v191)) (W18 m c (Proc.devRef .tc main_v223)) (W18 m c (Proc.devRef .tc main_v196)) (W18 m c (Proc.devRef .tc main_v224)) = _
  rw [keep18_main_v191, in18_main_v223, keep18_main_v196, in18_main_v224, k_n_geo_p, k_n_tr_p]

theorem rows4 : W21 m c (Proc.devRef .tc main_v231)
    = nceRows4096 (n_hg_u (argsK m c)) (truncf (F := Ideal) .bf16 (n_hg_u (argsK m c) : FVec Ideal S4096x64 .f32) bitsLt_bf16_f32)
        (n_geo_u (argsK m c)) (truncf (F := Ideal) .bf16 (n_geo_u (argsK m c) : FVec Ideal S4096x64 .f32) bitsLt_bf16_f32) := by
  refine ((W21_arr m c 4).trans (final4_4 (V20 m) c)).trans ?_
  show nceRows4096 (W20 m c (Proc.devRef .tc main_v201)) (W20 m c (Proc.devRef .tc main_v229)) (W20 m c (Proc.devRef .tc main_v206)) (W20 m c (Proc.devRef .tc main_v230)) = _
  rw [keep20_main_v201, in20_main_v229, keep20_main_v206, in20_main_v230, k_n_hg_u, k_n_geo_u]

theorem rows5 : W23 m c (Proc.devRef .tc main_v236)
    = nceRows4096 (n_hg_u (argsK m c)) (truncf (F := Ideal) .bf16 (n_hg_u (argsK m c) : FVec Ideal S4096x64 .f32) bitsLt_bf16_f32)
        (n_tr_u (argsK m c)) (truncf (F := Ideal) .bf16 (n_tr_u (argsK m c) : FVec Ideal S4096x64 .f32) bitsLt_bf16_f32) := by
  refine ((W23_arr m c 4).trans (final5_4 (V22 m) c)).trans ?_
  show nceRows4096 (W22 m c (Proc.devRef .tc main_v201)) (W22 m c (Proc.devRef .tc main_v234)) (W22 m c (Proc.devRef .tc main_v211)) (W22 m c (Proc.devRef .tc main_v235)) = _
  rw [keep22_main_v201, in22_main_v234, keep22_main_v211, in22_main_v235, k_n_hg_u, k_n_tr_u]

theorem rows6 : W25 m c (Proc.devRef .tc main_v242)
    = nceRows4096 (n_geo_u (argsK m c)) (truncf (F := Ideal) .bf16 (n_geo_u (argsK m c) : FVec Ideal S4096x64 .f32) bitsLt_bf16_f32)
        (n_tr_u (argsK m c)) (truncf (F := Ideal) .bf16 (n_tr_u (argsK m c) : FVec Ideal S4096x64 .f32) bitsLt_bf16_f32) := by
  refine ((W25_arr m c 4).trans (final6_4 (V24 m) c)).trans ?_
  show nceRows4096 (W24 m c (Proc.devRef .tc main_v206)) (W24 m c (Proc.devRef .tc main_v240)) (W24 m c (Proc.devRef .tc main_v211)) (W24 m c (Proc.devRef .tc main_v241)) = _
  rw [keep24_main_v206, in24_main_v240, keep24_main_v211, in24_main_v241, k_n_geo_u, k_n_tr_u]

theorem k_loss_poi : W27 m c (Proc.devRef .tc main_v228) = res_loss_poi (argsK m c) := by
  rw [W27_loss_poi, nceScalar12000 _ _ _ (rows1 m c), nceScalar12000 _ _ _ (rows2 m c), nceScalar12000 _ _ _ (rows3 m c)]
  rfl
theorem k_loss_user : W27 m c (Proc.devRef .tc main_v245) = res_loss_user (argsK m c) := by
  rw [W27_loss_user, nceScalar4096 _ _ _ (rows4 m c), nceScalar4096 _ _ _ (rows5 m c), nceScalar4096 _ _ _ (rows6 m c)]
  rfl

theorem k_fusion : W27 m c (Proc.devRef .tc main_v252) = res_fusion (argsK m c) := by
  refine ((W27_main_v252 m c).trans (final7_9 (V26 m) c)).trans ?_
  show G7 (W26 m c (Proc.devRef .tc main_v201)) (W26 m c (Proc.devRef .tc main_v206)) (W26 m c (Proc.devRef .tc main_v211))
    (W26 m c (Proc.devRef .tc main_v246)) (W26 m c (Proc.devRef .tc main_v249)) (W26 m c (Proc.devRef .tc main_v247)) (W26 m c (Proc.devRef .tc main_v250))
    (W26 m c (Proc.devRef .tc main_v248)) (W26 m c (Proc.devRef .tc main_v251)) = _
  rw [keep26_main_v201, keep26_main_v206, keep26_main_v211, W26_main_v246, W26_main_v247, W26_main_v248,
    W26_main_v249, W26_main_v250, W26_main_v251, k_n_hg_u, k_n_geo_u, k_n_tr_u]
  exact fusion_bridge (n_hg_u (argsK m c)) (n_geo_u (argsK m c)) (n_tr_u (argsK m c))
    (argsK m c).hyper_gate_w (argsK m c).hyper_gate_b (argsK m c).gcn_gate_w (argsK m c).gcn_gate_b
    (argsK m c).trans_gate_w (argsK m c).trans_gate_b

theorem kernel_results : W27 m c (Proc.devRef .tc main_v252) = res_fusion (argsK m c)
    ∧ W27 m c (Proc.devRef .tc main_v228) = res_loss_poi (argsK m c)
    ∧ W27 m c (Proc.devRef .tc main_v245) = res_loss_user (argsK m c) :=
  ⟨k_fusion m c, k_loss_poi m c, k_loss_user m c⟩

end Compose

end Cert.KernelIdeal.Hand

end
-- ==== Proof.Ref.Keep.lean ====
import proofs.«133221_j41652592836945_2_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops0_W : List (Ref sig .tc) := [main_v0, main_v1, main_v2, main_v3, main_v4, main_cst, main_v5, main_v6, main_cst_0, main_v7, main_v8, main_v9, main_v10, main_v11, main_v12, main_v13, main_v14, main_cst_1, main_v15, main_v16, main_cst_2, main_v17, main_v18, main_v19, main_v20, main_v21, main_v22, main_v23, main_v24, main_cst_3, main_v25, main_v26, main_cst_4, main_v27, main_v28, main_v29]

set_option maxRecDepth 8192 in
theorem ops0_writes : (ops0 : List (HloOp τ sig (Elt F))).Forall fun op => op.writes ⊆ (ops0_W.map (Proc.devRef (τ := τ) .tc)).toFinset := by
  unfold ops0; simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))

theorem ops0_keep (W : Valuation τ sig (Elt F)) (r : Ref sig .tc) (h : r ∉ ops0_W) :
    after ops0 W (Proc.devRef .tc r) = W (Proc.devRef .tc r) :=
  after_of_writes_sub ops0 W ops0_writes h

abbrev ops1_W : List (Ref sig .tc) := [main_v30, main_c, main_v31, main_v32, main_c_5, main_v33, main_v34, main_v35, main_v36, main_v37, main_v38, main_v39, main_cst_6, main_v40, main_v41, main_v42, main_v43, main_c_7, main_v44, main_v45, main_c_8, main_v46, main_v47, main_v48, main_v49, main_v50, main_v51, main_v52, main_cst_9, main_v53, main_v54, main_v55, main_v56]

set_option maxRecDepth 8192 in
theorem ops1_writes : (ops1 : List (HloOp τ sig (Elt F))).Forall fun op => op.writes ⊆ (ops1_W.map (Proc.devRef (τ := τ) .tc)).toFinset := by
  unfold ops1; simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))

theorem ops1_keep (W : Valuation τ sig (Elt F)) (r : Ref sig .tc) (h : r ∉ ops1_W) :
    after ops1 W (Proc.devRef .tc r) = W (Proc.devRef .tc r) :=
  after_of_writes_sub ops1 W ops1_writes h

abbrev ops2_W : List (Ref sig .tc) := [main_v57, main_c_10, main_v58, main_v59, main_c_11, main_v60, main_v61, main_v62, main_v63, main_v64, main_v65, main_v66, main_cst_12, main_v67, main_v68, main_v69, main_v70, main_c_13, main_v71, main_v72, main_c_14, main_v73, main_v74, main_v75, main_v76, main_v77, main_v78, main_v79, main_cst_15, main_v80, main_v81, main_v82, main_v83, main_v84, main_v85, main_v86, main_v87, main_cst_16, main_v88, main_cst_17, main_v89, main_v90]

set_option maxRecDepth 8192 in
theorem ops2_writes : (ops2 : List (HloOp τ sig (Elt F))).Forall fun op => op.writes ⊆ (ops2_W.map (Proc.devRef (τ := τ) .tc)).toFinset := by
  unfold ops2; simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))

theorem ops2_keep (W : Valuation τ sig (Elt F)) (r : Ref sig .tc) (h : r ∉ ops2_W) :
    after ops2 W (Proc.devRef .tc r) = W (Proc.devRef .tc r) :=
  after_of_writes_sub ops2 W ops2_writes h

abbrev ops3_W : List (Ref sig .tc) := [main_v91, main_c_18, main_v92, main_v93, main_c_19, main_v94, main_v95, main_v96, main_v97, main_v98, main_v99, main_v100, main_cst_20, main_v101, main_v102, main_v103, main_v104, main_v105, main_c_21, main_v106, main_v107, main_c_22, main_v108, main_v109, main_v110, main_v111, main_v112, main_v113, main_v114, main_cst_23, main_v115, main_v116, main_v117, main_v118, main_v119, main_v120, main_v121, main_v122, main_cst_24, main_v123, main_cst_25, main_v124, main_v125]

set_option maxRecDepth 8192 in
theorem ops3_writes : (ops3 : List (HloOp τ sig (Elt F))).Forall fun op => op.writes ⊆ (ops3_W.map (Proc.devRef (τ := τ) .tc)).toFinset := by
  unfold ops3; simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))

theorem ops3_keep (W : Valuation τ sig (Elt F)) (r : Ref sig .tc) (h : r ∉ ops3_W) :
    after ops3 W (Proc.devRef .tc r) = W (Proc.devRef .tc r) :=
  after_of_writes_sub ops3 W ops3_writes h

abbrev ops4_W : List (Ref sig .tc) := [main_v126, main_c_26, main_v127, main_v128, main_c_27, main_v129, main_v130, main_v131, main_v132, main_v133, main_v134, main_v135, main_cst_28, main_v136, main_v137, main_v138, main_v139, main_c_29, main_v140, main_v141, main_c_30, main_v142, main_v143, main_v144, main_v145, main_v146, main_v147, main_v148, main_cst_31, main_v149, main_v150, main_v151, main_v152]

set_option maxRecDepth 8192 in
theorem ops4_writes : (ops4 : List (HloOp τ sig (Elt F))).Forall fun op => op.writes ⊆ (ops4_W.map (Proc.devRef (τ := τ) .tc)).toFinset := by
  unfold ops4; simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))

theorem ops4_keep (W : Valuation τ sig (Elt F)) (r : Ref sig .tc) (h : r ∉ ops4_W) :
    after ops4 W (Proc.devRef .tc r) = W (Proc.devRef .tc r) :=
  after_of_writes_sub ops4 W ops4_writes h

abbrev ops5_W : List (Ref sig .tc) := [main_v153, main_c_32, main_v154, main_v155, main_c_33, main_v156, main_v157, main_v158, main_v159, main_v160, main_v161, main_v162, main_cst_34, main_v163, main_v164, main_v165, main_v166, main_c_35, main_v167, main_v168, main_c_36, main_v169, main_v170, main_v171, main_v172, main_v173, main_v174, main_v175, main_cst_37, main_v176, main_v177, main_v178, main_v179, main_v180, main_v181, main_v182, main_v183, main_cst_38, main_v184, main_cst_39, main_v185, main_v186]

set_option maxRecDepth 8192 in
theorem ops5_writes : (ops5 : List (HloOp τ sig (Elt F))).Forall fun op => op.writes ⊆ (ops5_W.map (Proc.devRef (τ := τ) .tc)).toFinset := by
  unfold ops5; simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))

theorem ops5_keep (W : Valuation τ sig (Elt F)) (r : Ref sig .tc) (h : r ∉ ops5_W) :
    after ops5 W (Proc.devRef .tc r) = W (Proc.devRef .tc r) :=
  after_of_writes_sub ops5 W ops5_writes h

abbrev ops6_W : List (Ref sig .tc) := [main_v187, main_c_40, main_v188, main_v189, main_c_41, main_v190, main_v191, main_v192, main_v193, main_v194, main_v195, main_v196, main_cst_42, main_v197, main_v198, main_v199, main_c_43, main_v200, main_v201, main_c_44, main_v202, main_v203, main_v204, main_v205, main_v206]

set_option maxRecDepth 8192 in
theorem ops6_writes : (ops6 : List (HloOp τ sig (Elt F))).Forall fun op => op.writes ⊆ (ops6_W.map (Proc.devRef (τ := τ) .tc)).toFinset := by
  unfold ops6; simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))

theorem ops6_keep (W : Valuation τ sig (Elt F)) (r : Ref sig .tc) (h : r ∉ ops6_W) :
    after ops6 W (Proc.devRef .tc r) = W (Proc.devRef .tc r) :=
  after_of_writes_sub ops6 W ops6_writes h

abbrev ops7_W : List (Ref sig .tc) := [main_v207, main_c_45, main_v208, main_v209, main_c_46, main_v210, main_v211, main_v212, main_v213, main_v214, main_v215, main_v216, main_cst_47, main_v217, main_v218, main_v219, main_c_48, main_v220, main_v221, main_c_49, main_v222, main_v223, main_v224, main_v225, main_v226]

set_option maxRecDepth 8192 in
theorem ops7_writes : (ops7 : List (HloOp τ sig (Elt F))).Forall fun op => op.writes ⊆ (ops7_W.map (Proc.devRef (τ := τ) .tc)).toFinset := by
  unfold ops7; simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))

theorem ops7_keep (W : Valuation τ sig (Elt F)) (r : Ref sig .tc) (h : r ∉ ops7_W) :
    after ops7 W (Proc.devRef .tc r) = W (Proc.devRef .tc r) :=
  after_of_writes_sub ops7 W ops7_writes h

abbrev ops8_W : List (Ref sig .tc) := [main_v227, main_c_50, main_v228, main_v229, main_c_51, main_v230, main_v231, main_v232, main_v233, main_v234, main_v235, main_v236, main_cst_52, main_v237, main_v238, main_v239, main_c_53, main_v240, main_v241, main_c_54, main_v242, main_v243, main_v244, main_v245, main_v246]

set_option maxRecDepth 8192 in
theorem ops8_writes : (ops8 : List (HloOp τ sig (Elt F))).Forall fun op => op.writes ⊆ (ops8_W.map (Proc.devRef (τ := τ) .tc)).toFinset := by
  unfold ops8; simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))

theorem ops8_keep (W : Valuation τ sig (Elt F)) (r : Ref sig .tc) (h : r ∉ ops8_W) :
    after ops8 W (Proc.devRef .tc r) = W (Proc.devRef .tc r) :=
  after_of_writes_sub ops8 W ops8_writes h

abbrev ops9_W : List (Ref sig .tc) := [main_call0_v0, main_call0_cst, main_call0_v1, main_call0_v2, main_v247, main_cst_55, main_v248, main_v249, main_v250, main_v251, main_call1_v0, main_call1_cst, main_call1_v1, main_call1_v2, main_v252, main_cst_56, main_v253, main_v254, main_v255, main_v256, main_call2_v0, main_call2_cst, main_call2_v1, main_call2_v2, main_v257, main_cst_57, main_v258, main_v259, main_v260, main_v261]

set_option maxRecDepth 8192 in
theorem ops9_writes : (ops9 : List (HloOp τ sig (Elt F))).Forall fun op => op.writes ⊆ (ops9_W.map (Proc.devRef (τ := τ) .tc)).toFinset := by
  unfold ops9; simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))

theorem ops9_keep (W : Valuation τ sig (Elt F)) (r : Ref sig .tc) (h : r ∉ ops9_W) :
    after ops9 W (Proc.devRef .tc r) = W (Proc.devRef .tc r) :=
  after_of_writes_sub ops9 W ops9_writes h

abbrev ops10_W : List (Ref sig .tc) := [main_v262, main_cst_58, main_v263, main_cst_59, main_v264, main_v265, main_v266, main_v267, main_v268, main_cst_60, main_v269, main_v270, main_v271, main_cst_61, main_v272, main_cst_62, main_v273, main_v274, main_v275, main_cst_63, main_v276, main_v277, main_v278, main_v279, main_cst_64, main_v280, main_cst_65, main_v281]

set_option maxRecDepth 8192 in
theorem ops10_writes : (ops10 : List (HloOp τ sig (Elt F))).Forall fun op => op.writes ⊆ (ops10_W.map (Proc.devRef (τ := τ) .tc)).toFinset := by
  unfold ops10; simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))

theorem ops10_keep (W : Valuation τ sig (Elt F)) (r : Ref sig .tc) (h : r ∉ ops10_W) :
    after ops10 W (Proc.devRef .tc r) = W (Proc.devRef .tc r) :=
  after_of_writes_sub ops10 W ops10_writes h

abbrev ops11_W : List (Ref sig .tc) := [main_v282, main_cst_66, main_v283, main_cst_67, main_v284, main_v285, main_v286, main_v287, main_v288, main_cst_68, main_v289, main_v290, main_v291, main_cst_69, main_v292, main_cst_70, main_v293, main_v294, main_v295, main_cst_71, main_v296, main_v297, main_v298, main_v299, main_cst_72, main_v300, main_cst_73, main_v301, main_v302]

set_option maxRecDepth 8192 in
theorem ops11_writes : (ops11 : List (HloOp τ sig (Elt F))).Forall fun op => op.writes ⊆ (ops11_W.map (Proc.devRef (τ := τ) .tc)).toFinset := by
  unfold ops11; simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))

theorem ops11_keep (W : Valuation τ sig (Elt F)) (r : Ref sig .tc) (h : r ∉ ops11_W) :
    after ops11 W (Proc.devRef .tc r) = W (Proc.devRef .tc r) :=
  after_of_writes_sub ops11 W ops11_writes h

abbrev ops12_W : List (Ref sig .tc) := [main_v303, main_cst_74, main_v304, main_cst_75, main_v305, main_v306, main_v307, main_v308, main_v309, main_cst_76, main_v310, main_v311, main_v312, main_cst_77, main_v313, main_cst_78, main_v314, main_v315, main_v316, main_cst_79, main_v317, main_v318, main_v319, main_v320, main_cst_80, main_v321, main_cst_81, main_v322, main_v323]

set_option maxRecDepth 8192 in
theorem ops12_writes : (ops12 : List (HloOp τ sig (Elt F))).Forall fun op => op.writes ⊆ (ops12_W.map (Proc.devRef (τ := τ) .tc)).toFinset := by
  unfold ops12; simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))

theorem ops12_keep (W : Valuation τ sig (Elt F)) (r : Ref sig .tc) (h : r ∉ ops12_W) :
    after ops12 W (Proc.devRef .tc r) = W (Proc.devRef .tc r) :=
  after_of_writes_sub ops12 W ops12_writes h

abbrev ops13_W : List (Ref sig .tc) := [main_call3_v0, main_call3_cst, main_call3_v1, main_call3_v2, main_v324, main_cst_82, main_v325, main_v326, main_v327, main_v328, main_call4_v0, main_call4_cst, main_call4_v1, main_call4_v2, main_v329, main_cst_83, main_v330, main_v331, main_v332, main_v333, main_call5_v0, main_call5_cst, main_call5_v1, main_call5_v2, main_v334, main_cst_84, main_v335, main_v336, main_v337, main_v338]

set_option maxRecDepth 8192 in
theorem ops13_writes : (ops13 : List (HloOp τ sig (Elt F))).Forall fun op => op.writes ⊆ (ops13_W.map (Proc.devRef (τ := τ) .tc)).toFinset := by
  unfold ops13; simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))

theorem ops13_keep (W : Valuation τ sig (Elt F)) (r : Ref sig .tc) (h : r ∉ ops13_W) :
    after ops13 W (Proc.devRef .tc r) = W (Proc.devRef .tc r) :=
  after_of_writes_sub ops13 W ops13_writes h

abbrev ops14_W : List (Ref sig .tc) := [main_v339, main_cst_85, main_v340, main_cst_86, main_v341, main_v342, main_v343, main_v344, main_v345, main_cst_87, main_v346, main_v347, main_v348, main_cst_88, main_v349, main_cst_89, main_v350, main_v351, main_v352, main_cst_90, main_v353, main_v354, main_v355, main_v356, main_cst_91, main_v357, main_cst_92, main_v358]

set_option maxRecDepth 8192 in
theorem ops14_writes : (ops14 : List (HloOp τ sig (Elt F))).Forall fun op => op.writes ⊆ (ops14_W.map (Proc.devRef (τ := τ) .tc)).toFinset := by
  unfold ops14; simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))

theorem ops14_keep (W : Valuation τ sig (Elt F)) (r : Ref sig .tc) (h : r ∉ ops14_W) :
    after ops14 W (Proc.devRef .tc r) = W (Proc.devRef .tc r) :=
  after_of_writes_sub ops14 W ops14_writes h

abbrev ops15_W : List (Ref sig .tc) := [main_v359, main_cst_93, main_v360, main_cst_94, main_v361, main_v362, main_v363, main_v364, main_v365, main_cst_95, main_v366, main_v367, main_v368, main_cst_96, main_v369, main_cst_97, main_v370, main_v371, main_v372, main_cst_98, main_v373, main_v374, main_v375, main_v376, main_cst_99, main_v377, main_cst_100, main_v378, main_v379]

set_option maxRecDepth 8192 in
theorem ops15_writes : (ops15 : List (HloOp τ sig (Elt F))).Forall fun op => op.writes ⊆ (ops15_W.map (Proc.devRef (τ := τ) .tc)).toFinset := by
  unfold ops15; simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))

theorem ops15_keep (W : Valuation τ sig (Elt F)) (r : Ref sig .tc) (h : r ∉ ops15_W) :
    after ops15 W (Proc.devRef .tc r) = W (Proc.devRef .tc r) :=
  after_of_writes_sub ops15 W ops15_writes h

abbrev ops16_W : List (Ref sig .tc) := [main_v380, main_cst_101, main_v381, main_cst_102, main_v382, main_v383, main_v384, main_v385, main_v386, main_cst_103, main_v387, main_v388, main_v389, main_cst_104, main_v390, main_cst_105, main_v391, main_v392, main_v393, main_cst_106, main_v394, main_v395, main_v396, main_v397, main_cst_107, main_v398, main_cst_108, main_v399, main_v400]

set_option maxRecDepth 8192 in
theorem ops16_writes : (ops16 : List (HloOp τ sig (Elt F))).Forall fun op => op.writes ⊆ (ops16_W.map (Proc.devRef (τ := τ) .tc)).toFinset := by
  unfold ops16; simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))

theorem ops16_keep (W : Valuation τ sig (Elt F)) (r : Ref sig .tc) (h : r ∉ ops16_W) :
    after ops16 W (Proc.devRef .tc r) = W (Proc.devRef .tc r) :=
  after_of_writes_sub ops16 W ops16_writes h

abbrev ops17_W : List (Ref sig .tc) := [main_v401, main_v402, main_v403, main_v404, main_v405, main_v406, main_cst_109, main_v407, main_v408, main_cst_110, main_v409, main_v410, main_v411, main_v412, main_v413, main_v414, main_v415, main_v416, main_cst_111, main_v417, main_v418, main_cst_112, main_v419, main_v420, main_v421, main_v422, main_v423, main_v424, main_v425, main_v426, main_cst_113, main_v427, main_v428, main_cst_114, main_v429, main_v430, main_v431, main_v432, main_v433, main_v434, main_v435, main_v436, main_v437, main_v438]

set_option maxRecDepth 8192 in
theorem ops17_writes : (ops17 : List (HloOp τ sig (Elt F))).Forall fun op => op.writes ⊆ (ops17_W.map (Proc.devRef (τ := τ) .tc)).toFinset := by
  unfold ops17; simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))

theorem ops17_keep (W : Valuation τ sig (Elt F)) (r : Ref sig .tc) (h : r ∉ ops17_W) :
    after ops17 W (Proc.devRef .tc r) = W (Proc.devRef .tc r) :=
  after_of_writes_sub ops17 W ops17_writes h

end Cert.ReferenceIdeal.Hand

end
-- ==== Proof.Ref.ValsA.lean ====
import proofs.«133221_j41652592836945_2_alg».proof.Proof.Ref.Ops
import proofs.«133221_j41652592836945_2_alg».proof.Proof.Ref.Stages
import proofs.«133221_j41652592836945_2_alg».proof.Proof.LibNary3

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in

theorem c0_v9 (W : Valuation τ sig (Elt F)) :
    after ops0 W (no_index (Proc.devRef .tc main_v9))
      = gate (W (Proc.devRef .tc main_arg0)) (W (Proc.devRef .tc main_arg1)) (W (Proc.devRef .tc main_arg2)) := by
  unfold ops0
  simp (disch := decide) only [after_cons, after_nil, nullary_result', unary_result', binary_result', ternary_result', nary3_result', nullary_result_ne', unary_result_ne', binary_result_ne', ternary_result_ne', nary_result_ne']
  rfl

set_option maxHeartbeats 4000000 in

theorem c0_v19 (W : Valuation τ sig (Elt F)) :
    after ops0 W (no_index (Proc.devRef .tc main_v19))
      = gate (W (Proc.devRef .tc main_arg0)) (W (Proc.devRef .tc main_arg3)) (W (Proc.devRef .tc main_arg4)) := by
  unfold ops0
  simp (disch := decide) only [after_cons, after_nil, nullary_result', unary_result', binary_result', ternary_result', nary3_result', nullary_result_ne', unary_result_ne', binary_result_ne', ternary_result_ne', nary_result_ne']
  rfl

set_option maxHeartbeats 4000000 in

theorem c0_v29 (W : Valuation τ sig (Elt F)) :
    after ops0 W (no_index (Proc.devRef .tc main_v29))
      = gate (W (Proc.devRef .tc main_arg0)) (W (Proc.devRef .tc main_arg5)) (W (Proc.devRef .tc main_arg6)) := by
  unfold ops0
  simp (disch := decide) only [after_cons, after_nil, nullary_result', unary_result', binary_result', ternary_result', nary3_result', nullary_result_ne', unary_result_ne', binary_result_ne', ternary_result_ne', nary_result_ne']
  rfl

set_option maxHeartbeats 4000000 in

theorem c1_v56 (W : Valuation τ sig (Elt F)) :
    after ops1 W (no_index (Proc.devRef .tc main_v56))
      = addf (pu64 (W (Proc.devRef .tc main_arg14)) (W (Proc.devRef .tc main_arg20)) (W (Proc.devRef .tc main_arg21)) (up64 (W (Proc.devRef .tc main_arg13)) (W (Proc.devRef .tc main_arg18)) (W (Proc.devRef .tc main_arg19)) (W (Proc.devRef .tc main_v29)))) (W (Proc.devRef .tc main_v29)) := by
  unfold ops1
  simp (disch := decide) only [after_cons, after_nil, nullary_result', unary_result', binary_result', ternary_result', nary3_result', nullary_result_ne', unary_result_ne', binary_result_ne', ternary_result_ne', nary_result_ne']
  rfl

set_option maxHeartbeats 4000000 in

theorem c2_v90 (W : Valuation τ sig (Elt F)) :
    after ops2 W (no_index (Proc.devRef .tc main_v90))
      = mean3 (W (Proc.devRef .tc main_v29)) (W (Proc.devRef .tc main_v56)) (addf (pu64 (W (Proc.devRef .tc main_arg14)) (W (Proc.devRef .tc main_arg20)) (W (Proc.devRef .tc main_arg21)) (up64 (W (Proc.devRef .tc main_arg13)) (W (Proc.devRef .tc main_arg18)) (W (Proc.devRef .tc main_arg19)) (W (Proc.devRef .tc main_v56)))) (W (Proc.devRef .tc main_v56))) := by
  unfold ops2
  simp (disch := decide) only [after_cons, after_nil, nullary_result', unary_result', binary_result', ternary_result', nary3_result', nullary_result_ne', unary_result_ne', binary_result_ne', ternary_result_ne', nary_result_ne']
  rfl

set_option maxHeartbeats 4000000 in

theorem c3_v125 (W : Valuation τ sig (Elt F)) :
    after ops3 W (no_index (Proc.devRef .tc main_v125))
      = convStack (geo64 (W (Proc.devRef .tc main_arg15)) (W (Proc.devRef .tc main_arg22)) (W (Proc.devRef .tc main_arg23))) (W (Proc.devRef .tc main_v9)) := by
  unfold ops3
  simp (disch := decide) only [after_cons, after_nil, nullary_result', unary_result', binary_result', ternary_result', nary3_result', nullary_result_ne', unary_result_ne', binary_result_ne', ternary_result_ne', nary_result_ne']
  rfl

set_option maxHeartbeats 4000000 in

theorem c4_v152 (W : Valuation τ sig (Elt F)) :
    after ops4 W (no_index (Proc.devRef .tc main_v152))
      = addf (src64 (W (Proc.devRef .tc main_arg16)) (W (Proc.devRef .tc main_arg24)) (W (Proc.devRef .tc main_arg25)) (tar64 (W (Proc.devRef .tc main_arg17)) (W (Proc.devRef .tc main_arg26)) (W (Proc.devRef .tc main_arg27)) (W (Proc.devRef .tc main_v19)))) (W (Proc.devRef .tc main_v19)) := by
  unfold ops4
  simp (disch := decide) only [after_cons, after_nil, nullary_result', unary_result', binary_result', ternary_result', nary3_result', nullary_result_ne', unary_result_ne', binary_result_ne', ternary_result_ne', nary_result_ne']
  rfl

set_option maxHeartbeats 4000000 in

theorem c5_v186 (W : Valuation τ sig (Elt F)) :
    after ops5 W (no_index (Proc.devRef .tc main_v186))
      = mean3 (W (Proc.devRef .tc main_v19)) (W (Proc.devRef .tc main_v152)) (addf (src64 (W (Proc.devRef .tc main_arg16)) (W (Proc.devRef .tc main_arg24)) (W (Proc.devRef .tc main_arg25)) (tar64 (W (Proc.devRef .tc main_arg17)) (W (Proc.devRef .tc main_arg26)) (W (Proc.devRef .tc main_arg27)) (W (Proc.devRef .tc main_v152)))) (W (Proc.devRef .tc main_v152))) := by
  unfold ops5
  simp (disch := decide) only [after_cons, after_nil, nullary_result', unary_result', binary_result', ternary_result', nary3_result', nullary_result_ne', unary_result_ne', binary_result_ne', ternary_result_ne', nary_result_ne']
  rfl

end Cert.ReferenceIdeal.Hand

end
-- ==== Proof.Ref.ValsB.lean ====
import proofs.«133221_j41652592836945_2_alg».proof.Proof.Ref.Ops
import proofs.«133221_j41652592836945_2_alg».proof.Proof.Ref.Stages

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in

theorem c6_v206 (W : Valuation τ sig (Elt F)) :
    after ops6 W (no_index (Proc.devRef .tc main_v206))
      = gatherRows (W (Proc.devRef .tc main_arg28)) (up64 (W (Proc.devRef .tc main_arg13)) (W (Proc.devRef .tc main_arg18)) (W (Proc.devRef .tc main_arg19)) (W (Proc.devRef .tc main_v90))) := by
  unfold ops6
  simp (disch := decide) only [after_cons, after_nil, nullary_result', unary_result', binary_result', ternary_result', nullary_result_ne', unary_result_ne', binary_result_ne', ternary_result_ne', nary_result_ne']
  rfl

set_option maxHeartbeats 4000000 in

theorem c7_v226 (W : Valuation τ sig (Elt F)) :
    after ops7 W (no_index (Proc.devRef .tc main_v226))
      = gatherRows (W (Proc.devRef .tc main_arg28)) (up64 (W (Proc.devRef .tc main_arg13)) (W (Proc.devRef .tc main_arg18)) (W (Proc.devRef .tc main_arg19)) (W (Proc.devRef .tc main_v125))) := by
  unfold ops7
  simp (disch := decide) only [after_cons, after_nil, nullary_result', unary_result', binary_result', ternary_result', nullary_result_ne', unary_result_ne', binary_result_ne', ternary_result_ne', nary_result_ne']
  rfl

set_option maxHeartbeats 4000000 in

theorem c8_v246 (W : Valuation τ sig (Elt F)) :
    after ops8 W (no_index (Proc.devRef .tc main_v246))
      = gatherRows (W (Proc.devRef .tc main_arg28)) (up64 (W (Proc.devRef .tc main_arg13)) (W (Proc.devRef .tc main_arg18)) (W (Proc.devRef .tc main_arg19)) (W (Proc.devRef .tc main_v186))) := by
  unfold ops8
  simp (disch := decide) only [after_cons, after_nil, nullary_result', unary_result', binary_result', ternary_result', nullary_result_ne', unary_result_ne', binary_result_ne', ternary_result_ne', nary_result_ne']
  rfl

set_option maxHeartbeats 4000000 in

theorem c9_v251 (W : Valuation τ sig (Elt F)) :
    after ops9 W (no_index (Proc.devRef .tc main_v251))
      = l2norm12000 (W (Proc.devRef .tc main_v90)) := by
  unfold ops9
  simp (disch := decide) only [after_cons, after_nil, nullary_result', unary_result', binary_result', ternary_result', nullary_result_ne', unary_result_ne', binary_result_ne', ternary_result_ne', nary_result_ne']
  try simp only [TRef.ofBuf, TRef.toBuf, cast_eq]
  rfl

set_option maxHeartbeats 4000000 in

theorem c9_v256 (W : Valuation τ sig (Elt F)) :
    after ops9 W (no_index (Proc.devRef .tc main_v256))
      = l2norm12000 (W (Proc.devRef .tc main_v125)) := by
  unfold ops9
  simp (disch := decide) only [after_cons, after_nil, nullary_result', unary_result', binary_result', ternary_result', nullary_result_ne', unary_result_ne', binary_result_ne', ternary_result_ne', nary_result_ne']
  try simp only [TRef.ofBuf, TRef.toBuf, cast_eq]
  rfl

set_option maxHeartbeats 4000000 in

theorem c9_v261 (W : Valuation τ sig (Elt F)) :
    after ops9 W (no_index (Proc.devRef .tc main_v261))
      = l2norm12000 (W (Proc.devRef .tc main_v186)) := by
  unfold ops9
  simp (disch := decide) only [after_cons, after_nil, nullary_result', unary_result', binary_result', ternary_result', nullary_result_ne', unary_result_ne', binary_result_ne', ternary_result_ne', nary_result_ne']
  try simp only [TRef.ofBuf, TRef.toBuf, cast_eq]
  rfl

set_option maxHeartbeats 4000000 in

theorem c10_v281 (W : Valuation τ sig (Elt F)) :
    after ops10 W (no_index (Proc.devRef .tc main_v281))
      = infonce12000 (W (Proc.devRef .tc main_v251)) (W (Proc.devRef .tc main_v256)) := by
  unfold ops10
  simp (disch := decide) only [after_cons, after_nil, nullary_result', unary_result', binary_result', ternary_result', nullary_result_ne', unary_result_ne', binary_result_ne', ternary_result_ne', nary_result_ne']
  rfl

set_option maxHeartbeats 4000000 in

theorem c11_v302 (W : Valuation τ sig (Elt F)) :
    after ops11 W (no_index (Proc.devRef .tc main_v302))
      = addf (W (Proc.devRef .tc main_v281)) (infonce12000 (W (Proc.devRef .tc main_v251)) (W (Proc.devRef .tc main_v261))) := by
  unfold ops11
  simp (disch := decide) only [after_cons, after_nil, nullary_result', unary_result', binary_result', ternary_result', nullary_result_ne', unary_result_ne', binary_result_ne', ternary_result_ne', nary_result_ne']
  rfl

set_option maxHeartbeats 4000000 in

theorem c12_v323 (W : Valuation τ sig (Elt F)) :
    after ops12 W (no_index (Proc.devRef .tc main_v323))
      = addf (W (Proc.devRef .tc main_v302)) (infonce12000 (W (Proc.devRef .tc main_v256)) (W (Proc.devRef .tc main_v261))) := by
  unfold ops12
  simp (disch := decide) only [after_cons, after_nil, nullary_result', unary_result', binary_result', ternary_result', nullary_result_ne', unary_result_ne', binary_result_ne', ternary_result_ne', nary_result_ne']
  rfl

end Cert.ReferenceIdeal.Hand

end
-- ==== Proof.Ref.ValsC.lean ====
import proofs.«133221_j41652592836945_2_alg».proof.Proof.Ref.Ops
import proofs.«133221_j41652592836945_2_alg».proof.Proof.Ref.Stages

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in

theorem c13_v328 (W : Valuation τ sig (Elt F)) :
    after ops13 W (no_index (Proc.devRef .tc main_v328))
      = l2norm4096 (W (Proc.devRef .tc main_v206)) := by
  unfold ops13
  simp (disch := decide) only [after_cons, after_nil, nullary_result', unary_result', binary_result', ternary_result', nullary_result_ne', unary_result_ne', binary_result_ne', ternary_result_ne', nary_result_ne']
  try simp only [TRef.ofBuf, TRef.toBuf, cast_eq]
  rfl

set_option maxHeartbeats 4000000 in

theorem c13_v333 (W : Valuation τ sig (Elt F)) :
    after ops13 W (no_index (Proc.devRef .tc main_v333))
      = l2norm4096 (W (Proc.devRef .tc main_v226)) := by
  unfold ops13
  simp (disch := decide) only [after_cons, after_nil, nullary_result', unary_result', binary_result', ternary_result', nullary_result_ne', unary_result_ne', binary_result_ne', ternary_result_ne', nary_result_ne']
  try simp only [TRef.ofBuf, TRef.toBuf, cast_eq]
  rfl

set_option maxHeartbeats 4000000 in

theorem c13_v338 (W : Valuation τ sig (Elt F)) :
    after ops13 W (no_index (Proc.devRef .tc main_v338))
      = l2norm4096 (W (Proc.devRef .tc main_v246)) := by
  unfold ops13
  simp (disch := decide) only [after_cons, after_nil, nullary_result', unary_result', binary_result', ternary_result', nullary_result_ne', unary_result_ne', binary_result_ne', ternary_result_ne', nary_result_ne']
  try simp only [TRef.ofBuf, TRef.toBuf, cast_eq]
  rfl

set_option maxHeartbeats 4000000 in

theorem c14_v358 (W : Valuation τ sig (Elt F)) :
    after ops14 W (no_index (Proc.devRef .tc main_v358))
      = infonce4096 (W (Proc.devRef .tc main_v328)) (W (Proc.devRef .tc main_v333)) := by
  unfold ops14
  simp (disch := decide) only [after_cons, after_nil, nullary_result', unary_result', binary_result', ternary_result', nullary_result_ne', unary_result_ne', binary_result_ne', ternary_result_ne', nary_result_ne']
  rfl

set_option maxHeartbeats 4000000 in

theorem c15_v379 (W : Valuation τ sig (Elt F)) :
    after ops15 W (no_index (Proc.devRef .tc main_v379))
      = addf (W (Proc.devRef .tc main_v358)) (infonce4096 (W (Proc.devRef .tc main_v328)) (W (Proc.devRef .tc main_v338))) := by
  unfold ops15
  simp (disch := decide) only [after_cons, after_nil, nullary_result', unary_result', binary_result', ternary_result', nullary_result_ne', unary_result_ne', binary_result_ne', ternary_result_ne', nary_result_ne']
  rfl

set_option maxHeartbeats 4000000 in

theorem c16_v400 (W : Valuation τ sig (Elt F)) :
    after ops16 W (no_index (Proc.devRef .tc main_v400))
      = addf (W (Proc.devRef .tc main_v379)) (infonce4096 (W (Proc.devRef .tc main_v333)) (W (Proc.devRef .tc main_v338))) := by
  unfold ops16
  simp (disch := decide) only [after_cons, after_nil, nullary_result', unary_result', binary_result', ternary_result', nullary_result_ne', unary_result_ne', binary_result_ne', ternary_result_ne', nary_result_ne']
  rfl

set_option maxHeartbeats 4000000 in

theorem c17_v438 (W : Valuation τ sig (Elt F)) :
    after ops17 W (no_index (Proc.devRef .tc main_v438))
      = fusion (W (Proc.devRef .tc main_v328)) (W (Proc.devRef .tc main_v333)) (W (Proc.devRef .tc main_v338)) (W (Proc.devRef .tc main_arg7)) (W (Proc.devRef .tc main_arg8)) (W (Proc.devRef .tc main_arg9)) (W (Proc.devRef .tc main_arg10)) (W (Proc.devRef .tc main_arg11)) (W (Proc.devRef .tc main_arg12)) := by
  unfold ops17
  simp (disch := decide) only [after_cons, after_nil, nullary_result', unary_result', binary_result', ternary_result', nullary_result_ne', unary_result_ne', binary_result_ne', ternary_result_ne', nary_result_ne']
  rfl

end Cert.ReferenceIdeal.Hand

end
-- ==== Proof.Ref.Levels.lean ====
import proofs.«133221_j41652592836945_2_alg».proof.Proof.Ref.Keep
import proofs.«133221_j41652592836945_2_alg».proof.Proof.Ref.ValsA
import proofs.«133221_j41652592836945_2_alg».proof.Proof.Ref.ValsB
import proofs.«133221_j41652592836945_2_alg».proof.Proof.Ref.ValsC

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

def argsOf (V : Valuation τ sig (Elt F)) : Args F where
  poi_emb := V (Proc.devRef .tc main_arg0)
  w_gate_geo := V (Proc.devRef .tc main_arg1)
  b_gate_geo := V (Proc.devRef .tc main_arg2)
  w_gate_seq := V (Proc.devRef .tc main_arg3)
  b_gate_seq := V (Proc.devRef .tc main_arg4)
  w_gate_col := V (Proc.devRef .tc main_arg5)
  b_gate_col := V (Proc.devRef .tc main_arg6)
  hyper_gate_w := V (Proc.devRef .tc main_arg7)
  hyper_gate_b := V (Proc.devRef .tc main_arg8)
  gcn_gate_w := V (Proc.devRef .tc main_arg9)
  gcn_gate_b := V (Proc.devRef .tc main_arg10)
  trans_gate_w := V (Proc.devRef .tc main_arg11)
  trans_gate_b := V (Proc.devRef .tc main_arg12)
  up_vals := V (Proc.devRef .tc main_arg13)
  pu_vals := V (Proc.devRef .tc main_arg14)
  geo_vals := V (Proc.devRef .tc main_arg15)
  src_vals := V (Proc.devRef .tc main_arg16)
  tar_vals := V (Proc.devRef .tc main_arg17)
  up_rows := V (Proc.devRef .tc main_arg18)
  up_cols := V (Proc.devRef .tc main_arg19)
  pu_rows := V (Proc.devRef .tc main_arg20)
  pu_cols := V (Proc.devRef .tc main_arg21)
  geo_rows := V (Proc.devRef .tc main_arg22)
  geo_cols := V (Proc.devRef .tc main_arg23)
  src_rows := V (Proc.devRef .tc main_arg24)
  src_cols := V (Proc.devRef .tc main_arg25)
  tar_rows := V (Proc.devRef .tc main_arg26)
  tar_cols := V (Proc.devRef .tc main_arg27)
  user_idx := V (Proc.devRef .tc main_arg28)

def argsAt (m : (ℓ : Loc nD τ sig) → Buf (Elt F) ℓ) (c : Dev nD) : Args F where
  poi_emb := m ((c.tc : Thread nD τ).loc main_arg0)
  w_gate_geo := m ((c.tc : Thread nD τ).loc main_arg1)
  b_gate_geo := m ((c.tc : Thread nD τ).loc main_arg2)
  w_gate_seq := m ((c.tc : Thread nD τ).loc main_arg3)
  b_gate_seq := m ((c.tc : Thread nD τ).loc main_arg4)
  w_gate_col := m ((c.tc : Thread nD τ).loc main_arg5)
  b_gate_col := m ((c.tc : Thread nD τ).loc main_arg6)
  hyper_gate_w := m ((c.tc : Thread nD τ).loc main_arg7)
  hyper_gate_b := m ((c.tc : Thread nD τ).loc main_arg8)
  gcn_gate_w := m ((c.tc : Thread nD τ).loc main_arg9)
  gcn_gate_b := m ((c.tc : Thread nD τ).loc main_arg10)
  trans_gate_w := m ((c.tc : Thread nD τ).loc main_arg11)
  trans_gate_b := m ((c.tc : Thread nD τ).loc main_arg12)
  up_vals := m ((c.tc : Thread nD τ).loc main_arg13)
  pu_vals := m ((c.tc : Thread nD τ).loc main_arg14)
  geo_vals := m ((c.tc : Thread nD τ).loc main_arg15)
  src_vals := m ((c.tc : Thread nD τ).loc main_arg16)
  tar_vals := m ((c.tc : Thread nD τ).loc main_arg17)
  up_rows := m ((c.tc : Thread nD τ).loc main_arg18)
  up_cols := m ((c.tc : Thread nD τ).loc main_arg19)
  pu_rows := m ((c.tc : Thread nD τ).loc main_arg20)
  pu_cols := m ((c.tc : Thread nD τ).loc main_arg21)
  geo_rows := m ((c.tc : Thread nD τ).loc main_arg22)
  geo_cols := m ((c.tc : Thread nD τ).loc main_arg23)
  src_rows := m ((c.tc : Thread nD τ).loc main_arg24)
  src_cols := m ((c.tc : Thread nD τ).loc main_arg25)
  tar_rows := m ((c.tc : Thread nD τ).loc main_arg26)
  tar_cols := m ((c.tc : Thread nD τ).loc main_arg27)
  user_idx := m ((c.tc : Thread nD τ).loc main_arg28)

theorem argsAt_eq (m : (ℓ : Loc nD τ sig) → Buf (Elt F) ℓ) (c : Dev nD) : argsAt m c = argsOf (launchContents m c) := rfl

def val1 (V0 : Valuation τ sig (Elt F)) : Valuation τ sig (Elt F) := after ops0 V0

def val2 (V0 : Valuation τ sig (Elt F)) : Valuation τ sig (Elt F) := after ops1 (val1 V0)

def val3 (V0 : Valuation τ sig (Elt F)) : Valuation τ sig (Elt F) := after ops2 (val2 V0)

def val4 (V0 : Valuation τ sig (Elt F)) : Valuation τ sig (Elt F) := after ops3 (val3 V0)

def val5 (V0 : Valuation τ sig (Elt F)) : Valuation τ sig (Elt F) := after ops4 (val4 V0)

def val6 (V0 : Valuation τ sig (Elt F)) : Valuation τ sig (Elt F) := after ops5 (val5 V0)

def val7 (V0 : Valuation τ sig (Elt F)) : Valuation τ sig (Elt F) := after ops6 (val6 V0)

def val8 (V0 : Valuation τ sig (Elt F)) : Valuation τ sig (Elt F) := after ops7 (val7 V0)

def val9 (V0 : Valuation τ sig (Elt F)) : Valuation τ sig (Elt F) := after ops8 (val8 V0)

def val10 (V0 : Valuation τ sig (Elt F)) : Valuation τ sig (Elt F) := after ops9 (val9 V0)

def val11 (V0 : Valuation τ sig (Elt F)) : Valuation τ sig (Elt F) := after ops10 (val10 V0)

def val12 (V0 : Valuation τ sig (Elt F)) : Valuation τ sig (Elt F) := after ops11 (val11 V0)

def val13 (V0 : Valuation τ sig (Elt F)) : Valuation τ sig (Elt F) := after ops12 (val12 V0)

def val14 (V0 : Valuation τ sig (Elt F)) : Valuation τ sig (Elt F) := after ops13 (val13 V0)

def val15 (V0 : Valuation τ sig (Elt F)) : Valuation τ sig (Elt F) := after ops14 (val14 V0)

def val16 (V0 : Valuation τ sig (Elt F)) : Valuation τ sig (Elt F) := after ops15 (val15 V0)

def val17 (V0 : Valuation τ sig (Elt F)) : Valuation τ sig (Elt F) := after ops16 (val16 V0)

def val18 (V0 : Valuation τ sig (Elt F)) : Valuation τ sig (Elt F) := after ops17 (val17 V0)

theorem val1_keep (V0 : Valuation τ sig (Elt F)) (r : Ref sig .tc) (h : r ∉ ops0_W) :
    val1 V0 (no_index (Proc.devRef .tc r)) = V0 (Proc.devRef .tc r) := ops0_keep V0 r h

theorem val2_keep (V0 : Valuation τ sig (Elt F)) (r : Ref sig .tc) (h : r ∉ ops1_W) :
    val2 V0 (no_index (Proc.devRef .tc r)) = val1 V0 (Proc.devRef .tc r) := ops1_keep (val1 V0) r h

theorem val3_keep (V0 : Valuation τ sig (Elt F)) (r : Ref sig .tc) (h : r ∉ ops2_W) :
    val3 V0 (no_index (Proc.devRef .tc r)) = val2 V0 (Proc.devRef .tc r) := ops2_keep (val2 V0) r h

theorem val4_keep (V0 : Valuation τ sig (Elt F)) (r : Ref sig .tc) (h : r ∉ ops3_W) :
    val4 V0 (no_index (Proc.devRef .tc r)) = val3 V0 (Proc.devRef .tc r) := ops3_keep (val3 V0) r h

theorem val5_keep (V0 : Valuation τ sig (Elt F)) (r : Ref sig .tc) (h : r ∉ ops4_W) :
    val5 V0 (no_index (Proc.devRef .tc r)) = val4 V0 (Proc.devRef .tc r) := ops4_keep (val4 V0) r h

theorem val6_keep (V0 : Valuation τ sig (Elt F)) (r : Ref sig .tc) (h : r ∉ ops5_W) :
    val6 V0 (no_index (Proc.devRef .tc r)) = val5 V0 (Proc.devRef .tc r) := ops5_keep (val5 V0) r h

theorem val7_keep (V0 : Valuation τ sig (Elt F)) (r : Ref sig .tc) (h : r ∉ ops6_W) :
    val7 V0 (no_index (Proc.devRef .tc r)) = val6 V0 (Proc.devRef .tc r) := ops6_keep (val6 V0) r h

theorem val8_keep (V0 : Valuation τ sig (Elt F)) (r : Ref sig .tc) (h : r ∉ ops7_W) :
    val8 V0 (no_index (Proc.devRef .tc r)) = val7 V0 (Proc.devRef .tc r) := ops7_keep (val7 V0) r h

theorem val9_keep (V0 : Valuation τ sig (Elt F)) (r : Ref sig .tc) (h : r ∉ ops8_W) :
    val9 V0 (no_index (Proc.devRef .tc r)) = val8 V0 (Proc.devRef .tc r) := ops8_keep (val8 V0) r h

theorem val10_keep (V0 : Valuation τ sig (Elt F)) (r : Ref sig .tc) (h : r ∉ ops9_W) :
    val10 V0 (no_index (Proc.devRef .tc r)) = val9 V0 (Proc.devRef .tc r) := ops9_keep (val9 V0) r h

theorem val11_keep (V0 : Valuation τ sig (Elt F)) (r : Ref sig .tc) (h : r ∉ ops10_W) :
    val11 V0 (no_index (Proc.devRef .tc r)) = val10 V0 (Proc.devRef .tc r) := ops10_keep (val10 V0) r h

theorem val12_keep (V0 : Valuation τ sig (Elt F)) (r : Ref sig .tc) (h : r ∉ ops11_W) :
    val12 V0 (no_index (Proc.devRef .tc r)) = val11 V0 (Proc.devRef .tc r) := ops11_keep (val11 V0) r h

theorem val13_keep (V0 : Valuation τ sig (Elt F)) (r : Ref sig .tc) (h : r ∉ ops12_W) :
    val13 V0 (no_index (Proc.devRef .tc r)) = val12 V0 (Proc.devRef .tc r) := ops12_keep (val12 V0) r h

theorem val14_keep (V0 : Valuation τ sig (Elt F)) (r : Ref sig .tc) (h : r ∉ ops13_W) :
    val14 V0 (no_index (Proc.devRef .tc r)) = val13 V0 (Proc.devRef .tc r) := ops13_keep (val13 V0) r h

theorem val15_keep (V0 : Valuation τ sig (Elt F)) (r : Ref sig .tc) (h : r ∉ ops14_W) :
    val15 V0 (no_index (Proc.devRef .tc r)) = val14 V0 (Proc.devRef .tc r) := ops14_keep (val14 V0) r h

theorem val16_keep (V0 : Valuation τ sig (Elt F)) (r : Ref sig .tc) (h : r ∉ ops15_W) :
    val16 V0 (no_index (Proc.devRef .tc r)) = val15 V0 (Proc.devRef .tc r) := ops15_keep (val15 V0) r h

theorem val17_keep (V0 : Valuation τ sig (Elt F)) (r : Ref sig .tc) (h : r ∉ ops16_W) :
    val17 V0 (no_index (Proc.devRef .tc r)) = val16 V0 (Proc.devRef .tc r) := ops16_keep (val16 V0) r h

theorem val18_keep (V0 : Valuation τ sig (Elt F)) (r : Ref sig .tc) (h : r ∉ ops17_W) :
    val18 V0 (no_index (Proc.devRef .tc r)) = val17 V0 (Proc.devRef .tc r) := ops17_keep (val17 V0) r h

theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem after_ops (V0 : Valuation τ sig (Elt F)) : after ops V0 = val18 V0 := by
  unfold ops val18 val17 val16 val15 val14 val13 val12 val11 val10 val9 val8 val7 val6 val5 val4 val3 val2 val1
  simp only [after_app]

section Named
variable (V0 : Valuation τ sig (Elt F))

theorem val1_v9 : val1 V0 (no_index (Proc.devRef .tc main_v9)) = geo_gated (argsOf V0) := by
  unfold val1
  rw [c0_v9]
  rfl

theorem val1_v19 : val1 V0 (no_index (Proc.devRef .tc main_v19)) = seq_gated (argsOf V0) := by
  unfold val1
  rw [c0_v19]
  rfl

theorem val1_v29 : val1 V0 (no_index (Proc.devRef .tc main_v29)) = col_gated (argsOf V0) := by
  unfold val1
  rw [c0_v29]
  rfl

theorem val2_v56 : val2 V0 (no_index (Proc.devRef .tc main_v56)) = addf (mv_step (argsOf V0) (col_gated (argsOf V0))) (col_gated (argsOf V0)) := by
  unfold val2
  rw [c1_v56]
  simp (disch := decide) only [val1_keep, val1_v9, val1_v19, val1_v29]
  rfl

theorem val3_v90 : val3 V0 (no_index (Proc.devRef .tc main_v90)) = hg_pois (argsOf V0) := by
  unfold val3
  rw [c2_v90]
  simp (disch := decide) only [val2_keep, val1_keep, val1_v9, val1_v19, val1_v29, val2_v56]
  rfl

theorem val4_v125 : val4 V0 (no_index (Proc.devRef .tc main_v125)) = geo_pois (argsOf V0) := by
  unfold val4
  rw [c3_v125]
  simp (disch := decide) only [val3_keep, val2_keep, val1_keep, val1_v9, val1_v19, val1_v29, val2_v56, val3_v90]
  rfl

theorem val5_v152 : val5 V0 (no_index (Proc.devRef .tc main_v152)) = addf (di_step (argsOf V0) (seq_gated (argsOf V0))) (seq_gated (argsOf V0)) := by
  unfold val5
  rw [c4_v152]
  simp (disch := decide) only [val4_keep, val3_keep, val2_keep, val1_keep, val1_v9, val1_v19, val1_v29, val2_v56, val3_v90, val4_v125]
  rfl

theorem val6_v186 : val6 V0 (no_index (Proc.devRef .tc main_v186)) = trans_pois (argsOf V0) := by
  unfold val6
  rw [c5_v186]
  simp (disch := decide) only [val5_keep, val4_keep, val3_keep, val2_keep, val1_keep, val1_v9, val1_v19, val1_v29, val2_v56, val3_v90, val4_v125, val5_v152]
  rfl

theorem val7_v206 : val7 V0 (no_index (Proc.devRef .tc main_v206)) = hg_bu (argsOf V0) := by
  unfold val7
  rw [c6_v206]
  simp (disch := decide) only [val6_keep, val5_keep, val4_keep, val3_keep, val2_keep, val1_keep, val1_v9, val1_v19, val1_v29, val2_v56, val3_v90, val4_v125, val5_v152, val6_v186]
  rfl

theorem val8_v226 : val8 V0 (no_index (Proc.devRef .tc main_v226)) = geo_bu (argsOf V0) := by
  unfold val8
  rw [c7_v226]
  simp (disch := decide) only [val7_keep, val6_keep, val5_keep, val4_keep, val3_keep, val2_keep, val1_keep, val1_v9, val1_v19, val1_v29, val2_v56, val3_v90, val4_v125, val5_v152, val6_v186, val7_v206]
  rfl

theorem val9_v246 : val9 V0 (no_index (Proc.devRef .tc main_v246)) = trans_bu (argsOf V0) := by
  unfold val9
  rw [c8_v246]
  simp (disch := decide) only [val8_keep, val7_keep, val6_keep, val5_keep, val4_keep, val3_keep, val2_keep, val1_keep, val1_v9, val1_v19, val1_v29, val2_v56, val3_v90, val4_v125, val5_v152, val6_v186, val7_v206, val8_v226]
  rfl

theorem val10_v251 : val10 V0 (no_index (Proc.devRef .tc main_v251)) = n_hg_p (argsOf V0) := by
  unfold val10
  rw [c9_v251]
  simp (disch := decide) only [val9_keep, val8_keep, val7_keep, val6_keep, val5_keep, val4_keep, val3_keep, val2_keep, val1_keep, val1_v9, val1_v19, val1_v29, val2_v56, val3_v90, val4_v125, val5_v152, val6_v186, val7_v206, val8_v226, val9_v246]
  rfl

theorem val10_v256 : val10 V0 (no_index (Proc.devRef .tc main_v256)) = n_geo_p (argsOf V0) := by
  unfold val10
  rw [c9_v256]
  simp (disch := decide) only [val9_keep, val8_keep, val7_keep, val6_keep, val5_keep, val4_keep, val3_keep, val2_keep, val1_keep, val1_v9, val1_v19, val1_v29, val2_v56, val3_v90, val4_v125, val5_v152, val6_v186, val7_v206, val8_v226, val9_v246]
  rfl

theorem val10_v261 : val10 V0 (no_index (Proc.devRef .tc main_v261)) = n_tr_p (argsOf V0) := by
  unfold val10
  rw [c9_v261]
  simp (disch := decide) only [val9_keep, val8_keep, val7_keep, val6_keep, val5_keep, val4_keep, val3_keep, val2_keep, val1_keep, val1_v9, val1_v19, val1_v29, val2_v56, val3_v90, val4_v125, val5_v152, val6_v186, val7_v206, val8_v226, val9_v246]
  rfl

theorem val11_v281 : val11 V0 (no_index (Proc.devRef .tc main_v281)) = nce_p_hg_geo (argsOf V0) := by
  unfold val11
  rw [c10_v281]
  simp (disch := decide) only [val10_keep, val9_keep, val8_keep, val7_keep, val6_keep, val5_keep, val4_keep, val3_keep, val2_keep, val1_keep, val1_v9, val1_v19, val1_v29, val2_v56, val3_v90, val4_v125, val5_v152, val6_v186, val7_v206, val8_v226, val9_v246, val10_v251, val10_v256, val10_v261]
  rfl

theorem val12_v302 : val12 V0 (no_index (Proc.devRef .tc main_v302)) = addf (nce_p_hg_geo (argsOf V0)) (nce_p_hg_tr (argsOf V0)) := by
  unfold val12
  rw [c11_v302]
  simp (disch := decide) only [val11_keep, val10_keep, val9_keep, val8_keep, val7_keep, val6_keep, val5_keep, val4_keep, val3_keep, val2_keep, val1_keep, val1_v9, val1_v19, val1_v29, val2_v56, val3_v90, val4_v125, val5_v152, val6_v186, val7_v206, val8_v226, val9_v246, val10_v251, val10_v256, val10_v261, val11_v281]
  rfl

theorem val13_v323 : val13 V0 (no_index (Proc.devRef .tc main_v323)) = res_loss_poi (argsOf V0) := by
  unfold val13
  rw [c12_v323]
  simp (disch := decide) only [val12_keep, val11_keep, val10_keep, val9_keep, val8_keep, val7_keep, val6_keep, val5_keep, val4_keep, val3_keep, val2_keep, val1_keep, val1_v9, val1_v19, val1_v29, val2_v56, val3_v90, val4_v125, val5_v152, val6_v186, val7_v206, val8_v226, val9_v246, val10_v251, val10_v256, val10_v261, val11_v281, val12_v302]
  rfl

theorem val14_v328 : val14 V0 (no_index (Proc.devRef .tc main_v328)) = n_hg_u (argsOf V0) := by
  unfold val14
  rw [c13_v328]
  simp (disch := decide) only [val13_keep, val12_keep, val11_keep, val10_keep, val9_keep, val8_keep, val7_keep, val6_keep, val5_keep, val4_keep, val3_keep, val2_keep, val1_keep, val1_v9, val1_v19, val1_v29, val2_v56, val3_v90, val4_v125, val5_v152, val6_v186, val7_v206, val8_v226, val9_v246, val10_v251, val10_v256, val10_v261, val11_v281, val12_v302, val13_v323]
  rfl

theorem val14_v333 : val14 V0 (no_index (Proc.devRef .tc main_v333)) = n_geo_u (argsOf V0) := by
  unfold val14
  rw [c13_v333]
  simp (disch := decide) only [val13_keep, val12_keep, val11_keep, val10_keep, val9_keep, val8_keep, val7_keep, val6_keep, val5_keep, val4_keep, val3_keep, val2_keep, val1_keep, val1_v9, val1_v19, val1_v29, val2_v56, val3_v90, val4_v125, val5_v152, val6_v186, val7_v206, val8_v226, val9_v246, val10_v251, val10_v256, val10_v261, val11_v281, val12_v302, val13_v323]
  rfl

theorem val14_v338 : val14 V0 (no_index (Proc.devRef .tc main_v338)) = n_tr_u (argsOf V0) := by
  unfold val14
  rw [c13_v338]
  simp (disch := decide) only [val13_keep, val12_keep, val11_keep, val10_keep, val9_keep, val8_keep, val7_keep, val6_keep, val5_keep, val4_keep, val3_keep, val2_keep, val1_keep, val1_v9, val1_v19, val1_v29, val2_v56, val3_v90, val4_v125, val5_v152, val6_v186, val7_v206, val8_v226, val9_v246, val10_v251, val10_v256, val10_v261, val11_v281, val12_v302, val13_v323]
  rfl

theorem val15_v358 : val15 V0 (no_index (Proc.devRef .tc main_v358)) = nce_u_hg_geo (argsOf V0) := by
  unfold val15
  rw [c14_v358]
  simp (disch := decide) only [val14_keep, val13_keep, val12_keep, val11_keep, val10_keep, val9_keep, val8_keep, val7_keep, val6_keep, val5_keep, val4_keep, val3_keep, val2_keep, val1_keep, val1_v9, val1_v19, val1_v29, val2_v56, val3_v90, val4_v125, val5_v152, val6_v186, val7_v206, val8_v226, val9_v246, val10_v251, val10_v256, val10_v261, val11_v281, val12_v302, val13_v323, val14_v328, val14_v333, val14_v338]
  rfl

theorem val16_v379 : val16 V0 (no_index (Proc.devRef .tc main_v379)) = addf (nce_u_hg_geo (argsOf V0)) (nce_u_hg_tr (argsOf V0)) := by
  unfold val16
  rw [c15_v379]
  simp (disch := decide) only [val15_keep, val14_keep, val13_keep, val12_keep, val11_keep, val10_keep, val9_keep, val8_keep, val7_keep, val6_keep, val5_keep, val4_keep, val3_keep, val2_keep, val1_keep, val1_v9, val1_v19, val1_v29, val2_v56, val3_v90, val4_v125, val5_v152, val6_v186, val7_v206, val8_v226, val9_v246, val10_v251, val10_v256, val10_v261, val11_v281, val12_v302, val13_v323, val14_v328, val14_v333, val14_v338, val15_v358]
  rfl

theorem val17_v400 : val17 V0 (no_index (Proc.devRef .tc main_v400)) = res_loss_user (argsOf V0) := by
  unfold val17
  rw [c16_v400]
  simp (disch := decide) only [val16_keep, val15_keep, val14_keep, val13_keep, val12_keep, val11_keep, val10_keep, val9_keep, val8_keep, val7_keep, val6_keep, val5_keep, val4_keep, val3_keep, val2_keep, val1_keep, val1_v9, val1_v19, val1_v29, val2_v56, val3_v90, val4_v125, val5_v152, val6_v186, val7_v206, val8_v226, val9_v246, val10_v251, val10_v256, val10_v261, val11_v281, val12_v302, val13_v323, val14_v328, val14_v333, val14_v338, val15_v358, val16_v379]
  rfl

theorem val18_v438 : val18 V0 (no_index (Proc.devRef .tc main_v438)) = res_fusion (argsOf V0) := by
  unfold val18
  rw [c17_v438]
  simp (disch := decide) only [val17_keep, val16_keep, val15_keep, val14_keep, val13_keep, val12_keep, val11_keep, val10_keep, val9_keep, val8_keep, val7_keep, val6_keep, val5_keep, val4_keep, val3_keep, val2_keep, val1_keep, val1_v9, val1_v19, val1_v29, val2_v56, val3_v90, val4_v125, val5_v152, val6_v186, val7_v206, val8_v226, val9_v246, val10_v251, val10_v256, val10_v261, val11_v281, val12_v302, val13_v323, val14_v328, val14_v333, val14_v338, val15_v358, val16_v379, val17_v400]
  rfl

end Named

theorem ops_v438 (V0 : Valuation τ sig (Elt F)) : after ops V0 (Proc.devRef .tc main_v438) = res_fusion (argsOf V0) := by
  rw [after_ops]; exact val18_v438 V0

theorem ops_v323 (V0 : Valuation τ sig (Elt F)) : after ops V0 (Proc.devRef .tc main_v323) = res_loss_poi (argsOf V0) := by
  rw [after_ops]; simp (disch := decide) only [val18_keep, val17_keep, val16_keep, val15_keep, val14_keep, val13_v323]

theorem ops_v400 (V0 : Valuation τ sig (Elt F)) : after ops V0 (Proc.devRef .tc main_v400) = res_loss_user (argsOf V0) := by
  rw [after_ops]; simp (disch := decide) only [val18_keep, val17_v400]

theorem ops_arg (V0 : Valuation τ sig (Elt F)) (r : Ref sig .tc)
    (h0 : r ∉ ops0_W) (h1 : r ∉ ops1_W) (h2 : r ∉ ops2_W) (h3 : r ∉ ops3_W) (h4 : r ∉ ops4_W) (h5 : r ∉ ops5_W) (h6 : r ∉ ops6_W) (h7 : r ∉ ops7_W) (h8 : r ∉ ops8_W) (h9 : r ∉ ops9_W) (h10 : r ∉ ops10_W) (h11 : r ∉ ops11_W) (h12 : r ∉ ops12_W) (h13 : r ∉ ops13_W) (h14 : r ∉ ops14_W) (h15 : r ∉ ops15_W) (h16 : r ∉ ops16_W) (h17 : r ∉ ops17_W) :
    after ops V0 (Proc.devRef .tc r) = V0 (Proc.devRef .tc r) := by
  rw [after_ops, val18_keep V0 r h17, val17_keep V0 r h16, val16_keep V0 r h15, val15_keep V0 r h14, val14_keep V0 r h13, val13_keep V0 r h12, val12_keep V0 r h11, val11_keep V0 r h10, val10_keep V0 r h9, val9_keep V0 r h8, val8_keep V0 r h7, val7_keep V0 r h6, val6_keep V0 r h5, val5_keep V0 r h4, val4_keep V0 r h3, val3_keep V0 r h2, val2_keep V0 r h1, val1_keep V0 r h0]

end Cert.ReferenceIdeal.Hand

end
-- ==== Proof.Ref.MainEq.lean ====
import proofs.«133221_j41652592836945_2_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A line cut after its first `n` operations runs as the two pieces in turn. -/
theorem seq_cut (n : ℕ) (l : List (HloOp τ sig (Elt F))) :
    (seq l : Prog (TpuEff nD τ sig (Elt F) (Pipeline.Sig Λ₀ (Fin 0) fun p => (pcfgs (F := F) p).Adm) .tc) PUnit)
      = seq (l.take n) >>= fun _ => seq (l.drop n) := by
  rw [← seq_append, List.take_append_drop]

abbrev r0 : List (HloOp τ sig (Elt F)) := ops
abbrev r1 : List (HloOp τ sig (Elt F)) := (r0 (F := F)).drop 60
abbrev r2 : List (HloOp τ sig (Elt F)) := (r1 (F := F)).drop 60
abbrev r3 : List (HloOp τ sig (Elt F)) := (r2 (F := F)).drop 60
abbrev r4 : List (HloOp τ sig (Elt F)) := (r3 (F := F)).drop 60
abbrev r5 : List (HloOp τ sig (Elt F)) := (r4 (F := F)).drop 60
abbrev r6 : List (HloOp τ sig (Elt F)) := (r5 (F := F)).drop 72
abbrev r7 : List (HloOp τ sig (Elt F)) := (r6 (F := F)).drop 68
abbrev r8 : List (HloOp τ sig (Elt F)) := (r7 (F := F)).drop 64
abbrev r9 : List (HloOp τ sig (Elt F)) := (r8 (F := F)).drop 60

set_option maxRecDepth 16384 in
set_option maxHeartbeats 4000000 in
theorem main_part0_eq (c : Dev nD) : main_part0 (F := F) c = seq ((r0 (F := F)).take 60) := rfl

set_option maxRecDepth 16384 in
set_option maxHeartbeats 4000000 in
theorem main_part1_eq (c : Dev nD) : main_part1 (F := F) c = seq ((r1 (F := F)).take 60) := rfl

set_option maxRecDepth 16384 in
set_option maxHeartbeats 4000000 in
theorem main_part2_eq (c : Dev nD) : main_part2 (F := F) c = seq ((r2 (F := F)).take 60) := rfl

set_option maxRecDepth 16384 in
set_option maxHeartbeats 4000000 in
theorem main_part3_eq (c : Dev nD) : main_part3 (F := F) c = seq ((r3 (F := F)).take 60) := rfl

set_option maxRecDepth 16384 in
set_option maxHeartbeats 4000000 in
theorem main_part4_eq (c : Dev nD) : main_part4 (F := F) c = seq ((r4 (F := F)).take 60) := rfl

set_option maxRecDepth 16384 in
set_option maxHeartbeats 4000000 in
theorem main_part5_eq (c : Dev nD) : main_part5 (F := F) c = seq ((r5 (F := F)).take 72) := rfl

set_option maxRecDepth 16384 in
set_option maxHeartbeats 4000000 in
theorem main_part6_eq (c : Dev nD) : main_part6 (F := F) c = seq ((r6 (F := F)).take 68) := rfl

set_option maxRecDepth 16384 in
set_option maxHeartbeats 4000000 in
theorem main_part7_eq (c : Dev nD) : main_part7 (F := F) c = seq ((r7 (F := F)).take 64) := rfl

set_option maxRecDepth 16384 in
set_option maxHeartbeats 4000000 in
theorem main_part8_eq (c : Dev nD) : main_part8 (F := F) c = seq ((r8 (F := F)).take 60) := rfl

set_option maxRecDepth 16384 in
set_option maxHeartbeats 4000000 in
theorem main_part9_eq (c : Dev nD) : main_part9 (F := F) c = seq (r9 (F := F)) := rfl

set_option maxRecDepth 16384 in
/-- @main is the straight line of the 580 operations: each printed window is the next cut of the line. -/
theorem main_eq (c : Dev nD) : main (F := F) c = seq ops := by
  show _ = seq r0
  rw [seq_cut 60 r0, seq_cut 60 r1, seq_cut 60 r2, seq_cut 60 r3, seq_cut 60 r4, seq_cut 72 r5, seq_cut 68 r6, seq_cut 64 r7, seq_cut 60 r8]
  simp only [main, main_part0_eq, main_part1_eq, main_part2_eq, main_part3_eq, main_part4_eq, main_part5_eq, main_part6_eq, main_part7_eq, main_part8_eq, main_part9_eq]

end Cert.ReferenceIdeal.Hand

end
-- ==== Proof.Ref.Run.lean ====
import proofs.«133221_j41652592836945_2_alg».proof.Proof.Ref.MainEq
import proofs.«133221_j41652592836945_2_alg».proof.Proof.Ref.Levels

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v438) = res_fusion (argsAt m c)
      ∧ r.2.mem ((c.tc : Thread nD τ).loc main_v323) = res_loss_poi (argsAt m c)
      ∧ r.2.mem ((c.tc : Thread nD τ).loc main_v400) = res_loss_user (argsAt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28) :=
  (θ_run defs _ _).mono (fun _ h c => ⟨(h c main_v438).trans (ops_v438 (launchContents m c)),
      (h c main_v323).trans (ops_v323 (launchContents m c)),
      (h c main_v400).trans (ops_v400 (launchContents m c)),
      (h c main_arg0).trans (ops_arg (launchContents m c) main_arg0 (by decide) (by decide) (by decide) (by decide) (by decide) (by decide) (by decide) (by decide) (by decide) (by decide) (by decide) (by decide) (by decide) (by decide) (by decide) (by decide) (by decide) (by decide)),
      (h c main_arg1).trans (ops_arg (launchContents m c) main_arg1 (by decide) (by decide) (by decide) (by decide) (by decide) (by decide) (by decide) (by decide) (by decide) (by decide) (by decide) (by decide) (by decide) (by decide) (by decide) (by decide) (by decide) (by decide)),
      (h c main_arg2).trans (ops_arg (launchContents m c) main_arg2 (by decide) (by decide) (by decide) (by decide) (by decide) (by decide) (by decide) (by decide) (by decide) (by decide) (by decide) (by decide) (by decide) (by decide) (by decide) (by decide) (by decide) (by decide)),
      (h c main_arg3).trans (ops_arg (launchContents m c) main_arg3 (by decide) (by decide) (by decide) (by decide) (by decide) (by decide) (by decide) (by decide) (by decide) (by decide) (by decide) (by decide) (by decide) (by decide) (by decide) (by decide) (by decide) (by decide)),
      (h c main_arg4).trans (ops_arg (launchContents m c) main_arg4 (by decide) (by decide) (by decide) (by decide) (by decide) (by decide) (by decide) (by decide) (by decide) (by decide) (by decide) (by decide) (by decide) (by decide) (by decide) (by decide) (by decide) (by decide)),
      (h c main_arg5).trans (ops_arg (launchContents m c) main_arg5 (by decide) (by decide) (by decide) (by decide) (by decide) (by decide) (by decide) (by decide) (by decide) (by decide) (by decide) (by decide) (by decide) (by decide) (by decide) (by decide) (by decide) (by decide)),
      (h c main_arg6).trans (ops_arg (launchContents m c) main_arg6 (by decide) (by decide) (by decide) (by decide) (by decide) (by decide) (by decide) (by decide) (by decide) (by decide) (by decide) (by decide) (by decide) (by decide) (by decide) (by decide) (by decide) (by decide)),
      (h c main_arg7).trans (ops_arg (launchContents m c) main_arg7 (by decide) (by decide) (by decide) (by decide) (by decide) (by decide) (by decide) (by decide) (by decide) (by decide) (by decide) (by decide) (by decide) (by decide) (by decide) (by decide) (by decide) (by decide)),
      (h c main_arg8).trans (ops_arg (launchContents m c) main_arg8 (by decide) (by decide) (by decide) (by decide) (by decide) (by decide) (by decide) (by decide) (by decide) (by decide) (by decide) (by decide) (by decide) (by decide) (by decide) (by decide) (by decide) (by decide)),
      (h c main_arg9).trans (ops_arg (launchContents m c) main_arg9 (by decide) (by decide) (by decide) (by decide) (by decide) (by decide) (by decide) (by decide) (by decide) (by decide) (by decide) (by decide) (by decide) (by decide) (by decide) (by decide) (by decide) (by decide)),
      (h c main_arg10).trans (ops_arg (launchContents m c) main_arg10 (by decide) (by decide) (by decide) (by decide) (by decide) (by decide) (by decide) (by decide) (by decide) (by decide) (by decide) (by decide) (by decide) (by decide) (by decide) (by decide) (by decide) (by decide)),
      (h c main_arg11).trans (ops_arg (launchContents m c) main_arg11 (by decide) (by decide) (by decide) (by decide) (by decide) (by decide) (by decide) (by decide) (by decide) (by decide) (by decide) (by decide) (by decide) (by decide) (by decide) (by decide) (by decide) (by decide)),
      (h c main_arg12).trans (ops_arg (launchContents m c) main_arg12 (by decide) (by decide) (by decide) (by decide) (by decide) (by decide) (by decide) (by decide) (by decide) (by decide) (by decide) (by decide) (by decide) (by decide) (by decide) (by decide) (by decide) (by decide)),
      (h c main_arg13).trans (ops_arg (launchContents m c) main_arg13 (by decide) (by decide) (by decide) (by decide) (by decide) (by decide) (by decide) (by decide) (by decide) (by decide) (by decide) (by decide) (by decide) (by decide) (by decide) (by decide) (by decide) (by decide)),
      (h c main_arg14).trans (ops_arg (launchContents m c) main_arg14 (by decide) (by decide) (by decide) (by decide) (by decide) (by decide) (by decide) (by decide) (by decide) (by decide) (by decide) (by decide) (by decide) (by decide) (by decide) (by decide) (by decide) (by decide)),
      (h c main_arg15).trans (ops_arg (launchContents m c) main_arg15 (by decide) (by decide) (by decide) (by decide) (by decide) (by decide) (by decide) (by decide) (by decide) (by decide) (by decide) (by decide) (by decide) (by decide) (by decide) (by decide) (by decide) (by decide)),
      (h c main_arg16).trans (ops_arg (launchContents m c) main_arg16 (by decide) (by decide) (by decide) (by decide) (by decide) (by decide) (by decide) (by decide) (by decide) (by decide) (by decide) (by decide) (by decide) (by decide) (by decide) (by decide) (by decide) (by decide)),
      (h c main_arg17).trans (ops_arg (launchContents m c) main_arg17 (by decide) (by decide) (by decide) (by decide) (by decide) (by decide) (by decide) (by decide) (by decide) (by decide) (by decide) (by decide) (by decide) (by decide) (by decide) (by decide) (by decide) (by decide)),
      (h c main_arg18).trans (ops_arg (launchContents m c) main_arg18 (by decide) (by decide) (by decide) (by decide) (by decide) (by decide) (by decide) (by decide) (by decide) (by decide) (by decide) (by decide) (by decide) (by decide) (by decide) (by decide) (by decide) (by decide)),
      (h c main_arg19).trans (ops_arg (launchContents m c) main_arg19 (by decide) (by decide) (by decide) (by decide) (by decide) (by decide) (by decide) (by decide) (by decide) (by decide) (by decide) (by decide) (by decide) (by decide) (by decide) (by decide) (by decide) (by decide)),
      (h c main_arg20).trans (ops_arg (launchContents m c) main_arg20 (by decide) (by decide) (by decide) (by decide) (by decide) (by decide) (by decide) (by decide) (by decide) (by decide) (by decide) (by decide) (by decide) (by decide) (by decide) (by decide) (by decide) (by decide)),
      (h c main_arg21).trans (ops_arg (launchContents m c) main_arg21 (by decide) (by decide) (by decide) (by decide) (by decide) (by decide) (by decide) (by decide) (by decide) (by decide) (by decide) (by decide) (by decide) (by decide) (by decide) (by decide) (by decide) (by decide)),
      (h c main_arg22).trans (ops_arg (launchContents m c) main_arg22 (by decide) (by decide) (by decide) (by decide) (by decide) (by decide) (by decide) (by decide) (by decide) (by decide) (by decide) (by decide) (by decide) (by decide) (by decide) (by decide) (by decide) (by decide)),
      (h c main_arg23).trans (ops_arg (launchContents m c) main_arg23 (by decide) (by decide) (by decide) (by decide) (by decide) (by decide) (by decide) (by decide) (by decide) (by decide) (by decide) (by decide) (by decide) (by decide) (by decide) (by decide) (by decide) (by decide)),
      (h c main_arg24).trans (ops_arg (launchContents m c) main_arg24 (by decide) (by decide) (by decide) (by decide) (by decide) (by decide) (by decide) (by decide) (by decide) (by decide) (by decide) (by decide) (by decide) (by decide) (by decide) (by decide) (by decide) (by decide)),
      (h c main_arg25).trans (ops_arg (launchContents m c) main_arg25 (by decide) (by decide) (by decide) (by decide) (by decide) (by decide) (by decide) (by decide) (by decide) (by decide) (by decide) (by decide) (by decide) (by decide) (by decide) (by decide) (by decide) (by decide)),
      (h c main_arg26).trans (ops_arg (launchContents m c) main_arg26 (by decide) (by decide) (by decide) (by decide) (by decide) (by decide) (by decide) (by decide) (by decide) (by decide) (by decide) (by decide) (by decide) (by decide) (by decide) (by decide) (by decide) (by decide)),
      (h c main_arg27).trans (ops_arg (launchContents m c) main_arg27 (by decide) (by decide) (by decide) (by decide) (by decide) (by decide) (by decide) (by decide) (by decide) (by decide) (by decide) (by decide) (by decide) (by decide) (by decide) (by decide) (by decide) (by decide)),
      (h c main_arg28).trans (ops_arg (launchContents m c) main_arg28 (by decide) (by decide) (by decide) (by decide) (by decide) (by decide) (by decide) (by decide) (by decide) (by decide) (by decide) (by decide) (by decide) (by decide) (by decide) (by decide) (by decide) (by decide))⟩)
    (run_seq scopedRefs_eq scopedSems_eq defs main (fun _ => ops) main_eq (fun _ => ops_sub) m ρ (fun _ => ops_fresh))

end Cert.ReferenceIdeal.Hand

end
-- ==== Proof.Assembly.lean ====
import proofs.«133221_j41652592836945_2_alg».proof.Defs
import proofs.«133221_j41652592836945_2_alg».proof.Proof.Gen.Kernel
import proofs.«133221_j41652592836945_2_alg».proof.Proof.Gen.KernelIdeal
import proofs.«133221_j41652592836945_2_alg».proof.Proof.Gen.ReferenceIdeal
import proofs.«133221_j41652592836945_2_alg».proof.Proof.Gen.Pre_finite_inputs
import proofs.«133221_j41652592836945_2_alg».proof.Proof.KI.Args
import proofs.«133221_j41652592836945_2_alg».proof.Proof.KI.Regs
import proofs.«133221_j41652592836945_2_alg».proof.Proof.KI.Run
import proofs.«133221_j41652592836945_2_alg».proof.Proof.KI.Frame
import proofs.«133221_j41652592836945_2_alg».proof.Proof.KI.Results
import proofs.«133221_j41652592836945_2_alg».proof.Proof.Ref.Levels
import proofs.«133221_j41652592836945_2_alg».proof.Proof.Ref.Run
import proofs.«133221_j41652592836945_2_alg».proof.Proof.K.Frame
import proofs.«133221_j41652592836945_2_alg».proof.Proof.KI.Host1
import proofs.«133221_j41652592836945_2_alg».proof.Proof.Ref.Stages
import Idealize.ShloMosaic.PureOps.IdealRules

set_option maxRecDepth 16384

noncomputable section

namespace Cert.Proof.Parts

open Idealize.ShloMosaic Idealize.ShloMosaic.TcCoe Idealize.SL.Sem

theorem frame_p : Cert.frame_Kernel := fun m ρ _ =>
  (θ_run Cert.Kernel.defs _ _).mono (fun r h c => Cert.Kernel.Hand.conj_args
    (P := fun b => r.2.mem ((c.tc : Thread _ _).loc b) = m ((c.tc : Thread _ _).loc b)) (h c)) (Cert.Kernel.Hand.frame (F := Bits) m ρ)

theorem frame_pi : Cert.frame_KernelIdeal := fun m ρ _ =>
  (θ_run Cert.KernelIdeal.defs _ _).mono (fun r h c => Cert.KernelIdeal.Hand.conj_args
    (P := fun b => r.2.mem ((c.tc : Thread _ _).loc b) = m ((c.tc : Thread _ _).loc b)) (h c)) (Cert.KernelIdeal.Hand.frame (F := Ideal) m ρ)

theorem frame_ri : Cert.frame_ReferenceIdeal := fun m ρ _ =>
  (θ_run Cert.ReferenceIdeal.defs _ _).mono (fun _ h c => (h c).2.2.2) (Cert.ReferenceIdeal.Hand.run (F := Ideal) m ρ)

theorem preserves1 :
    IdealRules.named_const.Statement Cert.KernelIdeal.κ "inv_temp" .f32 0x40A00000#32 ((67108864 / 13421773 : ℝ) : EReal) :=
  IdealRules.named_const.statement Cert.KernelIdeal.κ "inv_temp" .f32 0x40A00000#32 ((67108864 / 13421773 : ℝ) : EReal) rfl

theorem preserves : Cert.preserves_Kernel_KernelIdeal :=
  ⟨preserves1, preserves1, preserves1, preserves1, preserves1, preserves1, preserves1, preserves1, preserves1, preserves1,
    preserves1, preserves1⟩

theorem algebraic : Cert.algebraic_KernelIdeal_ReferenceIdeal := by
  intro m g m' g' _ hagree
  refine ⟨fun c => Cert.ReferenceIdeal.Hand.res_fusion (Cert.KernelIdeal.Hand.argsK m c),
    fun c => Cert.ReferenceIdeal.Hand.res_loss_poi (Cert.KernelIdeal.Hand.argsK m c),
    fun c => Cert.ReferenceIdeal.Hand.res_loss_user (Cert.KernelIdeal.Hand.argsK m c), ?_, ?_⟩
  · exact (θ_run Cert.KernelIdeal.defs _ _).mono (fun r h c =>
      ⟨(h c _ (Cert.KernelIdeal.Hand.mem_uc Cert.KernelIdeal.main_v252 (by decide))).trans (Cert.KernelIdeal.Hand.kernel_results m c).1,
       (h c _ (Cert.KernelIdeal.Hand.mem_uc Cert.KernelIdeal.main_v228 (by decide))).trans (Cert.KernelIdeal.Hand.kernel_results m c).2.1,
       (h c _ (Cert.KernelIdeal.Hand.mem_uc Cert.KernelIdeal.main_v245 (by decide))).trans (Cert.KernelIdeal.Hand.kernel_results m c).2.2,
       Cert.KernelIdeal.Hand.conj_args (P := fun b => r.2.mem ((c.tc : Thread _ _).loc b) = m ((c.tc : Thread _ _).loc b))
         (Cert.KernelIdeal.Hand.args_kept m c (h c))⟩) (Cert.KernelIdeal.Hand.run_main (F := Ideal) m g)
  · refine (θ_run Cert.ReferenceIdeal.defs _ _).mono (fun r h c => ?_) (Cert.ReferenceIdeal.Hand.run (F := Ideal) m' g')
    have ha : Cert.ReferenceIdeal.Hand.argsAt m' c = Cert.KernelIdeal.Hand.argsK m c := by
      obtain ⟨h0, h1, h2, h3, h4, h5, h6, h7, h8, h9, h10, h11, h12, h13, h14, h15, h16, h17, h18, h19, h20, h21, h22, h23, h24, h25, h26, h27, h28⟩ := hagree c
      unfold Cert.ReferenceIdeal.Hand.argsAt
      rw [h0, h1, h2, h3, h4, h5, h6, h7, h8, h9, h10, h11, h12, h13, h14, h15, h16, h17, h18, h19, h20, h21, h22, h23, h24, h25, h26, h27, h28]
      rfl
    obtain ⟨r0, r1, r2, rest⟩ := h c
    rw [ha] at r0 r1 r2
    exact ⟨r0, r1, r2, rest⟩

end Cert.Proof.Parts

end
-- ==== Proof.lean ====
import proofs.«133221_j41652592836945_2_alg».proof.Defs
import proofs.«133221_j41652592836945_2_alg».proof.Proof.Gen.Kernel
import proofs.«133221_j41652592836945_2_alg».proof.Proof.Gen.KernelIdeal
import proofs.«133221_j41652592836945_2_alg».proof.Proof.Gen.ReferenceIdeal
import proofs.«133221_j41652592836945_2_alg».proof.Proof.Gen.Pre_finite_inputs
import proofs.«133221_j41652592836945_2_alg».proof.Proof.Assembly

noncomputable section

namespace Cert.Proof

theorem claim : Cert.Claim :=
  ⟨Cert.Kernel.Gen.facts, Cert.KernelIdeal.Gen.facts, Cert.ReferenceIdeal.Gen.facts, Cert.Pre_finite_inputs.Gen.facts,
    Parts.frame_p, Parts.frame_pi, Parts.frame_ri, Parts.preserves, Parts.algebraic⟩

end Cert.Proof

end
